-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v256)) (v1 : (c : Dev Cert.KernelIdeal.nD) → Buf (Elt Ideal) ((c.tc : Thread Cert.KernelIdeal.nD Cert.KernelIdeal.τ).loc Cert.KernelIdeal.main_v254)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v256) = v0 c
          ∧ r.2.mem ((c.tc : Thread Cert.KernelIdeal.nD Cert.KernelIdeal.τ).loc Cert.KernelIdeal.main_v254) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v406) = v0 c
          ∧ r.2.mem ((c.tc : Thread Cert.ReferenceIdeal.nD Cert.ReferenceIdeal.τ).loc Cert.ReferenceIdeal.main_v403) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S100000x1 : Shape := ⟨2, ![100000, 1]⟩
abbrev S2x800000 : Shape := ⟨2, ![2, 800000]⟩
abbrev S800000x1 : Shape := ⟨2, ![800000, 1]⟩
abbrev S119x64 : Shape := ⟨2, ![119, 64]⟩
abbrev S5x64 : Shape := ⟨2, ![5, 64]⟩
abbrev S5x64x128 : Shape := ⟨3, ![5, 64, 128]⟩
abbrev S5x128 : Shape := ⟨2, ![5, 128]⟩
abbrev S5x128x64 : Shape := ⟨3, ![5, 128, 64]⟩
abbrev S_ : Shape := ⟨0, ![]⟩

class Facts : Prop where
  bcast_S_S119x64 : S_.BroadcastsInDim S119x64 (![] : Fin 0 → Fin S119x64.rank)
  reducesTo_S119x64_S_d0_1 : S119x64.ReducesTo [0, 1] S_
  h_S_ : 0 < S_.numel
  bcast_S_S5x64 : S_.BroadcastsInDim S5x64 (![] : Fin 0 → Fin S5x64.rank)
  reducesTo_S5x64_S_d0_1 : S5x64.ReducesTo [0, 1] S_
  bcast_S_S5x64x128 : S_.BroadcastsInDim S5x64x128 (![] : Fin 0 → Fin S5x64x128.rank)
  reducesTo_S5x64x128_S_d0_1_2 : S5x64x128.ReducesTo [0, 1, 2] S_
  bcast_S_S5x128 : S_.BroadcastsInDim S5x128 (![] : Fin 0 → Fin S5x128.rank)
  reducesTo_S5x128_S_d0_1 : S5x128.ReducesTo [0, 1] S_
  bcast_S_S5x128x64 : S_.BroadcastsInDim S5x128x64 (![] : Fin 0 → Fin S5x128x64.rank)
  reducesTo_S5x128x64_S_d0_1_2 : S5x128x64.ReducesTo [0, 1, 2] S_

variable [Facts]

def fn_part2 {F : FTy → Type} [FloatOps F] (main_arg11 : FVec F S5x64 .f32) (main_arg12 : FVec F S5x64 .f32) (main_arg13 : FVec F S5x64 .f32) (main_v33 : IVec S_ 1) : IVec S_ 1 :=
  let main_v34 : FVec F S5x64 .f32 := Host.absf main_arg11
  let main_cst_12 : FVec F S_ .f32 := constant S_ .f32 0x7F800000#32
  let main_v35 : FVec F S5x64 .f32 := broadcastInDim S5x64 ![] bcast_S_S5x64 main_cst_12
  let main_v36 : IVec S5x64 1 := cmpf .olt main_v34 main_v35
  let main_c_13 : IVec S_ 1 := constantI S_ 1 1#1
  let main_v37 : IVec S_ 1 := (fun x v => Host.reduce IntOp.andi x v reducesTo_S5x64_S_d0_1 h_S_) main_v36 main_c_13
  let main_v38 : IVec S_ 1 := andi main_v33 main_v37
  let main_v39 : FVec F S5x64 .f32 := Host.absf main_arg12
  let main_cst_14 : FVec F S_ .f32 := constant S_ .f32 0x7F800000#32
  let main_v40 : FVec F S5x64 .f32 := broadcastInDim S5x64 ![] bcast_S_S5x64 main_cst_14
  let main_v41 : IVec S5x64 1 := cmpf .olt main_v39 main_v40
  let main_c_15 : IVec S_ 1 := constantI S_ 1 1#1
  let main_v42 : IVec S_ 1 := (fun x v => Host.reduce IntOp.andi x v reducesTo_S5x64_S_d0_1 h_S_) main_v41 main_c_15
  let main_v43 : IVec S_ 1 := andi main_v38 main_v42
  let main_v44 : FVec F S5x64 .f32 := Host.absf main_arg13
  let main_cst_16 : FVec F S_ .f32 := constant S_ .f32 0x7F800000#32
  let main_v45 : FVec F S5x64 .f32 := broadcastInDim S5x64 ![] bcast_S_S5x64 main_cst_16
  let main_v46 : IVec S5x64 1 := cmpf .olt main_v44 main_v45
  let main_c_17 : IVec S_ 1 := constantI S_ 1 1#1
  let main_v47 : IVec S_ 1 := (fun x v => Host.reduce IntOp.andi x v reducesTo_S5x64_S_d0_1 h_S_) main_v46 main_c_17
  let main_v48 : IVec S_ 1 := andi main_v43 main_v47
  main_v48

def fn_part1 {F : FTy → Type} [FloatOps F] (main_arg8 : FVec F S5x128 .f32) (main_arg9 : FVec F S5x128 .f32) (main_arg10 : FVec F S5x128x64 .f32) (main_arg11 : FVec F S5x64 .f32) (main_arg12 : FVec F S5x64 .f32) (main_arg13 : FVec F S5x64 .f32) (main_v13 : IVec S_ 1) (main_v16 : IVec S5x128 1) : IVec S_ 1 :=
  let main_c_5 : IVec S_ 1 := constantI S_ 1 1#1
  let main_v17 : IVec S_ 1 := (fun x v => Host.reduce IntOp.andi x v reducesTo_S5x128_S_d0_1 h_S_) main_v16 main_c_5
  let main_v18 : IVec S_ 1 := andi main_v13 main_v17
  let main_v19 : FVec F S5x128 .f32 := Host.absf main_arg8
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  let main_v24 : FVec F S5x128 .f32 := Host.absf main_arg9
  let main_cst_8 : FVec F S_ .f32 := constant S_ .f32 0x7F800000#32
  let main_v25 : FVec F S5x128 .f32 := broadcastInDim S5x128 ![] bcast_S_S5x128 main_cst_8
  let main_v26 : IVec S5x128 1 := cmpf .olt main_v24 main_v25
  let main_c_9 : IVec S_ 1 := constantI S_ 1 1#1
  let main_v27 : IVec S_ 1 := (fun x v => Host.reduce IntOp.andi x v reducesTo_S5x128_S_d0_1 h_S_) main_v26 main_c_9
  let main_v28 : IVec S_ 1 := andi main_v23 main_v27
  let main_v29 : FVec F S5x128x64 .f32 := Host.absf main_arg10
  let main_cst_10 : FVec F S_ .f32 := constant S_ .f32 0x7F800000#32
  let main_v30 : FVec F S5x128x64 .f32 := broadcastInDim S5x128x64 ![] bcast_S_S5x128x64 main_cst_10
  let main_v31 : IVec S5x128x64 1 := cmpf .olt main_v29 main_v30
  let main_c_11 : IVec S_ 1 := constantI S_ 1 1#1
  let main_v32 : IVec S_ 1 := (fun x v => Host.reduce IntOp.andi x v reducesTo_S5x128x64_S_d0_1_2 h_S_) main_v31 main_c_11
  let main_v33 : IVec S_ 1 := andi main_v28 main_v32
  fn_part2 (F := F) main_arg11 main_arg12 main_arg13 main_v33

def fn {F : FTy → Type} [FloatOps F] (main_arg0 : IVec S100000 32) (main_arg1 : IVec S100000x1 32) (main_arg2 : IVec S2x800000 32) (main_arg3 : IVec S800000x1 32) (main_arg4 : FVec F S119x64 .f32) (main_arg5 : FVec F S5x64 .f32) (main_arg6 : FVec F S5x64x128 .f32) (main_arg7 : FVec F S5x128 .f32) (main_arg8 : FVec F S5x128 .f32) (main_arg9 : FVec F S5x128 .f32) (main_arg10 : FVec F S5x128x64 .f32) (main_arg11 : FVec F S5x64 .f32) (main_arg12 : FVec F S5x64 .f32) (main_arg13 : FVec F S5x64 .f32) : IVec S_ 1 :=
  let main_v0 : FVec F S119x64 .f32 := Host.absf main_arg4
  let main_cst : FVec F S_ .f32 := constant S_ .f32 0x7F800000#32
  let main_v1 : FVec F S119x64 .f32 := broadcastInDim S119x64 ![] bcast_S_S119x64 main_cst
  let main_v2 : IVec S119x64 1 := cmpf .olt main_v0 main_v1
  let main_c : IVec S_ 1 := constantI S_ 1 1#1
  let main_v3 : IVec S_ 1 := (fun x v => Host.reduce IntOp.andi x v reducesTo_S119x64_S_d0_1 h_S_) main_v2 main_c
  let main_v4 : FVec F S5x64 .f32 := Host.absf main_arg5
  let main_cst_0 : FVec F S_ .f32 := constant S_ .f32 0x7F800000#32
  let main_v5 : FVec F S5x64 .f32 := broadcastInDim S5x64 ![] bcast_S_S5x64 main_cst_0
  let main_v6 : IVec S5x64 1 := cmpf .olt main_v4 main_v5
  let main_c_1 : IVec S_ 1 := constantI S_ 1 1#1
  let main_v7 : IVec S_ 1 := (fun x v => Host.reduce IntOp.andi x v reducesTo_S5x64_S_d0_1 h_S_) main_v6 main_c_1
  let main_v8 : IVec S_ 1 := andi main_v3 main_v7
  let main_v9 : FVec F S5x64x128 .f32 := Host.absf main_arg6
  let main_cst_2 : FVec F S_ .f32 := constant S_ .f32 0x7F800000#32
  let main_v10 : FVec F S5x64x128 .f32 := broadcastInDim S5x64x128 ![] bcast_S_S5x64x128 main_cst_2
  let main_v11 : IVec S5x64x128 1 := cmpf .olt main_v9 main_v10
  let main_c_3 : IVec S_ 1 := constantI S_ 1 1#1
  let main_v12 : IVec S_ 1 := (fun x v => Host.reduce IntOp.andi x v reducesTo_S5x64x128_S_d0_1_2 h_S_) main_v11 main_c_3
  let main_v13 : IVec S_ 1 := andi main_v8 main_v12
  let main_v14 : FVec F S5x128 .f32 := Host.absf main_arg7
  let main_cst_4 : FVec F S_ .f32 := constant S_ .f32 0x7F800000#32
  let main_v15 : FVec F S5x128 .f32 := broadcastInDim S5x128 ![] bcast_S_S5x128 main_cst_4
  let main_v16 : IVec S5x128 1 := cmpf .olt main_v14 main_v15
  fn_part1 (F := F) main_arg8 main_arg9 main_arg10 main_arg11 main_arg12 main_arg13 main_v13 main_v16
-- ==== Kernel.lean ====
abbrev S100000 : Shape := ⟨1, ![100000]⟩
abbrev S100000x1 : Shape := ⟨2, ![100000, 1]⟩
abbrev S2x800000 : Shape := ⟨2, ![2, 800000]⟩
abbrev S800000x1 : Shape := ⟨2, ![800000, 1]⟩
abbrev S119x64 : Shape := ⟨2, ![119, 64]⟩
abbrev S5x64 : Shape := ⟨2, ![5, 64]⟩
abbrev S5x64x128 : Shape := ⟨3, ![5, 64, 128]⟩
abbrev S5x128 : Shape := ⟨2, ![5, 128]⟩
abbrev S5x128x64 : Shape := ⟨3, ![5, 128, 64]⟩
abbrev S_ : Shape := ⟨0, ![]⟩
abbrev S100000x64 : Shape := ⟨2, ![100000, 64]⟩
abbrev S800000 : Shape := ⟨1, ![800000]⟩
abbrev S800000x64 : Shape := ⟨2, ![800000, 64]⟩
abbrev S1x800000 : Shape := ⟨2, ![1, 800000]⟩
abbrev S1x64x128 : Shape := ⟨3, ![1, 64, 128]⟩
abbrev S64x128 : Shape := ⟨2, ![64, 128]⟩
abbrev S1x128 : Shape := ⟨2, ![1, 128]⟩
abbrev S128 : Shape := ⟨1, ![128]⟩
abbrev S100000x128 : Shape := ⟨2, ![100000, 128]⟩
abbrev S10000x64 : Shape := ⟨2, ![10000, 64]⟩
abbrev S10000x128 : Shape := ⟨2, ![10000, 128]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S256x64 : Shape := ⟨2, ![256, 64]⟩
abbrev S10000x1 : Shape := ⟨2, ![10000, 1]⟩
abbrev S10000x256 : Shape := ⟨2, ![10000, 256]⟩

abbrev nBuf : Space → Nat
  | .hbm => 550
  | .vmem => 135
  | .smem => 0
  | _ => 0

abbrev hbmTy0_0 (i : Nat) : BufTy := match i % 128 with
  | 0 => ⟨S100000, .i32⟩
  | 1 => ⟨S100000x1, .i32⟩
  | 2 => ⟨S2x800000, .i32⟩
  | 3 => ⟨S800000x1, .i32⟩
  | 4 => ⟨S119x64, .f32⟩
  | 5 => ⟨S5x64, .f32⟩
  | 6 => ⟨S5x64x128, .f32⟩
  | 7 => ⟨S5x128, .f32⟩
  | 8 => ⟨S5x128, .f32⟩
  | 9 => ⟨S5x128, .f32⟩
  | 10 => ⟨S5x128x64, .f32⟩
  | 11 => ⟨S5x64, .f32⟩
  | 12 => ⟨S5x64, .f32⟩
  | 13 => ⟨S5x64, .f32⟩
  | 14 => ⟨S100000, .i32⟩
  | 15 => ⟨S_, .i32⟩
  | 16 => ⟨S100000, .i32⟩
  | 17 => ⟨S100000, .i1⟩
  | 18 => ⟨S_, .i32⟩
  | 19 => ⟨S100000, .i32⟩
  | 20 => ⟨S100000, .i32⟩
  | 21 => ⟨S100000, .i32⟩
  | 22 => ⟨S100000x1, .i32⟩
  | 23 => ⟨S100000x64, .f32⟩
  | 24 => ⟨S800000, .i32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x64, .f32⟩
  | 34 => ⟨S1x800000, .i32⟩
  | 35 => ⟨S800000, .i32⟩
  | 36 => ⟨S1x800000, .i32⟩
  | 37 => ⟨S800000, .i32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x64, .f32⟩
  | 47 => ⟨S800000x64, .f32⟩
  | 48 => ⟨S_, .f32⟩
  | 49 => ⟨S800000x64, .f32⟩
  | 50 => ⟨S800000x64, .f32⟩
  | 51 => ⟨S_, .f32⟩
  | 52 => ⟨S100000x64, .f32⟩
  | 53 => ⟨S800000x1, .i32⟩
  | 54 => ⟨S100000x64, .f32⟩
  | 55 => ⟨S1x64x128, .f32⟩
  | 56 => ⟨S64x128, .f32⟩
  | 57 => ⟨S1x128, .f32⟩
  | 58 => ⟨S128, .f32⟩
  | 59 => ⟨S1x128, .f32⟩
  | 60 => ⟨S100000x128, .f32⟩
  | 61 => ⟨S_, .f32⟩
  | 62 => ⟨S128, .f32⟩
  | 63 => ⟨S1x128, .f32⟩
  | 64 => ⟨S_, .f32⟩
  | 65 => ⟨S1x128, .f32⟩
  | 66 => ⟨S1x128, .f32⟩
  | 67 => ⟨S_, .i32⟩
  | 68 => ⟨S_, .f32⟩
  | 69 => ⟨S128, .f32⟩
  | 70 => ⟨S1x128, .f32⟩
  | 71 => ⟨S_, .f32⟩
  | 72 => ⟨S1x128, .f32⟩
  | 73 => ⟨S1x128, .f32⟩
  | 74 => ⟨S100000x128, .f32⟩
  | 75 => ⟨S100000x128, .f32⟩
  | 76 => ⟨S100000x128, .f32⟩
  | 77 => ⟨S_, .f32⟩
  | 78 => ⟨S_, .f32⟩
  | 79 => ⟨S_, .f32⟩
  | 80 => ⟨S_, .f32⟩
  | 81 => ⟨S128, .f32⟩
  | 82 => ⟨S1x128, .f32⟩
  | 83 => ⟨S1x128, .f32⟩
  | 84 => ⟨S1x128, .f32⟩
  | 85 => ⟨S_, .f32⟩
  | 86 => ⟨S_, .i1⟩
  | 87 => ⟨S_, .f32⟩
  | 88 => ⟨S_, .f32⟩
  | 89 => ⟨S1x128, .f32⟩
  | 90 => ⟨S1x128, .f32⟩
  | 91 => ⟨S1x128, .f32⟩
  | 92 => ⟨S128, .f32⟩
  | 93 => ⟨S1x128, .f32⟩
  | 94 => ⟨S128, .f32⟩
  | 95 => ⟨S1x128x64, .f32⟩
  | 96 => ⟨S128x64, .f32⟩
  | 97 => ⟨S1x64, .f32⟩
  | 98 => ⟨S64, .f32⟩
  | 99 => ⟨S1x128, .f32⟩
  | 100 => ⟨S1x128, .f32⟩
  | 101 => ⟨S1x64, .f32⟩
  | 102 => ⟨S100000x64, .f32⟩
  | 103 => ⟨S_, .f32⟩
  | 104 => ⟨S64, .f32⟩
  | 105 => ⟨S1x64, .f32⟩
  | 106 => ⟨S_, .f32⟩
  | 107 => ⟨S1x64, .f32⟩
  | 108 => ⟨S1x64, .f32⟩
  | 109 => ⟨S_, .i32⟩
  | 110 => ⟨S_, .f32⟩
  | 111 => ⟨S64, .f32⟩
  | 112 => ⟨S1x64, .f32⟩
  | 113 => ⟨S_, .f32⟩
  | 114 => ⟨S1x64, .f32⟩
  | 115 => ⟨S1x64, .f32⟩
  | 116 => ⟨S100000x64, .f32⟩
  | 117 => ⟨S100000x64, .f32⟩
  | 118 => ⟨S100000x64, .f32⟩
  | 119 => ⟨S_, .f32⟩
  | 120 => ⟨S_, .f32⟩
  | 121 => ⟨S_, .f32⟩
  | 122 => ⟨S_, .f32⟩
  | 123 => ⟨S64, .f32⟩
  | 124 => ⟨S1x64, .f32⟩
  | 125 => ⟨S1x64, .f32⟩
  | 126 => ⟨S1x64, .f32⟩
  | 127 => ⟨S_, .f32⟩
  | _ => ⟨S100000, .i32⟩

abbrev hbmTy0_1 (i : Nat) : BufTy := match i % 128 with
  | 0 => ⟨S_, .i1⟩
  | 1 => ⟨S_, .f32⟩
  | 2 => ⟨S_, .f32⟩
  | 3 => ⟨S1x64, .f32⟩
  | 4 => ⟨S1x64, .f32⟩
  | 5 => ⟨S1x64, .f32⟩
  | 6 => ⟨S64, .f32⟩
  | 7 => ⟨S1x64, .f32⟩
  | 8 => ⟨S64, .f32⟩
  | 9 => ⟨S1x64, .f32⟩
  | 10 => ⟨S1x64, .f32⟩
  | 11 => ⟨S100000x64, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x64, .f32⟩
  | 21 => ⟨S800000x64, .f32⟩
  | 22 => ⟨S_, .f32⟩
  | 23 => ⟨S800000x64, .f32⟩
  | 24 => ⟨S800000x64, .f32⟩
  | 25 => ⟨S_, .f32⟩
  | 26 => ⟨S100000x64, .f32⟩
  | 27 => ⟨S800000x1, .i32⟩
  | 28 => ⟨S100000x64, .f32⟩
  | 29 => ⟨S1x64x128, .f32⟩
  | 30 => ⟨S64x128, .f32⟩
  | 31 => ⟨S1x128, .f32⟩
  | 32 => ⟨S128, .f32⟩
  | 33 => ⟨S1x128, .f32⟩
  | 34 => ⟨S100000x128, .f32⟩
  | 35 => ⟨S_, .f32⟩
  | 36 => ⟨S128, .f32⟩
  | 37 => ⟨S1x128, .f32⟩
  | 38 => ⟨S_, .f32⟩
  | 39 => ⟨S1x128, .f32⟩
  | 40 => ⟨S1x128, .f32⟩
  | 41 => ⟨S_, .i32⟩
  | 42 => ⟨S_, .f32⟩
  | 43 => ⟨S128, .f32⟩
  | 44 => ⟨S1x128, .f32⟩
  | 45 => ⟨S_, .f32⟩
  | 46 => ⟨S1x128, .f32⟩
  | 47 => ⟨S1x128, .f32⟩
  | 48 => ⟨S100000x128, .f32⟩
  | 49 => ⟨S100000x128, .f32⟩
  | 50 => ⟨S100000x128, .f32⟩
  | 51 => ⟨S_, .f32⟩
  | 52 => ⟨S_, .f32⟩
  | 53 => ⟨S_, .f32⟩
  | 54 => ⟨S_, .f32⟩
  | 55 => ⟨S128, .f32⟩
  | 56 => ⟨S1x128, .f32⟩
  | 57 => ⟨S1x128, .f32⟩
  | 58 => ⟨S1x128, .f32⟩
  | 59 => ⟨S_, .f32⟩
  | 60 => ⟨S_, .i1⟩
  | 61 => ⟨S_, .f32⟩
  | 62 => ⟨S_, .f32⟩
  | 63 => ⟨S1x128, .f32⟩
  | 64 => ⟨S1x128, .f32⟩
  | 65 => ⟨S1x128, .f32⟩
  | 66 => ⟨S128, .f32⟩
  | 67 => ⟨S1x128, .f32⟩
  | 68 => ⟨S128, .f32⟩
  | 69 => ⟨S1x128x64, .f32⟩
  | 70 => ⟨S128x64, .f32⟩
  | 71 => ⟨S1x64, .f32⟩
  | 72 => ⟨S64, .f32⟩
  | 73 => ⟨S1x128, .f32⟩
  | 74 => ⟨S1x128, .f32⟩
  | 75 => ⟨S1x64, .f32⟩
  | 76 => ⟨S100000x64, .f32⟩
  | 77 => ⟨S_, .f32⟩
  | 78 => ⟨S64, .f32⟩
  | 79 => ⟨S1x64, .f32⟩
  | 80 => ⟨S_, .f32⟩
  | 81 => ⟨S1x64, .f32⟩
  | 82 => ⟨S1x64, .f32⟩
  | 83 => ⟨S_, .i32⟩
  | 84 => ⟨S_, .f32⟩
  | 85 => ⟨S64, .f32⟩
  | 86 => ⟨S1x64, .f32⟩
  | 87 => ⟨S_, .f32⟩
  | 88 => ⟨S1x64, .f32⟩
  | 89 => ⟨S1x64, .f32⟩
  | 90 => ⟨S100000x64, .f32⟩
  | 91 => ⟨S100000x64, .f32⟩
  | 92 => ⟨S100000x64, .f32⟩
  | 93 => ⟨S_, .f32⟩
  | 94 => ⟨S_, .f32⟩
  | 95 => ⟨S_, .f32⟩
  | 96 => ⟨S_, .f32⟩
  | 97 => ⟨S64, .f32⟩
  | 98 => ⟨S1x64, .f32⟩
  | 99 => ⟨S1x64, .f32⟩
  | 100 => ⟨S1x64, .f32⟩
  | 101 => ⟨S_, .f32⟩
  | 102 => ⟨S_, .i1⟩
  | 103 => ⟨S_, .f32⟩
  | 104 => ⟨S_, .f32⟩
  | 105 => ⟨S1x64, .f32⟩
  | 106 => ⟨S1x64, .f32⟩
  | 107 => ⟨S1x64, .f32⟩
  | 108 => ⟨S64, .f32⟩
  | 109 => ⟨S1x64, .f32⟩
  | 110 => ⟨S64, .f32⟩
  | 111 => ⟨S1x64, .f32⟩
  | 112 => ⟨S1x64, .f32⟩
  | 113 => ⟨S100000x64, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x64, .f32⟩
  | 123 => ⟨S800000x64, .f32⟩
  | 124 => ⟨S_, .f32⟩
  | 125 => ⟨S800000x64, .f32⟩
  | 126 => ⟨S800000x64, .f32⟩
  | 127 => ⟨S_, .f32⟩
  | _ => ⟨S100000, .i32⟩

abbrev hbmTy0_2 (i : Nat) : BufTy := match i % 128 with
  | 0 => ⟨S100000x64, .f32⟩
  | 1 => ⟨S800000x1, .i32⟩
  | 2 => ⟨S100000x64, .f32⟩
  | 3 => ⟨S1x64x128, .f32⟩
  | 4 => ⟨S64x128, .f32⟩
  | 5 => ⟨S1x128, .f32⟩
  | 6 => ⟨S128, .f32⟩
  | 7 => ⟨S1x128, .f32⟩
  | 8 => ⟨S100000x128, .f32⟩
  | 9 => ⟨S_, .f32⟩
  | 10 => ⟨S128, .f32⟩
  | 11 => ⟨S1x128, .f32⟩
  | 12 => ⟨S_, .f32⟩
  | 13 => ⟨S1x128, .f32⟩
  | 14 => ⟨S1x128, .f32⟩
  | 15 => ⟨S_, .i32⟩
  | 16 => ⟨S_, .f32⟩
  | 17 => ⟨S128, .f32⟩
  | 18 => ⟨S1x128, .f32⟩
  | 19 => ⟨S_, .f32⟩
  | 20 => ⟨S1x128, .f32⟩
  | 21 => ⟨S1x128, .f32⟩
  | 22 => ⟨S100000x128, .f32⟩
  | 23 => ⟨S100000x128, .f32⟩
  | 24 => ⟨S100000x128, .f32⟩
  | 25 => ⟨S_, .f32⟩
  | 26 => ⟨S_, .f32⟩
  | 27 => ⟨S_, .f32⟩
  | 28 => ⟨S_, .f32⟩
  | 29 => ⟨S128, .f32⟩
  | 30 => ⟨S1x128, .f32⟩
  | 31 => ⟨S1x128, .f32⟩
  | 32 => ⟨S1x128, .f32⟩
  | 33 => ⟨S_, .f32⟩
  | 34 => ⟨S_, .i1⟩
  | 35 => ⟨S_, .f32⟩
  | 36 => ⟨S_, .f32⟩
  | 37 => ⟨S1x128, .f32⟩
  | 38 => ⟨S1x128, .f32⟩
  | 39 => ⟨S1x128, .f32⟩
  | 40 => ⟨S128, .f32⟩
  | 41 => ⟨S1x128, .f32⟩
  | 42 => ⟨S128, .f32⟩
  | 43 => ⟨S1x128x64, .f32⟩
  | 44 => ⟨S128x64, .f32⟩
  | 45 => ⟨S1x64, .f32⟩
  | 46 => ⟨S64, .f32⟩
  | 47 => ⟨S1x128, .f32⟩
  | 48 => ⟨S1x128, .f32⟩
  | 49 => ⟨S1x64, .f32⟩
  | 50 => ⟨S100000x64, .f32⟩
  | 51 => ⟨S_, .f32⟩
  | 52 => ⟨S64, .f32⟩
  | 53 => ⟨S1x64, .f32⟩
  | 54 => ⟨S_, .f32⟩
  | 55 => ⟨S1x64, .f32⟩
  | 56 => ⟨S1x64, .f32⟩
  | 57 => ⟨S_, .i32⟩
  | 58 => ⟨S_, .f32⟩
  | 59 => ⟨S64, .f32⟩
  | 60 => ⟨S1x64, .f32⟩
  | 61 => ⟨S_, .f32⟩
  | 62 => ⟨S1x64, .f32⟩
  | 63 => ⟨S1x64, .f32⟩
  | 64 => ⟨S100000x64, .f32⟩
  | 65 => ⟨S100000x64, .f32⟩
  | 66 => ⟨S100000x64, .f32⟩
  | 67 => ⟨S_, .f32⟩
  | 68 => ⟨S_, .f32⟩
  | 69 => ⟨S_, .f32⟩
  | 70 => ⟨S_, .f32⟩
  | 71 => ⟨S64, .f32⟩
  | 72 => ⟨S1x64, .f32⟩
  | 73 => ⟨S1x64, .f32⟩
  | 74 => ⟨S1x64, .f32⟩
  | 75 => ⟨S_, .f32⟩
  | 76 => ⟨S_, .i1⟩
  | 77 => ⟨S_, .f32⟩
  | 78 => ⟨S_, .f32⟩
  | 79 => ⟨S1x64, .f32⟩
  | 80 => ⟨S1x64, .f32⟩
  | 81 => ⟨S1x64, .f32⟩
  | 82 => ⟨S64, .f32⟩
  | 83 => ⟨S1x64, .f32⟩
  | 84 => ⟨S64, .f32⟩
  | 85 => ⟨S1x64, .f32⟩
  | 86 => ⟨S1x64, .f32⟩
  | 87 => ⟨S100000x64, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x64, .f32⟩
  | 97 => ⟨S800000x64, .f32⟩
  | 98 => ⟨S_, .f32⟩
  | 99 => ⟨S800000x64, .f32⟩
  | 100 => ⟨S800000x64, .f32⟩
  | 101 => ⟨S_, .f32⟩
  | 102 => ⟨S100000x64, .f32⟩
  | 103 => ⟨S800000x1, .i32⟩
  | 104 => ⟨S100000x64, .f32⟩
  | 105 => ⟨S1x64x128, .f32⟩
  | 106 => ⟨S64x128, .f32⟩
  | 107 => ⟨S1x128, .f32⟩
  | 108 => ⟨S128, .f32⟩
  | 109 => ⟨S1x128, .f32⟩
  | 110 => ⟨S100000x128, .f32⟩
  | 111 => ⟨S_, .f32⟩
  | 112 => ⟨S128, .f32⟩
  | 113 => ⟨S1x128, .f32⟩
  | 114 => ⟨S_, .f32⟩
  | 115 => ⟨S1x128, .f32⟩
  | 116 => ⟨S1x128, .f32⟩
  | 117 => ⟨S_, .i32⟩
  | 118 => ⟨S_, .f32⟩
  | 119 => ⟨S128, .f32⟩
  | 120 => ⟨S1x128, .f32⟩
  | 121 => ⟨S_, .f32⟩
  | 122 => ⟨S1x128, .f32⟩
  | 123 => ⟨S1x128, .f32⟩
  | 124 => ⟨S100000x128, .f32⟩
  | 125 => ⟨S100000x128, .f32⟩
  | 126 => ⟨S100000x128, .f32⟩
  | 127 => ⟨S_, .f32⟩
  | _ => ⟨S100000, .i32⟩

abbrev hbmTy0_3 (i : Nat) : BufTy := match i % 128 with
  | 0 => ⟨S_, .f32⟩
  | 1 => ⟨S_, .f32⟩
  | 2 => ⟨S_, .f32⟩
  | 3 => ⟨S128, .f32⟩
  | 4 => ⟨S1x128, .f32⟩
  | 5 => ⟨S1x128, .f32⟩
  | 6 => ⟨S1x128, .f32⟩
  | 7 => ⟨S_, .f32⟩
  | 8 => ⟨S_, .i1⟩
  | 9 => ⟨S_, .f32⟩
  | 10 => ⟨S_, .f32⟩
  | 11 => ⟨S1x128, .f32⟩
  | 12 => ⟨S1x128, .f32⟩
  | 13 => ⟨S1x128, .f32⟩
  | 14 => ⟨S128, .f32⟩
  | 15 => ⟨S1x128, .f32⟩
  | 16 => ⟨S128, .f32⟩
  | 17 => ⟨S1x128x64, .f32⟩
  | 18 => ⟨S128x64, .f32⟩
  | 19 => ⟨S1x64, .f32⟩
  | 20 => ⟨S64, .f32⟩
  | 21 => ⟨S1x128, .f32⟩
  | 22 => ⟨S1x128, .f32⟩
  | 23 => ⟨S1x64, .f32⟩
  | 24 => ⟨S100000x64, .f32⟩
  | 25 => ⟨S_, .f32⟩
  | 26 => ⟨S64, .f32⟩
  | 27 => ⟨S1x64, .f32⟩
  | 28 => ⟨S_, .f32⟩
  | 29 => ⟨S1x64, .f32⟩
  | 30 => ⟨S1x64, .f32⟩
  | 31 => ⟨S_, .i32⟩
  | 32 => ⟨S_, .f32⟩
  | 33 => ⟨S64, .f32⟩
  | 34 => ⟨S1x64, .f32⟩
  | 35 => ⟨S_, .f32⟩
  | 36 => ⟨S1x64, .f32⟩
  | 37 => ⟨S1x64, .f32⟩
  | 38 => ⟨S100000x64, .f32⟩
  | 39 => ⟨S100000x64, .f32⟩
  | 40 => ⟨S100000x64, .f32⟩
  | 41 => ⟨S_, .f32⟩
  | 42 => ⟨S_, .f32⟩
  | 43 => ⟨S_, .f32⟩
  | 44 => ⟨S_, .f32⟩
  | 45 => ⟨S64, .f32⟩
  | 46 => ⟨S1x64, .f32⟩
  | 47 => ⟨S1x64, .f32⟩
  | 48 => ⟨S1x64, .f32⟩
  | 49 => ⟨S_, .f32⟩
  | 50 => ⟨S_, .i1⟩
  | 51 => ⟨S_, .f32⟩
  | 52 => ⟨S_, .f32⟩
  | 53 => ⟨S1x64, .f32⟩
  | 54 => ⟨S1x64, .f32⟩
  | 55 => ⟨S1x64, .f32⟩
  | 56 => ⟨S64, .f32⟩
  | 57 => ⟨S1x64, .f32⟩
  | 58 => ⟨S64, .f32⟩
  | 59 => ⟨S1x64, .f32⟩
  | 60 => ⟨S1x64, .f32⟩
  | 61 => ⟨S100000x64, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x64, .f32⟩
  | 71 => ⟨S800000x64, .f32⟩
  | 72 => ⟨S_, .f32⟩
  | 73 => ⟨S800000x64, .f32⟩
  | 74 => ⟨S800000x64, .f32⟩
  | 75 => ⟨S_, .f32⟩
  | 76 => ⟨S100000x64, .f32⟩
  | 77 => ⟨S800000x1, .i32⟩
  | 78 => ⟨S100000x64, .f32⟩
  | 79 => ⟨S1x64x128, .f32⟩
  | 80 => ⟨S64x128, .f32⟩
  | 81 => ⟨S1x128, .f32⟩
  | 82 => ⟨S128, .f32⟩
  | 83 => ⟨S1x128, .f32⟩
  | 84 => ⟨S100000x128, .f32⟩
  | 85 => ⟨S_, .f32⟩
  | 86 => ⟨S128, .f32⟩
  | 87 => ⟨S1x128, .f32⟩
  | 88 => ⟨S_, .f32⟩
  | 89 => ⟨S1x128, .f32⟩
  | 90 => ⟨S1x128, .f32⟩
  | 91 => ⟨S_, .i32⟩
  | 92 => ⟨S_, .f32⟩
  | 93 => ⟨S128, .f32⟩
  | 94 => ⟨S1x128, .f32⟩
  | 95 => ⟨S_, .f32⟩
  | 96 => ⟨S1x128, .f32⟩
  | 97 => ⟨S1x128, .f32⟩
  | 98 => ⟨S100000x128, .f32⟩
  | 99 => ⟨S100000x128, .f32⟩
  | 100 => ⟨S100000x128, .f32⟩
  | 101 => ⟨S_, .f32⟩
  | 102 => ⟨S_, .f32⟩
  | 103 => ⟨S_, .f32⟩
  | 104 => ⟨S_, .f32⟩
  | 105 => ⟨S128, .f32⟩
  | 106 => ⟨S1x128, .f32⟩
  | 107 => ⟨S1x128, .f32⟩
  | 108 => ⟨S1x128, .f32⟩
  | 109 => ⟨S_, .f32⟩
  | 110 => ⟨S_, .i1⟩
  | 111 => ⟨S_, .f32⟩
  | 112 => ⟨S_, .f32⟩
  | 113 => ⟨S1x128, .f32⟩
  | 114 => ⟨S1x128, .f32⟩
  | 115 => ⟨S1x128, .f32⟩
  | 116 => ⟨S128, .f32⟩
  | 117 => ⟨S1x128, .f32⟩
  | 118 => ⟨S128, .f32⟩
  | 119 => ⟨S1x128x64, .f32⟩
  | 120 => ⟨S128x64, .f32⟩
  | 121 => ⟨S1x64, .f32⟩
  | 122 => ⟨S64, .f32⟩
  | 123 => ⟨S1x128, .f32⟩
  | 124 => ⟨S1x128, .f32⟩
  | 125 => ⟨S1x64, .f32⟩
  | 126 => ⟨S100000x64, .f32⟩
  | 127 => ⟨S_, .f32⟩
  | _ => ⟨S100000, .i32⟩

abbrev hbmTy0_4 (i : Nat) : BufTy := match i % 128 with
  | 0 => ⟨S64, .f32⟩
  | 1 => ⟨S1x64, .f32⟩
  | 2 => ⟨S_, .f32⟩
  | 3 => ⟨S1x64, .f32⟩
  | 4 => ⟨S1x64, .f32⟩
  | 5 => ⟨S_, .i32⟩
  | 6 => ⟨S_, .f32⟩
  | 7 => ⟨S64, .f32⟩
  | 8 => ⟨S1x64, .f32⟩
  | 9 => ⟨S_, .f32⟩
  | 10 => ⟨S1x64, .f32⟩
  | 11 => ⟨S1x64, .f32⟩
  | 12 => ⟨S100000x64, .f32⟩
  | 13 => ⟨S100000x64, .f32⟩
  | 14 => ⟨S100000x64, .f32⟩
  | 15 => ⟨S_, .f32⟩
  | 16 => ⟨S_, .f32⟩
  | 17 => ⟨S_, .f32⟩
  | 18 => ⟨S_, .f32⟩
  | 19 => ⟨S64, .f32⟩
  | 20 => ⟨S1x64, .f32⟩
  | 21 => ⟨S1x64, .f32⟩
  | 22 => ⟨S1x64, .f32⟩
  | 23 => ⟨S_, .f32⟩
  | 24 => ⟨S_, .i1⟩
  | 25 => ⟨S_, .f32⟩
  | 26 => ⟨S_, .f32⟩
  | 27 => ⟨S1x64, .f32⟩
  | 28 => ⟨S1x64, .f32⟩
  | 29 => ⟨S1x64, .f32⟩
  | 30 => ⟨S64, .f32⟩
  | 31 => ⟨S1x64, .f32⟩
  | 32 => ⟨S64, .f32⟩
  | 33 => ⟨S1x64, .f32⟩
  | 34 => ⟨S1x64, .f32⟩
  | 35 => ⟨S100000x64, .f32⟩
  | 36 => ⟨S100000x1, .i32⟩
  | 37 => ⟨S256x64, .f32⟩
  | _ => ⟨S100000, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000, .i32⟩

abbrev vmemTy0_0 (i : Nat) : BufTy := match i % 128 with
  | 0 => ⟨S10000x64, .f32⟩
  | 1 => ⟨S10000x64, .f32⟩
  | 2 => ⟨S10000x64, .f32⟩
  | 3 => ⟨S10000x64, .f32⟩
  | 4 => ⟨S64x128, .f32⟩
  | 5 => ⟨S1x128, .f32⟩
  | 6 => ⟨S10000x128, .f32⟩
  | 7 => ⟨S10000x128, .f32⟩
  | 8 => ⟨S10000x128, .f32⟩
  | 9 => ⟨S10000x128, .f32⟩
  | 10 => ⟨S1x128, .f32⟩
  | 11 => ⟨S1x128, .f32⟩
  | 12 => ⟨S1x128, .f32⟩
  | 13 => ⟨S1x128, .f32⟩
  | 14 => ⟨S128x64, .f32⟩
  | 15 => ⟨S1x64, .f32⟩
  | 16 => ⟨S10000x64, .f32⟩
  | 17 => ⟨S10000x64, .f32⟩
  | 18 => ⟨S10000x64, .f32⟩
  | 19 => ⟨S10000x64, .f32⟩
  | 20 => ⟨S1x64, .f32⟩
  | 21 => ⟨S1x64, .f32⟩
  | 22 => ⟨S1x64, .f32⟩
  | 23 => ⟨S1x64, .f32⟩
  | 24 => ⟨S10000x64, .f32⟩
  | 25 => ⟨S10000x64, .f32⟩
  | 26 => ⟨S10000x64, .f32⟩
  | 27 => ⟨S10000x64, .f32⟩
  | 28 => ⟨S10000x64, .f32⟩
  | 29 => ⟨S10000x64, .f32⟩
  | 30 => ⟨S64x128, .f32⟩
  | 31 => ⟨S1x128, .f32⟩
  | 32 => ⟨S10000x128, .f32⟩
  | 33 => ⟨S10000x128, .f32⟩
  | 34 => ⟨S10000x128, .f32⟩
  | 35 => ⟨S10000x128, .f32⟩
  | 36 => ⟨S1x128, .f32⟩
  | 37 => ⟨S1x128, .f32⟩
  | 38 => ⟨S1x128, .f32⟩
  | 39 => ⟨S1x128, .f32⟩
  | 40 => ⟨S128x64, .f32⟩
  | 41 => ⟨S1x64, .f32⟩
  | 42 => ⟨S10000x64, .f32⟩
  | 43 => ⟨S10000x64, .f32⟩
  | 44 => ⟨S10000x64, .f32⟩
  | 45 => ⟨S10000x64, .f32⟩
  | 46 => ⟨S1x64, .f32⟩
  | 47 => ⟨S1x64, .f32⟩
  | 48 => ⟨S1x64, .f32⟩
  | 49 => ⟨S1x64, .f32⟩
  | 50 => ⟨S10000x64, .f32⟩
  | 51 => ⟨S10000x64, .f32⟩
  | 52 => ⟨S10000x64, .f32⟩
  | 53 => ⟨S10000x64, .f32⟩
  | 54 => ⟨S10000x64, .f32⟩
  | 55 => ⟨S10000x64, .f32⟩
  | 56 => ⟨S64x128, .f32⟩
  | 57 => ⟨S1x128, .f32⟩
  | 58 => ⟨S10000x128, .f32⟩
  | 59 => ⟨S10000x128, .f32⟩
  | 60 => ⟨S10000x128, .f32⟩
  | 61 => ⟨S10000x128, .f32⟩
  | 62 => ⟨S1x128, .f32⟩
  | 63 => ⟨S1x128, .f32⟩
  | 64 => ⟨S1x128, .f32⟩
  | 65 => ⟨S1x128, .f32⟩
  | 66 => ⟨S128x64, .f32⟩
  | 67 => ⟨S1x64, .f32⟩
  | 68 => ⟨S10000x64, .f32⟩
  | 69 => ⟨S10000x64, .f32⟩
  | 70 => ⟨S10000x64, .f32⟩
  | 71 => ⟨S10000x64, .f32⟩
  | 72 => ⟨S1x64, .f32⟩
  | 73 => ⟨S1x64, .f32⟩
  | 74 => ⟨S1x64, .f32⟩
  | 75 => ⟨S1x64, .f32⟩
  | 76 => ⟨S10000x64, .f32⟩
  | 77 => ⟨S10000x64, .f32⟩
  | 78 => ⟨S10000x64, .f32⟩
  | 79 => ⟨S10000x64, .f32⟩
  | 80 => ⟨S10000x64, .f32⟩
  | 81 => ⟨S10000x64, .f32⟩
  | 82 => ⟨S64x128, .f32⟩
  | 83 => ⟨S1x128, .f32⟩
  | 84 => ⟨S10000x128, .f32⟩
  | 85 => ⟨S10000x128, .f32⟩
  | 86 => ⟨S10000x128, .f32⟩
  | 87 => ⟨S10000x128, .f32⟩
  | 88 => ⟨S1x128, .f32⟩
  | 89 => ⟨S1x128, .f32⟩
  | 90 => ⟨S1x128, .f32⟩
  | 91 => ⟨S1x128, .f32⟩
  | 92 => ⟨S128x64, .f32⟩
  | 93 => ⟨S1x64, .f32⟩
  | 94 => ⟨S10000x64, .f32⟩
  | 95 => ⟨S10000x64, .f32⟩
  | 96 => ⟨S10000x64, .f32⟩
  | 97 => ⟨S10000x64, .f32⟩
  | 98 => ⟨S1x64, .f32⟩
  | 99 => ⟨S1x64, .f32⟩
  | 100 => ⟨S1x64, .f32⟩
  | 101 => ⟨S1x64, .f32⟩
  | 102 => ⟨S10000x64, .f32⟩
  | 103 => ⟨S10000x64, .f32⟩
  | 104 => ⟨S10000x64, .f32⟩
  | 105 => ⟨S10000x64, .f32⟩
  | 106 => ⟨S10000x64, .f32⟩
  | 107 => ⟨S10000x64, .f32⟩
  | 108 => ⟨S64x128, .f32⟩
  | 109 => ⟨S1x128, .f32⟩
  | 110 => ⟨S10000x128, .f32⟩
  | 111 => ⟨S10000x128, .f32⟩
  | 112 => ⟨S10000x128, .f32⟩
  | 113 => ⟨S10000x128, .f32⟩
  | 114 => ⟨S1x128, .f32⟩
  | 115 => ⟨S1x128, .f32⟩
  | 116 => ⟨S1x128, .f32⟩
  | 117 => ⟨S1x128, .f32⟩
  | 118 => ⟨S128x64, .f32⟩
  | 119 => ⟨S1x64, .f32⟩
  | 120 => ⟨S10000x64, .f32⟩
  | 121 => ⟨S10000x64, .f32⟩
  | 122 => ⟨S10000x64, .f32⟩
  | 123 => ⟨S10000x64, .f32⟩
  | 124 => ⟨S1x64, .f32⟩
  | 125 => ⟨S1x64, .f32⟩
  | 126 => ⟨S1x64, .f32⟩
  | 127 => ⟨S1x64, .f32⟩
  | _ => ⟨S100000, .i32⟩

abbrev vmemTy0_1 (i : Nat) : BufTy := match i % 128 with
  | 0 => ⟨S10000x64, .f32⟩
  | 1 => ⟨S10000x64, .f32⟩
  | 2 => ⟨S10000x1, .i32⟩
  | 3 => ⟨S10000x1, .i32⟩
  | 4 => ⟨S10000x64, .f32⟩
  | 5 => ⟨S10000x64, .f32⟩
  | 6 => ⟨S256x64, .f32⟩
  | _ => ⟨S100000, .i32⟩

abbrev vmemTy (i : Nat) : BufTy := match i / 128 with
  | 0 => vmemTy0_0 i
  | 1 => vmemTy0_1 i
  | _ => ⟨S100000, .i32⟩

abbrev bufTy : (tb : Table) → Fin (tcTables nBuf tb) → BufTy
  | .hbm, ⟨i, _⟩ => hbmTy i
  | .local _ .vmem, ⟨i, _⟩ => vmemTy i
  | _, _ => ⟨S100000, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 135 → Bool
  | ⟨i, _⟩ => dmaSemScopedAt i

abbrev sig : RefSig :=
  ofTc nBuf bufTy 0 135 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c_1 : Ref sig .tc := ⟨.hbm, 25, rfl⟩
abbrev main_v9 : Ref sig .tc := ⟨.hbm, 26, rfl⟩
abbrev main_v10 : Ref sig .tc := ⟨.hbm, 27, rfl⟩
abbrev main_c_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call0_cst : Ref sig .tc := ⟨.hbm, 48, rfl⟩
abbrev main_call0_v0 : Ref sig .tc := ⟨.hbm, 49, rfl⟩
abbrev main_v28 : Ref sig .tc := ⟨.hbm, 50, rfl⟩
abbrev main_cst : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_5 : Ref sig .tc := ⟨.hbm, 61, rfl⟩
abbrev main_v38 : Ref sig .tc := ⟨.hbm, 62, rfl⟩
abbrev main_v39 : Ref sig .tc := ⟨.hbm, 63, rfl⟩
abbrev main_cst_6 : Ref sig .tc := ⟨.hbm, 64, rfl⟩
abbrev main_v40 : Ref sig .tc := ⟨.hbm, 65, rfl⟩
abbrev main_v41 : Ref sig .tc := ⟨.hbm, 66, rfl⟩
abbrev main_c_7 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_cst_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_cst_1 : Ref sig .tc := ⟨.hbm, 78, rfl⟩
abbrev main_call1_v8 : Ref sig .tc := ⟨.hbm, 79, rfl⟩
abbrev main_call1_cst_2 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_v12 : Ref sig .tc := ⟨.hbm, 84, rfl⟩
abbrev main_call1_cst_3 : Ref sig .tc := ⟨.hbm, 85, rfl⟩
abbrev main_call1_v13 : Ref sig .tc := ⟨.hbm, 86, rfl⟩
abbrev main_call1_cst_4 : Ref sig .tc := ⟨.hbm, 87, rfl⟩
abbrev main_call1_call0_v0 : Ref sig .tc := ⟨.hbm, 88, rfl⟩
abbrev main_call1_call0_v1 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_cst_8 : Ref sig .tc := ⟨.hbm, 103, rfl⟩
abbrev main_v55 : Ref sig .tc := ⟨.hbm, 104, rfl⟩
abbrev main_v56 : Ref sig .tc := ⟨.hbm, 105, rfl⟩
abbrev main_cst_9 : Ref sig .tc := ⟨.hbm, 106, rfl⟩
abbrev main_v57 : Ref sig .tc := ⟨.hbm, 107, rfl⟩
abbrev main_v58 : Ref sig .tc := ⟨.hbm, 108, rfl⟩
abbrev main_c_10 : Ref sig .tc := ⟨.hbm, 109, rfl⟩
abbrev main_call2_cst : Ref sig .tc := ⟨.hbm, 110, rfl⟩
abbrev main_call2_v0 : Ref sig .tc := ⟨.hbm, 111, rfl⟩
abbrev main_call2_v1 : Ref sig .tc := ⟨.hbm, 112, rfl⟩
abbrev main_call2_cst_0 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_v6 : Ref sig .tc := ⟨.hbm, 118, rfl⟩
abbrev main_call2_v7 : Ref sig .tc := ⟨.hbm, 119, rfl⟩
abbrev main_call2_cst_1 : Ref sig .tc := ⟨.hbm, 120, rfl⟩
abbrev main_call2_v8 : Ref sig .tc := ⟨.hbm, 121, rfl⟩
abbrev main_call2_cst_2 : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_v12 : Ref sig .tc := ⟨.hbm, 126, rfl⟩
abbrev main_call2_cst_3 : Ref sig .tc := ⟨.hbm, 127, rfl⟩
abbrev main_call2_v13 : Ref sig .tc := ⟨.hbm, 128, rfl⟩
abbrev main_call2_cst_4 : Ref sig .tc := ⟨.hbm, 129, rfl⟩
abbrev main_call2_call0_v0 : Ref sig .tc := ⟨.hbm, 130, rfl⟩
abbrev main_call2_call0_v1 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_c_11 : Ref sig .tc := ⟨.hbm, 140, rfl⟩
abbrev main_v67 : Ref sig .tc := ⟨.hbm, 141, rfl⟩
abbrev main_v68 : Ref sig .tc := ⟨.hbm, 142, rfl⟩
abbrev main_c_12 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_call3_cst : Ref sig .tc := ⟨.hbm, 150, rfl⟩
abbrev main_call3_v0 : Ref sig .tc := ⟨.hbm, 151, rfl⟩
abbrev main_v75 : Ref sig .tc := ⟨.hbm, 152, rfl⟩
abbrev main_cst_13 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_cst_14 : Ref sig .tc := ⟨.hbm, 163, rfl⟩
abbrev main_v85 : Ref sig .tc := ⟨.hbm, 164, rfl⟩
abbrev main_v86 : Ref sig .tc := ⟨.hbm, 165, rfl⟩
abbrev main_cst_15 : Ref sig .tc := ⟨.hbm, 166, rfl⟩
abbrev main_v87 : Ref sig .tc := ⟨.hbm, 167, rfl⟩
abbrev main_v88 : Ref sig .tc := ⟨.hbm, 168, rfl⟩
abbrev main_c_16 : Ref sig .tc := ⟨.hbm, 169, rfl⟩
abbrev main_call4_cst : Ref sig .tc := ⟨.hbm, 170, rfl⟩
abbrev main_call4_v0 : Ref sig .tc := ⟨.hbm, 171, rfl⟩
abbrev main_call4_v1 : Ref sig .tc := ⟨.hbm, 172, rfl⟩
abbrev main_call4_cst_0 : Ref sig .tc := ⟨.hbm, 173, rfl⟩
abbrev main_call4_v2 : Ref sig .tc := ⟨.hbm, 174, rfl⟩
abbrev main_call4_v3 : Ref sig .tc := ⟨.hbm, 175, rfl⟩
abbrev main_call4_v4 : Ref sig .tc := ⟨.hbm, 176, rfl⟩
abbrev main_call4_v5 : Ref sig .tc := ⟨.hbm, 177, rfl⟩
abbrev main_call4_v6 : Ref sig .tc := ⟨.hbm, 178, rfl⟩
abbrev main_call4_v7 : Ref sig .tc := ⟨.hbm, 179, rfl⟩
abbrev main_call4_cst_1 : Ref sig .tc := ⟨.hbm, 180, rfl⟩
abbrev main_call4_v8 : Ref sig .tc := ⟨.hbm, 181, rfl⟩
abbrev main_call4_cst_2 : Ref sig .tc := ⟨.hbm, 182, rfl⟩
abbrev main_call4_v9 : Ref sig .tc := ⟨.hbm, 183, rfl⟩
abbrev main_call4_v10 : Ref sig .tc := ⟨.hbm, 184, rfl⟩
abbrev main_call4_v11 : Ref sig .tc := ⟨.hbm, 185, rfl⟩
abbrev main_call4_v12 : Ref sig .tc := ⟨.hbm, 186, rfl⟩
abbrev main_call4_cst_3 : Ref sig .tc := ⟨.hbm, 187, rfl⟩
abbrev main_call4_v13 : Ref sig .tc := ⟨.hbm, 188, rfl⟩
abbrev main_call4_cst_4 : Ref sig .tc := ⟨.hbm, 189, rfl⟩
abbrev main_call4_call0_v0 : Ref sig .tc := ⟨.hbm, 190, rfl⟩
abbrev main_call4_call0_v1 : Ref sig .tc := ⟨.hbm, 191, rfl⟩
abbrev main_v89 : Ref sig .tc := ⟨.hbm, 192, rfl⟩
abbrev main_v90 : Ref sig .tc := ⟨.hbm, 193, rfl⟩
abbrev main_v91 : Ref sig .tc := ⟨.hbm, 194, rfl⟩
abbrev main_v92 : Ref sig .tc := ⟨.hbm, 195, rfl⟩
abbrev main_v93 : Ref sig .tc := ⟨.hbm, 196, rfl⟩
abbrev main_v94 : Ref sig .tc := ⟨.hbm, 197, rfl⟩
abbrev main_v95 : Ref sig .tc := ⟨.hbm, 198, rfl⟩
abbrev main_v96 : Ref sig .tc := ⟨.hbm, 199, rfl⟩
abbrev main_v97 : Ref sig .tc := ⟨.hbm, 200, rfl⟩
abbrev main_v98 : Ref sig .tc := ⟨.hbm, 201, rfl⟩
abbrev main_v99 : Ref sig .tc := ⟨.hbm, 202, rfl⟩
abbrev main_v100 : Ref sig .tc := ⟨.hbm, 203, rfl⟩
abbrev main_v101 : Ref sig .tc := ⟨.hbm, 204, rfl⟩
abbrev main_cst_17 : Ref sig .tc := ⟨.hbm, 205, rfl⟩
abbrev main_v102 : Ref sig .tc := ⟨.hbm, 206, rfl⟩
abbrev main_v103 : Ref sig .tc := ⟨.hbm, 207, rfl⟩
abbrev main_cst_18 : Ref sig .tc := ⟨.hbm, 208, rfl⟩
abbrev main_v104 : Ref sig .tc := ⟨.hbm, 209, rfl⟩
abbrev main_v105 : Ref sig .tc := ⟨.hbm, 210, rfl⟩
abbrev main_c_19 : Ref sig .tc := ⟨.hbm, 211, rfl⟩
abbrev main_call5_cst : Ref sig .tc := ⟨.hbm, 212, rfl⟩
abbrev main_call5_v0 : Ref sig .tc := ⟨.hbm, 213, rfl⟩
abbrev main_call5_v1 : Ref sig .tc := ⟨.hbm, 214, rfl⟩
abbrev main_call5_cst_0 : Ref sig .tc := ⟨.hbm, 215, rfl⟩
abbrev main_call5_v2 : Ref sig .tc := ⟨.hbm, 216, rfl⟩
abbrev main_call5_v3 : Ref sig .tc := ⟨.hbm, 217, rfl⟩
abbrev main_call5_v4 : Ref sig .tc := ⟨.hbm, 218, rfl⟩
abbrev main_call5_v5 : Ref sig .tc := ⟨.hbm, 219, rfl⟩
abbrev main_call5_v6 : Ref sig .tc := ⟨.hbm, 220, rfl⟩
abbrev main_call5_v7 : Ref sig .tc := ⟨.hbm, 221, rfl⟩
abbrev main_call5_cst_1 : Ref sig .tc := ⟨.hbm, 222, rfl⟩
abbrev main_call5_v8 : Ref sig .tc := ⟨.hbm, 223, rfl⟩
abbrev main_call5_cst_2 : Ref sig .tc := ⟨.hbm, 224, rfl⟩
abbrev main_call5_v9 : Ref sig .tc := ⟨.hbm, 225, rfl⟩
abbrev main_call5_v10 : Ref sig .tc := ⟨.hbm, 226, rfl⟩
abbrev main_call5_v11 : Ref sig .tc := ⟨.hbm, 227, rfl⟩
abbrev main_call5_v12 : Ref sig .tc := ⟨.hbm, 228, rfl⟩
abbrev main_call5_cst_3 : Ref sig .tc := ⟨.hbm, 229, rfl⟩
abbrev main_call5_v13 : Ref sig .tc := ⟨.hbm, 230, rfl⟩
abbrev main_call5_cst_4 : Ref sig .tc := ⟨.hbm, 231, rfl⟩
abbrev main_call5_call0_v0 : Ref sig .tc := ⟨.hbm, 232, rfl⟩
abbrev main_call5_call0_v1 : Ref sig .tc := ⟨.hbm, 233, rfl⟩
abbrev main_v106 : Ref sig .tc := ⟨.hbm, 234, rfl⟩
abbrev main_v107 : Ref sig .tc := ⟨.hbm, 235, rfl⟩
abbrev main_v108 : Ref sig .tc := ⟨.hbm, 236, rfl⟩
abbrev main_v109 : Ref sig .tc := ⟨.hbm, 237, rfl⟩
abbrev main_v110 : Ref sig .tc := ⟨.hbm, 238, rfl⟩
abbrev main_v111 : Ref sig .tc := ⟨.hbm, 239, rfl⟩
abbrev main_v112 : Ref sig .tc := ⟨.hbm, 240, rfl⟩
abbrev main_v113 : Ref sig .tc := ⟨.hbm, 241, rfl⟩
abbrev main_c_20 : Ref sig .tc := ⟨.hbm, 242, rfl⟩
abbrev main_v114 : Ref sig .tc := ⟨.hbm, 243, rfl⟩
abbrev main_v115 : Ref sig .tc := ⟨.hbm, 244, rfl⟩
abbrev main_c_21 : Ref sig .tc := ⟨.hbm, 245, rfl⟩
abbrev main_v116 : Ref sig .tc := ⟨.hbm, 246, rfl⟩
abbrev main_v117 : Ref sig .tc := ⟨.hbm, 247, rfl⟩
abbrev main_v118 : Ref sig .tc := ⟨.hbm, 248, rfl⟩
abbrev main_v119 : Ref sig .tc := ⟨.hbm, 249, rfl⟩
abbrev main_v120 : Ref sig .tc := ⟨.hbm, 250, rfl⟩
abbrev main_v121 : Ref sig .tc := ⟨.hbm, 251, rfl⟩
abbrev main_call6_cst : Ref sig .tc := ⟨.hbm, 252, rfl⟩
abbrev main_call6_v0 : Ref sig .tc := ⟨.hbm, 253, rfl⟩
abbrev main_v122 : Ref sig .tc := ⟨.hbm, 254, rfl⟩
abbrev main_cst_22 : Ref sig .tc := ⟨.hbm, 255, rfl⟩
abbrev main_v123 : Ref sig .tc := ⟨.hbm, 256, rfl⟩
abbrev main_v124 : Ref sig .tc := ⟨.hbm, 257, rfl⟩
abbrev main_v125 : Ref sig .tc := ⟨.hbm, 258, rfl⟩
abbrev main_v126 : Ref sig .tc := ⟨.hbm, 259, rfl⟩
abbrev main_v127 : Ref sig .tc := ⟨.hbm, 260, rfl⟩
abbrev main_v128 : Ref sig .tc := ⟨.hbm, 261, rfl⟩
abbrev main_v129 : Ref sig .tc := ⟨.hbm, 262, rfl⟩
abbrev main_v130 : Ref sig .tc := ⟨.hbm, 263, rfl⟩
abbrev main_v131 : Ref sig .tc := ⟨.hbm, 264, rfl⟩
abbrev main_cst_23 : Ref sig .tc := ⟨.hbm, 265, rfl⟩
abbrev main_v132 : Ref sig .tc := ⟨.hbm, 266, rfl⟩
abbrev main_v133 : Ref sig .tc := ⟨.hbm, 267, rfl⟩
abbrev main_cst_24 : Ref sig .tc := ⟨.hbm, 268, rfl⟩
abbrev main_v134 : Ref sig .tc := ⟨.hbm, 269, rfl⟩
abbrev main_v135 : Ref sig .tc := ⟨.hbm, 270, rfl⟩
abbrev main_c_25 : Ref sig .tc := ⟨.hbm, 271, rfl⟩
abbrev main_call7_cst : Ref sig .tc := ⟨.hbm, 272, rfl⟩
abbrev main_call7_v0 : Ref sig .tc := ⟨.hbm, 273, rfl⟩
abbrev main_call7_v1 : Ref sig .tc := ⟨.hbm, 274, rfl⟩
abbrev main_call7_cst_0 : Ref sig .tc := ⟨.hbm, 275, rfl⟩
abbrev main_call7_v2 : Ref sig .tc := ⟨.hbm, 276, rfl⟩
abbrev main_call7_v3 : Ref sig .tc := ⟨.hbm, 277, rfl⟩
abbrev main_call7_v4 : Ref sig .tc := ⟨.hbm, 278, rfl⟩
abbrev main_call7_v5 : Ref sig .tc := ⟨.hbm, 279, rfl⟩
abbrev main_call7_v6 : Ref sig .tc := ⟨.hbm, 280, rfl⟩
abbrev main_call7_v7 : Ref sig .tc := ⟨.hbm, 281, rfl⟩
abbrev main_call7_cst_1 : Ref sig .tc := ⟨.hbm, 282, rfl⟩
abbrev main_call7_v8 : Ref sig .tc := ⟨.hbm, 283, rfl⟩
abbrev main_call7_cst_2 : Ref sig .tc := ⟨.hbm, 284, rfl⟩
abbrev main_call7_v9 : Ref sig .tc := ⟨.hbm, 285, rfl⟩
abbrev main_call7_v10 : Ref sig .tc := ⟨.hbm, 286, rfl⟩
abbrev main_call7_v11 : Ref sig .tc := ⟨.hbm, 287, rfl⟩
abbrev main_call7_v12 : Ref sig .tc := ⟨.hbm, 288, rfl⟩
abbrev main_call7_cst_3 : Ref sig .tc := ⟨.hbm, 289, rfl⟩
abbrev main_call7_v13 : Ref sig .tc := ⟨.hbm, 290, rfl⟩
abbrev main_call7_cst_4 : Ref sig .tc := ⟨.hbm, 291, rfl⟩
abbrev main_call7_call0_v0 : Ref sig .tc := ⟨.hbm, 292, rfl⟩
abbrev main_call7_call0_v1 : Ref sig .tc := ⟨.hbm, 293, rfl⟩
abbrev main_v136 : Ref sig .tc := ⟨.hbm, 294, rfl⟩
abbrev main_v137 : Ref sig .tc := ⟨.hbm, 295, rfl⟩
abbrev main_v138 : Ref sig .tc := ⟨.hbm, 296, rfl⟩
abbrev main_v139 : Ref sig .tc := ⟨.hbm, 297, rfl⟩
abbrev main_v140 : Ref sig .tc := ⟨.hbm, 298, rfl⟩
abbrev main_v141 : Ref sig .tc := ⟨.hbm, 299, rfl⟩
abbrev main_v142 : Ref sig .tc := ⟨.hbm, 300, rfl⟩
abbrev main_v143 : Ref sig .tc := ⟨.hbm, 301, rfl⟩
abbrev main_v144 : Ref sig .tc := ⟨.hbm, 302, rfl⟩
abbrev main_v145 : Ref sig .tc := ⟨.hbm, 303, rfl⟩
abbrev main_v146 : Ref sig .tc := ⟨.hbm, 304, rfl⟩
abbrev main_v147 : Ref sig .tc := ⟨.hbm, 305, rfl⟩
abbrev main_v148 : Ref sig .tc := ⟨.hbm, 306, rfl⟩
abbrev main_cst_26 : Ref sig .tc := ⟨.hbm, 307, rfl⟩
abbrev main_v149 : Ref sig .tc := ⟨.hbm, 308, rfl⟩
abbrev main_v150 : Ref sig .tc := ⟨.hbm, 309, rfl⟩
abbrev main_cst_27 : Ref sig .tc := ⟨.hbm, 310, rfl⟩
abbrev main_v151 : Ref sig .tc := ⟨.hbm, 311, rfl⟩
abbrev main_v152 : Ref sig .tc := ⟨.hbm, 312, rfl⟩
abbrev main_c_28 : Ref sig .tc := ⟨.hbm, 313, rfl⟩
abbrev main_call8_cst : Ref sig .tc := ⟨.hbm, 314, rfl⟩
abbrev main_call8_v0 : Ref sig .tc := ⟨.hbm, 315, rfl⟩
abbrev main_call8_v1 : Ref sig .tc := ⟨.hbm, 316, rfl⟩
abbrev main_call8_cst_0 : Ref sig .tc := ⟨.hbm, 317, rfl⟩
abbrev main_call8_v2 : Ref sig .tc := ⟨.hbm, 318, rfl⟩
abbrev main_call8_v3 : Ref sig .tc := ⟨.hbm, 319, rfl⟩
abbrev main_call8_v4 : Ref sig .tc := ⟨.hbm, 320, rfl⟩
abbrev main_call8_v5 : Ref sig .tc := ⟨.hbm, 321, rfl⟩
abbrev main_call8_v6 : Ref sig .tc := ⟨.hbm, 322, rfl⟩
abbrev main_call8_v7 : Ref sig .tc := ⟨.hbm, 323, rfl⟩
abbrev main_call8_cst_1 : Ref sig .tc := ⟨.hbm, 324, rfl⟩
abbrev main_call8_v8 : Ref sig .tc := ⟨.hbm, 325, rfl⟩
abbrev main_call8_cst_2 : Ref sig .tc := ⟨.hbm, 326, rfl⟩
abbrev main_call8_v9 : Ref sig .tc := ⟨.hbm, 327, rfl⟩
abbrev main_call8_v10 : Ref sig .tc := ⟨.hbm, 328, rfl⟩
abbrev main_call8_v11 : Ref sig .tc := ⟨.hbm, 329, rfl⟩
abbrev main_call8_v12 : Ref sig .tc := ⟨.hbm, 330, rfl⟩
abbrev main_call8_cst_3 : Ref sig .tc := ⟨.hbm, 331, rfl⟩
abbrev main_call8_v13 : Ref sig .tc := ⟨.hbm, 332, rfl⟩
abbrev main_call8_cst_4 : Ref sig .tc := ⟨.hbm, 333, rfl⟩
abbrev main_call8_call0_v0 : Ref sig .tc := ⟨.hbm, 334, rfl⟩
abbrev main_call8_call0_v1 : Ref sig .tc := ⟨.hbm, 335, rfl⟩
abbrev main_v153 : Ref sig .tc := ⟨.hbm, 336, rfl⟩
abbrev main_v154 : Ref sig .tc := ⟨.hbm, 337, rfl⟩
abbrev main_v155 : Ref sig .tc := ⟨.hbm, 338, rfl⟩
abbrev main_v156 : Ref sig .tc := ⟨.hbm, 339, rfl⟩
abbrev main_v157 : Ref sig .tc := ⟨.hbm, 340, rfl⟩
abbrev main_v158 : Ref sig .tc := ⟨.hbm, 341, rfl⟩
abbrev main_v159 : Ref sig .tc := ⟨.hbm, 342, rfl⟩
abbrev main_v160 : Ref sig .tc := ⟨.hbm, 343, rfl⟩
abbrev main_c_29 : Ref sig .tc := ⟨.hbm, 344, rfl⟩
abbrev main_v161 : Ref sig .tc := ⟨.hbm, 345, rfl⟩
abbrev main_v162 : Ref sig .tc := ⟨.hbm, 346, rfl⟩
abbrev main_c_30 : Ref sig .tc := ⟨.hbm, 347, rfl⟩
abbrev main_v163 : Ref sig .tc := ⟨.hbm, 348, rfl⟩
abbrev main_v164 : Ref sig .tc := ⟨.hbm, 349, rfl⟩
abbrev main_v165 : Ref sig .tc := ⟨.hbm, 350, rfl⟩
abbrev main_v166 : Ref sig .tc := ⟨.hbm, 351, rfl⟩
abbrev main_v167 : Ref sig .tc := ⟨.hbm, 352, rfl⟩
abbrev main_v168 : Ref sig .tc := ⟨.hbm, 353, rfl⟩
abbrev main_call9_cst : Ref sig .tc := ⟨.hbm, 354, rfl⟩
abbrev main_call9_v0 : Ref sig .tc := ⟨.hbm, 355, rfl⟩
abbrev main_v169 : Ref sig .tc := ⟨.hbm, 356, rfl⟩
abbrev main_cst_31 : Ref sig .tc := ⟨.hbm, 357, rfl⟩
abbrev main_v170 : Ref sig .tc := ⟨.hbm, 358, rfl⟩
abbrev main_v171 : Ref sig .tc := ⟨.hbm, 359, rfl⟩
abbrev main_v172 : Ref sig .tc := ⟨.hbm, 360, rfl⟩
abbrev main_v173 : Ref sig .tc := ⟨.hbm, 361, rfl⟩
abbrev main_v174 : Ref sig .tc := ⟨.hbm, 362, rfl⟩
abbrev main_v175 : Ref sig .tc := ⟨.hbm, 363, rfl⟩
abbrev main_v176 : Ref sig .tc := ⟨.hbm, 364, rfl⟩
abbrev main_v177 : Ref sig .tc := ⟨.hbm, 365, rfl⟩
abbrev main_v178 : Ref sig .tc := ⟨.hbm, 366, rfl⟩
abbrev main_cst_32 : Ref sig .tc := ⟨.hbm, 367, rfl⟩
abbrev main_v179 : Ref sig .tc := ⟨.hbm, 368, rfl⟩
abbrev main_v180 : Ref sig .tc := ⟨.hbm, 369, rfl⟩
abbrev main_cst_33 : Ref sig .tc := ⟨.hbm, 370, rfl⟩
abbrev main_v181 : Ref sig .tc := ⟨.hbm, 371, rfl⟩
abbrev main_v182 : Ref sig .tc := ⟨.hbm, 372, rfl⟩
abbrev main_c_34 : Ref sig .tc := ⟨.hbm, 373, rfl⟩
abbrev main_call10_cst : Ref sig .tc := ⟨.hbm, 374, rfl⟩
abbrev main_call10_v0 : Ref sig .tc := ⟨.hbm, 375, rfl⟩
abbrev main_call10_v1 : Ref sig .tc := ⟨.hbm, 376, rfl⟩
abbrev main_call10_cst_0 : Ref sig .tc := ⟨.hbm, 377, rfl⟩
abbrev main_call10_v2 : Ref sig .tc := ⟨.hbm, 378, rfl⟩
abbrev main_call10_v3 : Ref sig .tc := ⟨.hbm, 379, rfl⟩
abbrev main_call10_v4 : Ref sig .tc := ⟨.hbm, 380, rfl⟩
abbrev main_call10_v5 : Ref sig .tc := ⟨.hbm, 381, rfl⟩
abbrev main_call10_v6 : Ref sig .tc := ⟨.hbm, 382, rfl⟩
abbrev main_call10_v7 : Ref sig .tc := ⟨.hbm, 383, rfl⟩
abbrev main_call10_cst_1 : Ref sig .tc := ⟨.hbm, 384, rfl⟩
abbrev main_call10_v8 : Ref sig .tc := ⟨.hbm, 385, rfl⟩
abbrev main_call10_cst_2 : Ref sig .tc := ⟨.hbm, 386, rfl⟩
abbrev main_call10_v9 : Ref sig .tc := ⟨.hbm, 387, rfl⟩
abbrev main_call10_v10 : Ref sig .tc := ⟨.hbm, 388, rfl⟩
abbrev main_call10_v11 : Ref sig .tc := ⟨.hbm, 389, rfl⟩
abbrev main_call10_v12 : Ref sig .tc := ⟨.hbm, 390, rfl⟩
abbrev main_call10_cst_3 : Ref sig .tc := ⟨.hbm, 391, rfl⟩
abbrev main_call10_v13 : Ref sig .tc := ⟨.hbm, 392, rfl⟩
abbrev main_call10_cst_4 : Ref sig .tc := ⟨.hbm, 393, rfl⟩
abbrev main_call10_call0_v0 : Ref sig .tc := ⟨.hbm, 394, rfl⟩
abbrev main_call10_call0_v1 : Ref sig .tc := ⟨.hbm, 395, rfl⟩
abbrev main_v183 : Ref sig .tc := ⟨.hbm, 396, rfl⟩
abbrev main_v184 : Ref sig .tc := ⟨.hbm, 397, rfl⟩
abbrev main_v185 : Ref sig .tc := ⟨.hbm, 398, rfl⟩
abbrev main_v186 : Ref sig .tc := ⟨.hbm, 399, rfl⟩
abbrev main_v187 : Ref sig .tc := ⟨.hbm, 400, rfl⟩
abbrev main_v188 : Ref sig .tc := ⟨.hbm, 401, rfl⟩
abbrev main_v189 : Ref sig .tc := ⟨.hbm, 402, rfl⟩
abbrev main_v190 : Ref sig .tc := ⟨.hbm, 403, rfl⟩
abbrev main_v191 : Ref sig .tc := ⟨.hbm, 404, rfl⟩
abbrev main_v192 : Ref sig .tc := ⟨.hbm, 405, rfl⟩
abbrev main_v193 : Ref sig .tc := ⟨.hbm, 406, rfl⟩
abbrev main_v194 : Ref sig .tc := ⟨.hbm, 407, rfl⟩
abbrev main_v195 : Ref sig .tc := ⟨.hbm, 408, rfl⟩
abbrev main_cst_35 : Ref sig .tc := ⟨.hbm, 409, rfl⟩
abbrev main_v196 : Ref sig .tc := ⟨.hbm, 410, rfl⟩
abbrev main_v197 : Ref sig .tc := ⟨.hbm, 411, rfl⟩
abbrev main_cst_36 : Ref sig .tc := ⟨.hbm, 412, rfl⟩
abbrev main_v198 : Ref sig .tc := ⟨.hbm, 413, rfl⟩
abbrev main_v199 : Ref sig .tc := ⟨.hbm, 414, rfl⟩
abbrev main_c_37 : Ref sig .tc := ⟨.hbm, 415, rfl⟩
abbrev main_call11_cst : Ref sig .tc := ⟨.hbm, 416, rfl⟩
abbrev main_call11_v0 : Ref sig .tc := ⟨.hbm, 417, rfl⟩
abbrev main_call11_v1 : Ref sig .tc := ⟨.hbm, 418, rfl⟩
abbrev main_call11_cst_0 : Ref sig .tc := ⟨.hbm, 419, rfl⟩
abbrev main_call11_v2 : Ref sig .tc := ⟨.hbm, 420, rfl⟩
abbrev main_call11_v3 : Ref sig .tc := ⟨.hbm, 421, rfl⟩
abbrev main_call11_v4 : Ref sig .tc := ⟨.hbm, 422, rfl⟩
abbrev main_call11_v5 : Ref sig .tc := ⟨.hbm, 423, rfl⟩
abbrev main_call11_v6 : Ref sig .tc := ⟨.hbm, 424, rfl⟩
abbrev main_call11_v7 : Ref sig .tc := ⟨.hbm, 425, rfl⟩
abbrev main_call11_cst_1 : Ref sig .tc := ⟨.hbm, 426, rfl⟩
abbrev main_call11_v8 : Ref sig .tc := ⟨.hbm, 427, rfl⟩
abbrev main_call11_cst_2 : Ref sig .tc := ⟨.hbm, 428, rfl⟩
abbrev main_call11_v9 : Ref sig .tc := ⟨.hbm, 429, rfl⟩
abbrev main_call11_v10 : Ref sig .tc := ⟨.hbm, 430, rfl⟩
abbrev main_call11_v11 : Ref sig .tc := ⟨.hbm, 431, rfl⟩
abbrev main_call11_v12 : Ref sig .tc := ⟨.hbm, 432, rfl⟩
abbrev main_call11_cst_3 : Ref sig .tc := ⟨.hbm, 433, rfl⟩
abbrev main_call11_v13 : Ref sig .tc := ⟨.hbm, 434, rfl⟩
abbrev main_call11_cst_4 : Ref sig .tc := ⟨.hbm, 435, rfl⟩
abbrev main_call11_call0_v0 : Ref sig .tc := ⟨.hbm, 436, rfl⟩
abbrev main_call11_call0_v1 : Ref sig .tc := ⟨.hbm, 437, rfl⟩
abbrev main_v200 : Ref sig .tc := ⟨.hbm, 438, rfl⟩
abbrev main_v201 : Ref sig .tc := ⟨.hbm, 439, rfl⟩
abbrev main_v202 : Ref sig .tc := ⟨.hbm, 440, rfl⟩
abbrev main_v203 : Ref sig .tc := ⟨.hbm, 441, rfl⟩
abbrev main_v204 : Ref sig .tc := ⟨.hbm, 442, rfl⟩
abbrev main_v205 : Ref sig .tc := ⟨.hbm, 443, rfl⟩
abbrev main_v206 : Ref sig .tc := ⟨.hbm, 444, rfl⟩
abbrev main_v207 : Ref sig .tc := ⟨.hbm, 445, rfl⟩
abbrev main_c_38 : Ref sig .tc := ⟨.hbm, 446, rfl⟩
abbrev main_v208 : Ref sig .tc := ⟨.hbm, 447, rfl⟩
abbrev main_v209 : Ref sig .tc := ⟨.hbm, 448, rfl⟩
abbrev main_c_39 : Ref sig .tc := ⟨.hbm, 449, rfl⟩
abbrev main_v210 : Ref sig .tc := ⟨.hbm, 450, rfl⟩
abbrev main_v211 : Ref sig .tc := ⟨.hbm, 451, rfl⟩
abbrev main_v212 : Ref sig .tc := ⟨.hbm, 452, rfl⟩
abbrev main_v213 : Ref sig .tc := ⟨.hbm, 453, rfl⟩
abbrev main_v214 : Ref sig .tc := ⟨.hbm, 454, rfl⟩
abbrev main_v215 : Ref sig .tc := ⟨.hbm, 455, rfl⟩
abbrev main_call12_cst : Ref sig .tc := ⟨.hbm, 456, rfl⟩
abbrev main_call12_v0 : Ref sig .tc := ⟨.hbm, 457, rfl⟩
abbrev main_v216 : Ref sig .tc := ⟨.hbm, 458, rfl⟩
abbrev main_cst_40 : Ref sig .tc := ⟨.hbm, 459, rfl⟩
abbrev main_v217 : Ref sig .tc := ⟨.hbm, 460, rfl⟩
abbrev main_v218 : Ref sig .tc := ⟨.hbm, 461, rfl⟩
abbrev main_v219 : Ref sig .tc := ⟨.hbm, 462, rfl⟩
abbrev main_v220 : Ref sig .tc := ⟨.hbm, 463, rfl⟩
abbrev main_v221 : Ref sig .tc := ⟨.hbm, 464, rfl⟩
abbrev main_v222 : Ref sig .tc := ⟨.hbm, 465, rfl⟩
abbrev main_v223 : Ref sig .tc := ⟨.hbm, 466, rfl⟩
abbrev main_v224 : Ref sig .tc := ⟨.hbm, 467, rfl⟩
abbrev main_v225 : Ref sig .tc := ⟨.hbm, 468, rfl⟩
abbrev main_cst_41 : Ref sig .tc := ⟨.hbm, 469, rfl⟩
abbrev main_v226 : Ref sig .tc := ⟨.hbm, 470, rfl⟩
abbrev main_v227 : Ref sig .tc := ⟨.hbm, 471, rfl⟩
abbrev main_cst_42 : Ref sig .tc := ⟨.hbm, 472, rfl⟩
abbrev main_v228 : Ref sig .tc := ⟨.hbm, 473, rfl⟩
abbrev main_v229 : Ref sig .tc := ⟨.hbm, 474, rfl⟩
abbrev main_c_43 : Ref sig .tc := ⟨.hbm, 475, rfl⟩
abbrev main_call13_cst : Ref sig .tc := ⟨.hbm, 476, rfl⟩
abbrev main_call13_v0 : Ref sig .tc := ⟨.hbm, 477, rfl⟩
abbrev main_call13_v1 : Ref sig .tc := ⟨.hbm, 478, rfl⟩
abbrev main_call13_cst_0 : Ref sig .tc := ⟨.hbm, 479, rfl⟩
abbrev main_call13_v2 : Ref sig .tc := ⟨.hbm, 480, rfl⟩
abbrev main_call13_v3 : Ref sig .tc := ⟨.hbm, 481, rfl⟩
abbrev main_call13_v4 : Ref sig .tc := ⟨.hbm, 482, rfl⟩
abbrev main_call13_v5 : Ref sig .tc := ⟨.hbm, 483, rfl⟩
abbrev main_call13_v6 : Ref sig .tc := ⟨.hbm, 484, rfl⟩
abbrev main_call13_v7 : Ref sig .tc := ⟨.hbm, 485, rfl⟩
abbrev main_call13_cst_1 : Ref sig .tc := ⟨.hbm, 486, rfl⟩
abbrev main_call13_v8 : Ref sig .tc := ⟨.hbm, 487, rfl⟩
abbrev main_call13_cst_2 : Ref sig .tc := ⟨.hbm, 488, rfl⟩
abbrev main_call13_v9 : Ref sig .tc := ⟨.hbm, 489, rfl⟩
abbrev main_call13_v10 : Ref sig .tc := ⟨.hbm, 490, rfl⟩
abbrev main_call13_v11 : Ref sig .tc := ⟨.hbm, 491, rfl⟩
abbrev main_call13_v12 : Ref sig .tc := ⟨.hbm, 492, rfl⟩
abbrev main_call13_cst_3 : Ref sig .tc := ⟨.hbm, 493, rfl⟩
abbrev main_call13_v13 : Ref sig .tc := ⟨.hbm, 494, rfl⟩
abbrev main_call13_cst_4 : Ref sig .tc := ⟨.hbm, 495, rfl⟩
abbrev main_call13_call0_v0 : Ref sig .tc := ⟨.hbm, 496, rfl⟩
abbrev main_call13_call0_v1 : Ref sig .tc := ⟨.hbm, 497, rfl⟩
abbrev main_v230 : Ref sig .tc := ⟨.hbm, 498, rfl⟩
abbrev main_v231 : Ref sig .tc := ⟨.hbm, 499, rfl⟩
abbrev main_v232 : Ref sig .tc := ⟨.hbm, 500, rfl⟩
abbrev main_v233 : Ref sig .tc := ⟨.hbm, 501, rfl⟩
abbrev main_v234 : Ref sig .tc := ⟨.hbm, 502, rfl⟩
abbrev main_v235 : Ref sig .tc := ⟨.hbm, 503, rfl⟩
abbrev main_v236 : Ref sig .tc := ⟨.hbm, 504, rfl⟩
abbrev main_v237 : Ref sig .tc := ⟨.hbm, 505, rfl⟩
abbrev main_v238 : Ref sig .tc := ⟨.hbm, 506, rfl⟩
abbrev main_v239 : Ref sig .tc := ⟨.hbm, 507, rfl⟩
abbrev main_v240 : Ref sig .tc := ⟨.hbm, 508, rfl⟩
abbrev main_v241 : Ref sig .tc := ⟨.hbm, 509, rfl⟩
abbrev main_v242 : Ref sig .tc := ⟨.hbm, 510, rfl⟩
abbrev main_cst_44 : Ref sig .tc := ⟨.hbm, 511, rfl⟩
abbrev main_v243 : Ref sig .tc := ⟨.hbm, 512, rfl⟩
abbrev main_v244 : Ref sig .tc := ⟨.hbm, 513, rfl⟩
abbrev main_cst_45 : Ref sig .tc := ⟨.hbm, 514, rfl⟩
abbrev main_v245 : Ref sig .tc := ⟨.hbm, 515, rfl⟩
abbrev main_v246 : Ref sig .tc := ⟨.hbm, 516, rfl⟩
abbrev main_c_46 : Ref sig .tc := ⟨.hbm, 517, rfl⟩
abbrev main_call14_cst : Ref sig .tc := ⟨.hbm, 518, rfl⟩
abbrev main_call14_v0 : Ref sig .tc := ⟨.hbm, 519, rfl⟩
abbrev main_call14_v1 : Ref sig .tc := ⟨.hbm, 520, rfl⟩
abbrev main_call14_cst_0 : Ref sig .tc := ⟨.hbm, 521, rfl⟩
abbrev main_call14_v2 : Ref sig .tc := ⟨.hbm, 522, rfl⟩
abbrev main_call14_v3 : Ref sig .tc := ⟨.hbm, 523, rfl⟩
abbrev main_call14_v4 : Ref sig .tc := ⟨.hbm, 524, rfl⟩
abbrev main_call14_v5 : Ref sig .tc := ⟨.hbm, 525, rfl⟩
abbrev main_call14_v6 : Ref sig .tc := ⟨.hbm, 526, rfl⟩
abbrev main_call14_v7 : Ref sig .tc := ⟨.hbm, 527, rfl⟩
abbrev main_call14_cst_1 : Ref sig .tc := ⟨.hbm, 528, rfl⟩
abbrev main_call14_v8 : Ref sig .tc := ⟨.hbm, 529, rfl⟩
abbrev main_call14_cst_2 : Ref sig .tc := ⟨.hbm, 530, rfl⟩
abbrev main_call14_v9 : Ref sig .tc := ⟨.hbm, 531, rfl⟩
abbrev main_call14_v10 : Ref sig .tc := ⟨.hbm, 532, rfl⟩
abbrev main_call14_v11 : Ref sig .tc := ⟨.hbm, 533, rfl⟩
abbrev main_call14_v12 : Ref sig .tc := ⟨.hbm, 534, rfl⟩
abbrev main_call14_cst_3 : Ref sig .tc := ⟨.hbm, 535, rfl⟩
abbrev main_call14_v13 : Ref sig .tc := ⟨.hbm, 536, rfl⟩
abbrev main_call14_cst_4 : Ref sig .tc := ⟨.hbm, 537, rfl⟩
abbrev main_call14_call0_v0 : Ref sig .tc := ⟨.hbm, 538, rfl⟩
abbrev main_call14_call0_v1 : Ref sig .tc := ⟨.hbm, 539, rfl⟩
abbrev main_v247 : Ref sig .tc := ⟨.hbm, 540, rfl⟩
abbrev main_v248 : Ref sig .tc := ⟨.hbm, 541, rfl⟩
abbrev main_v249 : Ref sig .tc := ⟨.hbm, 542, rfl⟩
abbrev main_v250 : Ref sig .tc := ⟨.hbm, 543, rfl⟩
abbrev main_v251 : Ref sig .tc := ⟨.hbm, 544, rfl⟩
abbrev main_v252 : Ref sig .tc := ⟨.hbm, 545, rfl⟩
abbrev main_v253 : Ref sig .tc := ⟨.hbm, 546, rfl⟩
abbrev main_v254 : Ref sig .tc := ⟨.hbm, 547, rfl⟩
abbrev main_v255 : Ref sig .tc := ⟨.hbm, 548, rfl⟩
abbrev main_v256 : Ref sig .tc := ⟨.hbm, 549, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg6_0 : Ref sig .tc := ⟨.vmem, 41, rfl⟩
abbrev cc4_stg7_0 : Ref sig .tc := ⟨.vmem, 42, rfl⟩
abbrev cc4_stg7_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg5_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg4_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg2_0 : Ref sig .tc := ⟨.vmem, 63, rfl⟩
abbrev cc7_stg3_0 : Ref sig .tc := ⟨.vmem, 64, rfl⟩
abbrev cc7_stg4_0 : Ref sig .tc := ⟨.vmem, 65, rfl⟩
abbrev cc7_stg5_0 : Ref sig .tc := ⟨.vmem, 66, rfl⟩
abbrev cc7_stg6_0 : Ref sig .tc := ⟨.vmem, 67, rfl⟩
abbrev cc7_stg7_0 : Ref sig .tc := ⟨.vmem, 68, rfl⟩
abbrev cc7_stg7_1 : Ref sig .tc := ⟨.vmem, 69, rfl⟩
abbrev cc8_stg0_0 : Ref sig .tc := ⟨.vmem, 70, rfl⟩
abbrev cc8_stg0_1 : Ref sig .tc := ⟨.vmem, 71, rfl⟩
abbrev cc8_stg1_0 : Ref sig .tc := ⟨.vmem, 72, rfl⟩
abbrev cc8_stg2_0 : Ref sig .tc := ⟨.vmem, 73, rfl⟩
abbrev cc8_stg3_0 : Ref sig .tc := ⟨.vmem, 74, rfl⟩
abbrev cc8_stg4_0 : Ref sig .tc := ⟨.vmem, 75, rfl⟩
abbrev cc8_stg5_0 : Ref sig .tc := ⟨.vmem, 76, rfl⟩
abbrev cc8_stg5_1 : Ref sig .tc := ⟨.vmem, 77, rfl⟩
abbrev cc9_stg0_0 : Ref sig .tc := ⟨.vmem, 78, rfl⟩
abbrev cc9_stg0_1 : Ref sig .tc := ⟨.vmem, 79, rfl⟩
abbrev cc9_stg1_0 : Ref sig .tc := ⟨.vmem, 80, rfl⟩
abbrev cc9_stg1_1 : Ref sig .tc := ⟨.vmem, 81, rfl⟩
abbrev cc9_stg2_0 : Ref sig .tc := ⟨.vmem, 82, rfl⟩
abbrev cc9_stg3_0 : Ref sig .tc := ⟨.vmem, 83, rfl⟩
abbrev cc9_stg4_0 : Ref sig .tc := ⟨.vmem, 84, rfl⟩
abbrev cc9_stg4_1 : Ref sig .tc := ⟨.vmem, 85, rfl⟩
abbrev cc10_stg0_0 : Ref sig .tc := ⟨.vmem, 86, rfl⟩
abbrev cc10_stg0_1 : Ref sig .tc := ⟨.vmem, 87, rfl⟩
abbrev cc10_stg1_0 : Ref sig .tc := ⟨.vmem, 88, rfl⟩
abbrev cc10_stg2_0 : Ref sig .tc := ⟨.vmem, 89, rfl⟩
abbrev cc10_stg3_0 : Ref sig .tc := ⟨.vmem, 90, rfl⟩
abbrev cc10_stg4_0 : Ref sig .tc := ⟨.vmem, 91, rfl⟩
abbrev cc10_stg5_0 : Ref sig .tc := ⟨.vmem, 92, rfl⟩
abbrev cc10_stg6_0 : Ref sig .tc := ⟨.vmem, 93, rfl⟩
abbrev cc10_stg7_0 : Ref sig .tc := ⟨.vmem, 94, rfl⟩
abbrev cc10_stg7_1 : Ref sig .tc := ⟨.vmem, 95, rfl⟩
abbrev cc11_stg0_0 : Ref sig .tc := ⟨.vmem, 96, rfl⟩
abbrev cc11_stg0_1 : Ref sig .tc := ⟨.vmem, 97, rfl⟩
abbrev cc11_stg1_0 : Ref sig .tc := ⟨.vmem, 98, rfl⟩
abbrev cc11_stg2_0 : Ref sig .tc := ⟨.vmem, 99, rfl⟩
abbrev cc11_stg3_0 : Ref sig .tc := ⟨.vmem, 100, rfl⟩
abbrev cc11_stg4_0 : Ref sig .tc := ⟨.vmem, 101, rfl⟩
abbrev cc11_stg5_0 : Ref sig .tc := ⟨.vmem, 102, rfl⟩
abbrev cc11_stg5_1 : Ref sig .tc := ⟨.vmem, 103, rfl⟩
abbrev cc12_stg0_0 : Ref sig .tc := ⟨.vmem, 104, rfl⟩
abbrev cc12_stg0_1 : Ref sig .tc := ⟨.vmem, 105, rfl⟩
abbrev cc12_stg1_0 : Ref sig .tc := ⟨.vmem, 106, rfl⟩
abbrev cc12_stg1_1 : Ref sig .tc := ⟨.vmem, 107, rfl⟩
abbrev cc12_stg2_0 : Ref sig .tc := ⟨.vmem, 108, rfl⟩
abbrev cc12_stg3_0 : Ref sig .tc := ⟨.vmem, 109, rfl⟩
abbrev cc12_stg4_0 : Ref sig .tc := ⟨.vmem, 110, rfl⟩
abbrev cc12_stg4_1 : Ref sig .tc := ⟨.vmem, 111, rfl⟩
abbrev cc13_stg0_0 : Ref sig .tc := ⟨.vmem, 112, rfl⟩
abbrev cc13_stg0_1 : Ref sig .tc := ⟨.vmem, 113, rfl⟩
abbrev cc13_stg1_0 : Ref sig .tc := ⟨.vmem, 114, rfl⟩
abbrev cc13_stg2_0 : Ref sig .tc := ⟨.vmem, 115, rfl⟩
abbrev cc13_stg3_0 : Ref sig .tc := ⟨.vmem, 116, rfl⟩
abbrev cc13_stg4_0 : Ref sig .tc := ⟨.vmem, 117, rfl⟩
abbrev cc13_stg5_0 : Ref sig .tc := ⟨.vmem, 118, rfl⟩
abbrev cc13_stg6_0 : Ref sig .tc := ⟨.vmem, 119, rfl⟩
abbrev cc13_stg7_0 : Ref sig .tc := ⟨.vmem, 120, rfl⟩
abbrev cc13_stg7_1 : Ref sig .tc := ⟨.vmem, 121, rfl⟩
abbrev cc14_stg0_0 : Ref sig .tc := ⟨.vmem, 122, rfl⟩
abbrev cc14_stg0_1 : Ref sig .tc := ⟨.vmem, 123, rfl⟩
abbrev cc14_stg1_0 : Ref sig .tc := ⟨.vmem, 124, rfl⟩
abbrev cc14_stg2_0 : Ref sig .tc := ⟨.vmem, 125, rfl⟩
abbrev cc14_stg3_0 : Ref sig .tc := ⟨.vmem, 126, rfl⟩
abbrev cc14_stg4_0 : Ref sig .tc := ⟨.vmem, 127, rfl⟩
abbrev cc14_stg5_0 : Ref sig .tc := ⟨.vmem, 128, rfl⟩
abbrev cc14_stg5_1 : Ref sig .tc := ⟨.vmem, 129, rfl⟩
abbrev cc15_stg0_0 : Ref sig .tc := ⟨.vmem, 130, rfl⟩
abbrev cc15_stg0_1 : Ref sig .tc := ⟨.vmem, 131, rfl⟩
abbrev cc15_stg1_0 : Ref sig .tc := ⟨.vmem, 132, rfl⟩
abbrev cc15_stg1_1 : Ref sig .tc := ⟨.vmem, 133, rfl⟩
abbrev cc15_stg2_0 : Ref sig .tc := ⟨.vmem, 134, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem4_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem6_0 : DmaSem sig := 41
abbrev cc4_sem7_0 : DmaSem sig := 42
abbrev cc4_sem7_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem5_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem3_0 : DmaSem sig := 57
abbrev cc6_sem4_0 : DmaSem sig := 58
abbrev cc6_sem4_1 : DmaSem sig := 59
abbrev cc7_sem0_0 : DmaSem sig := 60
abbrev cc7_sem0_1 : DmaSem sig := 61
abbrev cc7_sem1_0 : DmaSem sig := 62
abbrev cc7_sem2_0 : DmaSem sig := 63
abbrev cc7_sem3_0 : DmaSem sig := 64
abbrev cc7_sem4_0 : DmaSem sig := 65
abbrev cc7_sem5_0 : DmaSem sig := 66
abbrev cc7_sem6_0 : DmaSem sig := 67
abbrev cc7_sem7_0 : DmaSem sig := 68
abbrev cc7_sem7_1 : DmaSem sig := 69
abbrev cc8_sem0_0 : DmaSem sig := 70
abbrev cc8_sem0_1 : DmaSem sig := 71
abbrev cc8_sem1_0 : DmaSem sig := 72
abbrev cc8_sem2_0 : DmaSem sig := 73
abbrev cc8_sem3_0 : DmaSem sig := 74
abbrev cc8_sem4_0 : DmaSem sig := 75
abbrev cc8_sem5_0 : DmaSem sig := 76
abbrev cc8_sem5_1 : DmaSem sig := 77
abbrev cc9_sem0_0 : DmaSem sig := 78
abbrev cc9_sem0_1 : DmaSem sig := 79
abbrev cc9_sem1_0 : DmaSem sig := 80
abbrev cc9_sem1_1 : DmaSem sig := 81
abbrev cc9_sem2_0 : DmaSem sig := 82
abbrev cc9_sem3_0 : DmaSem sig := 83
abbrev cc9_sem4_0 : DmaSem sig := 84
abbrev cc9_sem4_1 : DmaSem sig := 85
abbrev cc10_sem0_0 : DmaSem sig := 86
abbrev cc10_sem0_1 : DmaSem sig := 87
abbrev cc10_sem1_0 : DmaSem sig := 88
abbrev cc10_sem2_0 : DmaSem sig := 89
abbrev cc10_sem3_0 : DmaSem sig := 90
abbrev cc10_sem4_0 : DmaSem sig := 91
abbrev cc10_sem5_0 : DmaSem sig := 92
abbrev cc10_sem6_0 : DmaSem sig := 93
abbrev cc10_sem7_0 : DmaSem sig := 94
abbrev cc10_sem7_1 : DmaSem sig := 95
abbrev cc11_sem0_0 : DmaSem sig := 96
abbrev cc11_sem0_1 : DmaSem sig := 97
abbrev cc11_sem1_0 : DmaSem sig := 98
abbrev cc11_sem2_0 : DmaSem sig := 99
abbrev cc11_sem3_0 : DmaSem sig := 100
abbrev cc11_sem4_0 : DmaSem sig := 101
abbrev cc11_sem5_0 : DmaSem sig := 102
abbrev cc11_sem5_1 : DmaSem sig := 103
abbrev cc12_sem0_0 : DmaSem sig := 104
abbrev cc12_sem0_1 : DmaSem sig := 105
abbrev cc12_sem1_0 : DmaSem sig := 106
abbrev cc12_sem1_1 : DmaSem sig := 107
abbrev cc12_sem2_0 : DmaSem sig := 108
abbrev cc12_sem3_0 : DmaSem sig := 109
abbrev cc12_sem4_0 : DmaSem sig := 110
abbrev cc12_sem4_1 : DmaSem sig := 111
abbrev cc13_sem0_0 : DmaSem sig := 112
abbrev cc13_sem0_1 : DmaSem sig := 113
abbrev cc13_sem1_0 : DmaSem sig := 114
abbrev cc13_sem2_0 : DmaSem sig := 115
abbrev cc13_sem3_0 : DmaSem sig := 116
abbrev cc13_sem4_0 : DmaSem sig := 117
abbrev cc13_sem5_0 : DmaSem sig := 118
abbrev cc13_sem6_0 : DmaSem sig := 119
abbrev cc13_sem7_0 : DmaSem sig := 120
abbrev cc13_sem7_1 : DmaSem sig := 121
abbrev cc14_sem0_0 : DmaSem sig := 122
abbrev cc14_sem0_1 : DmaSem sig := 123
abbrev cc14_sem1_0 : DmaSem sig := 124
abbrev cc14_sem2_0 : DmaSem sig := 125
abbrev cc14_sem3_0 : DmaSem sig := 126
abbrev cc14_sem4_0 : DmaSem sig := 127
abbrev cc14_sem5_0 : DmaSem sig := 128
abbrev cc14_sem5_1 : DmaSem sig := 129
abbrev cc15_sem0_0 : DmaSem sig := 130
abbrev cc15_sem0_1 : DmaSem sig := 131
abbrev cc15_sem1_0 : DmaSem sig := 132
abbrev cc15_sem1_1 : DmaSem sig := 133
abbrev cc15_sem2_0 : DmaSem sig := 134

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S10000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S10000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S10000x64 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S10000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S64x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S10000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S128x64 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x64 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S10000x64 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S10000x64 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S10000x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S64x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S10000x128 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_7 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S10000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S128x64 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 1 → Memref sig .tc .vmem S1x64 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev stage13_7 : Fin 2 → Memref sig .tc .vmem S10000x64 .f32 := fun | 0 => Memref.whole cc13_stg7_0 | 1 => Memref.whole cc13_stg7_1 | ⟨_ + 2, h⟩ => absurd h (Nat.not_lt.2 (Nat.le_add_left _ _))
abbrev sem13_7 : Fin 2 → DmaSem sig := fun | 0 => cc13_sem7_0 | 1 => cc13_sem7_1 | ⟨_ + 2, h⟩ => absurd h (Nat.not_lt.2 (Nat.le_add_left _ _))
abbrev reads13_7 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S10000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x64 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x64 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x64 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x64 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S10000x64 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage15_0 : Fin 2 → Memref sig .tc .vmem S10000x1 .i32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S10000x64 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S256x64 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

class Facts₀ : Prop where
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  shapeCasts_S800000x1_S800000 : S800000x1.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x64 : S_.BroadcastsInDim S800000x64 (![] : Fin 0 → Fin S800000x64.rank)
  bcast_S_S100000x64 : S_.BroadcastsInDim S100000x64 (![] : Fin 0 → Fin S100000x64.rank)
  slices_S5x64x128_S1x64x128_0_0_0 : S5x64x128.Slices ![0, 0, 0] S1x64x128
  shapeCasts_S1x64x128_S64x128 : S1x64x128.ShapeCasts S64x128
  slices_S5x128_S1x128_0_0 : S5x128.Slices ![0, 0] S1x128
  shapeCasts_S1x128_S128 : S1x128.ShapeCasts S128
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  reducesTo_S100000x128_S128_d0 : S100000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  slices_S5x128x64_S1x128x64_0_0_0 : S5x128x64.Slices ![0, 0, 0] S1x128x64
  shapeCasts_S1x128x64_S128x64 : S1x128x64.ShapeCasts S128x64
  slices_S5x64_S1x64_0_0 : S5x64.Slices ![0, 0] S1x64
  shapeCasts_S1x64_S64 : S1x64.ShapeCasts S64
  shapeCasts_S64_S1x64 : S64.ShapeCasts S1x64
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reducesTo_S100000x64_S64_d0 : S100000x64.ReducesTo [0] S64
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  slices_S5x64x128_S1x64x128_1_0_0 : S5x64x128.Slices ![1, 0, 0] S1x64x128
  slices_S5x128_S1x128_1_0 : S5x128.Slices ![1, 0] S1x128
  slices_S5x128x64_S1x128x64_1_0_0 : S5x128x64.Slices ![1, 0, 0] S1x128x64
  slices_S5x64_S1x64_1_0 : S5x64.Slices ![1, 0] S1x64
  slices_S5x64x128_S1x64x128_2_0_0 : S5x64x128.Slices ![2, 0, 0] S1x64x128
  slices_S5x128_S1x128_2_0 : S5x128.Slices ![2, 0] S1x128
  slices_S5x128x64_S1x128x64_2_0_0 : S5x128x64.Slices ![2, 0, 0] S1x128x64
  slices_S5x64_S1x64_2_0 : S5x64.Slices ![2, 0] S1x64
  slices_S5x64x128_S1x64x128_3_0_0 : S5x64x128.Slices ![3, 0, 0] S1x64x128
  slices_S5x128_S1x128_3_0 : S5x128.Slices ![3, 0] S1x128
  slices_S5x128x64_S1x128x64_3_0_0 : S5x128x64.Slices ![3, 0, 0] S1x128x64
  slices_S5x64_S1x64_3_0 : S5x64.Slices ![3, 0] S1x64
  slices_S5x64x128_S1x64x128_4_0_0 : S5x64x128.Slices ![4, 0, 0] S1x64x128
  slices_S5x128_S1x128_4_0 : S5x128.Slices ![4, 0] S1x128
  slices_S5x128x64_S1x128x64_4_0_0 : S5x128x64.Slices ![4, 0, 0] S1x128x64
  slices_S5x64_S1x64_4_0 : S5x64.Slices ![4, 0] S1x64
  shapeCasts_S100000_S100000x1 : S100000.ShapeCasts S100000x1
  inb_S256x64_S256x64_0_0 : ∀ a, (![0, 0] : Fin 2 → Nat) a + S256x64.size a ≤ S256x64.size a
  h_S256x64 : 0 < S256x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x256_d1_w32 : S10000x256.Iotas .tc 32 [1]
  broadcasts_S10000x1_S10000x256 : S10000x1.Broadcasts S10000x256
  natLt_1_32 : 1 < 32
  shapeCasts_S256x64_S256x64 : S256x64.ShapeCasts S256x64
  gather_S119x64_S100000x1_S100000x64_1_0_n_n_0_1_164_wf : GatherDims.WF S119x64 S100000x1 S100000x64 [1] [0] [] [0] [] 1 ![1, 64]
  gather_S5x64_S800000x1_S800000x64_1_0_n_n_0_1_164_wf : GatherDims.WF S5x64 S800000x1 S800000x64 [1] [0] [] [0] [] 1 ![1, 64]
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S10000x64_S64x128_S10000x128_1_0_0_1_n_n_wf : DotDims.WF S10000x64 S64x128 S10000x128 [1] [0] [0] [1] [] []
  dot_S10000x128_S128x64_S10000x64_1_0_0_1_n_n_wf : DotDims.WF S10000x128 S128x64 S10000x64 [1] [0] [0] [1] [] []
  dot_S10000x256_S10000x64_S256x64_0_0_1_1_n_n_wf : DotDims.WF S10000x256 S10000x64 S256x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .f32 = 32 ∨ (Rect.block (s := S100000x128) S10000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S100000x64.size a
  hwx1_7 : ∀ i : grid1.Coords, EltTy.bits .f32 = 32 ∨ (Rect.block (s := S100000x64) S10000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x128.size a ≤ S100000x128.size a
  hwx3_4 : ∀ i : grid3.Coords, EltTy.bits .f32 = 32 ∨ (Rect.block (s := S100000x128) S10000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x64.size a ≤ S128x64.size a
  hwx4_5 : ∀ i : grid4.Coords, EltTy.bits .f32 = 32 ∨ (Rect.block (s := S128x64) S128x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S10000x64.size a ≤ S100000x64.size a
  hwx4_7 : ∀ i : grid4.Coords, EltTy.bits .f32 = 32 ∨ (Rect.block (s := S100000x64) S10000x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S100000x64.size a
  hwx5_5 : ∀ i : grid5.Coords, EltTy.bits .f32 = 32 ∨ (Rect.block (s := S100000x64) S10000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S100000x64.size a
  hwx6_1 : ∀ i : grid6.Coords, EltTy.bits .f32 = 32 ∨ (Rect.block (s := S100000x64) S10000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x128.size a ≤ S64x128.size a
  hwx6_2 : ∀ i : grid6.Coords, EltTy.bits .f32 = 32 ∨ (Rect.block (s := S64x128) S64x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S10000x128.size a ≤ S100000x128.size a
  hwx6_4 : ∀ i : grid6.Coords, EltTy.bits .f32 = 32 ∨ (Rect.block (s := S100000x128) S10000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S100000x128.size a
  hwx7_0 : ∀ i : grid7.Coords, EltTy.bits .f32 = 32 ∨ (Rect.block (s := S100000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x64.size a ≤ S128x64.size a
  hwx7_5 : ∀ i : grid7.Coords, EltTy.bits .f32 = 32 ∨ (Rect.block (s := S128x64) S128x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x64.size a ≤ S1x64.size a
  hwx7_6 : ∀ i : grid7.Coords, EltTy.bits .f32 = 32 ∨ (Rect.block (s := S1x64) S1x64.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S10000x64.size a ≤ S100000x64.size a
  hwx7_7 : ∀ i : grid7.Coords, EltTy.bits .f32 = 32 ∨ (Rect.block (s := S100000x64) S10000x64.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x64.size a ≤ S100000x64.size a
  hwx8_5 : ∀ i : grid8.Coords, EltTy.bits .f32 = 32 ∨ (Rect.block (s := S100000x64) S10000x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S10000x64.size a ≤ S100000x64.size a
  hwx9_1 : ∀ i : grid9.Coords, EltTy.bits .f32 = 32 ∨ (Rect.block (s := S100000x64) S10000x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64x128.size a ≤ S64x128.size a
  hwx9_2 : ∀ i : grid9.Coords, EltTy.bits .f32 = 32 ∨ (Rect.block (s := S64x128) S64x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S10000x128.size a ≤ S100000x128.size a
  hwx9_4 : ∀ i : grid9.Coords, EltTy.bits .f32 = 32 ∨ (Rect.block (s := S100000x128) S10000x128.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x128.size a ≤ S100000x128.size a
  hwx10_0 : ∀ i : grid10.Coords, EltTy.bits .f32 = 32 ∨ (Rect.block (s := S100000x128) S10000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S128x64.size a ≤ S128x64.size a
  hwx10_5 : ∀ i : grid10.Coords, EltTy.bits .f32 = 32 ∨ (Rect.block (s := S128x64) S128x64.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x64.size a ≤ S1x64.size a
  hwx10_6 : ∀ i : grid10.Coords, EltTy.bits .f32 = 32 ∨ (Rect.block (s := S1x64) S1x64.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S10000x64.size a ≤ S100000x64.size a
  hwx10_7 : ∀ i : grid10.Coords, EltTy.bits .f32 = 32 ∨ (Rect.block (s := S100000x64) S10000x64.size (cc10_transform_7 i) (hinb10_7 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x64.size a ≤ S100000x64.size a
  hwx11_0 : ∀ i : grid11.Coords, EltTy.bits .f32 = 32 ∨ (Rect.block (s := S100000x64) S10000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S10000x64.size a ≤ S100000x64.size a
  hwx11_5 : ∀ i : grid11.Coords, EltTy.bits .f32 = 32 ∨ (Rect.block (s := S100000x64) S10000x64.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x64.size a ≤ S100000x64.size a
  hwx12_0 : ∀ i : grid12.Coords, EltTy.bits .f32 = 32 ∨ (Rect.block (s := S100000x64) S10000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S10000x64.size a ≤ S100000x64.size a
  hwx12_1 : ∀ i : grid12.Coords, EltTy.bits .f32 = 32 ∨ (Rect.block (s := S100000x64) S10000x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S64x128.size a ≤ S64x128.size a
  hwx12_2 : ∀ i : grid12.Coords, EltTy.bits .f32 = 32 ∨ (Rect.block (s := S64x128) S64x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S10000x128.size a ≤ S100000x128.size a
  hwx12_4 : ∀ i : grid12.Coords, EltTy.bits .f32 = 32 ∨ (Rect.block (s := S100000x128) S10000x128.size (cc12_transform_4 i) (hinb12_4 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S10000x128.size a ≤ S100000x128.size a
  hwx13_0 : ∀ i : grid13.Coords, EltTy.bits .f32 = 32 ∨ (Rect.block (s := S100000x128) S10000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x128.size a ≤ S1x128.size a
  hwx13_4 : ∀ i : grid13.Coords, EltTy.bits .f32 = 32 ∨ (Rect.block (s := S1x128) S1x128.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S128x64.size a ≤ S128x64.size a
  hwx13_5 : ∀ i : grid13.Coords, EltTy.bits .f32 = 32 ∨ (Rect.block (s := S128x64) S128x64.size (cc13_transform_5 i) (hinb13_5 i)).WholeWords (EltTy.packing .f32)
  hstage13_6 : ∀ j, (stage13_6 j).IsWhole
  nbuf13_6 : grid13.bufCount reads13_6 true = 1
  hreads13_6 : ∀ i i' : grid13.Coords, (∀ a, reads13_6 a = true → i a = i' a) → cc13_transform_6 i = cc13_transform_6 i'
  hinb13_6 : ∀ (i : grid13.Coords) a, (cc13_transform_6 i a + 1) * S1x64.size a ≤ S1x64.size a
  hwx13_6 : ∀ i : grid13.Coords, EltTy.bits .f32 = 32 ∨ (Rect.block (s := S1x64) S1x64.size (cc13_transform_6 i) (hinb13_6 i)).WholeWords (EltTy.packing .f32)
  hstage13_7 : ∀ j, (stage13_7 j).IsWhole
  nbuf13_7 : grid13.bufCount reads13_7 false = 2
  hreads13_7 : ∀ i i' : grid13.Coords, (∀ a, reads13_7 a = true → i a = i' a) → cc13_transform_7 i = cc13_transform_7 i'
  hinb13_7 : ∀ (i : grid13.Coords) a, (cc13_transform_7 i a + 1) * S10000x64.size a ≤ S100000x64.size a
  hwx13_7 : ∀ i : grid13.Coords, EltTy.bits .f32 = 32 ∨ (Rect.block (s := S100000x64) S10000x64.size (cc13_transform_7 i) (hinb13_7 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S10000x64.size a ≤ S100000x64.size a
  hwx14_0 : ∀ i : grid14.Coords, EltTy.bits .f32 = 32 ∨ (Rect.block (s := S100000x64) S10000x64.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x64.size a ≤ S1x64.size a
  hwx14_1 : ∀ i : grid14.Coords, EltTy.bits .f32 = 32 ∨ (Rect.block (s := S1x64) S1x64.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x64.size a ≤ S1x64.size a
  hwx14_2 : ∀ i : grid14.Coords, EltTy.bits .f32 = 32 ∨ (Rect.block (s := S1x64) S1x64.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x64.size a ≤ S1x64.size a
  hwx14_3 : ∀ i : grid14.Coords, EltTy.bits .f32 = 32 ∨ (Rect.block (s := S1x64) S1x64.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x64.size a ≤ S1x64.size a
  hwx14_4 : ∀ i : grid14.Coords, EltTy.bits .f32 = 32 ∨ (Rect.block (s := S1x64) S1x64.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S10000x64.size a ≤ S100000x64.size a
  hwx14_5 : ∀ i : grid14.Coords, EltTy.bits .f32 = 32 ∨ (Rect.block (s := S100000x64) S10000x64.size (cc14_transform_5 i) (hinb14_5 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S10000x1.size a ≤ S100000x1.size a
  hwx15_0 : ∀ i : grid15.Coords, EltTy.bits .i32 = 32 ∨ (Rect.block (s := S100000x1) S10000x1.size (cc15_transform_0 i) (hinb15_0 i)).WholeWords (EltTy.packing .i32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S10000x64.size a ≤ S100000x64.size a
  hwx15_1 : ∀ i : grid15.Coords, EltTy.bits .f32 = 32 ∨ (Rect.block (s := S100000x64) S10000x64.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S256x64.size a ≤ S256x64.size a
  hwx15_2 : ∀ i : grid15.Coords, EltTy.bits .f32 = 32 ∨ (Rect.block (s := S256x64) S256x64.size (cc15_transform_2 i) (hinb15_2 i)).WholeWords (EltTy.packing .f32)

variable [Facts₀]

def gather_S119x64_S100000x1_S100000x64_1_0_n_n_0_1_164 : GatherDims S119x64 S100000x1 S100000x64 where
  offsetDims := [1]
  collapsedSliceDims := [0]
  operandBatchingDims := []
  startIndicesBatchingDims := []
  startIndexMap := [0]
  indexVectorDim := 1
  sliceSizes := ![1, 64]
  wf := gather_S119x64_S100000x1_S100000x64_1_0_n_n_0_1_164_wf
def gather_S5x64_S800000x1_S800000x64_1_0_n_n_0_1_164 : GatherDims S5x64 S800000x1 S800000x64 where
  offsetDims := [1]
  collapsedSliceDims := [0]
  operandBatchingDims := []
  startIndicesBatchingDims := []
  startIndexMap := [0]
  indexVectorDim := 1
  sliceSizes := ![1, 64]
  wf := gather_S5x64_S800000x1_S800000x64_1_0_n_n_0_1_164_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x256_S10000x64_S256x64_0_0_1_1_n_n : DotDims S10000x256 S10000x64 S256x64 where
  lhsContracting := [0]
  rhsContracting := [0]
  lhsNonContracting := [1]
  rhsNonContracting := [1]
  lhsBatch := []
  rhsBatch := []
  wf := dot_S10000x256_S10000x64_S256x64_0_0_1_1_n_n_wf

abbrev win0_0 : Pipeline.Window sig grid0 :=
  Pipeline.Window.ofSpec (Memref.whole main_v7) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v37) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v53) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v54) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v54) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v78) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v80) S64x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v83) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v84) S10000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v84) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v88) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v89) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v98) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v99) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v95) S128x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v100) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v101) S10000x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v101) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v105) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v106) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v111) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v112) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v113) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v113) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v125) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v127) S64x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v130) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v131) S10000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v131) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v135) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v136) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v145) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v146) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v142) S128x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v147) S1x64.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v148) S10000x64.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v148) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v152) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v153) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v158) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v159) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v160) S10000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v160) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v172) S10000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v174) S64x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v177) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v178) S10000x128.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v178) S10000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v182) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v183) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v192) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v193) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v189) S128x64.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v194) S1x64.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v195) S10000x64.size cc10_transform_7 reads10_7 true false 2 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev win11_0 : Pipeline.Window sig grid11 :=
  Pipeline.Window.ofSpec (Memref.whole main_v195) S10000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v199) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v200) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v205) S1x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v206) S1x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v207) S10000x64.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v207) S10000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v219) S10000x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v221) S64x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v224) S1x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v225) S10000x128.size cc12_transform_4 reads12_4 true false 2 stage12_4 sem12_4
    hrank12 hreads12_4 hinb12_4 nbuf12_4 (Memref.isWhole_whole _) hwx12_4 hstage12_4

abbrev win12 : Fin 5 → Pipeline.Window sig grid12 := fun | 0 => win12_0 | 1 => win12_1 | 2 => win12_2 | 3 => win12_3 | 4 => win12_4 | ⟨_ + 5, h⟩ => absurd h (Nat.not_lt.2 (Nat.le_add_left _ _))
abbrev spec12 : Fin 5 → Pipeline.WinSpec sig grid12.rank := fun w => (win12 w).toWinSpec

abbrev win13_0 : Pipeline.Window sig grid13 :=
  Pipeline.Window.ofSpec (Memref.whole main_v225) S10000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v229) S1x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v230) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v239) S1x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v240) S1x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v236) S128x64.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v241) S1x64.size cc13_transform_6 reads13_6 false true 1 stage13_6 sem13_6
    hrank13 hreads13_6 hinb13_6 nbuf13_6 (Memref.isWhole_whole _) hwx13_6 hstage13_6

abbrev win13_7 : Pipeline.Window sig grid13 :=
  Pipeline.Window.ofSpec (Memref.whole main_v242) S10000x64.size cc13_transform_7 reads13_7 true false 2 stage13_7 sem13_7
    hrank13 hreads13_7 hinb13_7 nbuf13_7 (Memref.isWhole_whole _) hwx13_7 hstage13_7

abbrev win13 : Fin 8 → Pipeline.Window sig grid13 := fun | 0 => win13_0 | 1 => win13_1 | 2 => win13_2 | 3 => win13_3 | 4 => win13_4 | 5 => win13_5 | 6 => win13_6 | 7 => win13_7 | ⟨_ + 8, h⟩ => absurd h (Nat.not_lt.2 (Nat.le_add_left _ _))
abbrev spec13 : Fin 8 → Pipeline.WinSpec sig grid13.rank := fun w => (win13 w).toWinSpec

abbrev win14_0 : Pipeline.Window sig grid14 :=
  Pipeline.Window.ofSpec (Memref.whole main_v242) S10000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v246) S1x64.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v247) S1x64.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v252) S1x64.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v253) S1x64.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v254) S10000x64.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v255) S10000x1.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v254) S10000x64.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v256) S256x64.size cc15_transform_2 reads15_2 true true 1 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

class Facts : Prop extends Facts₀ where

variable [Facts]
-- ==== ReferenceIdeal.lean ====
abbrev S100000 : Shape := ⟨1, ![100000]⟩
abbrev S100000x1 : Shape := ⟨2, ![100000, 1]⟩
abbrev S2x800000 : Shape := ⟨2, ![2, 800000]⟩
abbrev S800000x1 : Shape := ⟨2, ![800000, 1]⟩
abbrev S119x64 : Shape := ⟨2, ![119, 64]⟩
abbrev S5x64 : Shape := ⟨2, ![5, 64]⟩
abbrev S5x64x128 : Shape := ⟨3, ![5, 64, 128]⟩
abbrev S5x128 : Shape := ⟨2, ![5, 128]⟩
abbrev S5x128x64 : Shape := ⟨3, ![5, 128, 64]⟩
abbrev S_ : Shape := ⟨0, ![]⟩
abbrev S100000x64 : Shape := ⟨2, ![100000, 64]⟩
abbrev S800000 : Shape := ⟨1, ![800000]⟩
abbrev S800000x64 : Shape := ⟨2, ![800000, 64]⟩
abbrev S1x800000 : Shape := ⟨2, ![1, 800000]⟩
abbrev S1x64x128 : Shape := ⟨3, ![1, 64, 128]⟩
abbrev S64x128 : Shape := ⟨2, ![64, 128]⟩
abbrev S100000x128 : Shape := ⟨2, ![100000, 128]⟩
abbrev S1x128 : Shape := ⟨2, ![1, 128]⟩
abbrev S128 : Shape := ⟨1, ![128]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S256x64 : Shape := ⟨2, ![256, 64]⟩

abbrev nBuf : Space → Nat
  | .hbm => 719
  | .vmem => 0
  | .smem => 0
  | _ => 0

abbrev hbmTy0_0 (i : Nat) : BufTy := match i % 128 with
  | 0 => ⟨S100000, .i32⟩
  | 1 => ⟨S100000x1, .i32⟩
  | 2 => ⟨S2x800000, .i32⟩
  | 3 => ⟨S800000x1, .i32⟩
  | 4 => ⟨S119x64, .f32⟩
  | 5 => ⟨S5x64, .f32⟩
  | 6 => ⟨S5x64x128, .f32⟩
  | 7 => ⟨S5x128, .f32⟩
  | 8 => ⟨S5x128, .f32⟩
  | 9 => ⟨S5x128, .f32⟩
  | 10 => ⟨S5x128x64, .f32⟩
  | 11 => ⟨S5x64, .f32⟩
  | 12 => ⟨S5x64, .f32⟩
  | 13 => ⟨S5x64, .f32⟩
  | 14 => ⟨S100000, .i32⟩
  | 15 => ⟨S_, .i32⟩
  | 16 => ⟨S100000, .i32⟩
  | 17 => ⟨S100000, .i1⟩
  | 18 => ⟨S_, .i32⟩
  | 19 => ⟨S100000, .i32⟩
  | 20 => ⟨S100000, .i32⟩
  | 21 => ⟨S100000, .i32⟩
  | 22 => ⟨S100000x1, .i32⟩
  | 23 => ⟨S100000x64, .f32⟩
  | 24 => ⟨S800000, .i32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x64, .f32⟩
  | 34 => ⟨S1x800000, .i32⟩
  | 35 => ⟨S800000, .i32⟩
  | 36 => ⟨S1x800000, .i32⟩
  | 37 => ⟨S800000, .i32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x64, .f32⟩
  | 47 => ⟨S800000x64, .f32⟩
  | 48 => ⟨S_, .f32⟩
  | 49 => ⟨S800000x64, .f32⟩
  | 50 => ⟨S800000x64, .f32⟩
  | 51 => ⟨S_, .f32⟩
  | 52 => ⟨S100000x64, .f32⟩
  | 53 => ⟨S800000x1, .i32⟩
  | 54 => ⟨S100000x64, .f32⟩
  | 55 => ⟨S100000x64, .f32⟩
  | 56 => ⟨S1x64x128, .f32⟩
  | 57 => ⟨S64x128, .f32⟩
  | 58 => ⟨S100000x128, .f32⟩
  | 59 => ⟨S1x128, .f32⟩
  | 60 => ⟨S128, .f32⟩
  | 61 => ⟨S1x128, .f32⟩
  | 62 => ⟨S100000x128, .f32⟩
  | 63 => ⟨S100000x128, .f32⟩
  | 64 => ⟨S1x128, .f32⟩
  | 65 => ⟨S128, .f32⟩
  | 66 => ⟨S1x128, .f32⟩
  | 67 => ⟨S128, .f32⟩
  | 68 => ⟨S_, .f32⟩
  | 69 => ⟨S128, .f32⟩
  | 70 => ⟨S_, .f32⟩
  | 71 => ⟨S128, .f32⟩
  | 72 => ⟨S128, .f32⟩
  | 73 => ⟨S_, .i32⟩
  | 74 => ⟨S_, .f32⟩
  | 75 => ⟨S128, .f32⟩
  | 76 => ⟨S1x128, .f32⟩
  | 77 => ⟨S_, .f32⟩
  | 78 => ⟨S1x128, .f32⟩
  | 79 => ⟨S1x128, .f32⟩
  | 80 => ⟨S100000x128, .f32⟩
  | 81 => ⟨S100000x128, .f32⟩
  | 82 => ⟨S100000x128, .f32⟩
  | 83 => ⟨S_, .f32⟩
  | 84 => ⟨S_, .f32⟩
  | 85 => ⟨S_, .f32⟩
  | 86 => ⟨S_, .f32⟩
  | 87 => ⟨S128, .f32⟩
  | 88 => ⟨S128, .f32⟩
  | 89 => ⟨S128, .f32⟩
  | 90 => ⟨S_, .f32⟩
  | 91 => ⟨S_, .i1⟩
  | 92 => ⟨S_, .f32⟩
  | 93 => ⟨S_, .f32⟩
  | 94 => ⟨S128, .f32⟩
  | 95 => ⟨S128, .f32⟩
  | 96 => ⟨S1x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S128, .f32⟩
  | 104 => ⟨S128, .f32⟩
  | 105 => ⟨S128, .f32⟩
  | 106 => ⟨S1x128, .f32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S1x128x64, .f32⟩
  | 116 => ⟨S128x64, .f32⟩
  | 117 => ⟨S100000x64, .f32⟩
  | 118 => ⟨S1x64, .f32⟩
  | 119 => ⟨S64, .f32⟩
  | 120 => ⟨S1x64, .f32⟩
  | 121 => ⟨S100000x64, .f32⟩
  | 122 => ⟨S100000x64, .f32⟩
  | 123 => ⟨S1x64, .f32⟩
  | 124 => ⟨S64, .f32⟩
  | 125 => ⟨S1x64, .f32⟩
  | 126 => ⟨S64, .f32⟩
  | 127 => ⟨S_, .f32⟩
  | _ => ⟨S100000, .i32⟩

abbrev hbmTy0_1 (i : Nat) : BufTy := match i % 128 with
  | 0 => ⟨S64, .f32⟩
  | 1 => ⟨S_, .f32⟩
  | 2 => ⟨S64, .f32⟩
  | 3 => ⟨S64, .f32⟩
  | 4 => ⟨S_, .i32⟩
  | 5 => ⟨S_, .f32⟩
  | 6 => ⟨S64, .f32⟩
  | 7 => ⟨S1x64, .f32⟩
  | 8 => ⟨S_, .f32⟩
  | 9 => ⟨S1x64, .f32⟩
  | 10 => ⟨S1x64, .f32⟩
  | 11 => ⟨S100000x64, .f32⟩
  | 12 => ⟨S100000x64, .f32⟩
  | 13 => ⟨S100000x64, .f32⟩
  | 14 => ⟨S_, .f32⟩
  | 15 => ⟨S_, .f32⟩
  | 16 => ⟨S_, .f32⟩
  | 17 => ⟨S_, .f32⟩
  | 18 => ⟨S64, .f32⟩
  | 19 => ⟨S64, .f32⟩
  | 20 => ⟨S64, .f32⟩
  | 21 => ⟨S_, .f32⟩
  | 22 => ⟨S_, .i1⟩
  | 23 => ⟨S_, .f32⟩
  | 24 => ⟨S_, .f32⟩
  | 25 => ⟨S64, .f32⟩
  | 26 => ⟨S64, .f32⟩
  | 27 => ⟨S1x64, .f32⟩
  | 28 => ⟨S100000x64, .f32⟩
  | 29 => ⟨S100000x64, .f32⟩
  | 30 => ⟨S1x64, .f32⟩
  | 31 => ⟨S100000x64, .f32⟩
  | 32 => ⟨S100000x64, .f32⟩
  | 33 => ⟨S_, .f32⟩
  | 34 => ⟨S64, .f32⟩
  | 35 => ⟨S64, .f32⟩
  | 36 => ⟨S64, .f32⟩
  | 37 => ⟨S1x64, .f32⟩
  | 38 => ⟨S100000x64, .f32⟩
  | 39 => ⟨S100000x64, .f32⟩
  | 40 => ⟨S1x64, .f32⟩
  | 41 => ⟨S100000x64, .f32⟩
  | 42 => ⟨S100000x64, .f32⟩
  | 43 => ⟨S_, .f32⟩
  | 44 => ⟨S100000x64, .f32⟩
  | 45 => ⟨S100000x64, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x64, .f32⟩
  | 55 => ⟨S800000x64, .f32⟩
  | 56 => ⟨S_, .f32⟩
  | 57 => ⟨S800000x64, .f32⟩
  | 58 => ⟨S800000x64, .f32⟩
  | 59 => ⟨S_, .f32⟩
  | 60 => ⟨S100000x64, .f32⟩
  | 61 => ⟨S800000x1, .i32⟩
  | 62 => ⟨S100000x64, .f32⟩
  | 63 => ⟨S100000x64, .f32⟩
  | 64 => ⟨S1x64x128, .f32⟩
  | 65 => ⟨S64x128, .f32⟩
  | 66 => ⟨S100000x128, .f32⟩
  | 67 => ⟨S1x128, .f32⟩
  | 68 => ⟨S128, .f32⟩
  | 69 => ⟨S1x128, .f32⟩
  | 70 => ⟨S100000x128, .f32⟩
  | 71 => ⟨S100000x128, .f32⟩
  | 72 => ⟨S1x128, .f32⟩
  | 73 => ⟨S128, .f32⟩
  | 74 => ⟨S1x128, .f32⟩
  | 75 => ⟨S128, .f32⟩
  | 76 => ⟨S_, .f32⟩
  | 77 => ⟨S128, .f32⟩
  | 78 => ⟨S_, .f32⟩
  | 79 => ⟨S128, .f32⟩
  | 80 => ⟨S128, .f32⟩
  | 81 => ⟨S_, .i32⟩
  | 82 => ⟨S_, .f32⟩
  | 83 => ⟨S128, .f32⟩
  | 84 => ⟨S1x128, .f32⟩
  | 85 => ⟨S_, .f32⟩
  | 86 => ⟨S1x128, .f32⟩
  | 87 => ⟨S1x128, .f32⟩
  | 88 => ⟨S100000x128, .f32⟩
  | 89 => ⟨S100000x128, .f32⟩
  | 90 => ⟨S100000x128, .f32⟩
  | 91 => ⟨S_, .f32⟩
  | 92 => ⟨S_, .f32⟩
  | 93 => ⟨S_, .f32⟩
  | 94 => ⟨S_, .f32⟩
  | 95 => ⟨S128, .f32⟩
  | 96 => ⟨S128, .f32⟩
  | 97 => ⟨S128, .f32⟩
  | 98 => ⟨S_, .f32⟩
  | 99 => ⟨S_, .i1⟩
  | 100 => ⟨S_, .f32⟩
  | 101 => ⟨S_, .f32⟩
  | 102 => ⟨S128, .f32⟩
  | 103 => ⟨S128, .f32⟩
  | 104 => ⟨S1x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S128, .f32⟩
  | 112 => ⟨S128, .f32⟩
  | 113 => ⟨S128, .f32⟩
  | 114 => ⟨S1x128, .f32⟩
  | 115 => ⟨S100000x128, .f32⟩
  | 116 => ⟨S100000x128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S1x128x64, .f32⟩
  | 124 => ⟨S128x64, .f32⟩
  | 125 => ⟨S100000x64, .f32⟩
  | 126 => ⟨S1x64, .f32⟩
  | 127 => ⟨S64, .f32⟩
  | _ => ⟨S100000, .i32⟩

abbrev hbmTy0_2 (i : Nat) : BufTy := match i % 128 with
  | 0 => ⟨S1x64, .f32⟩
  | 1 => ⟨S100000x64, .f32⟩
  | 2 => ⟨S100000x64, .f32⟩
  | 3 => ⟨S1x64, .f32⟩
  | 4 => ⟨S64, .f32⟩
  | 5 => ⟨S1x64, .f32⟩
  | 6 => ⟨S64, .f32⟩
  | 7 => ⟨S_, .f32⟩
  | 8 => ⟨S64, .f32⟩
  | 9 => ⟨S_, .f32⟩
  | 10 => ⟨S64, .f32⟩
  | 11 => ⟨S64, .f32⟩
  | 12 => ⟨S_, .i32⟩
  | 13 => ⟨S_, .f32⟩
  | 14 => ⟨S64, .f32⟩
  | 15 => ⟨S1x64, .f32⟩
  | 16 => ⟨S_, .f32⟩
  | 17 => ⟨S1x64, .f32⟩
  | 18 => ⟨S1x64, .f32⟩
  | 19 => ⟨S100000x64, .f32⟩
  | 20 => ⟨S100000x64, .f32⟩
  | 21 => ⟨S100000x64, .f32⟩
  | 22 => ⟨S_, .f32⟩
  | 23 => ⟨S_, .f32⟩
  | 24 => ⟨S_, .f32⟩
  | 25 => ⟨S_, .f32⟩
  | 26 => ⟨S64, .f32⟩
  | 27 => ⟨S64, .f32⟩
  | 28 => ⟨S64, .f32⟩
  | 29 => ⟨S_, .f32⟩
  | 30 => ⟨S_, .i1⟩
  | 31 => ⟨S_, .f32⟩
  | 32 => ⟨S_, .f32⟩
  | 33 => ⟨S64, .f32⟩
  | 34 => ⟨S64, .f32⟩
  | 35 => ⟨S1x64, .f32⟩
  | 36 => ⟨S100000x64, .f32⟩
  | 37 => ⟨S100000x64, .f32⟩
  | 38 => ⟨S1x64, .f32⟩
  | 39 => ⟨S100000x64, .f32⟩
  | 40 => ⟨S100000x64, .f32⟩
  | 41 => ⟨S_, .f32⟩
  | 42 => ⟨S64, .f32⟩
  | 43 => ⟨S64, .f32⟩
  | 44 => ⟨S64, .f32⟩
  | 45 => ⟨S1x64, .f32⟩
  | 46 => ⟨S100000x64, .f32⟩
  | 47 => ⟨S100000x64, .f32⟩
  | 48 => ⟨S1x64, .f32⟩
  | 49 => ⟨S100000x64, .f32⟩
  | 50 => ⟨S100000x64, .f32⟩
  | 51 => ⟨S_, .f32⟩
  | 52 => ⟨S100000x64, .f32⟩
  | 53 => ⟨S100000x64, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x64, .f32⟩
  | 63 => ⟨S800000x64, .f32⟩
  | 64 => ⟨S_, .f32⟩
  | 65 => ⟨S800000x64, .f32⟩
  | 66 => ⟨S800000x64, .f32⟩
  | 67 => ⟨S_, .f32⟩
  | 68 => ⟨S100000x64, .f32⟩
  | 69 => ⟨S800000x1, .i32⟩
  | 70 => ⟨S100000x64, .f32⟩
  | 71 => ⟨S100000x64, .f32⟩
  | 72 => ⟨S1x64x128, .f32⟩
  | 73 => ⟨S64x128, .f32⟩
  | 74 => ⟨S100000x128, .f32⟩
  | 75 => ⟨S1x128, .f32⟩
  | 76 => ⟨S128, .f32⟩
  | 77 => ⟨S1x128, .f32⟩
  | 78 => ⟨S100000x128, .f32⟩
  | 79 => ⟨S100000x128, .f32⟩
  | 80 => ⟨S1x128, .f32⟩
  | 81 => ⟨S128, .f32⟩
  | 82 => ⟨S1x128, .f32⟩
  | 83 => ⟨S128, .f32⟩
  | 84 => ⟨S_, .f32⟩
  | 85 => ⟨S128, .f32⟩
  | 86 => ⟨S_, .f32⟩
  | 87 => ⟨S128, .f32⟩
  | 88 => ⟨S128, .f32⟩
  | 89 => ⟨S_, .i32⟩
  | 90 => ⟨S_, .f32⟩
  | 91 => ⟨S128, .f32⟩
  | 92 => ⟨S1x128, .f32⟩
  | 93 => ⟨S_, .f32⟩
  | 94 => ⟨S1x128, .f32⟩
  | 95 => ⟨S1x128, .f32⟩
  | 96 => ⟨S100000x128, .f32⟩
  | 97 => ⟨S100000x128, .f32⟩
  | 98 => ⟨S100000x128, .f32⟩
  | 99 => ⟨S_, .f32⟩
  | 100 => ⟨S_, .f32⟩
  | 101 => ⟨S_, .f32⟩
  | 102 => ⟨S_, .f32⟩
  | 103 => ⟨S128, .f32⟩
  | 104 => ⟨S128, .f32⟩
  | 105 => ⟨S128, .f32⟩
  | 106 => ⟨S_, .f32⟩
  | 107 => ⟨S_, .i1⟩
  | 108 => ⟨S_, .f32⟩
  | 109 => ⟨S_, .f32⟩
  | 110 => ⟨S128, .f32⟩
  | 111 => ⟨S128, .f32⟩
  | 112 => ⟨S1x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S_, .f32⟩
  | 119 => ⟨S128, .f32⟩
  | 120 => ⟨S128, .f32⟩
  | 121 => ⟨S128, .f32⟩
  | 122 => ⟨S1x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000, .i32⟩

abbrev hbmTy0_3 (i : Nat) : BufTy := match i % 128 with
  | 0 => ⟨S_, .f32⟩
  | 1 => ⟨S100000x128, .f32⟩
  | 2 => ⟨S100000x128, .f32⟩
  | 3 => ⟨S1x128x64, .f32⟩
  | 4 => ⟨S128x64, .f32⟩
  | 5 => ⟨S100000x64, .f32⟩
  | 6 => ⟨S1x64, .f32⟩
  | 7 => ⟨S64, .f32⟩
  | 8 => ⟨S1x64, .f32⟩
  | 9 => ⟨S100000x64, .f32⟩
  | 10 => ⟨S100000x64, .f32⟩
  | 11 => ⟨S1x64, .f32⟩
  | 12 => ⟨S64, .f32⟩
  | 13 => ⟨S1x64, .f32⟩
  | 14 => ⟨S64, .f32⟩
  | 15 => ⟨S_, .f32⟩
  | 16 => ⟨S64, .f32⟩
  | 17 => ⟨S_, .f32⟩
  | 18 => ⟨S64, .f32⟩
  | 19 => ⟨S64, .f32⟩
  | 20 => ⟨S_, .i32⟩
  | 21 => ⟨S_, .f32⟩
  | 22 => ⟨S64, .f32⟩
  | 23 => ⟨S1x64, .f32⟩
  | 24 => ⟨S_, .f32⟩
  | 25 => ⟨S1x64, .f32⟩
  | 26 => ⟨S1x64, .f32⟩
  | 27 => ⟨S100000x64, .f32⟩
  | 28 => ⟨S100000x64, .f32⟩
  | 29 => ⟨S100000x64, .f32⟩
  | 30 => ⟨S_, .f32⟩
  | 31 => ⟨S_, .f32⟩
  | 32 => ⟨S_, .f32⟩
  | 33 => ⟨S_, .f32⟩
  | 34 => ⟨S64, .f32⟩
  | 35 => ⟨S64, .f32⟩
  | 36 => ⟨S64, .f32⟩
  | 37 => ⟨S_, .f32⟩
  | 38 => ⟨S_, .i1⟩
  | 39 => ⟨S_, .f32⟩
  | 40 => ⟨S_, .f32⟩
  | 41 => ⟨S64, .f32⟩
  | 42 => ⟨S64, .f32⟩
  | 43 => ⟨S1x64, .f32⟩
  | 44 => ⟨S100000x64, .f32⟩
  | 45 => ⟨S100000x64, .f32⟩
  | 46 => ⟨S1x64, .f32⟩
  | 47 => ⟨S100000x64, .f32⟩
  | 48 => ⟨S100000x64, .f32⟩
  | 49 => ⟨S_, .f32⟩
  | 50 => ⟨S64, .f32⟩
  | 51 => ⟨S64, .f32⟩
  | 52 => ⟨S64, .f32⟩
  | 53 => ⟨S1x64, .f32⟩
  | 54 => ⟨S100000x64, .f32⟩
  | 55 => ⟨S100000x64, .f32⟩
  | 56 => ⟨S1x64, .f32⟩
  | 57 => ⟨S100000x64, .f32⟩
  | 58 => ⟨S100000x64, .f32⟩
  | 59 => ⟨S_, .f32⟩
  | 60 => ⟨S100000x64, .f32⟩
  | 61 => ⟨S100000x64, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x64, .f32⟩
  | 71 => ⟨S800000x64, .f32⟩
  | 72 => ⟨S_, .f32⟩
  | 73 => ⟨S800000x64, .f32⟩
  | 74 => ⟨S800000x64, .f32⟩
  | 75 => ⟨S_, .f32⟩
  | 76 => ⟨S100000x64, .f32⟩
  | 77 => ⟨S800000x1, .i32⟩
  | 78 => ⟨S100000x64, .f32⟩
  | 79 => ⟨S100000x64, .f32⟩
  | 80 => ⟨S1x64x128, .f32⟩
  | 81 => ⟨S64x128, .f32⟩
  | 82 => ⟨S100000x128, .f32⟩
  | 83 => ⟨S1x128, .f32⟩
  | 84 => ⟨S128, .f32⟩
  | 85 => ⟨S1x128, .f32⟩
  | 86 => ⟨S100000x128, .f32⟩
  | 87 => ⟨S100000x128, .f32⟩
  | 88 => ⟨S1x128, .f32⟩
  | 89 => ⟨S128, .f32⟩
  | 90 => ⟨S1x128, .f32⟩
  | 91 => ⟨S128, .f32⟩
  | 92 => ⟨S_, .f32⟩
  | 93 => ⟨S128, .f32⟩
  | 94 => ⟨S_, .f32⟩
  | 95 => ⟨S128, .f32⟩
  | 96 => ⟨S128, .f32⟩
  | 97 => ⟨S_, .i32⟩
  | 98 => ⟨S_, .f32⟩
  | 99 => ⟨S128, .f32⟩
  | 100 => ⟨S1x128, .f32⟩
  | 101 => ⟨S_, .f32⟩
  | 102 => ⟨S1x128, .f32⟩
  | 103 => ⟨S1x128, .f32⟩
  | 104 => ⟨S100000x128, .f32⟩
  | 105 => ⟨S100000x128, .f32⟩
  | 106 => ⟨S100000x128, .f32⟩
  | 107 => ⟨S_, .f32⟩
  | 108 => ⟨S_, .f32⟩
  | 109 => ⟨S_, .f32⟩
  | 110 => ⟨S_, .f32⟩
  | 111 => ⟨S128, .f32⟩
  | 112 => ⟨S128, .f32⟩
  | 113 => ⟨S128, .f32⟩
  | 114 => ⟨S_, .f32⟩
  | 115 => ⟨S_, .i1⟩
  | 116 => ⟨S_, .f32⟩
  | 117 => ⟨S_, .f32⟩
  | 118 => ⟨S128, .f32⟩
  | 119 => ⟨S128, .f32⟩
  | 120 => ⟨S1x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S_, .f32⟩
  | 127 => ⟨S128, .f32⟩
  | _ => ⟨S100000, .i32⟩

abbrev hbmTy0_4 (i : Nat) : BufTy := match i % 128 with
  | 0 => ⟨S128, .f32⟩
  | 1 => ⟨S128, .f32⟩
  | 2 => ⟨S1x128, .f32⟩
  | 3 => ⟨S100000x128, .f32⟩
  | 4 => ⟨S100000x128, .f32⟩
  | 5 => ⟨S1x128, .f32⟩
  | 6 => ⟨S100000x128, .f32⟩
  | 7 => ⟨S100000x128, .f32⟩
  | 8 => ⟨S_, .f32⟩
  | 9 => ⟨S100000x128, .f32⟩
  | 10 => ⟨S100000x128, .f32⟩
  | 11 => ⟨S1x128x64, .f32⟩
  | 12 => ⟨S128x64, .f32⟩
  | 13 => ⟨S100000x64, .f32⟩
  | 14 => ⟨S1x64, .f32⟩
  | 15 => ⟨S64, .f32⟩
  | 16 => ⟨S1x64, .f32⟩
  | 17 => ⟨S100000x64, .f32⟩
  | 18 => ⟨S100000x64, .f32⟩
  | 19 => ⟨S1x64, .f32⟩
  | 20 => ⟨S64, .f32⟩
  | 21 => ⟨S1x64, .f32⟩
  | 22 => ⟨S64, .f32⟩
  | 23 => ⟨S_, .f32⟩
  | 24 => ⟨S64, .f32⟩
  | 25 => ⟨S_, .f32⟩
  | 26 => ⟨S64, .f32⟩
  | 27 => ⟨S64, .f32⟩
  | 28 => ⟨S_, .i32⟩
  | 29 => ⟨S_, .f32⟩
  | 30 => ⟨S64, .f32⟩
  | 31 => ⟨S1x64, .f32⟩
  | 32 => ⟨S_, .f32⟩
  | 33 => ⟨S1x64, .f32⟩
  | 34 => ⟨S1x64, .f32⟩
  | 35 => ⟨S100000x64, .f32⟩
  | 36 => ⟨S100000x64, .f32⟩
  | 37 => ⟨S100000x64, .f32⟩
  | 38 => ⟨S_, .f32⟩
  | 39 => ⟨S_, .f32⟩
  | 40 => ⟨S_, .f32⟩
  | 41 => ⟨S_, .f32⟩
  | 42 => ⟨S64, .f32⟩
  | 43 => ⟨S64, .f32⟩
  | 44 => ⟨S64, .f32⟩
  | 45 => ⟨S_, .f32⟩
  | 46 => ⟨S_, .i1⟩
  | 47 => ⟨S_, .f32⟩
  | 48 => ⟨S_, .f32⟩
  | 49 => ⟨S64, .f32⟩
  | 50 => ⟨S64, .f32⟩
  | 51 => ⟨S1x64, .f32⟩
  | 52 => ⟨S100000x64, .f32⟩
  | 53 => ⟨S100000x64, .f32⟩
  | 54 => ⟨S1x64, .f32⟩
  | 55 => ⟨S100000x64, .f32⟩
  | 56 => ⟨S100000x64, .f32⟩
  | 57 => ⟨S_, .f32⟩
  | 58 => ⟨S64, .f32⟩
  | 59 => ⟨S64, .f32⟩
  | 60 => ⟨S64, .f32⟩
  | 61 => ⟨S1x64, .f32⟩
  | 62 => ⟨S100000x64, .f32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x64, .f32⟩
  | 79 => ⟨S800000x64, .f32⟩
  | 80 => ⟨S_, .f32⟩
  | 81 => ⟨S800000x64, .f32⟩
  | 82 => ⟨S800000x64, .f32⟩
  | 83 => ⟨S_, .f32⟩
  | 84 => ⟨S100000x64, .f32⟩
  | 85 => ⟨S800000x1, .i32⟩
  | 86 => ⟨S100000x64, .f32⟩
  | 87 => ⟨S100000x64, .f32⟩
  | 88 => ⟨S1x64x128, .f32⟩
  | 89 => ⟨S64x128, .f32⟩
  | 90 => ⟨S100000x128, .f32⟩
  | 91 => ⟨S1x128, .f32⟩
  | 92 => ⟨S128, .f32⟩
  | 93 => ⟨S1x128, .f32⟩
  | 94 => ⟨S100000x128, .f32⟩
  | 95 => ⟨S100000x128, .f32⟩
  | 96 => ⟨S1x128, .f32⟩
  | 97 => ⟨S128, .f32⟩
  | 98 => ⟨S1x128, .f32⟩
  | 99 => ⟨S128, .f32⟩
  | 100 => ⟨S_, .f32⟩
  | 101 => ⟨S128, .f32⟩
  | 102 => ⟨S_, .f32⟩
  | 103 => ⟨S128, .f32⟩
  | 104 => ⟨S128, .f32⟩
  | 105 => ⟨S_, .i32⟩
  | 106 => ⟨S_, .f32⟩
  | 107 => ⟨S128, .f32⟩
  | 108 => ⟨S1x128, .f32⟩
  | 109 => ⟨S_, .f32⟩
  | 110 => ⟨S1x128, .f32⟩
  | 111 => ⟨S1x128, .f32⟩
  | 112 => ⟨S100000x128, .f32⟩
  | 113 => ⟨S100000x128, .f32⟩
  | 114 => ⟨S100000x128, .f32⟩
  | 115 => ⟨S_, .f32⟩
  | 116 => ⟨S_, .f32⟩
  | 117 => ⟨S_, .f32⟩
  | 118 => ⟨S_, .f32⟩
  | 119 => ⟨S128, .f32⟩
  | 120 => ⟨S128, .f32⟩
  | 121 => ⟨S128, .f32⟩
  | 122 => ⟨S_, .f32⟩
  | 123 => ⟨S_, .i1⟩
  | 124 => ⟨S_, .f32⟩
  | 125 => ⟨S_, .f32⟩
  | 126 => ⟨S128, .f32⟩
  | 127 => ⟨S128, .f32⟩
  | _ => ⟨S100000, .i32⟩

abbrev hbmTy0_5 (i : Nat) : BufTy := match i % 128 with
  | 0 => ⟨S1x128, .f32⟩
  | 1 => ⟨S100000x128, .f32⟩
  | 2 => ⟨S100000x128, .f32⟩
  | 3 => ⟨S1x128, .f32⟩
  | 4 => ⟨S100000x128, .f32⟩
  | 5 => ⟨S100000x128, .f32⟩
  | 6 => ⟨S_, .f32⟩
  | 7 => ⟨S128, .f32⟩
  | 8 => ⟨S128, .f32⟩
  | 9 => ⟨S128, .f32⟩
  | 10 => ⟨S1x128, .f32⟩
  | 11 => ⟨S100000x128, .f32⟩
  | 12 => ⟨S100000x128, .f32⟩
  | 13 => ⟨S1x128, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S1x128x64, .f32⟩
  | 20 => ⟨S128x64, .f32⟩
  | 21 => ⟨S100000x64, .f32⟩
  | 22 => ⟨S1x64, .f32⟩
  | 23 => ⟨S64, .f32⟩
  | 24 => ⟨S1x64, .f32⟩
  | 25 => ⟨S100000x64, .f32⟩
  | 26 => ⟨S100000x64, .f32⟩
  | 27 => ⟨S1x64, .f32⟩
  | 28 => ⟨S64, .f32⟩
  | 29 => ⟨S1x64, .f32⟩
  | 30 => ⟨S64, .f32⟩
  | 31 => ⟨S_, .f32⟩
  | 32 => ⟨S64, .f32⟩
  | 33 => ⟨S_, .f32⟩
  | 34 => ⟨S64, .f32⟩
  | 35 => ⟨S64, .f32⟩
  | 36 => ⟨S_, .i32⟩
  | 37 => ⟨S_, .f32⟩
  | 38 => ⟨S64, .f32⟩
  | 39 => ⟨S1x64, .f32⟩
  | 40 => ⟨S_, .f32⟩
  | 41 => ⟨S1x64, .f32⟩
  | 42 => ⟨S1x64, .f32⟩
  | 43 => ⟨S100000x64, .f32⟩
  | 44 => ⟨S100000x64, .f32⟩
  | 45 => ⟨S100000x64, .f32⟩
  | 46 => ⟨S_, .f32⟩
  | 47 => ⟨S_, .f32⟩
  | 48 => ⟨S_, .f32⟩
  | 49 => ⟨S_, .f32⟩
  | 50 => ⟨S64, .f32⟩
  | 51 => ⟨S64, .f32⟩
  | 52 => ⟨S64, .f32⟩
  | 53 => ⟨S_, .f32⟩
  | 54 => ⟨S_, .i1⟩
  | 55 => ⟨S_, .f32⟩
  | 56 => ⟨S_, .f32⟩
  | 57 => ⟨S64, .f32⟩
  | 58 => ⟨S64, .f32⟩
  | 59 => ⟨S1x64, .f32⟩
  | 60 => ⟨S100000x64, .f32⟩
  | 61 => ⟨S100000x64, .f32⟩
  | 62 => ⟨S1x64, .f32⟩
  | 63 => ⟨S100000x64, .f32⟩
  | 64 => ⟨S100000x64, .f32⟩
  | 65 => ⟨S_, .f32⟩
  | 66 => ⟨S64, .f32⟩
  | 67 => ⟨S64, .f32⟩
  | 68 => ⟨S64, .f32⟩
  | 69 => ⟨S1x64, .f32⟩
  | 70 => ⟨S100000x64, .f32⟩
  | 71 => ⟨S100000x64, .f32⟩
  | 72 => ⟨S1x64, .f32⟩
  | 73 => ⟨S100000x64, .f32⟩
  | 74 => ⟨S100000x64, .f32⟩
  | 75 => ⟨S_, .f32⟩
  | 76 => ⟨S256x64, .f32⟩
  | 77 => ⟨S100000x1, .i32⟩
  | 78 => ⟨S256x64, .f32⟩
  | _ => ⟨S100000, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c_1 : Ref sig .tc := ⟨.hbm, 25, rfl⟩
abbrev main_v9 : Ref sig .tc := ⟨.hbm, 26, rfl⟩
abbrev main_v10 : Ref sig .tc := ⟨.hbm, 27, rfl⟩
abbrev main_c_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call0_cst : Ref sig .tc := ⟨.hbm, 48, rfl⟩
abbrev main_call0_v0 : Ref sig .tc := ⟨.hbm, 49, rfl⟩
abbrev main_v28 : Ref sig .tc := ⟨.hbm, 50, rfl⟩
abbrev main_cst : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_5 : Ref sig .tc := ⟨.hbm, 68, rfl⟩
abbrev main_v45 : Ref sig .tc := ⟨.hbm, 69, rfl⟩
abbrev main_cst_6 : Ref sig .tc := ⟨.hbm, 70, rfl⟩
abbrev main_v46 : Ref sig .tc := ⟨.hbm, 71, rfl⟩
abbrev main_v47 : Ref sig .tc := ⟨.hbm, 72, rfl⟩
abbrev main_c_7 : Ref sig .tc := ⟨.hbm, 73, rfl⟩
abbrev main_call1_cst : Ref sig .tc := ⟨.hbm, 74, rfl⟩
abbrev main_call1_v0 : Ref sig .tc := ⟨.hbm, 75, rfl⟩
abbrev main_call1_v1 : Ref sig .tc := ⟨.hbm, 76, rfl⟩
abbrev main_call1_cst_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_cst_1 : Ref sig .tc := ⟨.hbm, 84, rfl⟩
abbrev main_call1_v8 : Ref sig .tc := ⟨.hbm, 85, rfl⟩
abbrev main_call1_cst_2 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_cst_3 : Ref sig .tc := ⟨.hbm, 90, rfl⟩
abbrev main_call1_v12 : Ref sig .tc := ⟨.hbm, 91, rfl⟩
abbrev main_call1_cst_4 : Ref sig .tc := ⟨.hbm, 92, rfl⟩
abbrev main_call1_call0_v0 : Ref sig .tc := ⟨.hbm, 93, rfl⟩
abbrev main_call1_call0_v1 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_cst_8 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_call2_cst : Ref sig .tc := ⟨.hbm, 112, rfl⟩
abbrev main_call2_v0 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_cst_9 : Ref sig .tc := ⟨.hbm, 127, rfl⟩
abbrev main_v77 : Ref sig .tc := ⟨.hbm, 128, rfl⟩
abbrev main_cst_10 : Ref sig .tc := ⟨.hbm, 129, rfl⟩
abbrev main_v78 : Ref sig .tc := ⟨.hbm, 130, rfl⟩
abbrev main_v79 : Ref sig .tc := ⟨.hbm, 131, rfl⟩
abbrev main_c_11 : Ref sig .tc := ⟨.hbm, 132, rfl⟩
abbrev main_call3_cst : Ref sig .tc := ⟨.hbm, 133, rfl⟩
abbrev main_call3_v0 : Ref sig .tc := ⟨.hbm, 134, rfl⟩
abbrev main_call3_v1 : Ref sig .tc := ⟨.hbm, 135, rfl⟩
abbrev main_call3_cst_0 : Ref sig .tc := ⟨.hbm, 136, rfl⟩
abbrev main_call3_v2 : Ref sig .tc := ⟨.hbm, 137, rfl⟩
abbrev main_call3_v3 : Ref sig .tc := ⟨.hbm, 138, rfl⟩
abbrev main_call3_v4 : Ref sig .tc := ⟨.hbm, 139, rfl⟩
abbrev main_call3_v5 : Ref sig .tc := ⟨.hbm, 140, rfl⟩
abbrev main_call3_v6 : Ref sig .tc := ⟨.hbm, 141, rfl⟩
abbrev main_call3_v7 : Ref sig .tc := ⟨.hbm, 142, rfl⟩
abbrev main_call3_cst_1 : Ref sig .tc := ⟨.hbm, 143, rfl⟩
abbrev main_call3_v8 : Ref sig .tc := ⟨.hbm, 144, rfl⟩
abbrev main_call3_cst_2 : Ref sig .tc := ⟨.hbm, 145, rfl⟩
abbrev main_call3_v9 : Ref sig .tc := ⟨.hbm, 146, rfl⟩
abbrev main_call3_v10 : Ref sig .tc := ⟨.hbm, 147, rfl⟩
abbrev main_call3_v11 : Ref sig .tc := ⟨.hbm, 148, rfl⟩
abbrev main_call3_cst_3 : Ref sig .tc := ⟨.hbm, 149, rfl⟩
abbrev main_call3_v12 : Ref sig .tc := ⟨.hbm, 150, rfl⟩
abbrev main_call3_cst_4 : Ref sig .tc := ⟨.hbm, 151, rfl⟩
abbrev main_call3_call0_v0 : Ref sig .tc := ⟨.hbm, 152, rfl⟩
abbrev main_call3_call0_v1 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_cst_12 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_call4_cst : Ref sig .tc := ⟨.hbm, 171, rfl⟩
abbrev main_call4_v0 : Ref sig .tc := ⟨.hbm, 172, rfl⟩
abbrev main_v96 : Ref sig .tc := ⟨.hbm, 173, rfl⟩
abbrev main_c_13 : Ref sig .tc := ⟨.hbm, 174, rfl⟩
abbrev main_v97 : Ref sig .tc := ⟨.hbm, 175, rfl⟩
abbrev main_v98 : Ref sig .tc := ⟨.hbm, 176, rfl⟩
abbrev main_c_14 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_call5_cst : Ref sig .tc := ⟨.hbm, 184, rfl⟩
abbrev main_call5_v0 : Ref sig .tc := ⟨.hbm, 185, rfl⟩
abbrev main_v105 : Ref sig .tc := ⟨.hbm, 186, rfl⟩
abbrev main_cst_15 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_cst_16 : Ref sig .tc := ⟨.hbm, 204, rfl⟩
abbrev main_v122 : Ref sig .tc := ⟨.hbm, 205, rfl⟩
abbrev main_cst_17 : Ref sig .tc := ⟨.hbm, 206, rfl⟩
abbrev main_v123 : Ref sig .tc := ⟨.hbm, 207, rfl⟩
abbrev main_v124 : Ref sig .tc := ⟨.hbm, 208, rfl⟩
abbrev main_c_18 : Ref sig .tc := ⟨.hbm, 209, rfl⟩
abbrev main_call6_cst : Ref sig .tc := ⟨.hbm, 210, rfl⟩
abbrev main_call6_v0 : Ref sig .tc := ⟨.hbm, 211, rfl⟩
abbrev main_call6_v1 : Ref sig .tc := ⟨.hbm, 212, rfl⟩
abbrev main_call6_cst_0 : Ref sig .tc := ⟨.hbm, 213, rfl⟩
abbrev main_call6_v2 : Ref sig .tc := ⟨.hbm, 214, rfl⟩
abbrev main_call6_v3 : Ref sig .tc := ⟨.hbm, 215, rfl⟩
abbrev main_call6_v4 : Ref sig .tc := ⟨.hbm, 216, rfl⟩
abbrev main_call6_v5 : Ref sig .tc := ⟨.hbm, 217, rfl⟩
abbrev main_call6_v6 : Ref sig .tc := ⟨.hbm, 218, rfl⟩
abbrev main_call6_v7 : Ref sig .tc := ⟨.hbm, 219, rfl⟩
abbrev main_call6_cst_1 : Ref sig .tc := ⟨.hbm, 220, rfl⟩
abbrev main_call6_v8 : Ref sig .tc := ⟨.hbm, 221, rfl⟩
abbrev main_call6_cst_2 : Ref sig .tc := ⟨.hbm, 222, rfl⟩
abbrev main_call6_v9 : Ref sig .tc := ⟨.hbm, 223, rfl⟩
abbrev main_call6_v10 : Ref sig .tc := ⟨.hbm, 224, rfl⟩
abbrev main_call6_v11 : Ref sig .tc := ⟨.hbm, 225, rfl⟩
abbrev main_call6_cst_3 : Ref sig .tc := ⟨.hbm, 226, rfl⟩
abbrev main_call6_v12 : Ref sig .tc := ⟨.hbm, 227, rfl⟩
abbrev main_call6_cst_4 : Ref sig .tc := ⟨.hbm, 228, rfl⟩
abbrev main_call6_call0_v0 : Ref sig .tc := ⟨.hbm, 229, rfl⟩
abbrev main_call6_call0_v1 : Ref sig .tc := ⟨.hbm, 230, rfl⟩
abbrev main_v125 : Ref sig .tc := ⟨.hbm, 231, rfl⟩
abbrev main_v126 : Ref sig .tc := ⟨.hbm, 232, rfl⟩
abbrev main_v127 : Ref sig .tc := ⟨.hbm, 233, rfl⟩
abbrev main_v128 : Ref sig .tc := ⟨.hbm, 234, rfl⟩
abbrev main_v129 : Ref sig .tc := ⟨.hbm, 235, rfl⟩
abbrev main_v130 : Ref sig .tc := ⟨.hbm, 236, rfl⟩
abbrev main_v131 : Ref sig .tc := ⟨.hbm, 237, rfl⟩
abbrev main_cst_19 : Ref sig .tc := ⟨.hbm, 238, rfl⟩
abbrev main_v132 : Ref sig .tc := ⟨.hbm, 239, rfl⟩
abbrev main_v133 : Ref sig .tc := ⟨.hbm, 240, rfl⟩
abbrev main_v134 : Ref sig .tc := ⟨.hbm, 241, rfl⟩
abbrev main_v135 : Ref sig .tc := ⟨.hbm, 242, rfl⟩
abbrev main_v136 : Ref sig .tc := ⟨.hbm, 243, rfl⟩
abbrev main_v137 : Ref sig .tc := ⟨.hbm, 244, rfl⟩
abbrev main_v138 : Ref sig .tc := ⟨.hbm, 245, rfl⟩
abbrev main_v139 : Ref sig .tc := ⟨.hbm, 246, rfl⟩
abbrev main_v140 : Ref sig .tc := ⟨.hbm, 247, rfl⟩
abbrev main_call7_cst : Ref sig .tc := ⟨.hbm, 248, rfl⟩
abbrev main_call7_v0 : Ref sig .tc := ⟨.hbm, 249, rfl⟩
abbrev main_v141 : Ref sig .tc := ⟨.hbm, 250, rfl⟩
abbrev main_v142 : Ref sig .tc := ⟨.hbm, 251, rfl⟩
abbrev main_v143 : Ref sig .tc := ⟨.hbm, 252, rfl⟩
abbrev main_v144 : Ref sig .tc := ⟨.hbm, 253, rfl⟩
abbrev main_v145 : Ref sig .tc := ⟨.hbm, 254, rfl⟩
abbrev main_v146 : Ref sig .tc := ⟨.hbm, 255, rfl⟩
abbrev main_v147 : Ref sig .tc := ⟨.hbm, 256, rfl⟩
abbrev main_v148 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_v152 : Ref sig .tc := ⟨.hbm, 261, rfl⟩
abbrev main_v153 : Ref sig .tc := ⟨.hbm, 262, rfl⟩
abbrev main_cst_20 : Ref sig .tc := ⟨.hbm, 263, rfl⟩
abbrev main_v154 : Ref sig .tc := ⟨.hbm, 264, rfl⟩
abbrev main_cst_21 : Ref sig .tc := ⟨.hbm, 265, rfl⟩
abbrev main_v155 : Ref sig .tc := ⟨.hbm, 266, rfl⟩
abbrev main_v156 : Ref sig .tc := ⟨.hbm, 267, rfl⟩
abbrev main_c_22 : Ref sig .tc := ⟨.hbm, 268, rfl⟩
abbrev main_call8_cst : Ref sig .tc := ⟨.hbm, 269, rfl⟩
abbrev main_call8_v0 : Ref sig .tc := ⟨.hbm, 270, rfl⟩
abbrev main_call8_v1 : Ref sig .tc := ⟨.hbm, 271, rfl⟩
abbrev main_call8_cst_0 : Ref sig .tc := ⟨.hbm, 272, rfl⟩
abbrev main_call8_v2 : Ref sig .tc := ⟨.hbm, 273, rfl⟩
abbrev main_call8_v3 : Ref sig .tc := ⟨.hbm, 274, rfl⟩
abbrev main_call8_v4 : Ref sig .tc := ⟨.hbm, 275, rfl⟩
abbrev main_call8_v5 : Ref sig .tc := ⟨.hbm, 276, rfl⟩
abbrev main_call8_v6 : Ref sig .tc := ⟨.hbm, 277, rfl⟩
abbrev main_call8_v7 : Ref sig .tc := ⟨.hbm, 278, rfl⟩
abbrev main_call8_cst_1 : Ref sig .tc := ⟨.hbm, 279, rfl⟩
abbrev main_call8_v8 : Ref sig .tc := ⟨.hbm, 280, rfl⟩
abbrev main_call8_cst_2 : Ref sig .tc := ⟨.hbm, 281, rfl⟩
abbrev main_call8_v9 : Ref sig .tc := ⟨.hbm, 282, rfl⟩
abbrev main_call8_v10 : Ref sig .tc := ⟨.hbm, 283, rfl⟩
abbrev main_call8_v11 : Ref sig .tc := ⟨.hbm, 284, rfl⟩
abbrev main_call8_cst_3 : Ref sig .tc := ⟨.hbm, 285, rfl⟩
abbrev main_call8_v12 : Ref sig .tc := ⟨.hbm, 286, rfl⟩
abbrev main_call8_cst_4 : Ref sig .tc := ⟨.hbm, 287, rfl⟩
abbrev main_call8_call0_v0 : Ref sig .tc := ⟨.hbm, 288, rfl⟩
abbrev main_call8_call0_v1 : Ref sig .tc := ⟨.hbm, 289, rfl⟩
abbrev main_v157 : Ref sig .tc := ⟨.hbm, 290, rfl⟩
abbrev main_v158 : Ref sig .tc := ⟨.hbm, 291, rfl⟩
abbrev main_v159 : Ref sig .tc := ⟨.hbm, 292, rfl⟩
abbrev main_v160 : Ref sig .tc := ⟨.hbm, 293, rfl⟩
abbrev main_v161 : Ref sig .tc := ⟨.hbm, 294, rfl⟩
abbrev main_v162 : Ref sig .tc := ⟨.hbm, 295, rfl⟩
abbrev main_v163 : Ref sig .tc := ⟨.hbm, 296, rfl⟩
abbrev main_cst_23 : Ref sig .tc := ⟨.hbm, 297, rfl⟩
abbrev main_v164 : Ref sig .tc := ⟨.hbm, 298, rfl⟩
abbrev main_v165 : Ref sig .tc := ⟨.hbm, 299, rfl⟩
abbrev main_v166 : Ref sig .tc := ⟨.hbm, 300, rfl⟩
abbrev main_v167 : Ref sig .tc := ⟨.hbm, 301, rfl⟩
abbrev main_v168 : Ref sig .tc := ⟨.hbm, 302, rfl⟩
abbrev main_v169 : Ref sig .tc := ⟨.hbm, 303, rfl⟩
abbrev main_v170 : Ref sig .tc := ⟨.hbm, 304, rfl⟩
abbrev main_v171 : Ref sig .tc := ⟨.hbm, 305, rfl⟩
abbrev main_v172 : Ref sig .tc := ⟨.hbm, 306, rfl⟩
abbrev main_call9_cst : Ref sig .tc := ⟨.hbm, 307, rfl⟩
abbrev main_call9_v0 : Ref sig .tc := ⟨.hbm, 308, rfl⟩
abbrev main_v173 : Ref sig .tc := ⟨.hbm, 309, rfl⟩
abbrev main_c_24 : Ref sig .tc := ⟨.hbm, 310, rfl⟩
abbrev main_v174 : Ref sig .tc := ⟨.hbm, 311, rfl⟩
abbrev main_v175 : Ref sig .tc := ⟨.hbm, 312, rfl⟩
abbrev main_c_25 : Ref sig .tc := ⟨.hbm, 313, rfl⟩
abbrev main_v176 : Ref sig .tc := ⟨.hbm, 314, rfl⟩
abbrev main_v177 : Ref sig .tc := ⟨.hbm, 315, rfl⟩
abbrev main_v178 : Ref sig .tc := ⟨.hbm, 316, rfl⟩
abbrev main_v179 : Ref sig .tc := ⟨.hbm, 317, rfl⟩
abbrev main_v180 : Ref sig .tc := ⟨.hbm, 318, rfl⟩
abbrev main_v181 : Ref sig .tc := ⟨.hbm, 319, rfl⟩
abbrev main_call10_cst : Ref sig .tc := ⟨.hbm, 320, rfl⟩
abbrev main_call10_v0 : Ref sig .tc := ⟨.hbm, 321, rfl⟩
abbrev main_v182 : Ref sig .tc := ⟨.hbm, 322, rfl⟩
abbrev main_cst_26 : Ref sig .tc := ⟨.hbm, 323, rfl⟩
abbrev main_v183 : Ref sig .tc := ⟨.hbm, 324, rfl⟩
abbrev main_v184 : Ref sig .tc := ⟨.hbm, 325, rfl⟩
abbrev main_v185 : Ref sig .tc := ⟨.hbm, 326, rfl⟩
abbrev main_v186 : Ref sig .tc := ⟨.hbm, 327, rfl⟩
abbrev main_v187 : Ref sig .tc := ⟨.hbm, 328, rfl⟩
abbrev main_v188 : Ref sig .tc := ⟨.hbm, 329, rfl⟩
abbrev main_v189 : Ref sig .tc := ⟨.hbm, 330, rfl⟩
abbrev main_v190 : Ref sig .tc := ⟨.hbm, 331, rfl⟩
abbrev main_v191 : Ref sig .tc := ⟨.hbm, 332, rfl⟩
abbrev main_v192 : Ref sig .tc := ⟨.hbm, 333, rfl⟩
abbrev main_v193 : Ref sig .tc := ⟨.hbm, 334, rfl⟩
abbrev main_v194 : Ref sig .tc := ⟨.hbm, 335, rfl⟩
abbrev main_v195 : Ref sig .tc := ⟨.hbm, 336, rfl⟩
abbrev main_v196 : Ref sig .tc := ⟨.hbm, 337, rfl⟩
abbrev main_v197 : Ref sig .tc := ⟨.hbm, 338, rfl⟩
abbrev main_v198 : Ref sig .tc := ⟨.hbm, 339, rfl⟩
abbrev main_cst_27 : Ref sig .tc := ⟨.hbm, 340, rfl⟩
abbrev main_v199 : Ref sig .tc := ⟨.hbm, 341, rfl⟩
abbrev main_cst_28 : Ref sig .tc := ⟨.hbm, 342, rfl⟩
abbrev main_v200 : Ref sig .tc := ⟨.hbm, 343, rfl⟩
abbrev main_v201 : Ref sig .tc := ⟨.hbm, 344, rfl⟩
abbrev main_c_29 : Ref sig .tc := ⟨.hbm, 345, rfl⟩
abbrev main_call11_cst : Ref sig .tc := ⟨.hbm, 346, rfl⟩
abbrev main_call11_v0 : Ref sig .tc := ⟨.hbm, 347, rfl⟩
abbrev main_call11_v1 : Ref sig .tc := ⟨.hbm, 348, rfl⟩
abbrev main_call11_cst_0 : Ref sig .tc := ⟨.hbm, 349, rfl⟩
abbrev main_call11_v2 : Ref sig .tc := ⟨.hbm, 350, rfl⟩
abbrev main_call11_v3 : Ref sig .tc := ⟨.hbm, 351, rfl⟩
abbrev main_call11_v4 : Ref sig .tc := ⟨.hbm, 352, rfl⟩
abbrev main_call11_v5 : Ref sig .tc := ⟨.hbm, 353, rfl⟩
abbrev main_call11_v6 : Ref sig .tc := ⟨.hbm, 354, rfl⟩
abbrev main_call11_v7 : Ref sig .tc := ⟨.hbm, 355, rfl⟩
abbrev main_call11_cst_1 : Ref sig .tc := ⟨.hbm, 356, rfl⟩
abbrev main_call11_v8 : Ref sig .tc := ⟨.hbm, 357, rfl⟩
abbrev main_call11_cst_2 : Ref sig .tc := ⟨.hbm, 358, rfl⟩
abbrev main_call11_v9 : Ref sig .tc := ⟨.hbm, 359, rfl⟩
abbrev main_call11_v10 : Ref sig .tc := ⟨.hbm, 360, rfl⟩
abbrev main_call11_v11 : Ref sig .tc := ⟨.hbm, 361, rfl⟩
abbrev main_call11_cst_3 : Ref sig .tc := ⟨.hbm, 362, rfl⟩
abbrev main_call11_v12 : Ref sig .tc := ⟨.hbm, 363, rfl⟩
abbrev main_call11_cst_4 : Ref sig .tc := ⟨.hbm, 364, rfl⟩
abbrev main_call11_call0_v0 : Ref sig .tc := ⟨.hbm, 365, rfl⟩
abbrev main_call11_call0_v1 : Ref sig .tc := ⟨.hbm, 366, rfl⟩
abbrev main_v202 : Ref sig .tc := ⟨.hbm, 367, rfl⟩
abbrev main_v203 : Ref sig .tc := ⟨.hbm, 368, rfl⟩
abbrev main_v204 : Ref sig .tc := ⟨.hbm, 369, rfl⟩
abbrev main_v205 : Ref sig .tc := ⟨.hbm, 370, rfl⟩
abbrev main_v206 : Ref sig .tc := ⟨.hbm, 371, rfl⟩
abbrev main_v207 : Ref sig .tc := ⟨.hbm, 372, rfl⟩
abbrev main_v208 : Ref sig .tc := ⟨.hbm, 373, rfl⟩
abbrev main_cst_30 : Ref sig .tc := ⟨.hbm, 374, rfl⟩
abbrev main_v209 : Ref sig .tc := ⟨.hbm, 375, rfl⟩
abbrev main_v210 : Ref sig .tc := ⟨.hbm, 376, rfl⟩
abbrev main_v211 : Ref sig .tc := ⟨.hbm, 377, rfl⟩
abbrev main_v212 : Ref sig .tc := ⟨.hbm, 378, rfl⟩
abbrev main_v213 : Ref sig .tc := ⟨.hbm, 379, rfl⟩
abbrev main_v214 : Ref sig .tc := ⟨.hbm, 380, rfl⟩
abbrev main_v215 : Ref sig .tc := ⟨.hbm, 381, rfl⟩
abbrev main_v216 : Ref sig .tc := ⟨.hbm, 382, rfl⟩
abbrev main_v217 : Ref sig .tc := ⟨.hbm, 383, rfl⟩
abbrev main_call12_cst : Ref sig .tc := ⟨.hbm, 384, rfl⟩
abbrev main_call12_v0 : Ref sig .tc := ⟨.hbm, 385, rfl⟩
abbrev main_v218 : Ref sig .tc := ⟨.hbm, 386, rfl⟩
abbrev main_v219 : Ref sig .tc := ⟨.hbm, 387, rfl⟩
abbrev main_v220 : Ref sig .tc := ⟨.hbm, 388, rfl⟩
abbrev main_v221 : Ref sig .tc := ⟨.hbm, 389, rfl⟩
abbrev main_v222 : Ref sig .tc := ⟨.hbm, 390, rfl⟩
abbrev main_v223 : Ref sig .tc := ⟨.hbm, 391, rfl⟩
abbrev main_v224 : Ref sig .tc := ⟨.hbm, 392, rfl⟩
abbrev main_v225 : Ref sig .tc := ⟨.hbm, 393, rfl⟩
abbrev main_v226 : Ref sig .tc := ⟨.hbm, 394, rfl⟩
abbrev main_v227 : Ref sig .tc := ⟨.hbm, 395, rfl⟩
abbrev main_v228 : Ref sig .tc := ⟨.hbm, 396, rfl⟩
abbrev main_v229 : Ref sig .tc := ⟨.hbm, 397, rfl⟩
abbrev main_v230 : Ref sig .tc := ⟨.hbm, 398, rfl⟩
abbrev main_cst_31 : Ref sig .tc := ⟨.hbm, 399, rfl⟩
abbrev main_v231 : Ref sig .tc := ⟨.hbm, 400, rfl⟩
abbrev main_cst_32 : Ref sig .tc := ⟨.hbm, 401, rfl⟩
abbrev main_v232 : Ref sig .tc := ⟨.hbm, 402, rfl⟩
abbrev main_v233 : Ref sig .tc := ⟨.hbm, 403, rfl⟩
abbrev main_c_33 : Ref sig .tc := ⟨.hbm, 404, rfl⟩
abbrev main_call13_cst : Ref sig .tc := ⟨.hbm, 405, rfl⟩
abbrev main_call13_v0 : Ref sig .tc := ⟨.hbm, 406, rfl⟩
abbrev main_call13_v1 : Ref sig .tc := ⟨.hbm, 407, rfl⟩
abbrev main_call13_cst_0 : Ref sig .tc := ⟨.hbm, 408, rfl⟩
abbrev main_call13_v2 : Ref sig .tc := ⟨.hbm, 409, rfl⟩
abbrev main_call13_v3 : Ref sig .tc := ⟨.hbm, 410, rfl⟩
abbrev main_call13_v4 : Ref sig .tc := ⟨.hbm, 411, rfl⟩
abbrev main_call13_v5 : Ref sig .tc := ⟨.hbm, 412, rfl⟩
abbrev main_call13_v6 : Ref sig .tc := ⟨.hbm, 413, rfl⟩
abbrev main_call13_v7 : Ref sig .tc := ⟨.hbm, 414, rfl⟩
abbrev main_call13_cst_1 : Ref sig .tc := ⟨.hbm, 415, rfl⟩
abbrev main_call13_v8 : Ref sig .tc := ⟨.hbm, 416, rfl⟩
abbrev main_call13_cst_2 : Ref sig .tc := ⟨.hbm, 417, rfl⟩
abbrev main_call13_v9 : Ref sig .tc := ⟨.hbm, 418, rfl⟩
abbrev main_call13_v10 : Ref sig .tc := ⟨.hbm, 419, rfl⟩
abbrev main_call13_v11 : Ref sig .tc := ⟨.hbm, 420, rfl⟩
abbrev main_call13_cst_3 : Ref sig .tc := ⟨.hbm, 421, rfl⟩
abbrev main_call13_v12 : Ref sig .tc := ⟨.hbm, 422, rfl⟩
abbrev main_call13_cst_4 : Ref sig .tc := ⟨.hbm, 423, rfl⟩
abbrev main_call13_call0_v0 : Ref sig .tc := ⟨.hbm, 424, rfl⟩
abbrev main_call13_call0_v1 : Ref sig .tc := ⟨.hbm, 425, rfl⟩
abbrev main_v234 : Ref sig .tc := ⟨.hbm, 426, rfl⟩
abbrev main_v235 : Ref sig .tc := ⟨.hbm, 427, rfl⟩
abbrev main_v236 : Ref sig .tc := ⟨.hbm, 428, rfl⟩
abbrev main_v237 : Ref sig .tc := ⟨.hbm, 429, rfl⟩
abbrev main_v238 : Ref sig .tc := ⟨.hbm, 430, rfl⟩
abbrev main_v239 : Ref sig .tc := ⟨.hbm, 431, rfl⟩
abbrev main_v240 : Ref sig .tc := ⟨.hbm, 432, rfl⟩
abbrev main_cst_34 : Ref sig .tc := ⟨.hbm, 433, rfl⟩
abbrev main_v241 : Ref sig .tc := ⟨.hbm, 434, rfl⟩
abbrev main_v242 : Ref sig .tc := ⟨.hbm, 435, rfl⟩
abbrev main_v243 : Ref sig .tc := ⟨.hbm, 436, rfl⟩
abbrev main_v244 : Ref sig .tc := ⟨.hbm, 437, rfl⟩
abbrev main_v245 : Ref sig .tc := ⟨.hbm, 438, rfl⟩
abbrev main_v246 : Ref sig .tc := ⟨.hbm, 439, rfl⟩
abbrev main_v247 : Ref sig .tc := ⟨.hbm, 440, rfl⟩
abbrev main_v248 : Ref sig .tc := ⟨.hbm, 441, rfl⟩
abbrev main_v249 : Ref sig .tc := ⟨.hbm, 442, rfl⟩
abbrev main_call14_cst : Ref sig .tc := ⟨.hbm, 443, rfl⟩
abbrev main_call14_v0 : Ref sig .tc := ⟨.hbm, 444, rfl⟩
abbrev main_v250 : Ref sig .tc := ⟨.hbm, 445, rfl⟩
abbrev main_c_35 : Ref sig .tc := ⟨.hbm, 446, rfl⟩
abbrev main_v251 : Ref sig .tc := ⟨.hbm, 447, rfl⟩
abbrev main_v252 : Ref sig .tc := ⟨.hbm, 448, rfl⟩
abbrev main_c_36 : Ref sig .tc := ⟨.hbm, 449, rfl⟩
abbrev main_v253 : Ref sig .tc := ⟨.hbm, 450, rfl⟩
abbrev main_v254 : Ref sig .tc := ⟨.hbm, 451, rfl⟩
abbrev main_v255 : Ref sig .tc := ⟨.hbm, 452, rfl⟩
abbrev main_v256 : Ref sig .tc := ⟨.hbm, 453, rfl⟩
abbrev main_v257 : Ref sig .tc := ⟨.hbm, 454, rfl⟩
abbrev main_v258 : Ref sig .tc := ⟨.hbm, 455, rfl⟩
abbrev main_call15_cst : Ref sig .tc := ⟨.hbm, 456, rfl⟩
abbrev main_call15_v0 : Ref sig .tc := ⟨.hbm, 457, rfl⟩
abbrev main_v259 : Ref sig .tc := ⟨.hbm, 458, rfl⟩
abbrev main_cst_37 : Ref sig .tc := ⟨.hbm, 459, rfl⟩
abbrev main_v260 : Ref sig .tc := ⟨.hbm, 460, rfl⟩
abbrev main_v261 : Ref sig .tc := ⟨.hbm, 461, rfl⟩
abbrev main_v262 : Ref sig .tc := ⟨.hbm, 462, rfl⟩
abbrev main_v263 : Ref sig .tc := ⟨.hbm, 463, rfl⟩
abbrev main_v264 : Ref sig .tc := ⟨.hbm, 464, rfl⟩
abbrev main_v265 : Ref sig .tc := ⟨.hbm, 465, rfl⟩
abbrev main_v266 : Ref sig .tc := ⟨.hbm, 466, rfl⟩
abbrev main_v267 : Ref sig .tc := ⟨.hbm, 467, rfl⟩
abbrev main_v268 : Ref sig .tc := ⟨.hbm, 468, rfl⟩
abbrev main_v269 : Ref sig .tc := ⟨.hbm, 469, rfl⟩
abbrev main_v270 : Ref sig .tc := ⟨.hbm, 470, rfl⟩
abbrev main_v271 : Ref sig .tc := ⟨.hbm, 471, rfl⟩
abbrev main_v272 : Ref sig .tc := ⟨.hbm, 472, rfl⟩
abbrev main_v273 : Ref sig .tc := ⟨.hbm, 473, rfl⟩
abbrev main_v274 : Ref sig .tc := ⟨.hbm, 474, rfl⟩
abbrev main_v275 : Ref sig .tc := ⟨.hbm, 475, rfl⟩
abbrev main_cst_38 : Ref sig .tc := ⟨.hbm, 476, rfl⟩
abbrev main_v276 : Ref sig .tc := ⟨.hbm, 477, rfl⟩
abbrev main_cst_39 : Ref sig .tc := ⟨.hbm, 478, rfl⟩
abbrev main_v277 : Ref sig .tc := ⟨.hbm, 479, rfl⟩
abbrev main_v278 : Ref sig .tc := ⟨.hbm, 480, rfl⟩
abbrev main_c_40 : Ref sig .tc := ⟨.hbm, 481, rfl⟩
abbrev main_call16_cst : Ref sig .tc := ⟨.hbm, 482, rfl⟩
abbrev main_call16_v0 : Ref sig .tc := ⟨.hbm, 483, rfl⟩
abbrev main_call16_v1 : Ref sig .tc := ⟨.hbm, 484, rfl⟩
abbrev main_call16_cst_0 : Ref sig .tc := ⟨.hbm, 485, rfl⟩
abbrev main_call16_v2 : Ref sig .tc := ⟨.hbm, 486, rfl⟩
abbrev main_call16_v3 : Ref sig .tc := ⟨.hbm, 487, rfl⟩
abbrev main_call16_v4 : Ref sig .tc := ⟨.hbm, 488, rfl⟩
abbrev main_call16_v5 : Ref sig .tc := ⟨.hbm, 489, rfl⟩
abbrev main_call16_v6 : Ref sig .tc := ⟨.hbm, 490, rfl⟩
abbrev main_call16_v7 : Ref sig .tc := ⟨.hbm, 491, rfl⟩
abbrev main_call16_cst_1 : Ref sig .tc := ⟨.hbm, 492, rfl⟩
abbrev main_call16_v8 : Ref sig .tc := ⟨.hbm, 493, rfl⟩
abbrev main_call16_cst_2 : Ref sig .tc := ⟨.hbm, 494, rfl⟩
abbrev main_call16_v9 : Ref sig .tc := ⟨.hbm, 495, rfl⟩
abbrev main_call16_v10 : Ref sig .tc := ⟨.hbm, 496, rfl⟩
abbrev main_call16_v11 : Ref sig .tc := ⟨.hbm, 497, rfl⟩
abbrev main_call16_cst_3 : Ref sig .tc := ⟨.hbm, 498, rfl⟩
abbrev main_call16_v12 : Ref sig .tc := ⟨.hbm, 499, rfl⟩
abbrev main_call16_cst_4 : Ref sig .tc := ⟨.hbm, 500, rfl⟩
abbrev main_call16_call0_v0 : Ref sig .tc := ⟨.hbm, 501, rfl⟩
abbrev main_call16_call0_v1 : Ref sig .tc := ⟨.hbm, 502, rfl⟩
abbrev main_v279 : Ref sig .tc := ⟨.hbm, 503, rfl⟩
abbrev main_v280 : Ref sig .tc := ⟨.hbm, 504, rfl⟩
abbrev main_v281 : Ref sig .tc := ⟨.hbm, 505, rfl⟩
abbrev main_v282 : Ref sig .tc := ⟨.hbm, 506, rfl⟩
abbrev main_v283 : Ref sig .tc := ⟨.hbm, 507, rfl⟩
abbrev main_v284 : Ref sig .tc := ⟨.hbm, 508, rfl⟩
abbrev main_v285 : Ref sig .tc := ⟨.hbm, 509, rfl⟩
abbrev main_cst_41 : Ref sig .tc := ⟨.hbm, 510, rfl⟩
abbrev main_v286 : Ref sig .tc := ⟨.hbm, 511, rfl⟩
abbrev main_v287 : Ref sig .tc := ⟨.hbm, 512, rfl⟩
abbrev main_v288 : Ref sig .tc := ⟨.hbm, 513, rfl⟩
abbrev main_v289 : Ref sig .tc := ⟨.hbm, 514, rfl⟩
abbrev main_v290 : Ref sig .tc := ⟨.hbm, 515, rfl⟩
abbrev main_v291 : Ref sig .tc := ⟨.hbm, 516, rfl⟩
abbrev main_v292 : Ref sig .tc := ⟨.hbm, 517, rfl⟩
abbrev main_v293 : Ref sig .tc := ⟨.hbm, 518, rfl⟩
abbrev main_v294 : Ref sig .tc := ⟨.hbm, 519, rfl⟩
abbrev main_call17_cst : Ref sig .tc := ⟨.hbm, 520, rfl⟩
abbrev main_call17_v0 : Ref sig .tc := ⟨.hbm, 521, rfl⟩
abbrev main_v295 : Ref sig .tc := ⟨.hbm, 522, rfl⟩
abbrev main_v296 : Ref sig .tc := ⟨.hbm, 523, rfl⟩
abbrev main_v297 : Ref sig .tc := ⟨.hbm, 524, rfl⟩
abbrev main_v298 : Ref sig .tc := ⟨.hbm, 525, rfl⟩
abbrev main_v299 : Ref sig .tc := ⟨.hbm, 526, rfl⟩
abbrev main_v300 : Ref sig .tc := ⟨.hbm, 527, rfl⟩
abbrev main_v301 : Ref sig .tc := ⟨.hbm, 528, rfl⟩
abbrev main_v302 : Ref sig .tc := ⟨.hbm, 529, rfl⟩
abbrev main_v303 : Ref sig .tc := ⟨.hbm, 530, rfl⟩
abbrev main_v304 : Ref sig .tc := ⟨.hbm, 531, rfl⟩
abbrev main_v305 : Ref sig .tc := ⟨.hbm, 532, rfl⟩
abbrev main_v306 : Ref sig .tc := ⟨.hbm, 533, rfl⟩
abbrev main_v307 : Ref sig .tc := ⟨.hbm, 534, rfl⟩
abbrev main_cst_42 : Ref sig .tc := ⟨.hbm, 535, rfl⟩
abbrev main_v308 : Ref sig .tc := ⟨.hbm, 536, rfl⟩
abbrev main_cst_43 : Ref sig .tc := ⟨.hbm, 537, rfl⟩
abbrev main_v309 : Ref sig .tc := ⟨.hbm, 538, rfl⟩
abbrev main_v310 : Ref sig .tc := ⟨.hbm, 539, rfl⟩
abbrev main_c_44 : Ref sig .tc := ⟨.hbm, 540, rfl⟩
abbrev main_call18_cst : Ref sig .tc := ⟨.hbm, 541, rfl⟩
abbrev main_call18_v0 : Ref sig .tc := ⟨.hbm, 542, rfl⟩
abbrev main_call18_v1 : Ref sig .tc := ⟨.hbm, 543, rfl⟩
abbrev main_call18_cst_0 : Ref sig .tc := ⟨.hbm, 544, rfl⟩
abbrev main_call18_v2 : Ref sig .tc := ⟨.hbm, 545, rfl⟩
abbrev main_call18_v3 : Ref sig .tc := ⟨.hbm, 546, rfl⟩
abbrev main_call18_v4 : Ref sig .tc := ⟨.hbm, 547, rfl⟩
abbrev main_call18_v5 : Ref sig .tc := ⟨.hbm, 548, rfl⟩
abbrev main_call18_v6 : Ref sig .tc := ⟨.hbm, 549, rfl⟩
abbrev main_call18_v7 : Ref sig .tc := ⟨.hbm, 550, rfl⟩
abbrev main_call18_cst_1 : Ref sig .tc := ⟨.hbm, 551, rfl⟩
abbrev main_call18_v8 : Ref sig .tc := ⟨.hbm, 552, rfl⟩
abbrev main_call18_cst_2 : Ref sig .tc := ⟨.hbm, 553, rfl⟩
abbrev main_call18_v9 : Ref sig .tc := ⟨.hbm, 554, rfl⟩
abbrev main_call18_v10 : Ref sig .tc := ⟨.hbm, 555, rfl⟩
abbrev main_call18_v11 : Ref sig .tc := ⟨.hbm, 556, rfl⟩
abbrev main_call18_cst_3 : Ref sig .tc := ⟨.hbm, 557, rfl⟩
abbrev main_call18_v12 : Ref sig .tc := ⟨.hbm, 558, rfl⟩
abbrev main_call18_cst_4 : Ref sig .tc := ⟨.hbm, 559, rfl⟩
abbrev main_call18_call0_v0 : Ref sig .tc := ⟨.hbm, 560, rfl⟩
abbrev main_call18_call0_v1 : Ref sig .tc := ⟨.hbm, 561, rfl⟩
abbrev main_v311 : Ref sig .tc := ⟨.hbm, 562, rfl⟩
abbrev main_v312 : Ref sig .tc := ⟨.hbm, 563, rfl⟩
abbrev main_v313 : Ref sig .tc := ⟨.hbm, 564, rfl⟩
abbrev main_v314 : Ref sig .tc := ⟨.hbm, 565, rfl⟩
abbrev main_v315 : Ref sig .tc := ⟨.hbm, 566, rfl⟩
abbrev main_v316 : Ref sig .tc := ⟨.hbm, 567, rfl⟩
abbrev main_v317 : Ref sig .tc := ⟨.hbm, 568, rfl⟩
abbrev main_cst_45 : Ref sig .tc := ⟨.hbm, 569, rfl⟩
abbrev main_v318 : Ref sig .tc := ⟨.hbm, 570, rfl⟩
abbrev main_v319 : Ref sig .tc := ⟨.hbm, 571, rfl⟩
abbrev main_v320 : Ref sig .tc := ⟨.hbm, 572, rfl⟩
abbrev main_v321 : Ref sig .tc := ⟨.hbm, 573, rfl⟩
abbrev main_v322 : Ref sig .tc := ⟨.hbm, 574, rfl⟩
abbrev main_v323 : Ref sig .tc := ⟨.hbm, 575, rfl⟩
abbrev main_v324 : Ref sig .tc := ⟨.hbm, 576, rfl⟩
abbrev main_v325 : Ref sig .tc := ⟨.hbm, 577, rfl⟩
abbrev main_v326 : Ref sig .tc := ⟨.hbm, 578, rfl⟩
abbrev main_call19_cst : Ref sig .tc := ⟨.hbm, 579, rfl⟩
abbrev main_call19_v0 : Ref sig .tc := ⟨.hbm, 580, rfl⟩
abbrev main_v327 : Ref sig .tc := ⟨.hbm, 581, rfl⟩
abbrev main_c_46 : Ref sig .tc := ⟨.hbm, 582, rfl⟩
abbrev main_v328 : Ref sig .tc := ⟨.hbm, 583, rfl⟩
abbrev main_v329 : Ref sig .tc := ⟨.hbm, 584, rfl⟩
abbrev main_c_47 : Ref sig .tc := ⟨.hbm, 585, rfl⟩
abbrev main_v330 : Ref sig .tc := ⟨.hbm, 586, rfl⟩
abbrev main_v331 : Ref sig .tc := ⟨.hbm, 587, rfl⟩
abbrev main_v332 : Ref sig .tc := ⟨.hbm, 588, rfl⟩
abbrev main_v333 : Ref sig .tc := ⟨.hbm, 589, rfl⟩
abbrev main_v334 : Ref sig .tc := ⟨.hbm, 590, rfl⟩
abbrev main_v335 : Ref sig .tc := ⟨.hbm, 591, rfl⟩
abbrev main_call20_cst : Ref sig .tc := ⟨.hbm, 592, rfl⟩
abbrev main_call20_v0 : Ref sig .tc := ⟨.hbm, 593, rfl⟩
abbrev main_v336 : Ref sig .tc := ⟨.hbm, 594, rfl⟩
abbrev main_cst_48 : Ref sig .tc := ⟨.hbm, 595, rfl⟩
abbrev main_v337 : Ref sig .tc := ⟨.hbm, 596, rfl⟩
abbrev main_v338 : Ref sig .tc := ⟨.hbm, 597, rfl⟩
abbrev main_v339 : Ref sig .tc := ⟨.hbm, 598, rfl⟩
abbrev main_v340 : Ref sig .tc := ⟨.hbm, 599, rfl⟩
abbrev main_v341 : Ref sig .tc := ⟨.hbm, 600, rfl⟩
abbrev main_v342 : Ref sig .tc := ⟨.hbm, 601, rfl⟩
abbrev main_v343 : Ref sig .tc := ⟨.hbm, 602, rfl⟩
abbrev main_v344 : Ref sig .tc := ⟨.hbm, 603, rfl⟩
abbrev main_v345 : Ref sig .tc := ⟨.hbm, 604, rfl⟩
abbrev main_v346 : Ref sig .tc := ⟨.hbm, 605, rfl⟩
abbrev main_v347 : Ref sig .tc := ⟨.hbm, 606, rfl⟩
abbrev main_v348 : Ref sig .tc := ⟨.hbm, 607, rfl⟩
abbrev main_v349 : Ref sig .tc := ⟨.hbm, 608, rfl⟩
abbrev main_v350 : Ref sig .tc := ⟨.hbm, 609, rfl⟩
abbrev main_v351 : Ref sig .tc := ⟨.hbm, 610, rfl⟩
abbrev main_v352 : Ref sig .tc := ⟨.hbm, 611, rfl⟩
abbrev main_cst_49 : Ref sig .tc := ⟨.hbm, 612, rfl⟩
abbrev main_v353 : Ref sig .tc := ⟨.hbm, 613, rfl⟩
abbrev main_cst_50 : Ref sig .tc := ⟨.hbm, 614, rfl⟩
abbrev main_v354 : Ref sig .tc := ⟨.hbm, 615, rfl⟩
abbrev main_v355 : Ref sig .tc := ⟨.hbm, 616, rfl⟩
abbrev main_c_51 : Ref sig .tc := ⟨.hbm, 617, rfl⟩
abbrev main_call21_cst : Ref sig .tc := ⟨.hbm, 618, rfl⟩
abbrev main_call21_v0 : Ref sig .tc := ⟨.hbm, 619, rfl⟩
abbrev main_call21_v1 : Ref sig .tc := ⟨.hbm, 620, rfl⟩
abbrev main_call21_cst_0 : Ref sig .tc := ⟨.hbm, 621, rfl⟩
abbrev main_call21_v2 : Ref sig .tc := ⟨.hbm, 622, rfl⟩
abbrev main_call21_v3 : Ref sig .tc := ⟨.hbm, 623, rfl⟩
abbrev main_call21_v4 : Ref sig .tc := ⟨.hbm, 624, rfl⟩
abbrev main_call21_v5 : Ref sig .tc := ⟨.hbm, 625, rfl⟩
abbrev main_call21_v6 : Ref sig .tc := ⟨.hbm, 626, rfl⟩
abbrev main_call21_v7 : Ref sig .tc := ⟨.hbm, 627, rfl⟩
abbrev main_call21_cst_1 : Ref sig .tc := ⟨.hbm, 628, rfl⟩
abbrev main_call21_v8 : Ref sig .tc := ⟨.hbm, 629, rfl⟩
abbrev main_call21_cst_2 : Ref sig .tc := ⟨.hbm, 630, rfl⟩
abbrev main_call21_v9 : Ref sig .tc := ⟨.hbm, 631, rfl⟩
abbrev main_call21_v10 : Ref sig .tc := ⟨.hbm, 632, rfl⟩
abbrev main_call21_v11 : Ref sig .tc := ⟨.hbm, 633, rfl⟩
abbrev main_call21_cst_3 : Ref sig .tc := ⟨.hbm, 634, rfl⟩
abbrev main_call21_v12 : Ref sig .tc := ⟨.hbm, 635, rfl⟩
abbrev main_call21_cst_4 : Ref sig .tc := ⟨.hbm, 636, rfl⟩
abbrev main_call21_call0_v0 : Ref sig .tc := ⟨.hbm, 637, rfl⟩
abbrev main_call21_call0_v1 : Ref sig .tc := ⟨.hbm, 638, rfl⟩
abbrev main_v356 : Ref sig .tc := ⟨.hbm, 639, rfl⟩
abbrev main_v357 : Ref sig .tc := ⟨.hbm, 640, rfl⟩
abbrev main_v358 : Ref sig .tc := ⟨.hbm, 641, rfl⟩
abbrev main_v359 : Ref sig .tc := ⟨.hbm, 642, rfl⟩
abbrev main_v360 : Ref sig .tc := ⟨.hbm, 643, rfl⟩
abbrev main_v361 : Ref sig .tc := ⟨.hbm, 644, rfl⟩
abbrev main_v362 : Ref sig .tc := ⟨.hbm, 645, rfl⟩
abbrev main_cst_52 : Ref sig .tc := ⟨.hbm, 646, rfl⟩
abbrev main_v363 : Ref sig .tc := ⟨.hbm, 647, rfl⟩
abbrev main_v364 : Ref sig .tc := ⟨.hbm, 648, rfl⟩
abbrev main_v365 : Ref sig .tc := ⟨.hbm, 649, rfl⟩
abbrev main_v366 : Ref sig .tc := ⟨.hbm, 650, rfl⟩
abbrev main_v367 : Ref sig .tc := ⟨.hbm, 651, rfl⟩
abbrev main_v368 : Ref sig .tc := ⟨.hbm, 652, rfl⟩
abbrev main_v369 : Ref sig .tc := ⟨.hbm, 653, rfl⟩
abbrev main_v370 : Ref sig .tc := ⟨.hbm, 654, rfl⟩
abbrev main_v371 : Ref sig .tc := ⟨.hbm, 655, rfl⟩
abbrev main_call22_cst : Ref sig .tc := ⟨.hbm, 656, rfl⟩
abbrev main_call22_v0 : Ref sig .tc := ⟨.hbm, 657, rfl⟩
abbrev main_v372 : Ref sig .tc := ⟨.hbm, 658, rfl⟩
abbrev main_v373 : Ref sig .tc := ⟨.hbm, 659, rfl⟩
abbrev main_v374 : Ref sig .tc := ⟨.hbm, 660, rfl⟩
abbrev main_v375 : Ref sig .tc := ⟨.hbm, 661, rfl⟩
abbrev main_v376 : Ref sig .tc := ⟨.hbm, 662, rfl⟩
abbrev main_v377 : Ref sig .tc := ⟨.hbm, 663, rfl⟩
abbrev main_v378 : Ref sig .tc := ⟨.hbm, 664, rfl⟩
abbrev main_v379 : Ref sig .tc := ⟨.hbm, 665, rfl⟩
abbrev main_v380 : Ref sig .tc := ⟨.hbm, 666, rfl⟩
abbrev main_v381 : Ref sig .tc := ⟨.hbm, 667, rfl⟩
abbrev main_v382 : Ref sig .tc := ⟨.hbm, 668, rfl⟩
abbrev main_v383 : Ref sig .tc := ⟨.hbm, 669, rfl⟩
abbrev main_v384 : Ref sig .tc := ⟨.hbm, 670, rfl⟩
abbrev main_cst_53 : Ref sig .tc := ⟨.hbm, 671, rfl⟩
abbrev main_v385 : Ref sig .tc := ⟨.hbm, 672, rfl⟩
abbrev main_cst_54 : Ref sig .tc := ⟨.hbm, 673, rfl⟩
abbrev main_v386 : Ref sig .tc := ⟨.hbm, 674, rfl⟩
abbrev main_v387 : Ref sig .tc := ⟨.hbm, 675, rfl⟩
abbrev main_c_55 : Ref sig .tc := ⟨.hbm, 676, rfl⟩
abbrev main_call23_cst : Ref sig .tc := ⟨.hbm, 677, rfl⟩
abbrev main_call23_v0 : Ref sig .tc := ⟨.hbm, 678, rfl⟩
abbrev main_call23_v1 : Ref sig .tc := ⟨.hbm, 679, rfl⟩
abbrev main_call23_cst_0 : Ref sig .tc := ⟨.hbm, 680, rfl⟩
abbrev main_call23_v2 : Ref sig .tc := ⟨.hbm, 681, rfl⟩
abbrev main_call23_v3 : Ref sig .tc := ⟨.hbm, 682, rfl⟩
abbrev main_call23_v4 : Ref sig .tc := ⟨.hbm, 683, rfl⟩
abbrev main_call23_v5 : Ref sig .tc := ⟨.hbm, 684, rfl⟩
abbrev main_call23_v6 : Ref sig .tc := ⟨.hbm, 685, rfl⟩
abbrev main_call23_v7 : Ref sig .tc := ⟨.hbm, 686, rfl⟩
abbrev main_call23_cst_1 : Ref sig .tc := ⟨.hbm, 687, rfl⟩
abbrev main_call23_v8 : Ref sig .tc := ⟨.hbm, 688, rfl⟩
abbrev main_call23_cst_2 : Ref sig .tc := ⟨.hbm, 689, rfl⟩
abbrev main_call23_v9 : Ref sig .tc := ⟨.hbm, 690, rfl⟩
abbrev main_call23_v10 : Ref sig .tc := ⟨.hbm, 691, rfl⟩
abbrev main_call23_v11 : Ref sig .tc := ⟨.hbm, 692, rfl⟩
abbrev main_call23_cst_3 : Ref sig .tc := ⟨.hbm, 693, rfl⟩
abbrev main_call23_v12 : Ref sig .tc := ⟨.hbm, 694, rfl⟩
abbrev main_call23_cst_4 : Ref sig .tc := ⟨.hbm, 695, rfl⟩
abbrev main_call23_call0_v0 : Ref sig .tc := ⟨.hbm, 696, rfl⟩
abbrev main_call23_call0_v1 : Ref sig .tc := ⟨.hbm, 697, rfl⟩
abbrev main_v388 : Ref sig .tc := ⟨.hbm, 698, rfl⟩
abbrev main_v389 : Ref sig .tc := ⟨.hbm, 699, rfl⟩
abbrev main_v390 : Ref sig .tc := ⟨.hbm, 700, rfl⟩
abbrev main_v391 : Ref sig .tc := ⟨.hbm, 701, rfl⟩
abbrev main_v392 : Ref sig .tc := ⟨.hbm, 702, rfl⟩
abbrev main_v393 : Ref sig .tc := ⟨.hbm, 703, rfl⟩
abbrev main_v394 : Ref sig .tc := ⟨.hbm, 704, rfl⟩
abbrev main_cst_56 : Ref sig .tc := ⟨.hbm, 705, rfl⟩
abbrev main_v395 : Ref sig .tc := ⟨.hbm, 706, rfl⟩
abbrev main_v396 : Ref sig .tc := ⟨.hbm, 707, rfl⟩
abbrev main_v397 : Ref sig .tc := ⟨.hbm, 708, rfl⟩
abbrev main_v398 : Ref sig .tc := ⟨.hbm, 709, rfl⟩
abbrev main_v399 : Ref sig .tc := ⟨.hbm, 710, rfl⟩
abbrev main_v400 : Ref sig .tc := ⟨.hbm, 711, rfl⟩
abbrev main_v401 : Ref sig .tc := ⟨.hbm, 712, rfl⟩
abbrev main_v402 : Ref sig .tc := ⟨.hbm, 713, rfl⟩
abbrev main_v403 : Ref sig .tc := ⟨.hbm, 714, rfl⟩
abbrev main_cst_57 : Ref sig .tc := ⟨.hbm, 715, rfl⟩
abbrev main_v404 : Ref sig .tc := ⟨.hbm, 716, rfl⟩
abbrev main_v405 : Ref sig .tc := ⟨.hbm, 717, rfl⟩
abbrev main_v406 : Ref sig .tc := ⟨.hbm, 718, rfl⟩

abbrev nD : Nat := 1
abbrev τ : Topo := Topo.v7x

variable {F : FTy → Type} [FloatOps F]

class Facts₀ : Prop where
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  shapeCasts_S800000x1_S800000 : S800000x1.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x64 : S_.BroadcastsInDim S800000x64 (![] : Fin 0 → Fin S800000x64.rank)
  bcast_S_S100000x64 : S_.BroadcastsInDim S100000x64 (![] : Fin 0 → Fin S100000x64.rank)
  slices_S5x64x128_S1x64x128_0_0_0 : S5x64x128.Slices ![0, 0, 0] S1x64x128
  shapeCasts_S1x64x128_S64x128 : S1x64x128.ShapeCasts S64x128
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S100000x128 : S_.BroadcastsInDim S100000x128 (![] : Fin 0 → Fin S100000x128.rank)
  slices_S5x128x64_S1x128x64_0_0_0 : S5x128x64.Slices ![0, 0, 0] S1x128x64
  shapeCasts_S1x128x64_S128x64 : S1x128x64.ShapeCasts S128x64
  slices_S5x64_S1x64_0_0 : S5x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  bcast_S_S64 : S_.BroadcastsInDim S64 (![] : Fin 0 → Fin S64.rank)
  bcast_S_S1x64 : S_.BroadcastsInDim S1x64 (![] : Fin 0 → Fin S1x64.rank)
  slices_S5x64x128_S1x64x128_1_0_0 : S5x64x128.Slices ![1, 0, 0] S1x64x128
  slices_S5x128_S1x128_1_0 : S5x128.Slices ![1, 0] S1x128
  slices_S5x128x64_S1x128x64_1_0_0 : S5x128x64.Slices ![1, 0, 0] S1x128x64
  slices_S5x64_S1x64_1_0 : S5x64.Slices ![1, 0] S1x64
  slices_S5x64x128_S1x64x128_2_0_0 : S5x64x128.Slices ![2, 0, 0] S1x64x128
  slices_S5x128_S1x128_2_0 : S5x128.Slices ![2, 0] S1x128
  slices_S5x128x64_S1x128x64_2_0_0 : S5x128x64.Slices ![2, 0, 0] S1x128x64
  slices_S5x64_S1x64_2_0 : S5x64.Slices ![2, 0] S1x64
  slices_S5x64x128_S1x64x128_3_0_0 : S5x64x128.Slices ![3, 0, 0] S1x64x128
  slices_S5x128_S1x128_3_0 : S5x128.Slices ![3, 0] S1x128
  slices_S5x128x64_S1x128x64_3_0_0 : S5x128x64.Slices ![3, 0, 0] S1x128x64
  slices_S5x64_S1x64_3_0 : S5x64.Slices ![3, 0] S1x64
  slices_S5x64x128_S1x64x128_4_0_0 : S5x64x128.Slices ![4, 0, 0] S1x64x128
  slices_S5x128_S1x128_4_0 : S5x128.Slices ![4, 0] S1x128
  slices_S5x128x64_S1x128x64_4_0_0 : S5x128x64.Slices ![4, 0, 0] S1x128x64
  slices_S5x64_S1x64_4_0 : S5x64.Slices ![4, 0] S1x64
  bcast_S_S256x64 : S_.BroadcastsInDim S256x64 (![] : Fin 0 → Fin S256x64.rank)
  gather_S119x64_S100000x1_S100000x64_1_0_n_n_0_1_164_wf : GatherDims.WF S119x64 S100000x1 S100000x64 [1] [0] [] [0] [] 1 ![1, 64]
  gather_S5x64_S800000x1_S800000x64_1_0_n_n_0_1_164_wf : GatherDims.WF S5x64 S800000x1 S800000x64 [1] [0] [] [0] [] 1 ![1, 64]
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S100000x64_S64x128_S100000x128_1_0_0_1_n_n_wf : DotDims.WF S100000x64 S64x128 S100000x128 [1] [0] [0] [1] [] []
  dot_S100000x128_S128x64_S100000x64_1_0_0_1_n_n_wf : DotDims.WF S100000x128 S128x64 S100000x64 [1] [0] [0] [1] [] []
  scatter_S256x64_S100000x1_S100000x64_1_0_0_1_wf : ScatterDims.WF S256x64 S100000x1 S100000x64 [1] [0] [0] 1

variable [Facts₀]

def gather_S119x64_S100000x1_S100000x64_1_0_n_n_0_1_164 : GatherDims S119x64 S100000x1 S100000x64 where
  offsetDims := [1]
  collapsedSliceDims := [0]
  operandBatchingDims := []
  startIndicesBatchingDims := []
  startIndexMap := [0]
  indexVectorDim := 1
  sliceSizes := ![1, 64]
  wf := gather_S119x64_S100000x1_S100000x64_1_0_n_n_0_1_164_wf
def gather_S5x64_S800000x1_S800000x64_1_0_n_n_0_1_164 : GatherDims S5x64 S800000x1 S800000x64 where
  offsetDims := [1]
  collapsedSliceDims := [0]
  operandBatchingDims := []
  startIndicesBatchingDims := []
  startIndexMap := [0]
  indexVectorDim := 1
  sliceSizes := ![1, 64]
  wf := gather_S5x64_S800000x1_S800000x64_1_0_n_n_0_1_164_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf

class Facts : Prop extends Facts₀ where

variable [Facts]
-- ==== Proof.KRunPost.lean ====
import proofs.«419503_j34746285425415_3_alg».proof.Proof.Gen.KernelIdeal.Frame
import proofs.«419503_j34746285425415_3_alg».proof.Proof.KRun
import Idealize.ShloMosaic.PureOps.Ideal

noncomputable section

namespace Cert.Gnn

open Idealize.ShloMosaic Idealize.ShloMosaic.TcCoe Idealize.SL.Sem
open Cert.KernelIdeal Cert.KernelIdeal.Gen

/-- The run ends with every unscoped buffer at the fold's value; an argument's value there is its launch contents. -/
theorem krun [Facts] (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v256) = W62 m ρ c main_v256
      ∧ r.2.mem ((c.tc : Thread nD τ).loc main_v254) = W62 m ρ c main_v254
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run _ _ _).mono (fun r h c =>
    ⟨h c _ (mem_uc main_v256 (by decide)), h c _ (mem_uc main_v254 (by decide)),
     (h c _ (mem_uc main_arg0 (by decide))).trans (W62_main_arg0 m ρ c),
     (h c _ (mem_uc main_arg1 (by decide))).trans (W62_main_arg1 m ρ c),
     (h c _ (mem_uc main_arg2 (by decide))).trans (W62_main_arg2 m ρ c),
     (h c _ (mem_uc main_arg3 (by decide))).trans (W62_main_arg3 m ρ c),
     (h c _ (mem_uc main_arg4 (by decide))).trans (W62_main_arg4 m ρ c),
     (h c _ (mem_uc main_arg5 (by decide))).trans (W62_main_arg5 m ρ c),
     (h c _ (mem_uc main_arg6 (by decide))).trans (W62_main_arg6 m ρ c),
     (h c _ (mem_uc main_arg7 (by decide))).trans (W62_main_arg7 m ρ c),
     (h c _ (mem_uc main_arg8 (by decide))).trans (W62_main_arg8 m ρ c),
     (h c _ (mem_uc main_arg9 (by decide))).trans (W62_main_arg9 m ρ c),
     (h c _ (mem_uc main_arg10 (by decide))).trans (W62_main_arg10 m ρ c),
     (h c _ (mem_uc main_arg11 (by decide))).trans (W62_main_arg11 m ρ c),
     (h c _ (mem_uc main_arg12 (by decide))).trans (W62_main_arg12 m ρ c),
     (h c _ (mem_uc main_arg13 (by decide))).trans (W62_main_arg13 m ρ c)⟩)
    (Cert.KernelIdeal.GenV.run_all m ρ)

end Cert.Gnn

end
-- ==== Proof.RefOps.lean ====
/- The reference's @main as lists of operations, each call replaced by the callee's operations over the call's own
   buffers, cut at the layers of the network: what precedes them, the five layers, the pooling. -/
import proofs.«419503_j34746285425415_3_alg».proof.ReferenceIdeal
import Idealize.ShloMosaic.Lib.StableHlo.Run

noncomputable section

namespace Cert.ReferenceIdeal.Hand

open Idealize.ShloMosaic Idealize.SL.Sem
open Cert.ReferenceIdeal.Facts₀ Cert.ReferenceIdeal.Facts

variable {F : FTy → Type} [FloatOps F] [Facts]

/-- @main's statements 1 … 24 (%0 … %19): 24 operations, calls inlined. -/
abbrev pre : List (HloOp τ sig (Elt F)) :=
  [ StableHlo.reshape main_arg1 main_v0 rfl shapeCasts_S100000x1_S100000,
    StableHlo.nullary main_c (constantI S_ 32 0#32),
    StableHlo.unary main_c main_v1 (broadcastInDim S100000 ![] bcast_S_S100000 : (⟨S_, .i32⟩ : BufTy).Contents (Elt F) → (⟨S100000, .i32⟩ : BufTy).Contents (Elt F)),
    StableHlo.binary main_v0 main_v1 main_v2 (cmpi .slt : (⟨S100000, .i32⟩ : BufTy).Contents (Elt F) → (⟨S100000, .i32⟩ : BufTy).Contents (Elt F) → (⟨S100000, .i1⟩ : BufTy).Contents (Elt F)),
    StableHlo.nullary main_c_0 (constantI S_ 32 119#32),
    StableHlo.unary main_c_0 main_v3 (broadcastInDim S100000 ![] bcast_S_S100000 : (⟨S_, .i32⟩ : BufTy).Contents (Elt F) → (⟨S100000, .i32⟩ : BufTy).Contents (Elt F)),
    StableHlo.binary main_v0 main_v3 main_v4 (addi : (⟨S100000, .i32⟩ : BufTy).Contents (Elt F) → (⟨S100000, .i32⟩ : BufTy).Contents (Elt F) → (⟨S100000, .i32⟩ : BufTy).Contents (Elt F)),
    StableHlo.ternary main_v2 main_v4 main_v0 main_v5 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v5 main_v6 (broadcastInDim S100000x1 ![0] bcast_S100000_S100000x1_0 : (⟨S100000, .i32⟩ : BufTy).Contents (Elt F) → (⟨S100000x1, .i32⟩ : BufTy).Contents (Elt F)),
    StableHlo.binary main_arg4 main_v6 main_v7 ((fun x i => Host.gather gather_S119x64_S100000x1_S100000x64_1_0_n_n_0_1_164 x i) : (⟨S119x64, .f32⟩ : BufTy).Contents (Elt F) → (⟨S100000x1, .i32⟩ : BufTy).Contents (Elt F) → (⟨S100000x64, .f32⟩ : BufTy).Contents (Elt F)),
    StableHlo.reshape main_arg3 main_v8 rfl shapeCasts_S800000x1_S800000,
    StableHlo.nullary main_c_1 (constantI S_ 32 0#32),
    StableHlo.unary main_c_1 main_v9 (broadcastInDim S800000 ![] bcast_S_S800000 : (⟨S_, .i32⟩ : BufTy).Contents (Elt F) → (⟨S800000, .i32⟩ : BufTy).Contents (Elt F)),
    StableHlo.binary main_v8 main_v9 main_v10 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 5#32),
    StableHlo.unary main_c_2 main_v11 (broadcastInDim S800000 ![] bcast_S_S800000 : (⟨S_, .i32⟩ : BufTy).Contents (Elt F) → (⟨S800000, .i32⟩ : BufTy).Contents (Elt F)),
    StableHlo.binary main_v8 main_v11 main_v12 (addi : (⟨S800000, .i32⟩ : BufTy).Contents (Elt F) → (⟨S800000, .i32⟩ : BufTy).Contents (Elt F) → (⟨S800000, .i32⟩ : BufTy).Contents (Elt F)),
    StableHlo.ternary main_v10 main_v12 main_v8 main_v13 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v13 main_v14 (broadcastInDim S800000x1 ![0] bcast_S800000_S800000x1_0 : (⟨S800000, .i32⟩ : BufTy).Contents (Elt F) → (⟨S800000x1, .i32⟩ : BufTy).Contents (Elt F)),
    StableHlo.binary main_arg5 main_v14 main_v15 ((fun x i => Host.gather gather_S5x64_S800000x1_S800000x64_1_0_n_n_0_1_164 x i) : (⟨S5x64, .f32⟩ : BufTy).Contents (Elt F) → (⟨S800000x1, .i32⟩ : BufTy).Contents (Elt F) → (⟨S800000x64, .f32⟩ : BufTy).Contents (Elt F)),
    StableHlo.unary main_arg2 main_v16 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v16 main_v17 rfl shapeCasts_S1x800000_S800000,
    StableHlo.unary main_arg2 main_v18 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v18 main_v19 rfl shapeCasts_S1x800000_S800000 ]

/-- @main's statements 25 … 112 (%c_3 … %96): 136 operations, calls inlined. -/
abbrev lay0 : List (HloOp τ sig (Elt F)) :=
  [ StableHlo.nullary main_c_3 (constantI S_ 32 0#32),
    StableHlo.unary main_c_3 main_v20 (broadcastInDim S800000 ![] bcast_S_S800000 : (⟨S_, .i32⟩ : BufTy).Contents (Elt F) → (⟨S800000, .i32⟩ : BufTy).Contents (Elt F)),
    StableHlo.binary main_v17 main_v20 main_v21 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 100000#32),
    StableHlo.unary main_c_4 main_v22 (broadcastInDim S800000 ![] bcast_S_S800000 : (⟨S_, .i32⟩ : BufTy).Contents (Elt F) → (⟨S800000, .i32⟩ : BufTy).Contents (Elt F)),
    StableHlo.binary main_v17 main_v22 main_v23 (addi : (⟨S800000, .i32⟩ : BufTy).Contents (Elt F) → (⟨S800000, .i32⟩ : BufTy).Contents (Elt F) → (⟨S800000, .i32⟩ : BufTy).Contents (Elt F)),
    StableHlo.ternary main_v21 main_v23 main_v17 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v24 main_v25 (broadcastInDim S800000x1 ![0] bcast_S800000_S800000x1_0 : (⟨S800000, .i32⟩ : BufTy).Contents (Elt F) → (⟨S800000x1, .i32⟩ : BufTy).Contents (Elt F)),
    StableHlo.binary main_v7 main_v25 main_v26 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    StableHlo.binary main_v26 main_v15 main_v27 (addf : (⟨S800000x64, .f32⟩ : BufTy).Contents (Elt F) → (⟨S800000x64, .f32⟩ : BufTy).Contents (Elt F) → (⟨S800000x64, .f32⟩ : BufTy).Contents (Elt F)),
    StableHlo.TRef.nullary main_call0.cst (constant S_ .f32 0x00000000#32),
    StableHlo.TRef.unary main_call0.cst main_call0.v0 (broadcastInDim S800000x64 ![] bcast_S_S800000x64),
    StableHlo.TRef.binary (.of main_v27 : StableHlo.TRef sig ⟨S800000x64, .f32⟩) main_call0.v0 main_call0.v1 maximumf,
    StableHlo.nullary main_cst (constant S_ .f32 0x00000000#32),
    StableHlo.unary main_cst main_v29 (broadcastInDim S100000x64 ![] bcast_S_S100000x64 : (⟨S_, .f32⟩ : BufTy).Contents (Elt F) → (⟨S100000x64, .f32⟩ : BufTy).Contents (Elt F)),
    StableHlo.unary main_v19 main_v30 (broadcastInDim S800000x1 ![0] bcast_S800000_S800000x1_0 : (⟨S800000, .i32⟩ : BufTy).Contents (Elt F) → (⟨S800000x1, .i32⟩ : BufTy).Contents (Elt F)),
    StableHlo.ternary main_v29 main_v30 main_v28 main_v31 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    StableHlo.binary main_v7 main_v31 main_v32 (addf : (⟨S100000x64, .f32⟩ : BufTy).Contents (Elt F) → (⟨S100000x64, .f32⟩ : BufTy).Contents (Elt F) → (⟨S100000x64, .f32⟩ : BufTy).Contents (Elt F)),
    StableHlo.unary main_arg6 main_v33 ((extractStridedSlice S1x64x128 ![0, 0, 0] · slices_S5x64x128_S1x64x128_0_0_0) : (⟨S5x64x128, .f32⟩ : BufTy).Contents (Elt F) → (⟨S1x64x128, .f32⟩ : BufTy).Contents (Elt F)),
    StableHlo.reshape main_v33 main_v34 rfl shapeCasts_S1x64x128_S64x128,
    StableHlo.binary main_v32 main_v34 main_v35 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg7 main_v36 ((extractStridedSlice S1x128 ![0, 0] · slices_S5x128_S1x128_0_0) : (⟨S5x128, .f32⟩ : BufTy).Contents (Elt F) → (⟨S1x128, .f32⟩ : BufTy).Contents (Elt F)),
    StableHlo.reshape main_v36 main_v37 rfl shapeCasts_S1x128_S128,
    StableHlo.unary main_v37 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v35 main_v39 main_v40 (addf : (⟨S100000x128, .f32⟩ : BufTy).Contents (Elt F) → (⟨S100000x128, .f32⟩ : BufTy).Contents (Elt F) → (⟨S100000x128, .f32⟩ : BufTy).Contents (Elt F)),
    StableHlo.unary main_arg8 main_v41 ((extractStridedSlice S1x128 ![0, 0] · slices_S5x128_S1x128_0_0) : (⟨S5x128, .f32⟩ : BufTy).Contents (Elt F) → (⟨S1x128, .f32⟩ : BufTy).Contents (Elt F)),
    StableHlo.reshape main_v41 main_v42 rfl shapeCasts_S1x128_S128,
    StableHlo.unary main_arg9 main_v43 ((extractStridedSlice S1x128 ![0, 0] · slices_S5x128_S1x128_0_0) : (⟨S5x128, .f32⟩ : BufTy).Contents (Elt F) → (⟨S1x128, .f32⟩ : BufTy).Contents (Elt F)),
    StableHlo.reshape main_v43 main_v44 rfl shapeCasts_S1x128_S128,
    StableHlo.nullary main_cst_5 (constant S_ .f32 0x00000000#32),
    StableHlo.binary main_v40 main_cst_5 main_v45 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_6 (constant S_ .f32 0x47C35000#32),
    StableHlo.unary main_cst_6 main_v46 (broadcastInDim S128 ![] bcast_S_S128 : (⟨S_, .f32⟩ : BufTy).Contents (Elt F) → (⟨S128, .f32⟩ : BufTy).Contents (Elt F)),
    StableHlo.binary main_v45 main_v46 main_v47 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call1.cst (constant S_ .f32 0x00000000#32),
    StableHlo.TRef.binary (.of main_v40 : StableHlo.TRef sig ⟨S100000x128, .f32⟩) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v40 : StableHlo.TRef sig ⟨S100000x128, .f32⟩) main_call1.v4 main_call1.v5 subf,
    StableHlo.TRef.binary main_call1.v5 main_call1.v5 main_call1.v6 mulf,
    StableHlo.TRef.unary (.of main_c_7 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v47 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v50 main_v51 (subf : (⟨S100000x128, .f32⟩ : BufTy).Contents (Elt F) → (⟨S100000x128, .f32⟩ : BufTy).Contents (Elt F) → (⟨S100000x128, .f32⟩ : BufTy).Contents (Elt F)),
    StableHlo.unary main_v42 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S100000x128 ![0, 1] bcast_S1x128_S100000x128_0_1 : (⟨S1x128, .f32⟩ : BufTy).Contents (Elt F) → (⟨S100000x128, .f32⟩ : BufTy).Contents (Elt F)),
    StableHlo.binary main_v53 main_v51 main_v54 (mulf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x3727C5AC#32),
    StableHlo.unary main_cst_8 main_v55 (broadcastInDim S128 ![] bcast_S_S128 : (⟨S_, .f32⟩ : BufTy).Contents (Elt F) → (⟨S128, .f32⟩ : BufTy).Contents (Elt F)),
    StableHlo.binary main_v48 main_v55 main_v56 (addf : (⟨S128, .f32⟩ : BufTy).Contents (Elt F) → (⟨S128, .f32⟩ : BufTy).Contents (Elt F) → (⟨S128, .f32⟩ : BufTy).Contents (Elt F)),
    StableHlo.unary main_v56 main_v57 (Host.rsqrt : (⟨S128, .f32⟩ : BufTy).Contents (Elt F) → (⟨S128, .f32⟩ : BufTy).Contents (Elt F)),
    StableHlo.unary main_v57 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v54 main_v59 main_v60 (mulf : (⟨S100000x128, .f32⟩ : BufTy).Contents (Elt F) → (⟨S100000x128, .f32⟩ : BufTy).Contents (Elt F) → (⟨S100000x128, .f32⟩ : BufTy).Contents (Elt F)),
    StableHlo.unary main_v44 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v60 main_v62 main_v63 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v63 : StableHlo.TRef sig ⟨S100000x128, .f32⟩) main_call2.v0 main_call2.v1 maximumf,
    StableHlo.unary main_arg10 main_v65 ((extractStridedSlice S1x128x64 ![0, 0, 0] · slices_S5x128x64_S1x128x64_0_0_0) : (⟨S5x128x64, .f32⟩ : BufTy).Contents (Elt F) → (⟨S1x128x64, .f32⟩ : BufTy).Contents (Elt F)),
    StableHlo.reshape main_v65 main_v66 rfl shapeCasts_S1x128x64_S128x64,
    StableHlo.binary main_v64 main_v66 main_v67 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg11 main_v68 ((extractStridedSlice S1x64 ![0, 0] · slices_S5x64_S1x64_0_0) : (⟨S5x64, .f32⟩ : BufTy).Contents (Elt F) → (⟨S1x64, .f32⟩ : BufTy).Contents (Elt F)),
    StableHlo.reshape main_v68 main_v69 rfl shapeCasts_S1x64_S64,
    StableHlo.unary main_v69 main_v70 (broadcastInDim S1x64 ![1] bcast_S64_S1x64_1 : (⟨S64, .f32⟩ : BufTy).Contents (Elt F) → (⟨S1x64, .f32⟩ : BufTy).Contents (Elt F)),
    StableHlo.unary main_v70 main_v71 (broadcastInDim S100000x64 ![0, 1] bcast_S1x64_S100000x64_0_1 : (⟨S1x64, .f32⟩ : BufTy).Contents (Elt F) → (⟨S100000x64, .f32⟩ : BufTy).Contents (Elt F)),
    StableHlo.binary main_v67 main_v71 main_v72 (addf : (⟨S100000x64, .f32⟩ : BufTy).Contents (Elt F) → (⟨S100000x64, .f32⟩ : BufTy).Contents (Elt F) → (⟨S100000x64, .f32⟩ : BufTy).Contents (Elt F)),
    StableHlo.unary main_arg12 main_v73 ((extractStridedSlice S1x64 ![0, 0] · slices_S5x64_S1x64_0_0) : (⟨S5x64, .f32⟩ : BufTy).Contents (Elt F) → (⟨S1x64, .f32⟩ : BufTy).Contents (Elt F)),
    StableHlo.reshape main_v73 main_v74 rfl shapeCasts_S1x64_S64,
    StableHlo.unary main_arg13 main_v75 ((extractStridedSlice S1x64 ![0, 0] · slices_S5x64_S1x64_0_0) : (⟨S5x64, .f32⟩ : BufTy).Contents (Elt F) → (⟨S1x64, .f32⟩ : BufTy).Contents (Elt F)),
    StableHlo.reshape main_v75 main_v76 rfl shapeCasts_S1x64_S64,
    StableHlo.nullary main_cst_9 (constant S_ .f32 0x00000000#32),
    StableHlo.binary main_v72 main_cst_9 main_v77 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_10 (constant S_ .f32 0x47C35000#32),
    StableHlo.unary main_cst_10 main_v78 (broadcastInDim S64 ![] bcast_S_S64 : (⟨S_, .f32⟩ : BufTy).Contents (Elt F) → (⟨S64, .f32⟩ : BufTy).Contents (Elt F)),
    StableHlo.binary main_v77 main_v78 main_v79 (Host.divf : (⟨S64, .f32⟩ : BufTy).Contents (Elt F) → (⟨S64, .f32⟩ : BufTy).Contents (Elt F) → (⟨S64, .f32⟩ : BufTy).Contents (Elt F)),
    StableHlo.nullary main_c_11 (constantI S_ 32 0#32),
    StableHlo.TRef.nullary main_call3.cst (constant S_ .f32 0x00000000#32),
    StableHlo.TRef.binary (.of main_v72 : StableHlo.TRef sig ⟨S100000x64, .f32⟩) main_call3.cst main_call3.v0 (fun x v => Host.reduceAdd x v reducesTo_S100000x64_S64_d0 h_S_),
    StableHlo.TRef.unary main_call3.v0 main_call3.v1 (broadcastInDim S1x64 ![1] bcast_S64_S1x64_1),
    StableHlo.TRef.nullary main_call3.cst_0 (constant S_ .f32 0x47C35000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S100000x64 ![0, 1] bcast_S1x64_S100000x64_0_1),
    StableHlo.TRef.binary (.of main_v72 : StableHlo.TRef sig ⟨S100000x64, .f32⟩) main_call3.v4 main_call3.v5 subf,
    StableHlo.TRef.binary main_call3.v5 main_call3.v5 main_call3.v6 mulf,
    StableHlo.TRef.unary (.of main_c_11 : StableHlo.TRef sig ⟨S_, .i32⟩) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S64 ![] bcast_S_S64),
    StableHlo.TRef.ternary main_call3.v12 main_call3.v11 main_call3.call0.v1 main_call3.call0.v2 (fun p a b => select (broadcastInDim S64 ![] bcast_S_S64 p) a b),
    StableHlo.unary main_v79 main_v81 (broadcastInDim S1x64 ![1] bcast_S64_S1x64_1 : (⟨S64, .f32⟩ : BufTy).Contents (Elt F) → (⟨S1x64, .f32⟩ : BufTy).Contents (Elt F)),
    StableHlo.unary main_v81 main_v82 (broadcastInDim S100000x64 ![0, 1] bcast_S1x64_S100000x64_0_1 : (⟨S1x64, .f32⟩ : BufTy).Contents (Elt F) → (⟨S100000x64, .f32⟩ : BufTy).Contents (Elt F)),
    StableHlo.binary main_v72 main_v82 main_v83 (subf : (⟨S100000x64, .f32⟩ : BufTy).Contents (Elt F) → (⟨S100000x64, .f32⟩ : BufTy).Contents (Elt F) → (⟨S100000x64, .f32⟩ : BufTy).Contents (Elt F)),
    StableHlo.unary main_v74 main_v84 (broadcastInDim S1x64 ![1] bcast_S64_S1x64_1 : (⟨S64, .f32⟩ : BufTy).Contents (Elt F) → (⟨S1x64, .f32⟩ : BufTy).Contents (Elt F)),
    StableHlo.unary main_v84 main_v85 (broadcastInDim S100000x64 ![0, 1] bcast_S1x64_S100000x64_0_1 : (⟨S1x64, .f32⟩ : BufTy).Contents (Elt F) → (⟨S100000x64, .f32⟩ : BufTy).Contents (Elt F)),
    StableHlo.binary main_v85 main_v83 main_v86 (mulf : (⟨S100000x64, .f32⟩ : BufTy).Contents (Elt F) → (⟨S100000x64, .f32⟩ : BufTy).Contents (Elt F) → (⟨S100000x64, .f32⟩ : BufTy).Contents (Elt F)),
    StableHlo.nullary main_cst_12 (constant S_ .f32 0x3727C5AC#32),
    StableHlo.unary main_cst_12 main_v87 (broadcastInDim S64 ![] bcast_S_S64 : (⟨S_, .f32⟩ : BufTy).Contents (Elt F) → (⟨S64, .f32⟩ : BufTy).Contents (Elt F)),
    StableHlo.binary main_v80 main_v87 main_v88 (addf : (⟨S64, .f32⟩ : BufTy).Contents (Elt F) → (⟨S64, .f32⟩ : BufTy).Contents (Elt F) → (⟨S64, .f32⟩ : BufTy).Contents (Elt F)),
    StableHlo.unary main_v88 main_v89 (Host.rsqrt : (⟨S64, .f32⟩ : BufTy).Contents (Elt F) → (⟨S64, .f32⟩ : BufTy).Contents (Elt F)),
    StableHlo.unary main_v89 main_v90 (broadcastInDim S1x64 ![1] bcast_S64_S1x64_1 : (⟨S64, .f32⟩ : BufTy).Contents (Elt F) → (⟨S1x64, .f32⟩ : BufTy).Contents (Elt F)),
    StableHlo.unary main_v90 main_v91 (broadcastInDim S100000x64 ![0, 1] bcast_S1x64_S100000x64_0_1 : (⟨S1x64, .f32⟩ : BufTy).Contents (Elt F) → (⟨S100000x64, .f32⟩ : BufTy).Contents (Elt F)),
    StableHlo.binary main_v86 main_v91 main_v92 (mulf : (⟨S100000x64, .f32⟩ : BufTy).Contents (Elt F) → (⟨S100000x64, .f32⟩ : BufTy).Contents (Elt F) → (⟨S100000x64, .f32⟩ : BufTy).Contents (Elt F)),
    StableHlo.unary main_v76 main_v93 (broadcastInDim S1x64 ![1] bcast_S64_S1x64_1 : (⟨S64, .f32⟩ : BufTy).Contents (Elt F) → (⟨S1x64, .f32⟩ : BufTy).Contents (Elt F)),
    StableHlo.unary main_v93 main_v94 (broadcastInDim S100000x64 ![0, 1] bcast_S1x64_S100000x64_0_1 : (⟨S1x64, .f32⟩ : BufTy).Contents (Elt F) → (⟨S100000x64, .f32⟩ : BufTy).Contents (Elt F)),
    StableHlo.binary main_v92 main_v94 main_v95 (addf : (⟨S100000x64, .f32⟩ : BufTy).Contents (Elt F) → (⟨S100000x64, .f32⟩ : BufTy).Contents (Elt F) → (⟨S100000x64, .f32⟩ : BufTy).Contents (Elt F)),
    StableHlo.TRef.nullary main_call4.cst (constant S_ .f32 0x00000000#32),
    StableHlo.TRef.unary main_call4.cst main_call4.v0 (broadcastInDim S100000x64 ![] bcast_S_S100000x64),
    StableHlo.TRef.binary (.of main_v95 : StableHlo.TRef sig ⟨S100000x64, .f32⟩) main_call4.v0 main_call4.v1 maximumf ]

/-- @main's statements 113 … 200 (%c_13 … %173): 136 operations, calls inlined. -/
abbrev lay1 : List (HloOp τ sig (Elt F)) :=
  [ StableHlo.nullary main_c_13 (constantI S_ 32 0#32),
    StableHlo.unary main_c_13 main_v97 (broadcastInDim S800000 ![] bcast_S_S800000 : (⟨S_, .i32⟩ : BufTy).Contents (Elt F) → (⟨S800000, .i32⟩ : BufTy).Contents (Elt F)),
    StableHlo.binary main_v17 main_v97 main_v98 (cmpi .slt : (⟨S800000, .i32⟩ : BufTy).Contents (Elt F) → (⟨S800000, .i32⟩ : BufTy).Contents (Elt F) → (⟨S800000, .i1⟩ : BufTy).Contents (Elt F)),
    StableHlo.nullary main_c_14 (constantI S_ 32 100000#32),
    StableHlo.unary main_c_14 main_v99 (broadcastInDim S800000 ![] bcast_S_S800000 : (⟨S_, .i32⟩ : BufTy).Contents (Elt F) → (⟨S800000, .i32⟩ : BufTy).Contents (Elt F)),
    StableHlo.binary main_v17 main_v99 main_v100 (addi : (⟨S800000, .i32⟩ : BufTy).Contents (Elt F) → (⟨S800000, .i32⟩ : BufTy).Contents (Elt F) → (⟨S800000, .i32⟩ : BufTy).Contents (Elt F)),
    StableHlo.ternary main_v98 main_v100 main_v17 main_v101 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v101 main_v102 (broadcastInDim S800000x1 ![0] bcast_S800000_S800000x1_0 : (⟨S800000, .i32⟩ : BufTy).Contents (Elt F) → (⟨S800000x1, .i32⟩ : BufTy).Contents (Elt F)),
    StableHlo.binary main_v96 main_v102 main_v103 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    StableHlo.binary main_v103 main_v15 main_v104 (addf : (⟨S800000x64, .f32⟩ : BufTy).Contents (Elt F) → (⟨S800000x64, .f32⟩ : BufTy).Contents (Elt F) → (⟨S800000x64, .f32⟩ : BufTy).Contents (Elt F)),
    StableHlo.TRef.nullary main_call5.cst (constant S_ .f32 0x00000000#32),
    StableHlo.TRef.unary main_call5.cst main_call5.v0 (broadcastInDim S800000x64 ![] bcast_S_S800000x64),
    StableHlo.TRef.binary (.of main_v104 : StableHlo.TRef sig ⟨S800000x64, .f32⟩) main_call5.v0 main_call5.v1 maximumf,
    StableHlo.nullary main_cst_15 (constant S_ .f32 0x00000000#32),
    StableHlo.unary main_cst_15 main_v106 (broadcastInDim S100000x64 ![] bcast_S_S100000x64 : (⟨S_, .f32⟩ : BufTy).Contents (Elt F) → (⟨S100000x64, .f32⟩ : BufTy).Contents (Elt F)),
    StableHlo.unary main_v19 main_v107 (broadcastInDim S800000x1 ![0] bcast_S800000_S800000x1_0 : (⟨S800000, .i32⟩ : BufTy).Contents (Elt F) → (⟨S800000x1, .i32⟩ : BufTy).Contents (Elt F)),
    StableHlo.ternary main_v106 main_v107 main_v105 main_v108 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    StableHlo.binary main_v96 main_v108 main_v109 (addf : (⟨S100000x64, .f32⟩ : BufTy).Contents (Elt F) → (⟨S100000x64, .f32⟩ : BufTy).Contents (Elt F) → (⟨S100000x64, .f32⟩ : BufTy).Contents (Elt F)),
    StableHlo.unary main_arg6 main_v110 ((extractStridedSlice S1x64x128 ![1, 0, 0] · slices_S5x64x128_S1x64x128_1_0_0) : (⟨S5x64x128, .f32⟩ : BufTy).Contents (Elt F) → (⟨S1x64x128, .f32⟩ : BufTy).Contents (Elt F)),
    StableHlo.reshape main_v110 main_v111 rfl shapeCasts_S1x64x128_S64x128,
    StableHlo.binary main_v109 main_v111 main_v112 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg7 main_v113 ((extractStridedSlice S1x128 ![1, 0] · slices_S5x128_S1x128_1_0) : (⟨S5x128, .f32⟩ : BufTy).Contents (Elt F) → (⟨S1x128, .f32⟩ : BufTy).Contents (Elt F)),
    StableHlo.reshape main_v113 main_v114 rfl shapeCasts_S1x128_S128,
    StableHlo.unary main_v114 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S100000x128 ![0, 1] bcast_S1x128_S100000x128_0_1 : (⟨S1x128, .f32⟩ : BufTy).Contents (Elt F) → (⟨S100000x128, .f32⟩ : BufTy).Contents (Elt F)),
    StableHlo.binary main_v112 main_v116 main_v117 (addf : (⟨S100000x128, .f32⟩ : BufTy).Contents (Elt F) → (⟨S100000x128, .f32⟩ : BufTy).Contents (Elt F) → (⟨S100000x128, .f32⟩ : BufTy).Contents (Elt F)),
    StableHlo.unary main_arg8 main_v118 ((extractStridedSlice S1x128 ![1, 0] · slices_S5x128_S1x128_1_0) : (⟨S5x128, .f32⟩ : BufTy).Contents (Elt F) → (⟨S1x128, .f32⟩ : BufTy).Contents (Elt F)),
    StableHlo.reshape main_v118 main_v119 rfl shapeCasts_S1x128_S128,
    StableHlo.unary main_arg9 main_v120 ((extractStridedSlice S1x128 ![1, 0] · slices_S5x128_S1x128_1_0) : (⟨S5x128, .f32⟩ : BufTy).Contents (Elt F) → (⟨S1x128, .f32⟩ : BufTy).Contents (Elt F)),
    StableHlo.reshape main_v120 main_v121 rfl shapeCasts_S1x128_S128,
    StableHlo.nullary main_cst_16 (constant S_ .f32 0x00000000#32),
    StableHlo.binary main_v117 main_cst_16 main_v122 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_17 (constant S_ .f32 0x47C35000#32),
    StableHlo.unary main_cst_17 main_v123 (broadcastInDim S128 ![] bcast_S_S128 : (⟨S_, .f32⟩ : BufTy).Contents (Elt F) → (⟨S128, .f32⟩ : BufTy).Contents (Elt F)),
    StableHlo.binary main_v122 main_v123 main_v124 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary main_call6.cst (constant S_ .f32 0x00000000#32),
    StableHlo.TRef.binary (.of main_v117 : StableHlo.TRef sig ⟨S100000x128, .f32⟩) main_call6.cst main_call6.v0 (fun x v => Host.reduceAdd x v reducesTo_S100000x128_S128_d0 h_S_),
    StableHlo.TRef.unary main_call6.v0 main_call6.v1 (broadcastInDim S1x128 ![1] bcast_S128_S1x128_1),
    StableHlo.TRef.nullary main_call6.cst_0 (constant S_ .f32 0x47C35000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S100000x128 ![0, 1] bcast_S1x128_S100000x128_0_1),
    StableHlo.TRef.binary (.of main_v117 : StableHlo.TRef sig ⟨S100000x128, .f32⟩) main_call6.v4 main_call6.v5 subf,
    StableHlo.TRef.binary main_call6.v5 main_call6.v5 main_call6.v6 mulf,
    StableHlo.TRef.unary (.of main_c_18 : StableHlo.TRef sig ⟨S_, .i32⟩) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v124 main_v126 (broadcastInDim S1x128 ![1] bcast_S128_S1x128_1 : (⟨S128, .f32⟩ : BufTy).Contents (Elt F) → (⟨S1x128, .f32⟩ : BufTy).Contents (Elt F)),
    StableHlo.unary main_v126 main_v127 (broadcastInDim S100000x128 ![0, 1] bcast_S1x128_S100000x128_0_1 : (⟨S1x128, .f32⟩ : BufTy).Contents (Elt F) → (⟨S100000x128, .f32⟩ : BufTy).Contents (Elt F)),
    StableHlo.binary main_v117 main_v127 main_v128 (subf : (⟨S100000x128, .f32⟩ : BufTy).Contents (Elt F) → (⟨S100000x128, .f32⟩ : BufTy).Contents (Elt F) → (⟨S100000x128, .f32⟩ : BufTy).Contents (Elt F)),
    StableHlo.unary main_v119 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S100000x128 ![0, 1] bcast_S1x128_S100000x128_0_1 : (⟨S1x128, .f32⟩ : BufTy).Contents (Elt F) → (⟨S100000x128, .f32⟩ : BufTy).Contents (Elt F)),
    StableHlo.binary main_v130 main_v128 main_v131 (mulf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x3727C5AC#32),
    StableHlo.unary main_cst_19 main_v132 (broadcastInDim S128 ![] bcast_S_S128 : (⟨S_, .f32⟩ : BufTy).Contents (Elt F) → (⟨S128, .f32⟩ : BufTy).Contents (Elt F)),
    StableHlo.binary main_v125 main_v132 main_v133 (addf : (⟨S128, .f32⟩ : BufTy).Contents (Elt F) → (⟨S128, .f32⟩ : BufTy).Contents (Elt F) → (⟨S128, .f32⟩ : BufTy).Contents (Elt F)),
    StableHlo.unary main_v133 main_v134 (Host.rsqrt : (⟨S128, .f32⟩ : BufTy).Contents (Elt F) → (⟨S128, .f32⟩ : BufTy).Contents (Elt F)),
    StableHlo.unary main_v134 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S100000x128 ![0, 1] bcast_S1x128_S100000x128_0_1 : (⟨S1x128, .f32⟩ : BufTy).Contents (Elt F) → (⟨S100000x128, .f32⟩ : BufTy).Contents (Elt F)),
    StableHlo.binary main_v131 main_v136 main_v137 (mulf : (⟨S100000x128, .f32⟩ : BufTy).Contents (Elt F) → (⟨S100000x128, .f32⟩ : BufTy).Contents (Elt F) → (⟨S100000x128, .f32⟩ : BufTy).Contents (Elt F)),
    StableHlo.unary main_v121 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S100000x128 ![0, 1] bcast_S1x128_S100000x128_0_1 : (⟨S1x128, .f32⟩ : BufTy).Contents (Elt F) → (⟨S100000x128, .f32⟩ : BufTy).Contents (Elt F)),
    StableHlo.binary main_v137 main_v139 main_v140 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (.of main_v140 : StableHlo.TRef sig ⟨S100000x128, .f32⟩) main_call7.v0 main_call7.v1 maximumf,
    StableHlo.unary main_arg10 main_v142 ((extractStridedSlice S1x128x64 ![1, 0, 0] · slices_S5x128x64_S1x128x64_1_0_0) : (⟨S5x128x64, .f32⟩ : BufTy).Contents (Elt F) → (⟨S1x128x64, .f32⟩ : BufTy).Contents (Elt F)),
    StableHlo.reshape main_v142 main_v143 rfl shapeCasts_S1x128x64_S128x64,
    StableHlo.binary main_v141 main_v143 main_v144 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg11 main_v145 ((extractStridedSlice S1x64 ![1, 0] · slices_S5x64_S1x64_1_0) : (⟨S5x64, .f32⟩ : BufTy).Contents (Elt F) → (⟨S1x64, .f32⟩ : BufTy).Contents (Elt F)),
    StableHlo.reshape main_v145 main_v146 rfl shapeCasts_S1x64_S64,
    StableHlo.unary main_v146 main_v147 (broadcastInDim S1x64 ![1] bcast_S64_S1x64_1 : (⟨S64, .f32⟩ : BufTy).Contents (Elt F) → (⟨S1x64, .f32⟩ : BufTy).Contents (Elt F)),
    StableHlo.unary main_v147 main_v148 (broadcastInDim S100000x64 ![0, 1] bcast_S1x64_S100000x64_0_1 : (⟨S1x64, .f32⟩ : BufTy).Contents (Elt F) → (⟨S100000x64, .f32⟩ : BufTy).Contents (Elt F)),
    StableHlo.binary main_v144 main_v148 main_v149 (addf : (⟨S100000x64, .f32⟩ : BufTy).Contents (Elt F) → (⟨S100000x64, .f32⟩ : BufTy).Contents (Elt F) → (⟨S100000x64, .f32⟩ : BufTy).Contents (Elt F)),
    StableHlo.unary main_arg12 main_v150 ((extractStridedSlice S1x64 ![1, 0] · slices_S5x64_S1x64_1_0) : (⟨S5x64, .f32⟩ : BufTy).Contents (Elt F) → (⟨S1x64, .f32⟩ : BufTy).Contents (Elt F)),
    StableHlo.reshape main_v150 main_v151 rfl shapeCasts_S1x64_S64,
    StableHlo.unary main_arg13 main_v152 ((extractStridedSlice S1x64 ![1, 0] · slices_S5x64_S1x64_1_0) : (⟨S5x64, .f32⟩ : BufTy).Contents (Elt F) → (⟨S1x64, .f32⟩ : BufTy).Contents (Elt F)),
    StableHlo.reshape main_v152 main_v153 rfl shapeCasts_S1x64_S64,
    StableHlo.nullary main_cst_20 (constant S_ .f32 0x00000000#32),
    StableHlo.binary main_v149 main_cst_20 main_v154 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_21 (constant S_ .f32 0x47C35000#32),
    StableHlo.unary main_cst_21 main_v155 (broadcastInDim S64 ![] bcast_S_S64 : (⟨S_, .f32⟩ : BufTy).Contents (Elt F) → (⟨S64, .f32⟩ : BufTy).Contents (Elt F)),
    StableHlo.binary main_v154 main_v155 main_v156 (Host.divf : (⟨S64, .f32⟩ : BufTy).Contents (Elt F) → (⟨S64, .f32⟩ : BufTy).Contents (Elt F) → (⟨S64, .f32⟩ : BufTy).Contents (Elt F)),
    StableHlo.nullary main_c_22 (constantI S_ 32 0#32),
    StableHlo.TRef.nullary main_call8.cst (constant S_ .f32 0x00000000#32),
    StableHlo.TRef.binary (.of main_v149 : StableHlo.TRef sig ⟨S100000x64, .f32⟩) main_call8.cst main_call8.v0 (fun x v => Host.reduceAdd x v reducesTo_S100000x64_S64_d0 h_S_),
    StableHlo.TRef.unary main_call8.v0 main_call8.v1 (broadcastInDim S1x64 ![1] bcast_S64_S1x64_1),
    StableHlo.TRef.nullary main_call8.cst_0 (constant S_ .f32 0x47C35000#32),
    StableHlo.TRef.unary main_call8.cst_0 main_call8.v2 (broadcastInDim S1x64 ![] bcast_S_S1x64),
    StableHlo.TRef.binary main_call8.v1 main_call8.v2 main_call8.v3 Host.divf,
    StableHlo.TRef.unary main_call8.v3 main_call8.v4 (broadcastInDim S100000x64 ![0, 1] bcast_S1x64_S100000x64_0_1),
    StableHlo.TRef.binary (.of main_v149 : StableHlo.TRef sig ⟨S100000x64, .f32⟩) main_call8.v4 main_call8.v5 subf,
    StableHlo.TRef.binary main_call8.v5 main_call8.v5 main_call8.v6 mulf,
    StableHlo.TRef.unary (.of main_c_22 : StableHlo.TRef sig ⟨S_, .i32⟩) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x64_S64_d0 h_S_),
    StableHlo.TRef.unary main_call8.v8 main_call8.v10 (broadcastInDim S64 ![] bcast_S_S64),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S64 ![] bcast_S_S64),
    StableHlo.TRef.ternary main_call8.v12 main_call8.v11 main_call8.call0.v1 main_call8.call0.v2 (fun p a b => select (broadcastInDim S64 ![] bcast_S_S64 p) a b),
    StableHlo.unary main_v156 main_v158 (broadcastInDim S1x64 ![1] bcast_S64_S1x64_1 : (⟨S64, .f32⟩ : BufTy).Contents (Elt F) → (⟨S1x64, .f32⟩ : BufTy).Contents (Elt F)),
    StableHlo.unary main_v158 main_v159 (broadcastInDim S100000x64 ![0, 1] bcast_S1x64_S100000x64_0_1 : (⟨S1x64, .f32⟩ : BufTy).Contents (Elt F) → (⟨S100000x64, .f32⟩ : BufTy).Contents (Elt F)),
    StableHlo.binary main_v149 main_v159 main_v160 (subf : (⟨S100000x64, .f32⟩ : BufTy).Contents (Elt F) → (⟨S100000x64, .f32⟩ : BufTy).Contents (Elt F) → (⟨S100000x64, .f32⟩ : BufTy).Contents (Elt F)),
    StableHlo.unary main_v151 main_v161 (broadcastInDim S1x64 ![1] bcast_S64_S1x64_1 : (⟨S64, .f32⟩ : BufTy).Contents (Elt F) → (⟨S1x64, .f32⟩ : BufTy).Contents (Elt F)),
    StableHlo.unary main_v161 main_v162 (broadcastInDim S100000x64 ![0, 1] bcast_S1x64_S100000x64_0_1 : (⟨S1x64, .f32⟩ : BufTy).Contents (Elt F) → (⟨S100000x64, .f32⟩ : BufTy).Contents (Elt F)),
    StableHlo.binary main_v162 main_v160 main_v163 (mulf : (⟨S100000x64, .f32⟩ : BufTy).Contents (Elt F) → (⟨S100000x64, .f32⟩ : BufTy).Contents (Elt F) → (⟨S100000x64, .f32⟩ : BufTy).Contents (Elt F)),
    StableHlo.nullary main_cst_23 (constant S_ .f32 0x3727C5AC#32),
    StableHlo.unary main_cst_23 main_v164 (broadcastInDim S64 ![] bcast_S_S64 : (⟨S_, .f32⟩ : BufTy).Contents (Elt F) → (⟨S64, .f32⟩ : BufTy).Contents (Elt F)),
    StableHlo.binary main_v157 main_v164 main_v165 (addf : (⟨S64, .f32⟩ : BufTy).Contents (Elt F) → (⟨S64, .f32⟩ : BufTy).Contents (Elt F) → (⟨S64, .f32⟩ : BufTy).Contents (Elt F)),
    StableHlo.unary main_v165 main_v166 (Host.rsqrt : (⟨S64, .f32⟩ : BufTy).Contents (Elt F) → (⟨S64, .f32⟩ : BufTy).Contents (Elt F)),
    StableHlo.unary main_v166 main_v167 (broadcastInDim S1x64 ![1] bcast_S64_S1x64_1 : (⟨S64, .f32⟩ : BufTy).Contents (Elt F) → (⟨S1x64, .f32⟩ : BufTy).Contents (Elt F)),
    StableHlo.unary main_v167 main_v168 (broadcastInDim S100000x64 ![0, 1] bcast_S1x64_S100000x64_0_1 : (⟨S1x64, .f32⟩ : BufTy).Contents (Elt F) → (⟨S100000x64, .f32⟩ : BufTy).Contents (Elt F)),
    StableHlo.binary main_v163 main_v168 main_v169 (mulf : (⟨S100000x64, .f32⟩ : BufTy).Contents (Elt F) → (⟨S100000x64, .f32⟩ : BufTy).Contents (Elt F) → (⟨S100000x64, .f32⟩ : BufTy).Contents (Elt F)),
    StableHlo.unary main_v153 main_v170 (broadcastInDim S1x64 ![1] bcast_S64_S1x64_1 : (⟨S64, .f32⟩ : BufTy).Contents (Elt F) → (⟨S1x64, .f32⟩ : BufTy).Contents (Elt F)),
    StableHlo.unary main_v170 main_v171 (broadcastInDim S100000x64 ![0, 1] bcast_S1x64_S100000x64_0_1 : (⟨S1x64, .f32⟩ : BufTy).Contents (Elt F) → (⟨S100000x64, .f32⟩ : BufTy).Contents (Elt F)),
    StableHlo.binary main_v169 main_v171 main_v172 (addf : (⟨S100000x64, .f32⟩ : BufTy).Contents (Elt F) → (⟨S100000x64, .f32⟩ : BufTy).Contents (Elt F) → (⟨S100000x64, .f32⟩ : BufTy).Contents (Elt F)),
    StableHlo.TRef.nullary main_call9.cst (constant S_ .f32 0x00000000#32),
    StableHlo.TRef.unary main_call9.cst main_call9.v0 (broadcastInDim S100000x64 ![] bcast_S_S100000x64),
    StableHlo.TRef.binary (.of main_v172 : StableHlo.TRef sig ⟨S100000x64, .f32⟩) main_call9.v0 main_call9.v1 maximumf ]

/-- @main's statements 201 … 288 (%c_24 … %250): 136 operations, calls inlined. -/
abbrev lay2 : List (HloOp τ sig (Elt F)) :=
  [ StableHlo.nullary main_c_24 (constantI S_ 32 0#32),
    StableHlo.unary main_c_24 main_v174 (broadcastInDim S800000 ![] bcast_S_S800000 : (⟨S_, .i32⟩ : BufTy).Contents (Elt F) → (⟨S800000, .i32⟩ : BufTy).Contents (Elt F)),
    StableHlo.binary main_v17 main_v174 main_v175 (cmpi .slt : (⟨S800000, .i32⟩ : BufTy).Contents (Elt F) → (⟨S800000, .i32⟩ : BufTy).Contents (Elt F) → (⟨S800000, .i1⟩ : BufTy).Contents (Elt F)),
    StableHlo.nullary main_c_25 (constantI S_ 32 100000#32),
    StableHlo.unary main_c_25 main_v176 (broadcastInDim S800000 ![] bcast_S_S800000 : (⟨S_, .i32⟩ : BufTy).Contents (Elt F) → (⟨S800000, .i32⟩ : BufTy).Contents (Elt F)),
    StableHlo.binary main_v17 main_v176 main_v177 (addi : (⟨S800000, .i32⟩ : BufTy).Contents (Elt F) → (⟨S800000, .i32⟩ : BufTy).Contents (Elt F) → (⟨S800000, .i32⟩ : BufTy).Contents (Elt F)),
    StableHlo.ternary main_v175 main_v177 main_v17 main_v178 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v178 main_v179 (broadcastInDim S800000x1 ![0] bcast_S800000_S800000x1_0 : (⟨S800000, .i32⟩ : BufTy).Contents (Elt F) → (⟨S800000x1, .i32⟩ : BufTy).Contents (Elt F)),
    StableHlo.binary main_v173 main_v179 main_v180 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    StableHlo.binary main_v180 main_v15 main_v181 (addf : (⟨S800000x64, .f32⟩ : BufTy).Contents (Elt F) → (⟨S800000x64, .f32⟩ : BufTy).Contents (Elt F) → (⟨S800000x64, .f32⟩ : BufTy).Contents (Elt F)),
    StableHlo.TRef.nullary main_call10.cst (constant S_ .f32 0x00000000#32),
    StableHlo.TRef.unary main_call10.cst main_call10.v0 (broadcastInDim S800000x64 ![] bcast_S_S800000x64),
    StableHlo.TRef.binary (.of main_v181 : StableHlo.TRef sig ⟨S800000x64, .f32⟩) main_call10.v0 main_call10.v1 maximumf,
    StableHlo.nullary main_cst_26 (constant S_ .f32 0x00000000#32),
    StableHlo.unary main_cst_26 main_v183 (broadcastInDim S100000x64 ![] bcast_S_S100000x64 : (⟨S_, .f32⟩ : BufTy).Contents (Elt F) → (⟨S100000x64, .f32⟩ : BufTy).Contents (Elt F)),
    StableHlo.unary main_v19 main_v184 (broadcastInDim S800000x1 ![0] bcast_S800000_S800000x1_0 : (⟨S800000, .i32⟩ : BufTy).Contents (Elt F) → (⟨S800000x1, .i32⟩ : BufTy).Contents (Elt F)),
    StableHlo.ternary main_v183 main_v184 main_v182 main_v185 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    StableHlo.binary main_v173 main_v185 main_v186 (addf : (⟨S100000x64, .f32⟩ : BufTy).Contents (Elt F) → (⟨S100000x64, .f32⟩ : BufTy).Contents (Elt F) → (⟨S100000x64, .f32⟩ : BufTy).Contents (Elt F)),
    StableHlo.unary main_arg6 main_v187 ((extractStridedSlice S1x64x128 ![2, 0, 0] · slices_S5x64x128_S1x64x128_2_0_0) : (⟨S5x64x128, .f32⟩ : BufTy).Contents (Elt F) → (⟨S1x64x128, .f32⟩ : BufTy).Contents (Elt F)),
    StableHlo.reshape main_v187 main_v188 rfl shapeCasts_S1x64x128_S64x128,
    StableHlo.binary main_v186 main_v188 main_v189 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg7 main_v190 ((extractStridedSlice S1x128 ![2, 0] · slices_S5x128_S1x128_2_0) : (⟨S5x128, .f32⟩ : BufTy).Contents (Elt F) → (⟨S1x128, .f32⟩ : BufTy).Contents (Elt F)),
    StableHlo.reshape main_v190 main_v191 rfl shapeCasts_S1x128_S128,
    StableHlo.unary main_v191 main_v192 (broadcastInDim S1x128 ![1] bcast_S128_S1x128_1 : (⟨S128, .f32⟩ : BufTy).Contents (Elt F) → (⟨S1x128, .f32⟩ : BufTy).Contents (Elt F)),
    StableHlo.unary main_v192 main_v193 (broadcastInDim S100000x128 ![0, 1] bcast_S1x128_S100000x128_0_1 : (⟨S1x128, .f32⟩ : BufTy).Contents (Elt F) → (⟨S100000x128, .f32⟩ : BufTy).Contents (Elt F)),
    StableHlo.binary main_v189 main_v193 main_v194 (addf : (⟨S100000x128, .f32⟩ : BufTy).Contents (Elt F) → (⟨S100000x128, .f32⟩ : BufTy).Contents (Elt F) → (⟨S100000x128, .f32⟩ : BufTy).Contents (Elt F)),
    StableHlo.unary main_arg8 main_v195 ((extractStridedSlice S1x128 ![2, 0] · slices_S5x128_S1x128_2_0) : (⟨S5x128, .f32⟩ : BufTy).Contents (Elt F) → (⟨S1x128, .f32⟩ : BufTy).Contents (Elt F)),
    StableHlo.reshape main_v195 main_v196 rfl shapeCasts_S1x128_S128,
    StableHlo.unary main_arg9 main_v197 ((extractStridedSlice S1x128 ![2, 0] · slices_S5x128_S1x128_2_0) : (⟨S5x128, .f32⟩ : BufTy).Contents (Elt F) → (⟨S1x128, .f32⟩ : BufTy).Contents (Elt F)),
    StableHlo.reshape main_v197 main_v198 rfl shapeCasts_S1x128_S128,
    StableHlo.nullary main_cst_27 (constant S_ .f32 0x00000000#32),
    StableHlo.binary main_v194 main_cst_27 main_v199 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_28 (constant S_ .f32 0x47C35000#32),
    StableHlo.unary main_cst_28 main_v200 (broadcastInDim S128 ![] bcast_S_S128 : (⟨S_, .f32⟩ : BufTy).Contents (Elt F) → (⟨S128, .f32⟩ : BufTy).Contents (Elt F)),
    StableHlo.binary main_v199 main_v200 main_v201 (Host.divf : (⟨S128, .f32⟩ : BufTy).Contents (Elt F) → (⟨S128, .f32⟩ : BufTy).Contents (Elt F) → (⟨S128, .f32⟩ : BufTy).Contents (Elt F)),
    StableHlo.nullary main_c_29 (constantI S_ 32 0#32),
    StableHlo.TRef.nullary main_call11.cst (constant S_ .f32 0x00000000#32),
    StableHlo.TRef.binary (.of main_v194 : StableHlo.TRef sig ⟨S100000x128, .f32⟩) main_call11.cst main_call11.v0 (fun x v => Host.reduceAdd x v reducesTo_S100000x128_S128_d0 h_S_),
    StableHlo.TRef.unary main_call11.v0 main_call11.v1 (broadcastInDim S1x128 ![1] bcast_S128_S1x128_1),
    StableHlo.TRef.nullary main_call11.cst_0 (constant S_ .f32 0x47C35000#32),
    StableHlo.TRef.unary main_call11.cst_0 main_call11.v2 (broadcastInDim S1x128 ![] bcast_S_S1x128),
    StableHlo.TRef.binary main_call11.v1 main_call11.v2 main_call11.v3 Host.divf,
    StableHlo.TRef.unary main_call11.v3 main_call11.v4 (broadcastInDim S100000x128 ![0, 1] bcast_S1x128_S100000x128_0_1),
    StableHlo.TRef.binary (.of main_v194 : StableHlo.TRef sig ⟨S100000x128, .f32⟩) main_call11.v4 main_call11.v5 subf,
    StableHlo.TRef.binary main_call11.v5 main_call11.v5 main_call11.v6 mulf,
    StableHlo.TRef.unary (.of main_c_29 : StableHlo.TRef sig ⟨S_, .i32⟩) main_call11.v7 (sitofp .f32),
    StableHlo.TRef.nullary main_call11.cst_1 (constant S_ .f32 0x47C35000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S100000x128_S128_d0 h_S_),
    StableHlo.TRef.unary main_call11.v8 main_call11.v10 (broadcastInDim S128 ![] bcast_S_S128),
    StableHlo.TRef.binary main_call11.v9 main_call11.v10 main_call11.v11 Host.divf,
    StableHlo.TRef.nullary main_call11.cst_3 (constant S_ .f32 0x00000000#32),
    StableHlo.TRef.binary main_call11.v8 main_call11.cst_3 main_call11.v12 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S128 ![] bcast_S_S128),
    StableHlo.TRef.ternary main_call11.v12 main_call11.v11 main_call11.call0.v1 main_call11.call0.v2 (fun p a b => select (broadcastInDim S128 ![] bcast_S_S128 p) a b),
    StableHlo.unary main_v201 main_v203 (broadcastInDim S1x128 ![1] bcast_S128_S1x128_1 : (⟨S128, .f32⟩ : BufTy).Contents (Elt F) → (⟨S1x128, .f32⟩ : BufTy).Contents (Elt F)),
    StableHlo.unary main_v203 main_v204 (broadcastInDim S100000x128 ![0, 1] bcast_S1x128_S100000x128_0_1 : (⟨S1x128, .f32⟩ : BufTy).Contents (Elt F) → (⟨S100000x128, .f32⟩ : BufTy).Contents (Elt F)),
    StableHlo.binary main_v194 main_v204 main_v205 (subf : (⟨S100000x128, .f32⟩ : BufTy).Contents (Elt F) → (⟨S100000x128, .f32⟩ : BufTy).Contents (Elt F) → (⟨S100000x128, .f32⟩ : BufTy).Contents (Elt F)),
    StableHlo.unary main_v196 main_v206 (broadcastInDim S1x128 ![1] bcast_S128_S1x128_1 : (⟨S128, .f32⟩ : BufTy).Contents (Elt F) → (⟨S1x128, .f32⟩ : BufTy).Contents (Elt F)),
    StableHlo.unary main_v206 main_v207 (broadcastInDim S100000x128 ![0, 1] bcast_S1x128_S100000x128_0_1 : (⟨S1x128, .f32⟩ : BufTy).Contents (Elt F) → (⟨S100000x128, .f32⟩ : BufTy).Contents (Elt F)),
    StableHlo.binary main_v207 main_v205 main_v208 (mulf : (⟨S100000x128, .f32⟩ : BufTy).Contents (Elt F) → (⟨S100000x128, .f32⟩ : BufTy).Contents (Elt F) → (⟨S100000x128, .f32⟩ : BufTy).Contents (Elt F)),
    StableHlo.nullary main_cst_30 (constant S_ .f32 0x3727C5AC#32),
    StableHlo.unary main_cst_30 main_v209 (broadcastInDim S128 ![] bcast_S_S128 : (⟨S_, .f32⟩ : BufTy).Contents (Elt F) → (⟨S128, .f32⟩ : BufTy).Contents (Elt F)),
    StableHlo.binary main_v202 main_v209 main_v210 (addf : (⟨S128, .f32⟩ : BufTy).Contents (Elt F) → (⟨S128, .f32⟩ : BufTy).Contents (Elt F) → (⟨S128, .f32⟩ : BufTy).Contents (Elt F)),
    StableHlo.unary main_v210 main_v211 (Host.rsqrt : (⟨S128, .f32⟩ : BufTy).Contents (Elt F) → (⟨S128, .f32⟩ : BufTy).Contents (Elt F)),
    StableHlo.unary main_v211 main_v212 (broadcastInDim S1x128 ![1] bcast_S128_S1x128_1 : (⟨S128, .f32⟩ : BufTy).Contents (Elt F) → (⟨S1x128, .f32⟩ : BufTy).Contents (Elt F)),
    StableHlo.unary main_v212 main_v213 (broadcastInDim S100000x128 ![0, 1] bcast_S1x128_S100000x128_0_1 : (⟨S1x128, .f32⟩ : BufTy).Contents (Elt F) → (⟨S100000x128, .f32⟩ : BufTy).Contents (Elt F)),
    StableHlo.binary main_v208 main_v213 main_v214 (mulf : (⟨S100000x128, .f32⟩ : BufTy).Contents (Elt F) → (⟨S100000x128, .f32⟩ : BufTy).Contents (Elt F) → (⟨S100000x128, .f32⟩ : BufTy).Contents (Elt F)),
    StableHlo.unary main_v198 main_v215 (broadcastInDim S1x128 ![1] bcast_S128_S1x128_1 : (⟨S128, .f32⟩ : BufTy).Contents (Elt F) → (⟨S1x128, .f32⟩ : BufTy).Contents (Elt F)),
    StableHlo.unary main_v215 main_v216 (broadcastInDim S100000x128 ![0, 1] bcast_S1x128_S100000x128_0_1 : (⟨S1x128, .f32⟩ : BufTy).Contents (Elt F) → (⟨S100000x128, .f32⟩ : BufTy).Contents (Elt F)),
    StableHlo.binary main_v214 main_v216 main_v217 (addf : (⟨S100000x128, .f32⟩ : BufTy).Contents (Elt F) → (⟨S100000x128, .f32⟩ : BufTy).Contents (Elt F) → (⟨S100000x128, .f32⟩ : BufTy).Contents (Elt F)),
    StableHlo.TRef.nullary main_call12.cst (constant S_ .f32 0x00000000#32),
    StableHlo.TRef.unary main_call12.cst main_call12.v0 (broadcastInDim S100000x128 ![] bcast_S_S100000x128),
    StableHlo.TRef.binary (.of main_v217 : StableHlo.TRef sig ⟨S100000x128, .f32⟩) main_call12.v0 main_call12.v1 maximumf,
    StableHlo.unary main_arg10 main_v219 ((extractStridedSlice S1x128x64 ![2, 0, 0] · slices_S5x128x64_S1x128x64_2_0_0) : (⟨S5x128x64, .f32⟩ : BufTy).Contents (Elt F) → (⟨S1x128x64, .f32⟩ : BufTy).Contents (Elt F)),
    StableHlo.reshape main_v219 main_v220 rfl shapeCasts_S1x128x64_S128x64,
    StableHlo.binary main_v218 main_v220 main_v221 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg11 main_v222 ((extractStridedSlice S1x64 ![2, 0] · slices_S5x64_S1x64_2_0) : (⟨S5x64, .f32⟩ : BufTy).Contents (Elt F) → (⟨S1x64, .f32⟩ : BufTy).Contents (Elt F)),
    StableHlo.reshape main_v222 main_v223 rfl shapeCasts_S1x64_S64,
    StableHlo.unary main_v223 main_v224 (broadcastInDim S1x64 ![1] bcast_S64_S1x64_1 : (⟨S64, .f32⟩ : BufTy).Contents (Elt F) → (⟨S1x64, .f32⟩ : BufTy).Contents (Elt F)),
    StableHlo.unary main_v224 main_v225 (broadcastInDim S100000x64 ![0, 1] bcast_S1x64_S100000x64_0_1 : (⟨S1x64, .f32⟩ : BufTy).Contents (Elt F) → (⟨S100000x64, .f32⟩ : BufTy).Contents (Elt F)),
    StableHlo.binary main_v221 main_v225 main_v226 (addf : (⟨S100000x64, .f32⟩ : BufTy).Contents (Elt F) → (⟨S100000x64, .f32⟩ : BufTy).Contents (Elt F) → (⟨S100000x64, .f32⟩ : BufTy).Contents (Elt F)),
    StableHlo.unary main_arg12 main_v227 ((extractStridedSlice S1x64 ![2, 0] · slices_S5x64_S1x64_2_0) : (⟨S5x64, .f32⟩ : BufTy).Contents (Elt F) → (⟨S1x64, .f32⟩ : BufTy).Contents (Elt F)),
    StableHlo.reshape main_v227 main_v228 rfl shapeCasts_S1x64_S64,
    StableHlo.unary main_arg13 main_v229 ((extractStridedSlice S1x64 ![2, 0] · slices_S5x64_S1x64_2_0) : (⟨S5x64, .f32⟩ : BufTy).Contents (Elt F) → (⟨S1x64, .f32⟩ : BufTy).Contents (Elt F)),
    StableHlo.reshape main_v229 main_v230 rfl shapeCasts_S1x64_S64,
    StableHlo.nullary main_cst_31 (constant S_ .f32 0x00000000#32),
    StableHlo.binary main_v226 main_cst_31 main_v231 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_32 (constant S_ .f32 0x47C35000#32),
    StableHlo.unary main_cst_32 main_v232 (broadcastInDim S64 ![] bcast_S_S64 : (⟨S_, .f32⟩ : BufTy).Contents (Elt F) → (⟨S64, .f32⟩ : BufTy).Contents (Elt F)),
    StableHlo.binary main_v231 main_v232 main_v233 (Host.divf : (⟨S64, .f32⟩ : BufTy).Contents (Elt F) → (⟨S64, .f32⟩ : BufTy).Contents (Elt F) → (⟨S64, .f32⟩ : BufTy).Contents (Elt F)),
    StableHlo.nullary main_c_33 (constantI S_ 32 0#32),
    StableHlo.TRef.nullary main_call13.cst (constant S_ .f32 0x00000000#32),
    StableHlo.TRef.binary (.of main_v226 : StableHlo.TRef sig ⟨S100000x64, .f32⟩) main_call13.cst main_call13.v0 (fun x v => Host.reduceAdd x v reducesTo_S100000x64_S64_d0 h_S_),
    StableHlo.TRef.unary main_call13.v0 main_call13.v1 (broadcastInDim S1x64 ![1] bcast_S64_S1x64_1),
    StableHlo.TRef.nullary main_call13.cst_0 (constant S_ .f32 0x47C35000#32),
    StableHlo.TRef.unary main_call13.cst_0 main_call13.v2 (broadcastInDim S1x64 ![] bcast_S_S1x64),
    StableHlo.TRef.binary main_call13.v1 main_call13.v2 main_call13.v3 Host.divf,
    StableHlo.TRef.unary main_call13.v3 main_call13.v4 (broadcastInDim S100000x64 ![0, 1] bcast_S1x64_S100000x64_0_1),
    StableHlo.TRef.binary (.of main_v226 : StableHlo.TRef sig ⟨S100000x64, .f32⟩) main_call13.v4 main_call13.v5 subf,
    StableHlo.TRef.binary main_call13.v5 main_call13.v5 main_call13.v6 mulf,
    StableHlo.TRef.unary (.of main_c_33 : StableHlo.TRef sig ⟨S_, .i32⟩) main_call13.v7 (sitofp .f32),
    StableHlo.TRef.nullary main_call13.cst_1 (constant S_ .f32 0x47C35000#32),
    StableHlo.TRef.binary main_call13.cst_1 main_call13.v7 main_call13.v8 subf,
    StableHlo.TRef.nullary main_call13.cst_2 (constant S_ .f32 0x00000000#32),
    StableHlo.TRef.binary main_call13.v6 main_call13.cst_2 main_call13.v9 (fun x v => Host.reduceAdd x v reducesTo_S100000x64_S64_d0 h_S_),
    StableHlo.TRef.unary main_call13.v8 main_call13.v10 (broadcastInDim S64 ![] bcast_S_S64),
    StableHlo.TRef.binary main_call13.v9 main_call13.v10 main_call13.v11 Host.divf,
    StableHlo.TRef.nullary main_call13.cst_3 (constant S_ .f32 0x00000000#32),
    StableHlo.TRef.binary main_call13.v8 main_call13.cst_3 main_call13.v12 (cmpf .ogt),
    StableHlo.TRef.nullary main_call13.cst_4 (constant S_ .f32 0x7FC00000#32),
    StableHlo.TRef.unary main_call13.cst_4 main_call13.call0.v0 id,
    StableHlo.TRef.unary main_call13.call0.v0 main_call13.call0.v1 (broadcastInDim S64 ![] bcast_S_S64),
    StableHlo.TRef.ternary main_call13.v12 main_call13.v11 main_call13.call0.v1 main_call13.call0.v2 (fun p a b => select (broadcastInDim S64 ![] bcast_S_S64 p) a b),
    StableHlo.unary main_v233 main_v235 (broadcastInDim S1x64 ![1] bcast_S64_S1x64_1 : (⟨S64, .f32⟩ : BufTy).Contents (Elt F) → (⟨S1x64, .f32⟩ : BufTy).Contents (Elt F)),
    StableHlo.unary main_v235 main_v236 (broadcastInDim S100000x64 ![0, 1] bcast_S1x64_S100000x64_0_1 : (⟨S1x64, .f32⟩ : BufTy).Contents (Elt F) → (⟨S100000x64, .f32⟩ : BufTy).Contents (Elt F)),
    StableHlo.binary main_v226 main_v236 main_v237 (subf : (⟨S100000x64, .f32⟩ : BufTy).Contents (Elt F) → (⟨S100000x64, .f32⟩ : BufTy).Contents (Elt F) → (⟨S100000x64, .f32⟩ : BufTy).Contents (Elt F)),
    StableHlo.unary main_v228 main_v238 (broadcastInDim S1x64 ![1] bcast_S64_S1x64_1 : (⟨S64, .f32⟩ : BufTy).Contents (Elt F) → (⟨S1x64, .f32⟩ : BufTy).Contents (Elt F)),
    StableHlo.unary main_v238 main_v239 (broadcastInDim S100000x64 ![0, 1] bcast_S1x64_S100000x64_0_1 : (⟨S1x64, .f32⟩ : BufTy).Contents (Elt F) → (⟨S100000x64, .f32⟩ : BufTy).Contents (Elt F)),
    StableHlo.binary main_v239 main_v237 main_v240 (mulf : (⟨S100000x64, .f32⟩ : BufTy).Contents (Elt F) → (⟨S100000x64, .f32⟩ : BufTy).Contents (Elt F) → (⟨S100000x64, .f32⟩ : BufTy).Contents (Elt F)),
    StableHlo.nullary main_cst_34 (constant S_ .f32 0x3727C5AC#32),
    StableHlo.unary main_cst_34 main_v241 (broadcastInDim S64 ![] bcast_S_S64 : (⟨S_, .f32⟩ : BufTy).Contents (Elt F) → (⟨S64, .f32⟩ : BufTy).Contents (Elt F)),
    StableHlo.binary main_v234 main_v241 main_v242 (addf : (⟨S64, .f32⟩ : BufTy).Contents (Elt F) → (⟨S64, .f32⟩ : BufTy).Contents (Elt F) → (⟨S64, .f32⟩ : BufTy).Contents (Elt F)),
    StableHlo.unary main_v242 main_v243 (Host.rsqrt : (⟨S64, .f32⟩ : BufTy).Contents (Elt F) → (⟨S64, .f32⟩ : BufTy).Contents (Elt F)),
    StableHlo.unary main_v243 main_v244 (broadcastInDim S1x64 ![1] bcast_S64_S1x64_1 : (⟨S64, .f32⟩ : BufTy).Contents (Elt F) → (⟨S1x64, .f32⟩ : BufTy).Contents (Elt F)),
    StableHlo.unary main_v244 main_v245 (broadcastInDim S100000x64 ![0, 1] bcast_S1x64_S100000x64_0_1 : (⟨S1x64, .f32⟩ : BufTy).Contents (Elt F) → (⟨S100000x64, .f32⟩ : BufTy).Contents (Elt F)),
    StableHlo.binary main_v240 main_v245 main_v246 (mulf : (⟨S100000x64, .f32⟩ : BufTy).Contents (Elt F) → (⟨S100000x64, .f32⟩ : BufTy).Contents (Elt F) → (⟨S100000x64, .f32⟩ : BufTy).Contents (Elt F)),
    StableHlo.unary main_v230 main_v247 (broadcastInDim S1x64 ![1] bcast_S64_S1x64_1 : (⟨S64, .f32⟩ : BufTy).Contents (Elt F) → (⟨S1x64, .f32⟩ : BufTy).Contents (Elt F)),
    StableHlo.unary main_v247 main_v248 (broadcastInDim S100000x64 ![0, 1] bcast_S1x64_S100000x64_0_1 : (⟨S1x64, .f32⟩ : BufTy).Contents (Elt F) → (⟨S100000x64, .f32⟩ : BufTy).Contents (Elt F)),
    StableHlo.binary main_v246 main_v248 main_v249 (addf : (⟨S100000x64, .f32⟩ : BufTy).Contents (Elt F) → (⟨S100000x64, .f32⟩ : BufTy).Contents (Elt F) → (⟨S100000x64, .f32⟩ : BufTy).Contents (Elt F)),
    StableHlo.TRef.nullary main_call14.cst (constant S_ .f32 0x00000000#32),
    StableHlo.TRef.unary main_call14.cst main_call14.v0 (broadcastInDim S100000x64 ![] bcast_S_S100000x64),
    StableHlo.TRef.binary (.of main_v249 : StableHlo.TRef sig ⟨S100000x64, .f32⟩) main_call14.v0 main_call14.v1 maximumf ]

/-- @main's statements 289 … 376 (%c_35 … %327): 136 operations, calls inlined. -/
abbrev lay3 : List (HloOp τ sig (Elt F)) :=
  [ StableHlo.nullary main_c_35 (constantI S_ 32 0#32),
    StableHlo.unary main_c_35 main_v251 (broadcastInDim S800000 ![] bcast_S_S800000 : (⟨S_, .i32⟩ : BufTy).Contents (Elt F) → (⟨S800000, .i32⟩ : BufTy).Contents (Elt F)),
    StableHlo.binary main_v17 main_v251 main_v252 (cmpi .slt : (⟨S800000, .i32⟩ : BufTy).Contents (Elt F) → (⟨S800000, .i32⟩ : BufTy).Contents (Elt F) → (⟨S800000, .i1⟩ : BufTy).Contents (Elt F)),
    StableHlo.nullary main_c_36 (constantI S_ 32 100000#32),
    StableHlo.unary main_c_36 main_v253 (broadcastInDim S800000 ![] bcast_S_S800000 : (⟨S_, .i32⟩ : BufTy).Contents (Elt F) → (⟨S800000, .i32⟩ : BufTy).Contents (Elt F)),
    StableHlo.binary main_v17 main_v253 main_v254 (addi : (⟨S800000, .i32⟩ : BufTy).Contents (Elt F) → (⟨S800000, .i32⟩ : BufTy).Contents (Elt F) → (⟨S800000, .i32⟩ : BufTy).Contents (Elt F)),
    StableHlo.ternary main_v252 main_v254 main_v17 main_v255 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v255 main_v256 (broadcastInDim S800000x1 ![0] bcast_S800000_S800000x1_0 : (⟨S800000, .i32⟩ : BufTy).Contents (Elt F) → (⟨S800000x1, .i32⟩ : BufTy).Contents (Elt F)),
    StableHlo.binary main_v250 main_v256 main_v257 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    StableHlo.binary main_v257 main_v15 main_v258 (addf : (⟨S800000x64, .f32⟩ : BufTy).Contents (Elt F) → (⟨S800000x64, .f32⟩ : BufTy).Contents (Elt F) → (⟨S800000x64, .f32⟩ : BufTy).Contents (Elt F)),
    StableHlo.TRef.nullary main_call15.cst (constant S_ .f32 0x00000000#32),
    StableHlo.TRef.unary main_call15.cst main_call15.v0 (broadcastInDim S800000x64 ![] bcast_S_S800000x64),
    StableHlo.TRef.binary (.of main_v258 : StableHlo.TRef sig ⟨S800000x64, .f32⟩) main_call15.v0 main_call15.v1 maximumf,
    StableHlo.nullary main_cst_37 (constant S_ .f32 0x00000000#32),
    StableHlo.unary main_cst_37 main_v260 (broadcastInDim S100000x64 ![] bcast_S_S100000x64 : (⟨S_, .f32⟩ : BufTy).Contents (Elt F) → (⟨S100000x64, .f32⟩ : BufTy).Contents (Elt F)),
    StableHlo.unary main_v19 main_v261 (broadcastInDim S800000x1 ![0] bcast_S800000_S800000x1_0 : (⟨S800000, .i32⟩ : BufTy).Contents (Elt F) → (⟨S800000x1, .i32⟩ : BufTy).Contents (Elt F)),
    StableHlo.ternary main_v260 main_v261 main_v259 main_v262 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    StableHlo.binary main_v250 main_v262 main_v263 (addf : (⟨S100000x64, .f32⟩ : BufTy).Contents (Elt F) → (⟨S100000x64, .f32⟩ : BufTy).Contents (Elt F) → (⟨S100000x64, .f32⟩ : BufTy).Contents (Elt F)),
    StableHlo.unary main_arg6 main_v264 ((extractStridedSlice S1x64x128 ![3, 0, 0] · slices_S5x64x128_S1x64x128_3_0_0) : (⟨S5x64x128, .f32⟩ : BufTy).Contents (Elt F) → (⟨S1x64x128, .f32⟩ : BufTy).Contents (Elt F)),
    StableHlo.reshape main_v264 main_v265 rfl shapeCasts_S1x64x128_S64x128,
    StableHlo.binary main_v263 main_v265 main_v266 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg7 main_v267 ((extractStridedSlice S1x128 ![3, 0] · slices_S5x128_S1x128_3_0) : (⟨S5x128, .f32⟩ : BufTy).Contents (Elt F) → (⟨S1x128, .f32⟩ : BufTy).Contents (Elt F)),
    StableHlo.reshape main_v267 main_v268 rfl shapeCasts_S1x128_S128,
    StableHlo.unary main_v268 main_v269 (broadcastInDim S1x128 ![1] bcast_S128_S1x128_1 : (⟨S128, .f32⟩ : BufTy).Contents (Elt F) → (⟨S1x128, .f32⟩ : BufTy).Contents (Elt F)),
    StableHlo.unary main_v269 main_v270 (broadcastInDim S100000x128 ![0, 1] bcast_S1x128_S100000x128_0_1 : (⟨S1x128, .f32⟩ : BufTy).Contents (Elt F) → (⟨S100000x128, .f32⟩ : BufTy).Contents (Elt F)),
    StableHlo.binary main_v266 main_v270 main_v271 (addf : (⟨S100000x128, .f32⟩ : BufTy).Contents (Elt F) → (⟨S100000x128, .f32⟩ : BufTy).Contents (Elt F) → (⟨S100000x128, .f32⟩ : BufTy).Contents (Elt F)),
    StableHlo.unary main_arg8 main_v272 ((extractStridedSlice S1x128 ![3, 0] · slices_S5x128_S1x128_3_0) : (⟨S5x128, .f32⟩ : BufTy).Contents (Elt F) → (⟨S1x128, .f32⟩ : BufTy).Contents (Elt F)),
    StableHlo.reshape main_v272 main_v273 rfl shapeCasts_S1x128_S128,
    StableHlo.unary main_arg9 main_v274 ((extractStridedSlice S1x128 ![3, 0] · slices_S5x128_S1x128_3_0) : (⟨S5x128, .f32⟩ : BufTy).Contents (Elt F) → (⟨S1x128, .f32⟩ : BufTy).Contents (Elt F)),
    StableHlo.reshape main_v274 main_v275 rfl shapeCasts_S1x128_S128,
    StableHlo.nullary main_cst_38 (constant S_ .f32 0x00000000#32),
    StableHlo.binary main_v271 main_cst_38 main_v276 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_39 (constant S_ .f32 0x47C35000#32),
    StableHlo.unary main_cst_39 main_v277 (broadcastInDim S128 ![] bcast_S_S128 : (⟨S_, .f32⟩ : BufTy).Contents (Elt F) → (⟨S128, .f32⟩ : BufTy).Contents (Elt F)),
    StableHlo.binary main_v276 main_v277 main_v278 (Host.divf : (⟨S128, .f32⟩ : BufTy).Contents (Elt F) → (⟨S128, .f32⟩ : BufTy).Contents (Elt F) → (⟨S128, .f32⟩ : BufTy).Contents (Elt F)),
    StableHlo.nullary main_c_40 (constantI S_ 32 0#32),
    StableHlo.TRef.nullary main_call16.cst (constant S_ .f32 0x00000000#32),
    StableHlo.TRef.binary (.of main_v271 : StableHlo.TRef sig ⟨S100000x128, .f32⟩) main_call16.cst main_call16.v0 (fun x v => Host.reduceAdd x v reducesTo_S100000x128_S128_d0 h_S_),
    StableHlo.TRef.unary main_call16.v0 main_call16.v1 (broadcastInDim S1x128 ![1] bcast_S128_S1x128_1),
    StableHlo.TRef.nullary main_call16.cst_0 (constant S_ .f32 0x47C35000#32),
    StableHlo.TRef.unary main_call16.cst_0 main_call16.v2 (broadcastInDim S1x128 ![] bcast_S_S1x128),
    StableHlo.TRef.binary main_call16.v1 main_call16.v2 main_call16.v3 Host.divf,
    StableHlo.TRef.unary main_call16.v3 main_call16.v4 (broadcastInDim S100000x128 ![0, 1] bcast_S1x128_S100000x128_0_1),
    StableHlo.TRef.binary (.of main_v271 : StableHlo.TRef sig ⟨S100000x128, .f32⟩) main_call16.v4 main_call16.v5 subf,
    StableHlo.TRef.binary main_call16.v5 main_call16.v5 main_call16.v6 mulf,
    StableHlo.TRef.unary (.of main_c_40 : StableHlo.TRef sig ⟨S_, .i32⟩) main_call16.v7 (sitofp .f32),
    StableHlo.TRef.nullary main_call16.cst_1 (constant S_ .f32 0x47C35000#32),
    StableHlo.TRef.binary main_call16.cst_1 main_call16.v7 main_call16.v8 subf,
    StableHlo.TRef.nullary main_call16.cst_2 (constant S_ .f32 0x00000000#32),
    StableHlo.TRef.binary main_call16.v6 main_call16.cst_2 main_call16.v9 (fun x v => Host.reduceAdd x v reducesTo_S100000x128_S128_d0 h_S_),
    StableHlo.TRef.unary main_call16.v8 main_call16.v10 (broadcastInDim S128 ![] bcast_S_S128),
    StableHlo.TRef.binary main_call16.v9 main_call16.v10 main_call16.v11 Host.divf,
    StableHlo.TRef.nullary main_call16.cst_3 (constant S_ .f32 0x00000000#32),
    StableHlo.TRef.binary main_call16.v8 main_call16.cst_3 main_call16.v12 (cmpf .ogt),
    StableHlo.TRef.nullary main_call16.cst_4 (constant S_ .f32 0x7FC00000#32),
    StableHlo.TRef.unary main_call16.cst_4 main_call16.call0.v0 id,
    StableHlo.TRef.unary main_call16.call0.v0 main_call16.call0.v1 (broadcastInDim S128 ![] bcast_S_S128),
    StableHlo.TRef.ternary main_call16.v12 main_call16.v11 main_call16.call0.v1 main_call16.call0.v2 (fun p a b => select (broadcastInDim S128 ![] bcast_S_S128 p) a b),
    StableHlo.unary main_v278 main_v280 (broadcastInDim S1x128 ![1] bcast_S128_S1x128_1 : (⟨S128, .f32⟩ : BufTy).Contents (Elt F) → (⟨S1x128, .f32⟩ : BufTy).Contents (Elt F)),
    StableHlo.unary main_v280 main_v281 (broadcastInDim S100000x128 ![0, 1] bcast_S1x128_S100000x128_0_1 : (⟨S1x128, .f32⟩ : BufTy).Contents (Elt F) → (⟨S100000x128, .f32⟩ : BufTy).Contents (Elt F)),
    StableHlo.binary main_v271 main_v281 main_v282 (subf : (⟨S100000x128, .f32⟩ : BufTy).Contents (Elt F) → (⟨S100000x128, .f32⟩ : BufTy).Contents (Elt F) → (⟨S100000x128, .f32⟩ : BufTy).Contents (Elt F)),
    StableHlo.unary main_v273 main_v283 (broadcastInDim S1x128 ![1] bcast_S128_S1x128_1 : (⟨S128, .f32⟩ : BufTy).Contents (Elt F) → (⟨S1x128, .f32⟩ : BufTy).Contents (Elt F)),
    StableHlo.unary main_v283 main_v284 (broadcastInDim S100000x128 ![0, 1] bcast_S1x128_S100000x128_0_1 : (⟨S1x128, .f32⟩ : BufTy).Contents (Elt F) → (⟨S100000x128, .f32⟩ : BufTy).Contents (Elt F)),
    StableHlo.binary main_v284 main_v282 main_v285 (mulf : (⟨S100000x128, .f32⟩ : BufTy).Contents (Elt F) → (⟨S100000x128, .f32⟩ : BufTy).Contents (Elt F) → (⟨S100000x128, .f32⟩ : BufTy).Contents (Elt F)),
    StableHlo.nullary main_cst_41 (constant S_ .f32 0x3727C5AC#32),
    StableHlo.unary main_cst_41 main_v286 (broadcastInDim S128 ![] bcast_S_S128 : (⟨S_, .f32⟩ : BufTy).Contents (Elt F) → (⟨S128, .f32⟩ : BufTy).Contents (Elt F)),
    StableHlo.binary main_v279 main_v286 main_v287 (addf : (⟨S128, .f32⟩ : BufTy).Contents (Elt F) → (⟨S128, .f32⟩ : BufTy).Contents (Elt F) → (⟨S128, .f32⟩ : BufTy).Contents (Elt F)),
    StableHlo.unary main_v287 main_v288 (Host.rsqrt : (⟨S128, .f32⟩ : BufTy).Contents (Elt F) → (⟨S128, .f32⟩ : BufTy).Contents (Elt F)),
    StableHlo.unary main_v288 main_v289 (broadcastInDim S1x128 ![1] bcast_S128_S1x128_1 : (⟨S128, .f32⟩ : BufTy).Contents (Elt F) → (⟨S1x128, .f32⟩ : BufTy).Contents (Elt F)),
    StableHlo.unary main_v289 main_v290 (broadcastInDim S100000x128 ![0, 1] bcast_S1x128_S100000x128_0_1 : (⟨S1x128, .f32⟩ : BufTy).Contents (Elt F) → (⟨S100000x128, .f32⟩ : BufTy).Contents (Elt F)),
    StableHlo.binary main_v285 main_v290 main_v291 (mulf : (⟨S100000x128, .f32⟩ : BufTy).Contents (Elt F) → (⟨S100000x128, .f32⟩ : BufTy).Contents (Elt F) → (⟨S100000x128, .f32⟩ : BufTy).Contents (Elt F)),
    StableHlo.unary main_v275 main_v292 (broadcastInDim S1x128 ![1] bcast_S128_S1x128_1 : (⟨S128, .f32⟩ : BufTy).Contents (Elt F) → (⟨S1x128, .f32⟩ : BufTy).Contents (Elt F)),
    StableHlo.unary main_v292 main_v293 (broadcastInDim S100000x128 ![0, 1] bcast_S1x128_S100000x128_0_1 : (⟨S1x128, .f32⟩ : BufTy).Contents (Elt F) → (⟨S100000x128, .f32⟩ : BufTy).Contents (Elt F)),
    StableHlo.binary main_v291 main_v293 main_v294 (addf : (⟨S100000x128, .f32⟩ : BufTy).Contents (Elt F) → (⟨S100000x128, .f32⟩ : BufTy).Contents (Elt F) → (⟨S100000x128, .f32⟩ : BufTy).Contents (Elt F)),
    StableHlo.TRef.nullary main_call17.cst (constant S_ .f32 0x00000000#32),
    StableHlo.TRef.unary main_call17.cst main_call17.v0 (broadcastInDim S100000x128 ![] bcast_S_S100000x128),
    StableHlo.TRef.binary (.of main_v294 : StableHlo.TRef sig ⟨S100000x128, .f32⟩) main_call17.v0 main_call17.v1 maximumf,
    StableHlo.unary main_arg10 main_v296 ((extractStridedSlice S1x128x64 ![3, 0, 0] · slices_S5x128x64_S1x128x64_3_0_0) : (⟨S5x128x64, .f32⟩ : BufTy).Contents (Elt F) → (⟨S1x128x64, .f32⟩ : BufTy).Contents (Elt F)),
    StableHlo.reshape main_v296 main_v297 rfl shapeCasts_S1x128x64_S128x64,
    StableHlo.binary main_v295 main_v297 main_v298 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg11 main_v299 ((extractStridedSlice S1x64 ![3, 0] · slices_S5x64_S1x64_3_0) : (⟨S5x64, .f32⟩ : BufTy).Contents (Elt F) → (⟨S1x64, .f32⟩ : BufTy).Contents (Elt F)),
    StableHlo.reshape main_v299 main_v300 rfl shapeCasts_S1x64_S64,
    StableHlo.unary main_v300 main_v301 (broadcastInDim S1x64 ![1] bcast_S64_S1x64_1 : (⟨S64, .f32⟩ : BufTy).Contents (Elt F) → (⟨S1x64, .f32⟩ : BufTy).Contents (Elt F)),
    StableHlo.unary main_v301 main_v302 (broadcastInDim S100000x64 ![0, 1] bcast_S1x64_S100000x64_0_1 : (⟨S1x64, .f32⟩ : BufTy).Contents (Elt F) → (⟨S100000x64, .f32⟩ : BufTy).Contents (Elt F)),
    StableHlo.binary main_v298 main_v302 main_v303 (addf : (⟨S100000x64, .f32⟩ : BufTy).Contents (Elt F) → (⟨S100000x64, .f32⟩ : BufTy).Contents (Elt F) → (⟨S100000x64, .f32⟩ : BufTy).Contents (Elt F)),
    StableHlo.unary main_arg12 main_v304 ((extractStridedSlice S1x64 ![3, 0] · slices_S5x64_S1x64_3_0) : (⟨S5x64, .f32⟩ : BufTy).Contents (Elt F) → (⟨S1x64, .f32⟩ : BufTy).Contents (Elt F)),
    StableHlo.reshape main_v304 main_v305 rfl shapeCasts_S1x64_S64,
    StableHlo.unary main_arg13 main_v306 ((extractStridedSlice S1x64 ![3, 0] · slices_S5x64_S1x64_3_0) : (⟨S5x64, .f32⟩ : BufTy).Contents (Elt F) → (⟨S1x64, .f32⟩ : BufTy).Contents (Elt F)),
    StableHlo.reshape main_v306 main_v307 rfl shapeCasts_S1x64_S64,
    StableHlo.nullary main_cst_42 (constant S_ .f32 0x00000000#32),
    StableHlo.binary main_v303 main_cst_42 main_v308 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_43 (constant S_ .f32 0x47C35000#32),
    StableHlo.unary main_cst_43 main_v309 (broadcastInDim S64 ![] bcast_S_S64 : (⟨S_, .f32⟩ : BufTy).Contents (Elt F) → (⟨S64, .f32⟩ : BufTy).Contents (Elt F)),
    StableHlo.binary main_v308 main_v309 main_v310 (Host.divf : (⟨S64, .f32⟩ : BufTy).Contents (Elt F) → (⟨S64, .f32⟩ : BufTy).Contents (Elt F) → (⟨S64, .f32⟩ : BufTy).Contents (Elt F)),
    StableHlo.nullary main_c_44 (constantI S_ 32 0#32),
    StableHlo.TRef.nullary main_call18.cst (constant S_ .f32 0x00000000#32),
    StableHlo.TRef.binary (.of main_v303 : StableHlo.TRef sig ⟨S100000x64, .f32⟩) main_call18.cst main_call18.v0 (fun x v => Host.reduceAdd x v reducesTo_S100000x64_S64_d0 h_S_),
    StableHlo.TRef.unary main_call18.v0 main_call18.v1 (broadcastInDim S1x64 ![1] bcast_S64_S1x64_1),
    StableHlo.TRef.nullary main_call18.cst_0 (constant S_ .f32 0x47C35000#32),
    StableHlo.TRef.unary main_call18.cst_0 main_call18.v2 (broadcastInDim S1x64 ![] bcast_S_S1x64),
    StableHlo.TRef.binary main_call18.v1 main_call18.v2 main_call18.v3 Host.divf,
    StableHlo.TRef.unary main_call18.v3 main_call18.v4 (broadcastInDim S100000x64 ![0, 1] bcast_S1x64_S100000x64_0_1),
    StableHlo.TRef.binary (.of main_v303 : StableHlo.TRef sig ⟨S100000x64, .f32⟩) main_call18.v4 main_call18.v5 subf,
    StableHlo.TRef.binary main_call18.v5 main_call18.v5 main_call18.v6 mulf,
    StableHlo.TRef.unary (.of main_c_44 : StableHlo.TRef sig ⟨S_, .i32⟩) main_call18.v7 (sitofp .f32),
    StableHlo.TRef.nullary main_call18.cst_1 (constant S_ .f32 0x47C35000#32),
    StableHlo.TRef.binary main_call18.cst_1 main_call18.v7 main_call18.v8 subf,
    StableHlo.TRef.nullary main_call18.cst_2 (constant S_ .f32 0x00000000#32),
    StableHlo.TRef.binary main_call18.v6 main_call18.cst_2 main_call18.v9 (fun x v => Host.reduceAdd x v reducesTo_S100000x64_S64_d0 h_S_),
    StableHlo.TRef.unary main_call18.v8 main_call18.v10 (broadcastInDim S64 ![] bcast_S_S64),
    StableHlo.TRef.binary main_call18.v9 main_call18.v10 main_call18.v11 Host.divf,
    StableHlo.TRef.nullary main_call18.cst_3 (constant S_ .f32 0x00000000#32),
    StableHlo.TRef.binary main_call18.v8 main_call18.cst_3 main_call18.v12 (cmpf .ogt),
    StableHlo.TRef.nullary main_call18.cst_4 (constant S_ .f32 0x7FC00000#32),
    StableHlo.TRef.unary main_call18.cst_4 main_call18.call0.v0 id,
    StableHlo.TRef.unary main_call18.call0.v0 main_call18.call0.v1 (broadcastInDim S64 ![] bcast_S_S64),
    StableHlo.TRef.ternary main_call18.v12 main_call18.v11 main_call18.call0.v1 main_call18.call0.v2 (fun p a b => select (broadcastInDim S64 ![] bcast_S_S64 p) a b),
    StableHlo.unary main_v310 main_v312 (broadcastInDim S1x64 ![1] bcast_S64_S1x64_1 : (⟨S64, .f32⟩ : BufTy).Contents (Elt F) → (⟨S1x64, .f32⟩ : BufTy).Contents (Elt F)),
    StableHlo.unary main_v312 main_v313 (broadcastInDim S100000x64 ![0, 1] bcast_S1x64_S100000x64_0_1 : (⟨S1x64, .f32⟩ : BufTy).Contents (Elt F) → (⟨S100000x64, .f32⟩ : BufTy).Contents (Elt F)),
    StableHlo.binary main_v303 main_v313 main_v314 (subf : (⟨S100000x64, .f32⟩ : BufTy).Contents (Elt F) → (⟨S100000x64, .f32⟩ : BufTy).Contents (Elt F) → (⟨S100000x64, .f32⟩ : BufTy).Contents (Elt F)),
    StableHlo.unary main_v305 main_v315 (broadcastInDim S1x64 ![1] bcast_S64_S1x64_1 : (⟨S64, .f32⟩ : BufTy).Contents (Elt F) → (⟨S1x64, .f32⟩ : BufTy).Contents (Elt F)),
    StableHlo.unary main_v315 main_v316 (broadcastInDim S100000x64 ![0, 1] bcast_S1x64_S100000x64_0_1 : (⟨S1x64, .f32⟩ : BufTy).Contents (Elt F) → (⟨S100000x64, .f32⟩ : BufTy).Contents (Elt F)),
    StableHlo.binary main_v316 main_v314 main_v317 (mulf : (⟨S100000x64, .f32⟩ : BufTy).Contents (Elt F) → (⟨S100000x64, .f32⟩ : BufTy).Contents (Elt F) → (⟨S100000x64, .f32⟩ : BufTy).Contents (Elt F)),
    StableHlo.nullary main_cst_45 (constant S_ .f32 0x3727C5AC#32),
    StableHlo.unary main_cst_45 main_v318 (broadcastInDim S64 ![] bcast_S_S64 : (⟨S_, .f32⟩ : BufTy).Contents (Elt F) → (⟨S64, .f32⟩ : BufTy).Contents (Elt F)),
    StableHlo.binary main_v311 main_v318 main_v319 (addf : (⟨S64, .f32⟩ : BufTy).Contents (Elt F) → (⟨S64, .f32⟩ : BufTy).Contents (Elt F) → (⟨S64, .f32⟩ : BufTy).Contents (Elt F)),
    StableHlo.unary main_v319 main_v320 (Host.rsqrt : (⟨S64, .f32⟩ : BufTy).Contents (Elt F) → (⟨S64, .f32⟩ : BufTy).Contents (Elt F)),
    StableHlo.unary main_v320 main_v321 (broadcastInDim S1x64 ![1] bcast_S64_S1x64_1 : (⟨S64, .f32⟩ : BufTy).Contents (Elt F) → (⟨S1x64, .f32⟩ : BufTy).Contents (Elt F)),
    StableHlo.unary main_v321 main_v322 (broadcastInDim S100000x64 ![0, 1] bcast_S1x64_S100000x64_0_1 : (⟨S1x64, .f32⟩ : BufTy).Contents (Elt F) → (⟨S100000x64, .f32⟩ : BufTy).Contents (Elt F)),
    StableHlo.binary main_v317 main_v322 main_v323 (mulf : (⟨S100000x64, .f32⟩ : BufTy).Contents (Elt F) → (⟨S100000x64, .f32⟩ : BufTy).Contents (Elt F) → (⟨S100000x64, .f32⟩ : BufTy).Contents (Elt F)),
    StableHlo.unary main_v307 main_v324 (broadcastInDim S1x64 ![1] bcast_S64_S1x64_1 : (⟨S64, .f32⟩ : BufTy).Contents (Elt F) → (⟨S1x64, .f32⟩ : BufTy).Contents (Elt F)),
    StableHlo.unary main_v324 main_v325 (broadcastInDim S100000x64 ![0, 1] bcast_S1x64_S100000x64_0_1 : (⟨S1x64, .f32⟩ : BufTy).Contents (Elt F) → (⟨S100000x64, .f32⟩ : BufTy).Contents (Elt F)),
    StableHlo.binary main_v323 main_v325 main_v326 (addf : (⟨S100000x64, .f32⟩ : BufTy).Contents (Elt F) → (⟨S100000x64, .f32⟩ : BufTy).Contents (Elt F) → (⟨S100000x64, .f32⟩ : BufTy).Contents (Elt F)),
    StableHlo.TRef.nullary main_call19.cst (constant S_ .f32 0x00000000#32),
    StableHlo.TRef.unary main_call19.cst main_call19.v0 (broadcastInDim S100000x64 ![] bcast_S_S100000x64),
    StableHlo.TRef.binary (.of main_v326 : StableHlo.TRef sig ⟨S100000x64, .f32⟩) main_call19.v0 main_call19.v1 maximumf ]

/-- @main's statements 377 … 463 (%c_46 … %403): 133 operations, calls inlined. -/
abbrev lay4 : List (HloOp τ sig (Elt F)) :=
  [ StableHlo.nullary main_c_46 (constantI S_ 32 0#32),
    StableHlo.unary main_c_46 main_v328 (broadcastInDim S800000 ![] bcast_S_S800000 : (⟨S_, .i32⟩ : BufTy).Contents (Elt F) → (⟨S800000, .i32⟩ : BufTy).Contents (Elt F)),
    StableHlo.binary main_v17 main_v328 main_v329 (cmpi .slt : (⟨S800000, .i32⟩ : BufTy).Contents (Elt F) → (⟨S800000, .i32⟩ : BufTy).Contents (Elt F) → (⟨S800000, .i1⟩ : BufTy).Contents (Elt F)),
    StableHlo.nullary main_c_47 (constantI S_ 32 100000#32),
    StableHlo.unary main_c_47 main_v330 (broadcastInDim S800000 ![] bcast_S_S800000 : (⟨S_, .i32⟩ : BufTy).Contents (Elt F) → (⟨S800000, .i32⟩ : BufTy).Contents (Elt F)),
    StableHlo.binary main_v17 main_v330 main_v331 (addi : (⟨S800000, .i32⟩ : BufTy).Contents (Elt F) → (⟨S800000, .i32⟩ : BufTy).Contents (Elt F) → (⟨S800000, .i32⟩ : BufTy).Contents (Elt F)),
    StableHlo.ternary main_v329 main_v331 main_v17 main_v332 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v332 main_v333 (broadcastInDim S800000x1 ![0] bcast_S800000_S800000x1_0 : (⟨S800000, .i32⟩ : BufTy).Contents (Elt F) → (⟨S800000x1, .i32⟩ : BufTy).Contents (Elt F)),
    StableHlo.binary main_v327 main_v333 main_v334 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    StableHlo.binary main_v334 main_v15 main_v335 (addf : (⟨S800000x64, .f32⟩ : BufTy).Contents (Elt F) → (⟨S800000x64, .f32⟩ : BufTy).Contents (Elt F) → (⟨S800000x64, .f32⟩ : BufTy).Contents (Elt F)),
    StableHlo.TRef.nullary main_call20.cst (constant S_ .f32 0x00000000#32),
    StableHlo.TRef.unary main_call20.cst main_call20.v0 (broadcastInDim S800000x64 ![] bcast_S_S800000x64),
    StableHlo.TRef.binary (.of main_v335 : StableHlo.TRef sig ⟨S800000x64, .f32⟩) main_call20.v0 main_call20.v1 maximumf,
    StableHlo.nullary main_cst_48 (constant S_ .f32 0x00000000#32),
    StableHlo.unary main_cst_48 main_v337 (broadcastInDim S100000x64 ![] bcast_S_S100000x64 : (⟨S_, .f32⟩ : BufTy).Contents (Elt F) → (⟨S100000x64, .f32⟩ : BufTy).Contents (Elt F)),
    StableHlo.unary main_v19 main_v338 (broadcastInDim S800000x1 ![0] bcast_S800000_S800000x1_0 : (⟨S800000, .i32⟩ : BufTy).Contents (Elt F) → (⟨S800000x1, .i32⟩ : BufTy).Contents (Elt F)),
    StableHlo.ternary main_v337 main_v338 main_v336 main_v339 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    StableHlo.binary main_v327 main_v339 main_v340 (addf : (⟨S100000x64, .f32⟩ : BufTy).Contents (Elt F) → (⟨S100000x64, .f32⟩ : BufTy).Contents (Elt F) → (⟨S100000x64, .f32⟩ : BufTy).Contents (Elt F)),
    StableHlo.unary main_arg6 main_v341 ((extractStridedSlice S1x64x128 ![4, 0, 0] · slices_S5x64x128_S1x64x128_4_0_0) : (⟨S5x64x128, .f32⟩ : BufTy).Contents (Elt F) → (⟨S1x64x128, .f32⟩ : BufTy).Contents (Elt F)),
    StableHlo.reshape main_v341 main_v342 rfl shapeCasts_S1x64x128_S64x128,
    StableHlo.binary main_v340 main_v342 main_v343 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg7 main_v344 ((extractStridedSlice S1x128 ![4, 0] · slices_S5x128_S1x128_4_0) : (⟨S5x128, .f32⟩ : BufTy).Contents (Elt F) → (⟨S1x128, .f32⟩ : BufTy).Contents (Elt F)),
    StableHlo.reshape main_v344 main_v345 rfl shapeCasts_S1x128_S128,
    StableHlo.unary main_v345 main_v346 (broadcastInDim S1x128 ![1] bcast_S128_S1x128_1 : (⟨S128, .f32⟩ : BufTy).Contents (Elt F) → (⟨S1x128, .f32⟩ : BufTy).Contents (Elt F)),
    StableHlo.unary main_v346 main_v347 (broadcastInDim S100000x128 ![0, 1] bcast_S1x128_S100000x128_0_1 : (⟨S1x128, .f32⟩ : BufTy).Contents (Elt F) → (⟨S100000x128, .f32⟩ : BufTy).Contents (Elt F)),
    StableHlo.binary main_v343 main_v347 main_v348 (addf : (⟨S100000x128, .f32⟩ : BufTy).Contents (Elt F) → (⟨S100000x128, .f32⟩ : BufTy).Contents (Elt F) → (⟨S100000x128, .f32⟩ : BufTy).Contents (Elt F)),
    StableHlo.unary main_arg8 main_v349 ((extractStridedSlice S1x128 ![4, 0] · slices_S5x128_S1x128_4_0) : (⟨S5x128, .f32⟩ : BufTy).Contents (Elt F) → (⟨S1x128, .f32⟩ : BufTy).Contents (Elt F)),
    StableHlo.reshape main_v349 main_v350 rfl shapeCasts_S1x128_S128,
    StableHlo.unary main_arg9 main_v351 ((extractStridedSlice S1x128 ![4, 0] · slices_S5x128_S1x128_4_0) : (⟨S5x128, .f32⟩ : BufTy).Contents (Elt F) → (⟨S1x128, .f32⟩ : BufTy).Contents (Elt F)),
    StableHlo.reshape main_v351 main_v352 rfl shapeCasts_S1x128_S128,
    StableHlo.nullary main_cst_49 (constant S_ .f32 0x00000000#32),
    StableHlo.binary main_v348 main_cst_49 main_v353 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_50 (constant S_ .f32 0x47C35000#32),
    StableHlo.unary main_cst_50 main_v354 (broadcastInDim S128 ![] bcast_S_S128 : (⟨S_, .f32⟩ : BufTy).Contents (Elt F) → (⟨S128, .f32⟩ : BufTy).Contents (Elt F)),
    StableHlo.binary main_v353 main_v354 main_v355 (Host.divf : (⟨S128, .f32⟩ : BufTy).Contents (Elt F) → (⟨S128, .f32⟩ : BufTy).Contents (Elt F) → (⟨S128, .f32⟩ : BufTy).Contents (Elt F)),
    StableHlo.nullary main_c_51 (constantI S_ 32 0#32),
    StableHlo.TRef.nullary main_call21.cst (constant S_ .f32 0x00000000#32),
    StableHlo.TRef.binary (.of main_v348 : StableHlo.TRef sig ⟨S100000x128, .f32⟩) main_call21.cst main_call21.v0 (fun x v => Host.reduceAdd x v reducesTo_S100000x128_S128_d0 h_S_),
    StableHlo.TRef.unary main_call21.v0 main_call21.v1 (broadcastInDim S1x128 ![1] bcast_S128_S1x128_1),
    StableHlo.TRef.nullary main_call21.cst_0 (constant S_ .f32 0x47C35000#32),
    StableHlo.TRef.unary main_call21.cst_0 main_call21.v2 (broadcastInDim S1x128 ![] bcast_S_S1x128),
    StableHlo.TRef.binary main_call21.v1 main_call21.v2 main_call21.v3 Host.divf,
    StableHlo.TRef.unary main_call21.v3 main_call21.v4 (broadcastInDim S100000x128 ![0, 1] bcast_S1x128_S100000x128_0_1),
    StableHlo.TRef.binary (.of main_v348 : StableHlo.TRef sig ⟨S100000x128, .f32⟩) main_call21.v4 main_call21.v5 subf,
    StableHlo.TRef.binary main_call21.v5 main_call21.v5 main_call21.v6 mulf,
    StableHlo.TRef.unary (.of main_c_51 : StableHlo.TRef sig ⟨S_, .i32⟩) main_call21.v7 (sitofp .f32),
    StableHlo.TRef.nullary main_call21.cst_1 (constant S_ .f32 0x47C35000#32),
    StableHlo.TRef.binary main_call21.cst_1 main_call21.v7 main_call21.v8 subf,
    StableHlo.TRef.nullary main_call21.cst_2 (constant S_ .f32 0x00000000#32),
    StableHlo.TRef.binary main_call21.v6 main_call21.cst_2 main_call21.v9 (fun x v => Host.reduceAdd x v reducesTo_S100000x128_S128_d0 h_S_),
    StableHlo.TRef.unary main_call21.v8 main_call21.v10 (broadcastInDim S128 ![] bcast_S_S128),
    StableHlo.TRef.binary main_call21.v9 main_call21.v10 main_call21.v11 Host.divf,
    StableHlo.TRef.nullary main_call21.cst_3 (constant S_ .f32 0x00000000#32),
    StableHlo.TRef.binary main_call21.v8 main_call21.cst_3 main_call21.v12 (cmpf .ogt),
    StableHlo.TRef.nullary main_call21.cst_4 (constant S_ .f32 0x7FC00000#32),
    StableHlo.TRef.unary main_call21.cst_4 main_call21.call0.v0 id,
    StableHlo.TRef.unary main_call21.call0.v0 main_call21.call0.v1 (broadcastInDim S128 ![] bcast_S_S128),
    StableHlo.TRef.ternary main_call21.v12 main_call21.v11 main_call21.call0.v1 main_call21.call0.v2 (fun p a b => select (broadcastInDim S128 ![] bcast_S_S128 p) a b),
    StableHlo.unary main_v355 main_v357 (broadcastInDim S1x128 ![1] bcast_S128_S1x128_1 : (⟨S128, .f32⟩ : BufTy).Contents (Elt F) → (⟨S1x128, .f32⟩ : BufTy).Contents (Elt F)),
    StableHlo.unary main_v357 main_v358 (broadcastInDim S100000x128 ![0, 1] bcast_S1x128_S100000x128_0_1 : (⟨S1x128, .f32⟩ : BufTy).Contents (Elt F) → (⟨S100000x128, .f32⟩ : BufTy).Contents (Elt F)),
    StableHlo.binary main_v348 main_v358 main_v359 (subf : (⟨S100000x128, .f32⟩ : BufTy).Contents (Elt F) → (⟨S100000x128, .f32⟩ : BufTy).Contents (Elt F) → (⟨S100000x128, .f32⟩ : BufTy).Contents (Elt F)),
    StableHlo.unary main_v350 main_v360 (broadcastInDim S1x128 ![1] bcast_S128_S1x128_1 : (⟨S128, .f32⟩ : BufTy).Contents (Elt F) → (⟨S1x128, .f32⟩ : BufTy).Contents (Elt F)),
    StableHlo.unary main_v360 main_v361 (broadcastInDim S100000x128 ![0, 1] bcast_S1x128_S100000x128_0_1 : (⟨S1x128, .f32⟩ : BufTy).Contents (Elt F) → (⟨S100000x128, .f32⟩ : BufTy).Contents (Elt F)),
    StableHlo.binary main_v361 main_v359 main_v362 (mulf : (⟨S100000x128, .f32⟩ : BufTy).Contents (Elt F) → (⟨S100000x128, .f32⟩ : BufTy).Contents (Elt F) → (⟨S100000x128, .f32⟩ : BufTy).Contents (Elt F)),
    StableHlo.nullary main_cst_52 (constant S_ .f32 0x3727C5AC#32),
    StableHlo.unary main_cst_52 main_v363 (broadcastInDim S128 ![] bcast_S_S128 : (⟨S_, .f32⟩ : BufTy).Contents (Elt F) → (⟨S128, .f32⟩ : BufTy).Contents (Elt F)),
    StableHlo.binary main_v356 main_v363 main_v364 (addf : (⟨S128, .f32⟩ : BufTy).Contents (Elt F) → (⟨S128, .f32⟩ : BufTy).Contents (Elt F) → (⟨S128, .f32⟩ : BufTy).Contents (Elt F)),
    StableHlo.unary main_v364 main_v365 (Host.rsqrt : (⟨S128, .f32⟩ : BufTy).Contents (Elt F) → (⟨S128, .f32⟩ : BufTy).Contents (Elt F)),
    StableHlo.unary main_v365 main_v366 (broadcastInDim S1x128 ![1] bcast_S128_S1x128_1 : (⟨S128, .f32⟩ : BufTy).Contents (Elt F) → (⟨S1x128, .f32⟩ : BufTy).Contents (Elt F)),
    StableHlo.unary main_v366 main_v367 (broadcastInDim S100000x128 ![0, 1] bcast_S1x128_S100000x128_0_1 : (⟨S1x128, .f32⟩ : BufTy).Contents (Elt F) → (⟨S100000x128, .f32⟩ : BufTy).Contents (Elt F)),
    StableHlo.binary main_v362 main_v367 main_v368 (mulf : (⟨S100000x128, .f32⟩ : BufTy).Contents (Elt F) → (⟨S100000x128, .f32⟩ : BufTy).Contents (Elt F) → (⟨S100000x128, .f32⟩ : BufTy).Contents (Elt F)),
    StableHlo.unary main_v352 main_v369 (broadcastInDim S1x128 ![1] bcast_S128_S1x128_1 : (⟨S128, .f32⟩ : BufTy).Contents (Elt F) → (⟨S1x128, .f32⟩ : BufTy).Contents (Elt F)),
    StableHlo.unary main_v369 main_v370 (broadcastInDim S100000x128 ![0, 1] bcast_S1x128_S100000x128_0_1 : (⟨S1x128, .f32⟩ : BufTy).Contents (Elt F) → (⟨S100000x128, .f32⟩ : BufTy).Contents (Elt F)),
    StableHlo.binary main_v368 main_v370 main_v371 (addf : (⟨S100000x128, .f32⟩ : BufTy).Contents (Elt F) → (⟨S100000x128, .f32⟩ : BufTy).Contents (Elt F) → (⟨S100000x128, .f32⟩ : BufTy).Contents (Elt F)),
    StableHlo.TRef.nullary main_call22.cst (constant S_ .f32 0x00000000#32),
    StableHlo.TRef.unary main_call22.cst main_call22.v0 (broadcastInDim S100000x128 ![] bcast_S_S100000x128),
    StableHlo.TRef.binary (.of main_v371 : StableHlo.TRef sig ⟨S100000x128, .f32⟩) main_call22.v0 main_call22.v1 maximumf,
    StableHlo.unary main_arg10 main_v373 ((extractStridedSlice S1x128x64 ![4, 0, 0] · slices_S5x128x64_S1x128x64_4_0_0) : (⟨S5x128x64, .f32⟩ : BufTy).Contents (Elt F) → (⟨S1x128x64, .f32⟩ : BufTy).Contents (Elt F)),
    StableHlo.reshape main_v373 main_v374 rfl shapeCasts_S1x128x64_S128x64,
    StableHlo.binary main_v372 main_v374 main_v375 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg11 main_v376 ((extractStridedSlice S1x64 ![4, 0] · slices_S5x64_S1x64_4_0) : (⟨S5x64, .f32⟩ : BufTy).Contents (Elt F) → (⟨S1x64, .f32⟩ : BufTy).Contents (Elt F)),
    StableHlo.reshape main_v376 main_v377 rfl shapeCasts_S1x64_S64,
    StableHlo.unary main_v377 main_v378 (broadcastInDim S1x64 ![1] bcast_S64_S1x64_1 : (⟨S64, .f32⟩ : BufTy).Contents (Elt F) → (⟨S1x64, .f32⟩ : BufTy).Contents (Elt F)),
    StableHlo.unary main_v378 main_v379 (broadcastInDim S100000x64 ![0, 1] bcast_S1x64_S100000x64_0_1 : (⟨S1x64, .f32⟩ : BufTy).Contents (Elt F) → (⟨S100000x64, .f32⟩ : BufTy).Contents (Elt F)),
    StableHlo.binary main_v375 main_v379 main_v380 (addf : (⟨S100000x64, .f32⟩ : BufTy).Contents (Elt F) → (⟨S100000x64, .f32⟩ : BufTy).Contents (Elt F) → (⟨S100000x64, .f32⟩ : BufTy).Contents (Elt F)),
    StableHlo.unary main_arg12 main_v381 ((extractStridedSlice S1x64 ![4, 0] · slices_S5x64_S1x64_4_0) : (⟨S5x64, .f32⟩ : BufTy).Contents (Elt F) → (⟨S1x64, .f32⟩ : BufTy).Contents (Elt F)),
    StableHlo.reshape main_v381 main_v382 rfl shapeCasts_S1x64_S64,
    StableHlo.unary main_arg13 main_v383 ((extractStridedSlice S1x64 ![4, 0] · slices_S5x64_S1x64_4_0) : (⟨S5x64, .f32⟩ : BufTy).Contents (Elt F) → (⟨S1x64, .f32⟩ : BufTy).Contents (Elt F)),
    StableHlo.reshape main_v383 main_v384 rfl shapeCasts_S1x64_S64,
    StableHlo.nullary main_cst_53 (constant S_ .f32 0x00000000#32),
    StableHlo.binary main_v380 main_cst_53 main_v385 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_54 (constant S_ .f32 0x47C35000#32),
    StableHlo.unary main_cst_54 main_v386 (broadcastInDim S64 ![] bcast_S_S64 : (⟨S_, .f32⟩ : BufTy).Contents (Elt F) → (⟨S64, .f32⟩ : BufTy).Contents (Elt F)),
    StableHlo.binary main_v385 main_v386 main_v387 (Host.divf : (⟨S64, .f32⟩ : BufTy).Contents (Elt F) → (⟨S64, .f32⟩ : BufTy).Contents (Elt F) → (⟨S64, .f32⟩ : BufTy).Contents (Elt F)),
    StableHlo.nullary main_c_55 (constantI S_ 32 0#32),
    StableHlo.TRef.nullary main_call23.cst (constant S_ .f32 0x00000000#32),
    StableHlo.TRef.binary (.of main_v380 : StableHlo.TRef sig ⟨S100000x64, .f32⟩) main_call23.cst main_call23.v0 (fun x v => Host.reduceAdd x v reducesTo_S100000x64_S64_d0 h_S_),
    StableHlo.TRef.unary main_call23.v0 main_call23.v1 (broadcastInDim S1x64 ![1] bcast_S64_S1x64_1),
    StableHlo.TRef.nullary main_call23.cst_0 (constant S_ .f32 0x47C35000#32),
    StableHlo.TRef.unary main_call23.cst_0 main_call23.v2 (broadcastInDim S1x64 ![] bcast_S_S1x64),
    StableHlo.TRef.binary main_call23.v1 main_call23.v2 main_call23.v3 Host.divf,
    StableHlo.TRef.unary main_call23.v3 main_call23.v4 (broadcastInDim S100000x64 ![0, 1] bcast_S1x64_S100000x64_0_1),
    StableHlo.TRef.binary (.of main_v380 : StableHlo.TRef sig ⟨S100000x64, .f32⟩) main_call23.v4 main_call23.v5 subf,
    StableHlo.TRef.binary main_call23.v5 main_call23.v5 main_call23.v6 mulf,
    StableHlo.TRef.unary (.of main_c_55 : StableHlo.TRef sig ⟨S_, .i32⟩) main_call23.v7 (sitofp .f32),
    StableHlo.TRef.nullary main_call23.cst_1 (constant S_ .f32 0x47C35000#32),
    StableHlo.TRef.binary main_call23.cst_1 main_call23.v7 main_call23.v8 subf,
    StableHlo.TRef.nullary main_call23.cst_2 (constant S_ .f32 0x00000000#32),
    StableHlo.TRef.binary main_call23.v6 main_call23.cst_2 main_call23.v9 (fun x v => Host.reduceAdd x v reducesTo_S100000x64_S64_d0 h_S_),
    StableHlo.TRef.unary main_call23.v8 main_call23.v10 (broadcastInDim S64 ![] bcast_S_S64),
    StableHlo.TRef.binary main_call23.v9 main_call23.v10 main_call23.v11 Host.divf,
    StableHlo.TRef.nullary main_call23.cst_3 (constant S_ .f32 0x00000000#32),
    StableHlo.TRef.binary main_call23.v8 main_call23.cst_3 main_call23.v12 (cmpf .ogt),
    StableHlo.TRef.nullary main_call23.cst_4 (constant S_ .f32 0x7FC00000#32),
    StableHlo.TRef.unary main_call23.cst_4 main_call23.call0.v0 id,
    StableHlo.TRef.unary main_call23.call0.v0 main_call23.call0.v1 (broadcastInDim S64 ![] bcast_S_S64),
    StableHlo.TRef.ternary main_call23.v12 main_call23.v11 main_call23.call0.v1 main_call23.call0.v2 (fun p a b => select (broadcastInDim S64 ![] bcast_S_S64 p) a b),
    StableHlo.unary main_v387 main_v389 (broadcastInDim S1x64 ![1] bcast_S64_S1x64_1 : (⟨S64, .f32⟩ : BufTy).Contents (Elt F) → (⟨S1x64, .f32⟩ : BufTy).Contents (Elt F)),
    StableHlo.unary main_v389 main_v390 (broadcastInDim S100000x64 ![0, 1] bcast_S1x64_S100000x64_0_1 : (⟨S1x64, .f32⟩ : BufTy).Contents (Elt F) → (⟨S100000x64, .f32⟩ : BufTy).Contents (Elt F)),
    StableHlo.binary main_v380 main_v390 main_v391 (subf : (⟨S100000x64, .f32⟩ : BufTy).Contents (Elt F) → (⟨S100000x64, .f32⟩ : BufTy).Contents (Elt F) → (⟨S100000x64, .f32⟩ : BufTy).Contents (Elt F)),
    StableHlo.unary main_v382 main_v392 (broadcastInDim S1x64 ![1] bcast_S64_S1x64_1 : (⟨S64, .f32⟩ : BufTy).Contents (Elt F) → (⟨S1x64, .f32⟩ : BufTy).Contents (Elt F)),
    StableHlo.unary main_v392 main_v393 (broadcastInDim S100000x64 ![0, 1] bcast_S1x64_S100000x64_0_1 : (⟨S1x64, .f32⟩ : BufTy).Contents (Elt F) → (⟨S100000x64, .f32⟩ : BufTy).Contents (Elt F)),
    StableHlo.binary main_v393 main_v391 main_v394 (mulf : (⟨S100000x64, .f32⟩ : BufTy).Contents (Elt F) → (⟨S100000x64, .f32⟩ : BufTy).Contents (Elt F) → (⟨S100000x64, .f32⟩ : BufTy).Contents (Elt F)),
    StableHlo.nullary main_cst_56 (constant S_ .f32 0x3727C5AC#32),
    StableHlo.unary main_cst_56 main_v395 (broadcastInDim S64 ![] bcast_S_S64 : (⟨S_, .f32⟩ : BufTy).Contents (Elt F) → (⟨S64, .f32⟩ : BufTy).Contents (Elt F)),
    StableHlo.binary main_v388 main_v395 main_v396 (addf : (⟨S64, .f32⟩ : BufTy).Contents (Elt F) → (⟨S64, .f32⟩ : BufTy).Contents (Elt F) → (⟨S64, .f32⟩ : BufTy).Contents (Elt F)),
    StableHlo.unary main_v396 main_v397 (Host.rsqrt : (⟨S64, .f32⟩ : BufTy).Contents (Elt F) → (⟨S64, .f32⟩ : BufTy).Contents (Elt F)),
    StableHlo.unary main_v397 main_v398 (broadcastInDim S1x64 ![1] bcast_S64_S1x64_1 : (⟨S64, .f32⟩ : BufTy).Contents (Elt F) → (⟨S1x64, .f32⟩ : BufTy).Contents (Elt F)),
    StableHlo.unary main_v398 main_v399 (broadcastInDim S100000x64 ![0, 1] bcast_S1x64_S100000x64_0_1 : (⟨S1x64, .f32⟩ : BufTy).Contents (Elt F) → (⟨S100000x64, .f32⟩ : BufTy).Contents (Elt F)),
    StableHlo.binary main_v394 main_v399 main_v400 (mulf : (⟨S100000x64, .f32⟩ : BufTy).Contents (Elt F) → (⟨S100000x64, .f32⟩ : BufTy).Contents (Elt F) → (⟨S100000x64, .f32⟩ : BufTy).Contents (Elt F)),
    StableHlo.unary main_v384 main_v401 (broadcastInDim S1x64 ![1] bcast_S64_S1x64_1 : (⟨S64, .f32⟩ : BufTy).Contents (Elt F) → (⟨S1x64, .f32⟩ : BufTy).Contents (Elt F)),
    StableHlo.unary main_v401 main_v402 (broadcastInDim S100000x64 ![0, 1] bcast_S1x64_S100000x64_0_1 : (⟨S1x64, .f32⟩ : BufTy).Contents (Elt F) → (⟨S100000x64, .f32⟩ : BufTy).Contents (Elt F)),
    StableHlo.binary main_v400 main_v402 main_v403 (addf : (⟨S100000x64, .f32⟩ : BufTy).Contents (Elt F) → (⟨S100000x64, .f32⟩ : BufTy).Contents (Elt F) → (⟨S100000x64, .f32⟩ : BufTy).Contents (Elt F)) ]

/-- @main's statements 464 … 468 (%cst_57 … %406): 4 operations, calls inlined. -/
abbrev post : List (HloOp τ sig (Elt F)) :=
  [ StableHlo.nullary main_cst_57 (constant S_ .f32 0x00000000#32),
    StableHlo.unary main_cst_57 main_v404 (broadcastInDim S256x64 ![] bcast_S_S256x64 : (⟨S_, .f32⟩ : BufTy).Contents (Elt F) → (⟨S256x64, .f32⟩ : BufTy).Contents (Elt F)),
    StableHlo.unary main_arg0 main_v405 (broadcastInDim S100000x1 ![0] bcast_S100000_S100000x1_0 : (⟨S100000, .i32⟩ : BufTy).Contents (Elt F) → (⟨S100000x1, .i32⟩ : BufTy).Contents (Elt F)),
    StableHlo.ternary main_v404 main_v405 main_v403 main_v406 ((fun x i u => Host.scatterAdd scatter_S256x64_S100000x1_S100000x64_1_0_0_1 x i u) : (⟨S256x64, .f32⟩ : BufTy).Contents (Elt F) → (⟨S100000x1, .i32⟩ : BufTy).Contents (Elt F) → (⟨S100000x64, .f32⟩ : BufTy).Contents (Elt F) → (⟨S256x64, .f32⟩ : BufTy).Contents (Elt F)) ]

/-- All of @main's operations, in order. -/
abbrev ops : List (HloOp τ sig (Elt F)) := pre ++ lay0 ++ lay1 ++ lay2 ++ lay3 ++ lay4 ++ post

end Cert.ReferenceIdeal.Hand

end
-- ==== Proof.KeepR.lean ====
import proofs.«419503_j34746285425415_3_alg».proof.Proof.RefOps

noncomputable section

namespace Cert.Gnn.KeepR

open Idealize.ShloMosaic
open Cert.ReferenceIdeal Cert.ReferenceIdeal.Hand

variable {Val : EltTy → Type}

-- The operation touches references' buffers only and determines all it writes: one buffer, numbered n or later.
inductive Late (n : ℕ) (op : HloOp τ sig Val) : Prop
  | mk (y : Ref sig .tc) (sub : op.bufs ⊆ StableHlo.tcRefs τ sig) (fresh : op.fresh = ∅)
      (wr : op.writes = {Proc.devRef .tc y}) (late : n ≤ y.idx)

-- The operations leave the buffer of r as it was.
abbrev Kept (Val : EltTy → Type) (ops : List (HloOp τ sig Val)) (r : Ref sig .tc) : Prop :=
  ∀ V : Valuation τ sig Val, StableHlo.after ops V (Proc.devRef .tc r) = V (Proc.devRef .tc r)

-- Distinct references name distinct buffers, so writing those numbered n or later keeps those numbered below n.
theorem kept_of_late {n : ℕ} {ops : List (HloOp τ sig Val)} (h : ops.Forall (Late n)) {r : Ref sig .tc}
    (hr : r.idx < n) : Kept Val ops r :=
  fun V => StableHlo.after_of_forall_not_mem ops V fun op hop hb => by
    obtain ⟨y, -, -, hw, hn⟩ := List.forall_iff_forall_mem.1 h op hop
    rw [hw, Finset.mem_singleton] at hb
    obtain rfl := Proc.devRef_injective _ hb
    exact Nat.not_le.2 hr hn

theorem late_mono {m n : ℕ} {l : List (HloOp τ sig Val)} (h : l.Forall (Late n)) (hmn : m ≤ n := by decide) :
    l.Forall (Late m) :=
  h.imp fun _ ⟨y, hs, hf, hw, hn⟩ => ⟨y, hs, hf, hw, hmn.trans hn⟩

variable {F : FTy → Type} [FloatOps F] [Facts]

-- Results are numbered in program order: a stretch writes nothing numbered before its first result.
theorem late_pre : (pre (F := F)).Forall (Late 14) := by
  repeat' first | exact ⟨_, by simp, rfl, rfl, by decide⟩ | constructor

theorem late_lay0 : (lay0 (F := F)).Forall (Late 38) := by
  repeat' first | exact ⟨_, by simp, rfl, rfl, by decide⟩ | constructor

theorem late_lay1 : (lay1 (F := F)).Forall (Late 38) := by
  repeat' first | exact ⟨_, by simp, rfl, rfl, by decide⟩ | constructor

theorem late_lay2 : (lay2 (F := F)).Forall (Late 38) := by
  repeat' first | exact ⟨_, by simp, rfl, rfl, by decide⟩ | constructor

theorem late_lay3 : (lay3 (F := F)).Forall (Late 38) := by
  repeat' first | exact ⟨_, by simp, rfl, rfl, by decide⟩ | constructor

theorem late_lay4 : (lay4 (F := F)).Forall (Late 38) := by
  repeat' first | exact ⟨_, by simp, rfl, rfl, by decide⟩ | constructor

theorem late_post : (post (F := F)).Forall (Late 715) := by
  repeat' first | exact ⟨_, by simp, rfl, rfl, by decide⟩ | constructor

theorem late_ops : (ops (F := F)).Forall (Late 14) := by
  simp only [List.forall_append]
  exact ⟨⟨⟨⟨⟨⟨late_pre, late_mono late_lay0⟩, late_mono late_lay1⟩, late_mono late_lay2⟩, late_mono late_lay3⟩,
    late_mono late_lay4⟩, late_mono late_post⟩

end Cert.Gnn.KeepR

end
-- ==== Proof.RefRun.Sub.lean ====
import proofs.«419503_j34746285425415_3_alg».proof.Proof.KeepR

noncomputable section

namespace Cert.ReferenceIdeal.Hand

open Idealize.ShloMosaic Cert.Gnn.KeepR

variable {F : FTy → Type} [FloatOps F] [Facts]

theorem ops_sub : (ops : List (HloOp τ sig (Elt F))).Forall fun op => op.bufs ⊆ StableHlo.tcRefs τ sig :=
  late_ops.imp fun _ ⟨_, h, _, _, _⟩ => h

theorem ops_fresh : ∀ op ∈ (ops : List (HloOp τ sig (Elt F))), op.fresh = ∅ :=
  fun op h => let ⟨_, _, hf, _, _⟩ := List.forall_iff_forall_mem.1 late_ops op h; hf

end Cert.ReferenceIdeal.Hand

end
-- ==== Proof.RefRun.lean ====
import proofs.«419503_j34746285425415_3_alg».proof.Proof.RefOps
import proofs.«419503_j34746285425415_3_alg».proof.Proof.RefRun.Sub

noncomputable section

namespace Cert.ReferenceIdeal.Hand

open Idealize.ShloMosaic Idealize.ShloMosaic.TcCoe Idealize.SL.Sem
open Cert.ReferenceIdeal.Facts₀ Cert.ReferenceIdeal.Facts

variable {F : FTy → Type} [FloatOps F] [Facts]

/-! Each window of @main is the straight line of a stretch of `ops`: with the called functions unfolded both
    sides are one chain of steps. The stretches are cut out of the layers' lists, so no operation is written twice. -/

set_option maxRecDepth 8192 in
theorem part0_eq (c : Dev nD) : main_part0 (F := F) c = StableHlo.seq (pre ++ lay0.take 59) := by
  simp only [main_part0, fn_relu.body, fn_var.body, fn_where.body, pre, lay0, List.take_succ_cons, List.take_zero,
    List.drop_succ_cons, List.drop_zero, List.cons_append, List.nil_append, StableHlo.seq, bind_assoc, pure_bind]
  rfl

set_option maxRecDepth 8192 in
theorem part1_eq (c : Dev nD) : main_part1 (F := F) c = StableHlo.seq (lay0.drop 59 ++ lay1.take 8) := by
  simp only [main_part1, fn_relu_0.body, fn_var_1.body, fn_where_2.body, fn_relu_3.body, lay0, lay1, List.take_succ_cons, List.take_zero,
    List.drop_succ_cons, List.drop_zero, List.cons_append, List.nil_append, StableHlo.seq, bind_assoc, pure_bind]
  rfl

set_option maxRecDepth 8192 in
theorem part2_eq (c : Dev nD) : main_part2 (F := F) c = StableHlo.seq ((lay1.drop 8).take 85) := by
  simp only [main_part2, fn_relu.body, fn_var.body, fn_where.body, fn_relu_0.body, lay1, List.take_succ_cons, List.take_zero,
    List.drop_succ_cons, List.drop_zero, List.cons_append, List.nil_append, StableHlo.seq, bind_assoc, pure_bind]
  rfl

set_option maxRecDepth 8192 in
theorem part3_eq (c : Dev nD) : main_part3 (F := F) c = StableHlo.seq ((lay1.drop 8).drop 85 ++ lay2.take 63) := by
  simp only [main_part3, fn_var_1.body, fn_where_2.body, fn_relu_3.body, fn_relu.body, fn_var.body, fn_where.body, lay1, lay2, List.take_succ_cons, List.take_zero,
    List.drop_succ_cons, List.drop_zero, List.cons_append, List.nil_append, StableHlo.seq, bind_assoc, pure_bind]
  rfl

set_option maxRecDepth 8192 in
theorem part4_eq (c : Dev nD) : main_part4 (F := F) c = StableHlo.seq (lay2.drop 63 ++ lay3.take 14) := by
  simp only [main_part4, fn_relu_0.body, fn_var_1.body, fn_where_2.body, fn_relu_3.body, fn_relu.body, lay2, lay3, List.take_succ_cons, List.take_zero,
    List.drop_succ_cons, List.drop_zero, List.cons_append, List.nil_append, StableHlo.seq, bind_assoc, pure_bind]
  rfl

set_option maxRecDepth 8192 in
theorem part5_eq (c : Dev nD) : main_part5 (F := F) c = StableHlo.seq ((lay3.drop 14).take 104) := by
  simp only [main_part5, fn_var.body, fn_where.body, fn_relu_0.body, fn_var_1.body, fn_where_2.body, lay3, List.take_succ_cons, List.take_zero,
    List.drop_succ_cons, List.drop_zero, List.cons_append, List.nil_append, StableHlo.seq, bind_assoc, pure_bind]
  rfl

set_option maxRecDepth 8192 in
theorem part6_eq (c : Dev nD) : main_part6 (F := F) c = StableHlo.seq ((lay3.drop 14).drop 104 ++ lay4.take 67) := by
  simp only [main_part6, fn_relu_3.body, fn_relu.body, fn_var.body, fn_where.body, lay3, lay4, List.take_succ_cons, List.take_zero,
    List.drop_succ_cons, List.drop_zero, List.cons_append, List.nil_append, StableHlo.seq, bind_assoc, pure_bind]
  rfl

set_option maxRecDepth 8192 in
theorem part7_eq (c : Dev nD) : main_part7 (F := F) c = StableHlo.seq (lay4.drop 67 ++ post) := by
  simp only [main_part7, fn_relu_0.body, fn_var_1.body, fn_where_2.body, lay4, post, List.take_succ_cons, List.take_zero,
    List.drop_succ_cons, List.drop_zero, List.cons_append, List.nil_append, StableHlo.seq, bind_assoc, pure_bind]

theorem take_drop_append {α : Type _} (n : Nat) (l r : List α) : l.take n ++ (l.drop n ++ r) = l ++ r := by
  rw [← List.append_assoc, List.take_append_drop]

-- the eight stretches, end to end, are the layers' lists end to end
theorem windows_eq :
    ((pre ++ lay0.take 59) ++ ((lay0.drop 59 ++ lay1.take 8) ++ ((lay1.drop 8).take 85 ++ (((lay1.drop 8).drop 85 ++ lay2.take 63)
      ++ ((lay2.drop 63 ++ lay3.take 14) ++ ((lay3.drop 14).take 104 ++ (((lay3.drop 14).drop 104 ++ lay4.take 67)
      ++ (lay4.drop 67 ++ post))))))) : List (HloOp τ sig (Elt F))) = ops := by
  simp only [ops, List.append_assoc, take_drop_append]

theorem main_eq (c : Dev nD) : main (F := F) c = StableHlo.seq ops := by
  show (main_part0 (F := F) c >>= fun _ => main_part1 (F := F) c >>= fun _ => main_part2 (F := F) c >>= fun _ =>
    main_part3 (F := F) c >>= fun _ => main_part4 (F := F) c >>= fun _ => main_part5 (F := F) c >>= fun _ =>
    main_part6 (F := F) c >>= fun _ => main_part7 (F := F) c) = _
  rw [part0_eq, part1_eq, part2_eq, part3_eq, part4_eq, part5_eq, part6_eq, part7_eq]
  simp only [← StableHlo.seq_append]
  exact congrArg StableHlo.seq windows_eq

set_option maxRecDepth 16384 in
theorem scopedRefs_eq : (Finset.univ.filter fun b : Ref sig .tc => b.isScoped) = ∅ := by decide
theorem scopedSems_eq : (Finset.univ.filter fun sm : SemLoc sig => sm.isScoped .tc) = ∅ := by decide

-- every weakly fair execution of @main ends with each buffer at the fold of the operations' results over the launch contents
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after ops (StableHlo.launchContents m c) (Proc.devRef .tc b) :=
  StableHlo.run_seq scopedRefs_eq scopedSems_eq defs main (fun _ => ops) main_eq (fun _ => ops_sub) m ρ (fun _ => ops_fresh)

theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => rw [List.cons_append, StableHlo.after_cons, StableHlo.after_cons, ih]

theorem after_ops (V : Valuation τ sig (Elt F)) :
    StableHlo.after ops V = StableHlo.after post (StableHlo.after lay4 (StableHlo.after lay3 (StableHlo.after lay2
      (StableHlo.after lay1 (StableHlo.after lay0 (StableHlo.after pre V)))))) := by
  simp only [ops, after_append]

end Cert.ReferenceIdeal.Hand

end
-- ==== Proof.Keeps.lean ====
import Idealize.ShloMosaic.Lib.StableHlo.Run

namespace Cert.Gnn

open Idealize.ShloMosaic Idealize.ShloMosaic.TcCoe

variable {τ : Topo} {sig : RefSig} {Val : EltTy → Type}

/-- The operations `ops` leave every reference outside the list `W` (their results, in order) as it was. -/
class Keeps (ops : List (HloOp τ sig Val)) (W : outParam (List (Ref sig .tc))) : Prop where
  keep : ∀ (V : Valuation τ sig Val) (r : Ref sig .tc), r ∉ W → StableHlo.after ops V r = V r

variable {x y a b c : Ref sig .tc} {ops : List (HloOp τ sig Val)} {W : List (Ref sig .tc)} [i : Keeps ops W]

instance : Keeps ([] : List (HloOp τ sig Val)) [] := ⟨fun _ _ _ => rfl⟩

/-- An operation whose one result is `y` leaves every other reference, and then the rest of the line runs. -/
theorem Keeps.cons {op : HloOp τ sig Val} (h : op.writes = {Proc.devRef .tc y}) : Keeps (op :: ops) (y :: W) :=
  ⟨fun V r hr => (i.keep _ r fun hW => hr (List.mem_cons_of_mem _ hW)).trans
    (op.result_of_not_mem V fun hb => hr (List.mem_cons.mpr (.inl (Proc.devRef_injective _
      (Finset.mem_singleton.mp (h ▸ hb))))))⟩

instance {v hy} : Keeps (StableHlo.nullary y v hy :: ops) (y :: W) := .cons rfl
instance {f hx hy} : Keeps (StableHlo.unary x y f hx hy :: ops) (y :: W) := .cons rfl
instance {f ha hb hy} : Keeps (StableHlo.binary a b y f ha hb hy :: ops) (y :: W) := .cons rfl
instance {f hc ha hb hy} : Keeps (StableHlo.ternary c a b y f hc ha hb hy :: ops) (y :: W) := .cons rfl
instance {he hn hx hy} : Keeps (StableHlo.reshape x y he hn hx hy :: ops) (y :: W) := .cons rfl

end Cert.Gnn
-- ==== Proof.KeepK.lean ====
import proofs.«419503_j34746285425415_3_alg».proof.Proof.Gen.KernelIdeal.Frame
import proofs.«419503_j34746285425415_3_alg».proof.Proof.Keeps

noncomputable section

namespace Cert.Gnn.KeepK

open Idealize.ShloMosaic Idealize.ShloMosaic.TcCoe
open Cert.KernelIdeal Cert.KernelIdeal.Gen

variable {F : FTy → Type} [FloatOps F]

/-- Three stretches of host operations and then a region keep the references of `K`, none a result or an array of theirs. -/
theorem block {A B C : List (HloOp τ sig (Elt F))} {WA WB WC K : List (Ref sig .tc)} [iA : Keeps A WA] [iB : Keeps B WB]
    [iC : Keeps C WC] {gr n : Nat} {win : Fin n → Pipeline.WinSpec sig gr} {V₀ V V' : Valuation τ sig (Elt F)}
    (hV' : ∀ b, (∀ w, Pipeline.arrRef win w ≠ b) →
      V' b = StableHlo.after C (StableHlo.after B (StableHlo.after A V)) b)
    (hK : ∀ r ∈ K, (∀ w, Pipeline.arrRef win w ≠ r) ∧ r ∉ WC ∧ r ∉ WB ∧ r ∉ WA)
    (h₀ : ∀ r ∈ K, V r = V₀ r) : ∀ r ∈ K, V' r = V₀ r := fun r hr => by
  obtain ⟨h, hC, hB, hA⟩ := hK r hr
  rw [hV' r h, iC.keep _ r hC, iB.keep _ r hB, iA.keep _ r hA, h₀ r hr]

variable (m : (ℓ : Loc nD τ sig) → Buf (Elt F) ℓ) (ρ : Dev nD → PrngReg)

def args : List (Ref sig .tc) := [main_arg0, main_arg6, main_arg7, main_arg8, main_arg9, main_arg10, main_arg11, main_arg12, main_arg13]
def kept : List (Ref sig .tc) := main_v15 :: main_v17 :: main_v19 :: args

theorem layer0 (c : Dev nD) : ∀ r ∈ args, W12 m ρ c r = W0 m ρ c r :=
  block (W12_of_ne m ρ c) (by decide) (block (W8_of_ne m ρ c) (by decide) (block (W4_of_ne m ρ c) (by decide) fun _ _ => rfl))
theorem layer1 (c : Dev nD) : ∀ r ∈ kept, W24 m ρ c r = W12 m ρ c r :=
  block (W24_of_ne m ρ c) (by decide) (block (W20_of_ne m ρ c) (by decide) (block (W16_of_ne m ρ c) (by decide) fun _ _ => rfl))
theorem layer2 (c : Dev nD) : ∀ r ∈ kept, W36 m ρ c r = W24 m ρ c r :=
  block (W36_of_ne m ρ c) (by decide) (block (W32_of_ne m ρ c) (by decide) (block (W28_of_ne m ρ c) (by decide) fun _ _ => rfl))
theorem layer3 (c : Dev nD) : ∀ r ∈ kept, W48 m ρ c r = W36 m ρ c r :=
  block (W48_of_ne m ρ c) (by decide) (block (W44_of_ne m ρ c) (by decide) (block (W40_of_ne m ρ c) (by decide) fun _ _ => rfl))
theorem layer4 (c : Dev nD) : ∀ r ∈ kept, W60 m ρ c r = W48 m ρ c r :=
  block (W60_of_ne m ρ c) (by decide) (block (W56_of_ne m ρ c) (by decide) (block (W52_of_ne m ρ c) (by decide) fun _ _ => rfl))

theorem keep_0_main_arg0 (c : Dev nD) : W12 m ρ c main_arg0 = W0 m ρ c main_arg0 :=
  layer0 m ρ c _ (by decide)
theorem keep_0_main_arg6 (c : Dev nD) : W12 m ρ c main_arg6 = W0 m ρ c main_arg6 :=
  layer0 m ρ c _ (by decide)
theorem keep_0_main_arg7 (c : Dev nD) : W12 m ρ c main_arg7 = W0 m ρ c main_arg7 :=
  layer0 m ρ c _ (by decide)
theorem keep_0_main_arg8 (c : Dev nD) : W12 m ρ c main_arg8 = W0 m ρ c main_arg8 :=
  layer0 m ρ c _ (by decide)
theorem keep_0_main_arg9 (c : Dev nD) : W12 m ρ c main_arg9 = W0 m ρ c main_arg9 :=
  layer0 m ρ c _ (by decide)
theorem keep_0_main_arg10 (c : Dev nD) : W12 m ρ c main_arg10 = W0 m ρ c main_arg10 :=
  layer0 m ρ c _ (by decide)
theorem keep_0_main_arg11 (c : Dev nD) : W12 m ρ c main_arg11 = W0 m ρ c main_arg11 :=
  layer0 m ρ c _ (by decide)
theorem keep_0_main_arg12 (c : Dev nD) : W12 m ρ c main_arg12 = W0 m ρ c main_arg12 :=
  layer0 m ρ c _ (by decide)
theorem keep_0_main_arg13 (c : Dev nD) : W12 m ρ c main_arg13 = W0 m ρ c main_arg13 :=
  layer0 m ρ c _ (by decide)
theorem keep_1_main_arg0 (c : Dev nD) : W24 m ρ c main_arg0 = W12 m ρ c main_arg0 :=
  layer1 m ρ c _ (by decide)
theorem keep_1_main_arg6 (c : Dev nD) : W24 m ρ c main_arg6 = W12 m ρ c main_arg6 :=
  layer1 m ρ c _ (by decide)
theorem keep_1_main_arg7 (c : Dev nD) : W24 m ρ c main_arg7 = W12 m ρ c main_arg7 :=
  layer1 m ρ c _ (by decide)
theorem keep_1_main_arg8 (c : Dev nD) : W24 m ρ c main_arg8 = W12 m ρ c main_arg8 :=
  layer1 m ρ c _ (by decide)
theorem keep_1_main_arg9 (c : Dev nD) : W24 m ρ c main_arg9 = W12 m ρ c main_arg9 :=
  layer1 m ρ c _ (by decide)
theorem keep_1_main_arg10 (c : Dev nD) : W24 m ρ c main_arg10 = W12 m ρ c main_arg10 :=
  layer1 m ρ c _ (by decide)
theorem keep_1_main_arg11 (c : Dev nD) : W24 m ρ c main_arg11 = W12 m ρ c main_arg11 :=
  layer1 m ρ c _ (by decide)
theorem keep_1_main_arg12 (c : Dev nD) : W24 m ρ c main_arg12 = W12 m ρ c main_arg12 :=
  layer1 m ρ c _ (by decide)
theorem keep_1_main_arg13 (c : Dev nD) : W24 m ρ c main_arg13 = W12 m ρ c main_arg13 :=
  layer1 m ρ c _ (by decide)
theorem keep_1_main_v15 (c : Dev nD) : W24 m ρ c main_v15 = W12 m ρ c main_v15 :=
  layer1 m ρ c _ (by decide)
theorem keep_1_main_v17 (c : Dev nD) : W24 m ρ c main_v17 = W12 m ρ c main_v17 :=
  layer1 m ρ c _ (by decide)
theorem keep_1_main_v19 (c : Dev nD) : W24 m ρ c main_v19 = W12 m ρ c main_v19 :=
  layer1 m ρ c _ (by decide)
theorem keep_2_main_arg0 (c : Dev nD) : W36 m ρ c main_arg0 = W24 m ρ c main_arg0 :=
  layer2 m ρ c _ (by decide)
theorem keep_2_main_arg6 (c : Dev nD) : W36 m ρ c main_arg6 = W24 m ρ c main_arg6 :=
  layer2 m ρ c _ (by decide)
theorem keep_2_main_arg7 (c : Dev nD) : W36 m ρ c main_arg7 = W24 m ρ c main_arg7 :=
  layer2 m ρ c _ (by decide)
theorem keep_2_main_arg8 (c : Dev nD) : W36 m ρ c main_arg8 = W24 m ρ c main_arg8 :=
  layer2 m ρ c _ (by decide)
theorem keep_2_main_arg9 (c : Dev nD) : W36 m ρ c main_arg9 = W24 m ρ c main_arg9 :=
  layer2 m ρ c _ (by decide)
theorem keep_2_main_arg10 (c : Dev nD) : W36 m ρ c main_arg10 = W24 m ρ c main_arg10 :=
  layer2 m ρ c _ (by decide)
theorem keep_2_main_arg11 (c : Dev nD) : W36 m ρ c main_arg11 = W24 m ρ c main_arg11 :=
  layer2 m ρ c _ (by decide)
theorem keep_2_main_arg12 (c : Dev nD) : W36 m ρ c main_arg12 = W24 m ρ c main_arg12 :=
  layer2 m ρ c _ (by decide)
theorem keep_2_main_arg13 (c : Dev nD) : W36 m ρ c main_arg13 = W24 m ρ c main_arg13 :=
  layer2 m ρ c _ (by decide)
theorem keep_2_main_v15 (c : Dev nD) : W36 m ρ c main_v15 = W24 m ρ c main_v15 :=
  layer2 m ρ c _ (by decide)
theorem keep_2_main_v17 (c : Dev nD) : W36 m ρ c main_v17 = W24 m ρ c main_v17 :=
  layer2 m ρ c _ (by decide)
theorem keep_2_main_v19 (c : Dev nD) : W36 m ρ c main_v19 = W24 m ρ c main_v19 :=
  layer2 m ρ c _ (by decide)
theorem keep_3_main_arg0 (c : Dev nD) : W48 m ρ c main_arg0 = W36 m ρ c main_arg0 :=
  layer3 m ρ c _ (by decide)
theorem keep_3_main_arg6 (c : Dev nD) : W48 m ρ c main_arg6 = W36 m ρ c main_arg6 :=
  layer3 m ρ c _ (by decide)
theorem keep_3_main_arg7 (c : Dev nD) : W48 m ρ c main_arg7 = W36 m ρ c main_arg7 :=
  layer3 m ρ c _ (by decide)
theorem keep_3_main_arg8 (c : Dev nD) : W48 m ρ c main_arg8 = W36 m ρ c main_arg8 :=
  layer3 m ρ c _ (by decide)
theorem keep_3_main_arg9 (c : Dev nD) : W48 m ρ c main_arg9 = W36 m ρ c main_arg9 :=
  layer3 m ρ c _ (by decide)
theorem keep_3_main_arg10 (c : Dev nD) : W48 m ρ c main_arg10 = W36 m ρ c main_arg10 :=
  layer3 m ρ c _ (by decide)
theorem keep_3_main_arg11 (c : Dev nD) : W48 m ρ c main_arg11 = W36 m ρ c main_arg11 :=
  layer3 m ρ c _ (by decide)
theorem keep_3_main_arg12 (c : Dev nD) : W48 m ρ c main_arg12 = W36 m ρ c main_arg12 :=
  layer3 m ρ c _ (by decide)
theorem keep_3_main_arg13 (c : Dev nD) : W48 m ρ c main_arg13 = W36 m ρ c main_arg13 :=
  layer3 m ρ c _ (by decide)
theorem keep_3_main_v15 (c : Dev nD) : W48 m ρ c main_v15 = W36 m ρ c main_v15 :=
  layer3 m ρ c _ (by decide)
theorem keep_3_main_v17 (c : Dev nD) : W48 m ρ c main_v17 = W36 m ρ c main_v17 :=
  layer3 m ρ c _ (by decide)
theorem keep_3_main_v19 (c : Dev nD) : W48 m ρ c main_v19 = W36 m ρ c main_v19 :=
  layer3 m ρ c _ (by decide)
theorem keep_4_main_arg0 (c : Dev nD) : W60 m ρ c main_arg0 = W48 m ρ c main_arg0 :=
  layer4 m ρ c _ (by decide)

theorem launch_main_arg0 (c : Dev nD) : W0 m ρ c main_arg0 = m ((c : Thread nD τ).loc main_arg0) := rfl
theorem launch_main_arg1 (c : Dev nD) : W0 m ρ c main_arg1 = m ((c : Thread nD τ).loc main_arg1) := rfl
theorem launch_main_arg2 (c : Dev nD) : W0 m ρ c main_arg2 = m ((c : Thread nD τ).loc main_arg2) := rfl
theorem launch_main_arg3 (c : Dev nD) : W0 m ρ c main_arg3 = m ((c : Thread nD τ).loc main_arg3) := rfl
theorem launch_main_arg4 (c : Dev nD) : W0 m ρ c main_arg4 = m ((c : Thread nD τ).loc main_arg4) := rfl
theorem launch_main_arg5 (c : Dev nD) : W0 m ρ c main_arg5 = m ((c : Thread nD τ).loc main_arg5) := rfl
theorem launch_main_arg6 (c : Dev nD) : W0 m ρ c main_arg6 = m ((c : Thread nD τ).loc main_arg6) := rfl
theorem launch_main_arg7 (c : Dev nD) : W0 m ρ c main_arg7 = m ((c : Thread nD τ).loc main_arg7) := rfl
theorem launch_main_arg8 (c : Dev nD) : W0 m ρ c main_arg8 = m ((c : Thread nD τ).loc main_arg8) := rfl
theorem launch_main_arg9 (c : Dev nD) : W0 m ρ c main_arg9 = m ((c : Thread nD τ).loc main_arg9) := rfl
theorem launch_main_arg10 (c : Dev nD) : W0 m ρ c main_arg10 = m ((c : Thread nD τ).loc main_arg10) := rfl
theorem launch_main_arg11 (c : Dev nD) : W0 m ρ c main_arg11 = m ((c : Thread nD τ).loc main_arg11) := rfl
theorem launch_main_arg12 (c : Dev nD) : W0 m ρ c main_arg12 = m ((c : Thread nD τ).loc main_arg12) := rfl
theorem launch_main_arg13 (c : Dev nD) : W0 m ρ c main_arg13 = m ((c : Thread nD τ).loc main_arg13) := rfl

/-- The last layer's output is no result of the last stretch, and is the array of an input window of the last region. -/
theorem tail_W62_main_v254 (c : Dev nD) : W62 m ρ c main_v254 = W60 m ρ c main_v254 :=
  (W62_arr m ρ c 1).trans (((dat15 (V61 m ρ) c).arrAt_in 1 rfl cfg15.N).trans ((A_eq15 (V61 m ρ) c 1).trans
    (Keeps.keep (ops := hostOps15) _ main_v254 (by decide))))

end Cert.Gnn.KeepK

end
-- ==== Proof.Layer0a.lean ====
import proofs.«419503_j34746285425415_3_alg».proof.Proof.Gen.KernelIdeal.Launch
import proofs.«419503_j34746285425415_3_alg».proof.Proof.RefOps
import Idealize.ShloMosaic.Lib.StableHlo.Run
import Idealize.ShloMosaic.PureOps.Ideal

noncomputable section

namespace Cert.Gnn.Layer0

open Idealize.ShloMosaic Idealize.SL.Sem

section General
variable {τ : Topo} {sig : RefSig} {Val : EltTy → Type}

theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

-- `W` lists, in order, the one reference each operation of `ops` writes.
abbrev Wr (ops : List (HloOp τ sig Val)) (W : List (Ref sig .tc)) : Prop :=
  List.Forall₂ (fun op y => op.writes = {Proc.devRef .tc y}) ops W

-- A reference outside `W` is written by no operation, so it keeps its contents.
theorem Wr.keep [DecidableEq (Ref sig .tc)] {ops : List (HloOp τ sig Val)} {W : List (Ref sig .tc)} (h : Wr ops W)
    (V : Valuation τ sig Val) (r : Ref sig .tc) (hr : decide (r ∈ W) = false) :
    StableHlo.after ops V (Proc.devRef .tc r) = V (Proc.devRef .tc r) := by
  replace hr := of_decide_eq_false hr
  induction h generalizing V with
  | nil => rfl
  | cons hy _ ih =>
    rw [StableHlo.after_cons, ih _ fun m => hr (List.mem_cons_of_mem _ m), HloOp.result_of_not_mem]
    rw [hy, Finset.mem_singleton]
    exact fun e => hr (Proc.devRef_injective _ e ▸ List.mem_cons_self)

theorem Wr.keep3 [DecidableEq (Ref sig .tc)] {l₁ l₂ l₃ : List (HloOp τ sig Val)} {W : List (Ref sig .tc)}
    (h : Wr (l₁ ++ (l₂ ++ l₃)) W) (V : Valuation τ sig Val) (r : Ref sig .tc) (hr : decide (r ∈ W) = false) :
    StableHlo.after l₃ (StableHlo.after l₂ (StableHlo.after l₁ V)) (Proc.devRef .tc r) = V (Proc.devRef .tc r) := by
  rw [← after_append, ← after_append]
  exact h.keep V r hr

end General

section Ref
open Cert.ReferenceIdeal
variable [Cert.ReferenceIdeal.Facts]

-- Operations `a, …, a + n - 1` of the reference's first layer.
abbrev run (a n : Nat) : List (HloOp τ sig (Elt Ideal)) := (Hand.lay0.drop a).take n

-- The layer is its first linear map, then the second with its statistics, then the last normalisation.
theorem after_lay0 (Q : Valuation τ sig (Elt Ideal)) :
    StableHlo.after Hand.lay0 Q = StableHlo.after (run 85 51) (StableHlo.after (run 26 59) (StableHlo.after (run 0 26) Q)) := by
  rw [← after_append, ← after_append]
  rfl

noncomputable def preW : {W : List (Ref sig .tc) // Wr (Hand.pre : List (HloOp τ sig (Elt Ideal))) W} :=
  ⟨_, by repeat' first | exact List.Forall₂.nil | rfl | apply List.Forall₂.cons⟩

noncomputable def lay0W : {W : List (Ref sig .tc) // Wr (Hand.lay0 : List (HloOp τ sig (Elt Ideal))) W} :=
  ⟨_, by repeat' first | exact List.Forall₂.nil | rfl | apply List.Forall₂.cons⟩

theorem run_keep (a n : Nat) (Q : Valuation τ sig (Elt Ideal)) (r : Ref sig .tc) (h : decide (r ∈ (lay0W.1.drop a).take n) = false) :
    StableHlo.after (run a n) Q (Proc.devRef .tc r) = Q (Proc.devRef .tc r) :=
  Wr.keep (List.forall₂_take n (List.forall₂_drop a lay0W.2)) Q r h

end Ref

section Ker
open Cert.KernelIdeal Cert.KernelIdeal.Gen

noncomputable def k0W : {W : List (Ref sig .tc) // Wr (hostOps0 ++ (hostOps0_1 ++ hostOps0_2) : List (HloOp τ sig (Elt Ideal))) W} :=
  ⟨_, by repeat' first | exact List.Forall₂.nil | rfl | apply List.Forall₂.cons⟩

noncomputable def k1W : {W : List (Ref sig .tc) // Wr (hostOps1 ++ (hostOps1_1 ++ hostOps1_2) : List (HloOp τ sig (Elt Ideal))) W} :=
  ⟨_, by repeat' first | exact List.Forall₂.nil | rfl | apply List.Forall₂.cons⟩

noncomputable def k2W : {W : List (Ref sig .tc) // Wr (hostOps2 ++ (hostOps2_1 ++ hostOps2_2) : List (HloOp τ sig (Elt Ideal))) W} :=
  ⟨_, by repeat' first | exact List.Forall₂.nil | rfl | apply List.Forall₂.cons⟩

end Ker

end Cert.Gnn.Layer0

end
-- ==== Proof.Spec.lean ====
import Idealize.ShloMosaic.PureOps.Ideal
import Idealize.ShloMosaic.Lib.ValueIdx

noncomputable section

namespace Cert.Gnn

open Idealize.ShloMosaic

def eps : EReal := Ideal.ofBits .f32 0x3727C5AC#32

def zero : EReal := Ideal.ofBits .f32 0x00000000#32

abbrev at2 {α : Type} {n0 n1 : Nat} (f : (⟨2, ![n0, n1]⟩ : Shape).Idx → α) (p : Fin n0) (q : Fin n1) : α := f (ValueIdx.ix2 p q)

abbrev at1 {α : Type} {n : Nat} (f : (⟨1, ![n]⟩ : Shape).Idx → α) (p : Fin n) : α := f (ValueIdx.ix1 p)

-- the three maps of a layer at one entry: a row against a weight column plus bias; an entry normalised by its column's mean and variance; the same rectified
def lin1 (h a : Fin 100000 → Fin 64 → EReal) (w : Fin 64 → Fin 128 → EReal) (b : Fin 128 → EReal)
    (r : Fin 100000) (q : Fin 128) : EReal :=
  (∑ k : Fin 64, (h r k + a r k) * w k q) + b q

def norm (g x m v be : EReal) : EReal := g * (x - m) * Ideal.rsqrt (v + eps) + be

def act (x : EReal) : EReal := max x zero

def lin2 (u : Fin 100000 → Fin 128 → EReal) (m v g be : Fin 128 → EReal) (w : Fin 128 → Fin 64 → EReal) (b : Fin 64 → EReal)
    (r : Fin 100000) (q : Fin 64) : EReal :=
  (∑ k : Fin 128, act (norm (g k) (u r k) (m k) (v k) (be k)) * w k q) + b q

def fin3 (relu : Bool) (x : Fin 100000 → Fin 64 → EReal) (m v g be : Fin 64 → EReal) (r : Fin 100000) (q : Fin 64) : EReal :=
  if relu then act (norm (g q) (x r q) (m q) (v q) (be q)) else norm (g q) (x r q) (m q) (v q) (be q)

end Cert.Gnn

end
-- ==== Proof.RefTerms.lean ====
import proofs.«419503_j34746285425415_3_alg».proof.ReferenceIdeal
import proofs.«419503_j34746285425415_3_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.KernelVsHost
import Idealize.ShloMosaic.Lib.StackMember

noncomputable section

namespace Cert.Gnn.R

open Idealize.ShloMosaic Cert.ReferenceIdeal
open Cert.ReferenceIdeal.Facts₀ Cert.ReferenceIdeal.Facts

section Terms
variable {F : FTy → Type} [FloatOps F] [Cert.ReferenceIdeal.Facts]

-- the reference's layer as whole-array terms, and each term read at an index as the entrywise formula
def lin1 (z : FVec F S100000x64 .f32) (w : FVec F S64x128 .f32) (b : FVec F S128 .f32) : FVec F S100000x128 .f32 :=
  addf (Host.dotGeneral dot_S100000x64_S64x128_S100000x128_1_0_0_1_n_n none z w)
    (broadcastInDim S100000x128 ![0, 1] bcast_S1x128_S100000x128_0_1 (broadcastInDim S1x128 ![1] bcast_S128_S1x128_1 b))

def mean128 (u : FVec F S100000x128 .f32) : FVec F S128 .f32 :=
  Host.divf (Host.reduceAdd u (constant S_ .f32 0x00000000#32) reducesTo_S100000x128_S128_d0 h_S_)
    (broadcastInDim S128 ![] bcast_S_S128 (constant S_ .f32 0x47C35000#32))

def var128 (u : FVec F S100000x128 .f32) : FVec F S128 .f32 :=
  let dev : FVec F S100000x128 .f32 :=
    subf u (broadcastInDim S100000x128 ![0, 1] bcast_S1x128_S100000x128_0_1
      (Host.divf (broadcastInDim S1x128 ![1] bcast_S128_S1x128_1
          (Host.reduceAdd u (constant S_ .f32 0x00000000#32) reducesTo_S100000x128_S128_d0 h_S_))
        (broadcastInDim S1x128 ![] bcast_S_S1x128 (constant S_ .f32 0x47C35000#32))))
  let cnt : FVec F S_ .f32 := subf (constant S_ .f32 0x47C35000#32) (sitofp .f32 (constantI S_ 32 0#32))
  select (broadcastInDim S128 ![] bcast_S_S128 (cmpf .ogt cnt (constant S_ .f32 0x00000000#32)))
    (Host.divf (Host.reduceAdd (mulf dev dev) (constant S_ .f32 0x00000000#32) reducesTo_S100000x128_S128_d0 h_S_)
      (broadcastInDim S128 ![] bcast_S_S128 cnt))
    (broadcastInDim S128 ![] bcast_S_S128 (id (constant S_ .f32 0x7FC00000#32)))

def bn128 (u : FVec F S100000x128 .f32) (mu va g be : FVec F S128 .f32) : FVec F S100000x128 .f32 :=
  addf
    (mulf
      (mulf (broadcastInDim S100000x128 ![0, 1] bcast_S1x128_S100000x128_0_1 (broadcastInDim S1x128 ![1] bcast_S128_S1x128_1 g))
        (subf u (broadcastInDim S100000x128 ![0, 1] bcast_S1x128_S100000x128_0_1 (broadcastInDim S1x128 ![1] bcast_S128_S1x128_1 mu))))
      (broadcastInDim S100000x128 ![0, 1] bcast_S1x128_S100000x128_0_1 (broadcastInDim S1x128 ![1] bcast_S128_S1x128_1
        (Host.rsqrt (addf va (broadcastInDim S128 ![] bcast_S_S128 (constant S_ .f32 0x3727C5AC#32)))))))
    (broadcastInDim S100000x128 ![0, 1] bcast_S1x128_S100000x128_0_1 (broadcastInDim S1x128 ![1] bcast_S128_S1x128_1 be))

def relu128 (x : FVec F S100000x128 .f32) : FVec F S100000x128 .f32 :=
  maximumf x (broadcastInDim S100000x128 ![] bcast_S_S100000x128 (constant S_ .f32 0x00000000#32))

def lin2 (x : FVec F S100000x128 .f32) (w : FVec F S128x64 .f32) (b : FVec F S64 .f32) : FVec F S100000x64 .f32 :=
  addf (Host.dotGeneral dot_S100000x128_S128x64_S100000x64_1_0_0_1_n_n none x w)
    (broadcastInDim S100000x64 ![0, 1] bcast_S1x64_S100000x64_0_1 (broadcastInDim S1x64 ![1] bcast_S64_S1x64_1 b))

def mean64 (x : FVec F S100000x64 .f32) : FVec F S64 .f32 :=
  Host.divf (Host.reduceAdd x (constant S_ .f32 0x00000000#32) reducesTo_S100000x64_S64_d0 h_S_)
    (broadcastInDim S64 ![] bcast_S_S64 (constant S_ .f32 0x47C35000#32))

def var64 (x : FVec F S100000x64 .f32) : FVec F S64 .f32 :=
  let dev : FVec F S100000x64 .f32 :=
    subf x (broadcastInDim S100000x64 ![0, 1] bcast_S1x64_S100000x64_0_1
      (Host.divf (broadcastInDim S1x64 ![1] bcast_S64_S1x64_1
          (Host.reduceAdd x (constant S_ .f32 0x00000000#32) reducesTo_S100000x64_S64_d0 h_S_))
        (broadcastInDim S1x64 ![] bcast_S_S1x64 (constant S_ .f32 0x47C35000#32))))
  let cnt : FVec F S_ .f32 := subf (constant S_ .f32 0x47C35000#32) (sitofp .f32 (constantI S_ 32 0#32))
  select (broadcastInDim S64 ![] bcast_S_S64 (cmpf .ogt cnt (constant S_ .f32 0x00000000#32)))
    (Host.divf (Host.reduceAdd (mulf dev dev) (constant S_ .f32 0x00000000#32) reducesTo_S100000x64_S64_d0 h_S_)
      (broadcastInDim S64 ![] bcast_S_S64 cnt))
    (broadcastInDim S64 ![] bcast_S_S64 (id (constant S_ .f32 0x7FC00000#32)))

def bn64 (x : FVec F S100000x64 .f32) (mu va g be : FVec F S64 .f32) : FVec F S100000x64 .f32 :=
  addf
    (mulf
      (mulf (broadcastInDim S100000x64 ![0, 1] bcast_S1x64_S100000x64_0_1 (broadcastInDim S1x64 ![1] bcast_S64_S1x64_1 g))
        (subf x (broadcastInDim S100000x64 ![0, 1] bcast_S1x64_S100000x64_0_1 (broadcastInDim S1x64 ![1] bcast_S64_S1x64_1 mu))))
      (broadcastInDim S100000x64 ![0, 1] bcast_S1x64_S100000x64_0_1 (broadcastInDim S1x64 ![1] bcast_S64_S1x64_1
        (Host.rsqrt (addf va (broadcastInDim S64 ![] bcast_S_S64 (constant S_ .f32 0x3727C5AC#32)))))))
    (broadcastInDim S100000x64 ![0, 1] bcast_S1x64_S100000x64_0_1 (broadcastInDim S1x64 ![1] bcast_S64_S1x64_1 be))

def relu64 (x : FVec F S100000x64 .f32) : FVec F S100000x64 .f32 :=
  maximumf x (broadcastInDim S100000x64 ![] bcast_S_S100000x64 (constant S_ .f32 0x00000000#32))

end Terms

section Reads
open ValueIdx

theorem row_apply {α : Type} {n : Nat} (h : (⟨1, ![n]⟩ : Shape).BroadcastsInDim ⟨2, ![1, n]⟩ ![1])
    (x : (⟨1, ![n]⟩ : Shape).Idx → α) (p : Fin 1) (q : Fin n) :
    broadcastInDim ⟨2, ![1, n]⟩ ![1] h x (ix2 p q) = x (ix1 q) := by
  refine broadcastInDim_apply ![1] h x (ix2 p q) (ix1 q) ?_
  intro a
  match a with
  | ⟨0, _⟩ =>
    show q.val = if n = 1 then 0 else q.val
    split
    · have := q.isLt; omega
    · rfl

theorem rows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1])
    (x : (⟨1, ![n]⟩ : Shape).Idx → α) (r : Fin m) (q : Fin n) :
    broadcastInDim ⟨2, ![m, n]⟩ ![0, 1] h2 (broadcastInDim ⟨2, ![1, n]⟩ ![1] h1 x) (ix2 r q) = x (ix1 q) :=
  (broadcastInDim_oneRow_apply h2 _ r q).trans (row_apply h1 x 0 q)

variable [Cert.ReferenceIdeal.Facts]

theorem rows128_apply {α : Type} (x : S128.Idx → α) (r : Fin 100000) (q : Fin 128) :
    broadcastInDim S100000x128 ![0, 1] bcast_S1x128_S100000x128_0_1 (broadcastInDim S1x128 ![1] bcast_S128_S1x128_1 x) (ix2 r q)
      = x (ix1 q) := rows_apply _ _ x r q

theorem rows64_apply {α : Type} (x : S64.Idx → α) (r : Fin 100000) (q : Fin 64) :
    broadcastInDim S100000x64 ![0, 1] bcast_S1x64_S100000x64_0_1 (broadcastInDim S1x64 ![1] bcast_S64_S1x64_1 x) (ix2 r q)
      = x (ix1 q) := rows_apply _ _ x r q

theorem dot1_apply (z : FVec Ideal S100000x64 .f32) (w : FVec Ideal S64x128 .f32) (r : Fin 100000) (q : Fin 128) :
    Host.dotGeneral dot_S100000x64_S64x128_S100000x128_1_0_0_1_n_n none z w (ix2 r q) = ∑ k : Fin 64, z (ix2 r k) * w (ix2 k q) :=
  StackMember.dotGeneral_plain_apply none z w r q

theorem dot2_apply (x : FVec Ideal S100000x128 .f32) (w : FVec Ideal S128x64 .f32) (r : Fin 100000) (q : Fin 64) :
    Host.dotGeneral dot_S100000x128_S128x64_S100000x64_1_0_0_1_n_n none x w (ix2 r q) = ∑ k : Fin 128, x (ix2 r k) * w (ix2 k q) :=
  StackMember.dotGeneral_plain_apply none x w r q

theorem lin1_apply (h a : FVec Ideal S100000x64 .f32) (w : FVec Ideal S64x128 .f32) (b : FVec Ideal S128 .f32) (r : Fin 100000) (q : Fin 128) :
    lin1 (F := Ideal) (addf h a) w b (ValueIdx.ix2 r q)
      = Cert.Gnn.lin1 (Cert.Gnn.at2 h) (Cert.Gnn.at2 a) (Cert.Gnn.at2 w) (Cert.Gnn.at1 b) r q := by
  unfold lin1 Cert.Gnn.lin1
  rw [addf_apply, rows128_apply, dot1_apply]
  rfl

theorem bn128_apply (u : FVec Ideal S100000x128 .f32) (mu va g be : FVec Ideal S128 .f32) (r : Fin 100000) (k : Fin 128) :
    bn128 (F := Ideal) u mu va g be (ix2 r k)
      = Cert.Gnn.norm (g (ix1 k)) (u (ix2 r k)) (mu (ix1 k)) (va (ix1 k)) (be (ix1 k)) := by
  unfold bn128
  rw [addf_apply, mulf_apply, mulf_apply, subf_apply, rows128_apply, rows128_apply, rows128_apply, rows128_apply]
  rfl

theorem relu128_apply (x : FVec Ideal S100000x128 .f32) (i : S100000x128.Idx) :
    relu128 (F := Ideal) x i = Cert.Gnn.act (x i) := rfl

theorem stage2_apply (u : FVec Ideal S100000x128 .f32) (g be : FVec Ideal S128 .f32) (w : FVec Ideal S128x64 .f32) (b : FVec Ideal S64 .f32) (r : Fin 100000) (q : Fin 64) :
    lin2 (F := Ideal) (relu128 (bn128 u (mean128 u) (var128 u) g be)) w b (ValueIdx.ix2 r q)
      = Cert.Gnn.lin2 (Cert.Gnn.at2 u) (Cert.Gnn.at1 (mean128 u)) (Cert.Gnn.at1 (var128 u)) (Cert.Gnn.at1 g) (Cert.Gnn.at1 be) (Cert.Gnn.at2 w) (Cert.Gnn.at1 b) r q := by
  unfold lin2 Cert.Gnn.lin2
  rw [addf_apply, rows64_apply, dot2_apply]
  refine congrArg₂ (· + ·) (Finset.sum_congr rfl fun k _ => congrArg₂ (· * ·) ?_ rfl) rfl
  exact (relu128_apply _ _).trans (congrArg Cert.Gnn.act (bn128_apply u (mean128 u) (var128 u) g be r k))

theorem bn64_apply (x : FVec Ideal S100000x64 .f32) (mu va g be : FVec Ideal S64 .f32) (r : Fin 100000) (q : Fin 64) :
    bn64 (F := Ideal) x mu va g be (ix2 r q)
      = Cert.Gnn.norm (g (ix1 q)) (x (ix2 r q)) (mu (ix1 q)) (va (ix1 q)) (be (ix1 q)) := by
  unfold bn64
  rw [addf_apply, mulf_apply, mulf_apply, subf_apply, rows64_apply, rows64_apply, rows64_apply, rows64_apply]
  rfl

theorem relu64_apply (x : FVec Ideal S100000x64 .f32) (i : S100000x64.Idx) :
    relu64 (F := Ideal) x i = Cert.Gnn.act (x i) := rfl

theorem stage3_relu_apply (x : FVec Ideal S100000x64 .f32) (g be : FVec Ideal S64 .f32) (r : Fin 100000) (q : Fin 64) :
    relu64 (F := Ideal) (bn64 x (mean64 x) (var64 x) g be) (ValueIdx.ix2 r q)
      = Cert.Gnn.fin3 true (Cert.Gnn.at2 x) (Cert.Gnn.at1 (mean64 x)) (Cert.Gnn.at1 (var64 x)) (Cert.Gnn.at1 g) (Cert.Gnn.at1 be) r q := by
  unfold Cert.Gnn.fin3
  rw [if_pos rfl]
  exact (relu64_apply _ _).trans (congrArg Cert.Gnn.act (bn64_apply x (mean64 x) (var64 x) g be r q))

theorem stage3_apply (x : FVec Ideal S100000x64 .f32) (g be : FVec Ideal S64 .f32) (r : Fin 100000) (q : Fin 64) :
    bn64 (F := Ideal) x (mean64 x) (var64 x) g be (ValueIdx.ix2 r q)
      = Cert.Gnn.fin3 false (Cert.Gnn.at2 x) (Cert.Gnn.at1 (mean64 x)) (Cert.Gnn.at1 (var64 x)) (Cert.Gnn.at1 g) (Cert.Gnn.at1 be) r q := by
  unfold Cert.Gnn.fin3
  rw [if_neg (by decide)]
  exact bn64_apply x (mean64 x) (var64 x) g be r q

end Reads

end Cert.Gnn.R

end
-- ==== Proof.KStats.lean ====
import proofs.«419503_j34746285425415_3_alg».proof.KernelIdeal
import proofs.«419503_j34746285425415_3_alg».proof.ReferenceIdeal
import proofs.«419503_j34746285425415_3_alg».proof.Proof.RefTerms
import Idealize.ShloMosaic.PureOps.Ideal.Laws
import Idealize.ShloMosaic.Lib.ValueIdx
import Idealize.ShloMosaic.Lib.Pipeline.Value
import Idealize.ShloMosaic.Lib.ValueLayout

noncomputable section

namespace Cert.Gnn.K

open Idealize.ShloMosaic Cert.KernelIdeal
open Cert.KernelIdeal.Facts₀ Cert.KernelIdeal.Facts

section Terms
variable {F : FTy → Type} [FloatOps F] [Cert.KernelIdeal.Facts]

-- the column statistics as the kernel program computes them (kept as one row) agree entry by entry with the reference's vectors
def kmean128 (u : FVec F S100000x128 .f32) : FVec F S1x128 .f32 :=
  Host.divf (broadcastInDim S1x128 ![1] bcast_S128_S1x128_1
      (Host.reduceAdd u (constant S_ .f32 0x00000000#32) reducesTo_S100000x128_S128_d0 h_S_))
    (broadcastInDim S1x128 ![] bcast_S_S1x128 (constant S_ .f32 0x47C35000#32))

def kvar128 (u : FVec F S100000x128 .f32) : FVec F S1x128 .f32 :=
  let dev : FVec F S100000x128 .f32 :=
    subf u (broadcastInDim S100000x128 ![0, 1] bcast_S1x128_S100000x128_0_1
      (Host.divf (broadcastInDim S1x128 ![1] bcast_S128_S1x128_1
          (Host.reduceAdd u (constant S_ .f32 0x00000000#32) reducesTo_S100000x128_S128_d0 h_S_))
        (broadcastInDim S1x128 ![] bcast_S_S1x128 (constant S_ .f32 0x47C35000#32))))
  let cnt : FVec F S_ .f32 := subf (constant S_ .f32 0x47C35000#32) (sitofp .f32 (constantI S_ 32 0#32))
  select (broadcastInDim S1x128 ![] bcast_S_S1x128 (cmpf .ogt cnt (constant S_ .f32 0x00000000#32)))
    (Host.divf (broadcastInDim S1x128 ![1] bcast_S128_S1x128_1
        (Host.reduceAdd (mulf dev dev) (constant S_ .f32 0x00000000#32) reducesTo_S100000x128_S128_d0 h_S_))
      (broadcastInDim S1x128 ![] bcast_S_S1x128 cnt))
    (broadcastInDim S1x128 ![] bcast_S_S1x128 (id (constant S_ .f32 0x7FC00000#32)))

def kmean64 (x : FVec F S100000x64 .f32) : FVec F S1x64 .f32 :=
  Host.divf (broadcastInDim S1x64 ![1] bcast_S64_S1x64_1
      (Host.reduceAdd x (constant S_ .f32 0x00000000#32) reducesTo_S100000x64_S64_d0 h_S_))
    (broadcastInDim S1x64 ![] bcast_S_S1x64 (constant S_ .f32 0x47C35000#32))

def kvar64 (x : FVec F S100000x64 .f32) : FVec F S1x64 .f32 :=
  let dev : FVec F S100000x64 .f32 :=
    subf x (broadcastInDim S100000x64 ![0, 1] bcast_S1x64_S100000x64_0_1
      (Host.divf (broadcastInDim S1x64 ![1] bcast_S64_S1x64_1
          (Host.reduceAdd x (constant S_ .f32 0x00000000#32) reducesTo_S100000x64_S64_d0 h_S_))
        (broadcastInDim S1x64 ![] bcast_S_S1x64 (constant S_ .f32 0x47C35000#32))))
  let cnt : FVec F S_ .f32 := subf (constant S_ .f32 0x47C35000#32) (sitofp .f32 (constantI S_ 32 0#32))
  select (broadcastInDim S1x64 ![] bcast_S_S1x64 (cmpf .ogt cnt (constant S_ .f32 0x00000000#32)))
    (Host.divf (broadcastInDim S1x64 ![1] bcast_S64_S1x64_1
        (Host.reduceAdd (mulf dev dev) (constant S_ .f32 0x00000000#32) reducesTo_S100000x64_S64_d0 h_S_))
      (broadcastInDim S1x64 ![] bcast_S_S1x64 cnt))
    (broadcastInDim S1x64 ![] bcast_S_S1x64 (id (constant S_ .f32 0x7FC00000#32)))

end Terms

section Reads
open ValueIdx
variable [Cert.KernelIdeal.Facts] [Cert.ReferenceIdeal.Facts]

theorem hostDivf_apply {F : FTy → Type} [FloatOps F] {s : Shape} {φ : FTy} (a b : FVec F s φ) (i : s.Idx) :
    Host.divf a b i = FloatOps.hostDivf (a i) (b i) := rfl

theorem kmean128_apply (u : FVec Ideal Cert.KernelIdeal.S100000x128 .f32) (j : Fin 128) :
    kmean128 (F := Ideal) u (ValueIdx.ix2 (0 : Fin 1) j) = Cert.Gnn.R.mean128 (F := Ideal) u (ValueIdx.ix1 j) := by
  unfold kmean128
  rw [hostDivf_apply, Cert.Gnn.R.row_apply]
  rfl

theorem kvar128_apply (u : FVec Ideal Cert.KernelIdeal.S100000x128 .f32) (j : Fin 128) :
    kvar128 (F := Ideal) u (ValueIdx.ix2 (0 : Fin 1) j) = Cert.Gnn.R.var128 (F := Ideal) u (ValueIdx.ix1 j) := by
  simp only [kvar128]
  rw [select_apply, hostDivf_apply, Cert.Gnn.R.row_apply]
  rfl

theorem kmean64_apply (x : FVec Ideal Cert.KernelIdeal.S100000x64 .f32) (j : Fin 64) :
    kmean64 (F := Ideal) x (ValueIdx.ix2 (0 : Fin 1) j) = Cert.Gnn.R.mean64 (F := Ideal) x (ValueIdx.ix1 j) := by
  unfold kmean64
  rw [hostDivf_apply, Cert.Gnn.R.row_apply]
  rfl

theorem kvar64_apply (x : FVec Ideal Cert.KernelIdeal.S100000x64 .f32) (j : Fin 64) :
    kvar64 (F := Ideal) x (ValueIdx.ix2 (0 : Fin 1) j) = Cert.Gnn.R.var64 (F := Ideal) x (ValueIdx.ix1 j) := by
  simp only [kvar64]
  rw [select_apply, hostDivf_apply, Cert.Gnn.R.row_apply]
  rfl

end Reads

end Cert.Gnn.K

end
-- ==== Proof.Layer0b.lean ====
import proofs.«419503_j34746285425415_3_alg».proof.Proof.Layer0a
import proofs.«419503_j34746285425415_3_alg».proof.Proof.KStats

noncomputable section

namespace Cert.Gnn.Layer0

open Idealize.ShloMosaic Idealize.SL.Sem

section RefReads
open Cert.ReferenceIdeal
variable [Cert.ReferenceIdeal.Facts] (Q : Valuation τ sig (Elt Ideal))

-- The first linear map, of h plus the summed messages, with the run's own weight and bias slices.
theorem ref1 :
    (StableHlo.after (run 0 26) Q (Proc.devRef .tc main_v40) : FVec Ideal S100000x128 .f32)
      = Cert.Gnn.R.lin1 (F := Ideal) (addf (Q (Proc.devRef .tc main_v7) : FVec Ideal S100000x64 .f32) (StableHlo.after (run 0 26) Q (Proc.devRef .tc main_v31) : FVec Ideal S100000x64 .f32))
          (StableHlo.after (run 0 26) Q (Proc.devRef .tc main_v34) : FVec Ideal S64x128 .f32) (StableHlo.after (run 0 26) Q (Proc.devRef .tc main_v37) : FVec Ideal S128 .f32) := by
  simp only [run, Hand.lay0, List.drop_succ_cons, List.drop_zero, List.take_succ_cons, List.take_zero]
  after_results_simp <;> (try simp only [StableHlo.TRef.ofBuf, StableHlo.TRef.toBuf, cast_eq]) <;> exact rfl

-- The second linear map of the first one normalised by its own column statistics and rectified.
theorem ref2 :
    (StableHlo.after (run 26 59) Q (Proc.devRef .tc main_v72) : FVec Ideal S100000x64 .f32)
      = Cert.Gnn.R.lin2 (F := Ideal) (Cert.Gnn.R.relu128 (F := Ideal) (Cert.Gnn.R.bn128 (F := Ideal) (Q (Proc.devRef .tc main_v40) : FVec Ideal S100000x128 .f32)
            (Cert.Gnn.R.mean128 (F := Ideal) (Q (Proc.devRef .tc main_v40) : FVec Ideal S100000x128 .f32)) (Cert.Gnn.R.var128 (F := Ideal) (Q (Proc.devRef .tc main_v40) : FVec Ideal S100000x128 .f32))
            (StableHlo.after (run 26 59) Q (Proc.devRef .tc main_v42) : FVec Ideal S128 .f32) (StableHlo.after (run 26 59) Q (Proc.devRef .tc main_v44) : FVec Ideal S128 .f32)))
          (StableHlo.after (run 26 59) Q (Proc.devRef .tc main_v66) : FVec Ideal S128x64 .f32) (StableHlo.after (run 26 59) Q (Proc.devRef .tc main_v69) : FVec Ideal S64 .f32) := by
  simp only [run, Hand.lay0, List.drop_succ_cons, List.drop_zero, List.take_succ_cons, List.take_zero]
  after_results_simp <;> (try simp only [StableHlo.TRef.ofBuf, StableHlo.TRef.toBuf, cast_eq]) <;> exact rfl

-- The layer's output: the second linear map normalised by its own column statistics and rectified.
theorem ref3 :
    (StableHlo.after (run 85 51) Q (Proc.devRef .tc main_v96) : FVec Ideal S100000x64 .f32)
      = Cert.Gnn.R.relu64 (F := Ideal) (Cert.Gnn.R.bn64 (F := Ideal) (Q (Proc.devRef .tc main_v72) : FVec Ideal S100000x64 .f32)
          (Cert.Gnn.R.mean64 (F := Ideal) (Q (Proc.devRef .tc main_v72) : FVec Ideal S100000x64 .f32)) (Cert.Gnn.R.var64 (F := Ideal) (Q (Proc.devRef .tc main_v72) : FVec Ideal S100000x64 .f32))
          (StableHlo.after (run 85 51) Q (Proc.devRef .tc main_v74) : FVec Ideal S64 .f32) (StableHlo.after (run 85 51) Q (Proc.devRef .tc main_v76) : FVec Ideal S64 .f32)) := by
  simp only [run, Hand.lay0, List.drop_succ_cons, List.drop_zero, List.take_succ_cons, List.take_zero]
  after_results_simp <;> (try simp only [StableHlo.TRef.ofBuf, StableHlo.TRef.toBuf, cast_eq]) <;> exact rfl

end RefReads

section Algebra
open ValueIdx

theorem alg1 (h h' a a' : (⟨2, ![100000, 64]⟩ : Shape).Idx → EReal) (w w' : (⟨2, ![64, 128]⟩ : Shape).Idx → EReal) (b : (⟨2, ![1, 128]⟩ : Shape).Idx → EReal) (b' : (⟨1, ![128]⟩ : Shape).Idx → EReal)
    (eh : h = h') (ea : a = a') (ew : w = w') (eb : ∀ q : Fin 128, b (ix2 (0 : Fin 1) q) = b' (ix1 q))
    (r : Fin 100000) (q : Fin 128) :
    (∑ k : Fin 64, (h (ix2 r k) + a (ix2 r k)) * w (ix2 k q)) + b (ix2 (0 : Fin 1) q)
      = Cert.Gnn.lin1 (Cert.Gnn.at2 h') (Cert.Gnn.at2 a') (Cert.Gnn.at2 w') (Cert.Gnn.at1 b') r q := by
  subst eh ea ew
  rw [eb]
  rfl

theorem alg2 (u U : (⟨2, ![100000, 128]⟩ : Shape).Idx → EReal) (mk vk gk sk : (⟨2, ![1, 128]⟩ : Shape).Idx → EReal) (M Vr G BE : (⟨1, ![128]⟩ : Shape).Idx → EReal)
    (w W : (⟨2, ![128, 64]⟩ : Shape).Idx → EReal) (bk : (⟨2, ![1, 64]⟩ : Shape).Idx → EReal) (B : (⟨1, ![64]⟩ : Shape).Idx → EReal)
    (eu : u = U) (em : ∀ k : Fin 128, mk (ix2 (0 : Fin 1) k) = M (ix1 k)) (ev : ∀ k : Fin 128, vk (ix2 (0 : Fin 1) k) = Vr (ix1 k))
    (eg : ∀ k : Fin 128, gk (ix2 (0 : Fin 1) k) = G (ix1 k)) (es : ∀ k : Fin 128, sk (ix2 (0 : Fin 1) k) = BE (ix1 k))
    (ew : w = W) (eb : ∀ q : Fin 64, bk (ix2 (0 : Fin 1) q) = B (ix1 q)) (r : Fin 100000) (q : Fin 64) :
    (∑ k : Fin 128, max (gk (ix2 (0 : Fin 1) k) * (u (ix2 r k) - mk (ix2 (0 : Fin 1) k))
          * Ideal.rsqrt (vk (ix2 (0 : Fin 1) k) + Ideal.ofBits .f32 0x3727C5AC#32) + sk (ix2 (0 : Fin 1) k)) (Ideal.ofBits .f32 0x00000000#32)
        * w (ix2 k q)) + bk (ix2 (0 : Fin 1) q)
      = Cert.Gnn.lin2 (Cert.Gnn.at2 U) (Cert.Gnn.at1 M) (Cert.Gnn.at1 Vr) (Cert.Gnn.at1 G) (Cert.Gnn.at1 BE) (Cert.Gnn.at2 W) (Cert.Gnn.at1 B) r q := by
  subst eu ew
  rw [eb]
  show _ = (∑ k : Fin 128, Cert.Gnn.act (Cert.Gnn.norm (G (ix1 k)) (u (ix2 r k)) (M (ix1 k)) (Vr (ix1 k)) (BE (ix1 k))) * w (ix2 k q)) + B (ix1 q)
  refine congrArg₂ (· + ·) (Finset.sum_congr rfl fun k _ => ?_) rfl
  rw [em, ev, eg, es]
  rfl

theorem alg3 (x X : (⟨2, ![100000, 64]⟩ : Shape).Idx → EReal) (mk vk gk sk : (⟨2, ![1, 64]⟩ : Shape).Idx → EReal) (M Vr G BE : (⟨1, ![64]⟩ : Shape).Idx → EReal)
    (ex : x = X) (em : ∀ k : Fin 64, mk (ix2 (0 : Fin 1) k) = M (ix1 k)) (ev : ∀ k : Fin 64, vk (ix2 (0 : Fin 1) k) = Vr (ix1 k))
    (eg : ∀ k : Fin 64, gk (ix2 (0 : Fin 1) k) = G (ix1 k)) (es : ∀ k : Fin 64, sk (ix2 (0 : Fin 1) k) = BE (ix1 k))
    (r : Fin 100000) (q : Fin 64) :
    max (gk (ix2 (0 : Fin 1) q) * (x (ix2 r q) - mk (ix2 (0 : Fin 1) q))
        * Ideal.rsqrt (vk (ix2 (0 : Fin 1) q) + Ideal.ofBits .f32 0x3727C5AC#32) + sk (ix2 (0 : Fin 1) q)) (Ideal.ofBits .f32 0x00000000#32)
      = Cert.Gnn.fin3 true (Cert.Gnn.at2 X) (Cert.Gnn.at1 M) (Cert.Gnn.at1 Vr) (Cert.Gnn.at1 G) (Cert.Gnn.at1 BE) r q := by
  subst ex
  rw [em, ev, eg, es]
  unfold Cert.Gnn.fin3
  rw [if_pos rfl]
  rfl

end Algebra

end Cert.Gnn.Layer0

end
-- ==== Proof.PayLin1.lean ====
import proofs.«419503_j34746285425415_3_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout
noncomputable section
namespace Cert.Gnn.Pay
open Idealize.ShloMosaic Idealize.ShloMosaic.ValueIdx Cert.KernelIdeal Cert.KernelIdeal.Gen

-- The block adds the two operands, multiplies the sum by the weights over the one contracted axis, and adds the bias row along every row.
theorem pay_lin1 (x0 x1 : Vec Ideal S10000x64 .f32) (x2 : Vec Ideal S64x128 .f32) (x3 : Vec Ideal S1x128 .f32)
    (p : Fin 10000) (q : Fin 128) :
    k0_pay1 (F := Ideal) x0 x1 x2 x3 (ix2 p q)
      = (∑ k : Fin 64, (x0 (ix2 p k) + x1 (ix2 p k)) * x2 (ix2 k q)) + x3 (ix2 (0 : Fin 1) q) := by
  unfold k0_pay1
  rw [shapeCast_self, shapeCast_self, shapeCast_self, shapeCast_self]
  show FloatOps.matmul _ none _ _ (constant (F := Ideal) S10000x128 .f32 0x00000000#32) (ix2 p q)
      + broadcastTo S10000x128 x3 broadcasts_S1x128_S10000x128 (ix2 p q) = _
  rw [Ideal.matmul_constant_zero_apply, broadcastTo_1b_ab_apply, ← Equiv.sum_comp (contrEquiv1 _ 64 rfl rfl).symm]
  refine congrArg (· + _) (Finset.sum_congr rfl fun k _ => ?_)
  have hk := contrEquiv1_symm_val dot_S10000x64_S64x128_S10000x128_1_0_0_1_n_n 64 rfl rfl k
  exact congrArg₂ (fun i j => (x0 i + x1 i) * x2 j) (by exact Shape.idx_ext₂ rfl hk) (by exact Shape.idx_ext₂ hk rfl)

end Cert.Gnn.Pay
end
-- ==== Proof.Tile.lean ====
import proofs.«419503_j34746285425415_3_alg».proof.Proof.Gen.KernelIdeal
import Idealize.ShloMosaic.Lib.Pipeline.Value
import Idealize.ShloMosaic.Lib.ValueIdx

noncomputable section

namespace Cert.Gnn.Tile
open Idealize.ShloMosaic Idealize.SL.Sem Cert.KernelIdeal ValueIdx
open Idealize.ShloMosaic.Pipeline (Dat)

theorem zeros : (![0, 0] : Fin 2 → Nat) = fun _ => 0 := funext fun a => by fin_cases a <;> rfl

abbrev rd2 {n0 n1 : Nat} (f : (⟨2, ![n0, n1]⟩ : Shape).Idx → EReal) (p : Fin n0) (q : Fin n1) : EReal := f (ix2 p q)

-- e places the block of index i: entry y of the block sits at i * size + y on each axis.
abbrev Sits {m0 m1 n0 n1 : Nat} (e : (⟨2, ![n0, n1]⟩ : Shape).Idx → (⟨2, ![m0, m1]⟩ : Shape).Idx) (i : Fin 2 → Nat) : Prop :=
  ∀ y a, (e y a : Nat) = i a * ![n0, n1] a + y a

-- A block at index zero on both axes sits at its own coordinates.
theorem Sits.id {n0 n1 : Nat} {e : (⟨2, ![n0, n1]⟩ : Shape).Idx → (⟨2, ![n0, n1]⟩ : Shape).Idx} {i : Fin 2 → Nat}
    (h : Sits e i) (hi : ∀ a, i a = 0) (y : (⟨2, ![n0, n1]⟩ : Shape).Idx) : e y = y :=
  funext fun a => Fin.ext (by rw [h, hi, Nat.zero_mul, Nat.zero_add])

-- Row r of an array of at most N blocks of B rows lies in block r / B, and the one column block holds every column.
theorem cover {N M B C : Nat} (hM : M ≤ N * B) {e : Fin N → (⟨2, ![B, C]⟩ : Shape).Idx → (⟨2, ![M, C]⟩ : Shape).Idx} {i : Fin N → Fin 2 → Nat}
    (h : ∀ t, Sits (e t) (i t)) (hi : ∀ t : Fin N, i t 0 = t ∧ i t 1 = 0) (x : (⟨2, ![M, C]⟩ : Shape).Idx) : ∃ t y, e t y = x := by
  have h0 : (x 0).val < B * N := Nat.lt_of_lt_of_le (idx2_lt0 x) (Nat.mul_comm N B ▸ hM)
  have hB : 0 < B := Nat.pos_of_ne_zero fun hb => by rw [hb, Nat.zero_mul] at h0; exact Nat.not_lt_zero _ h0
  refine ⟨⟨(x 0).val / B, Nat.div_lt_of_lt_mul h0⟩, ix2 ⟨(x 0).val % B, Nat.mod_lt _ hB⟩ (x 1), Shape.idx_ext₂ ?_ ?_⟩
  · rw [h, (hi _).1]; exact Nat.div_add_mod' _ _
  · rw [h, (hi _).2]; exact (Nat.zero_mul _).symm ▸ Nat.zero_add _

-- If each point's block is that block of G and the blocks reach every index, the final array is G.
theorem arrAt_eq {cfg : Pipeline.Cfg sig Λ₀} {c : Dev nD} (dat : Dat τ (Elt Ideal) Unit ℕ (UR sig nD τ) ℕ cfg c) (w : Fin cfg.W)
    (G : Buf (Elt Ideal) ((cfg.win w).arr.view.loc (c.tc : Thread nD τ)))
    (hf : ∀ t, (cfg.win w).flush t = true) (hG : ∀ t, dat.flushed w t = ((cfg.win w).blk t).view.read (Elt Ideal) G)
    (hc : ∀ i : ((cfg.win w).arr.view.loc (c.tc : Thread nD τ)).2.ty.Idx, ∃ t y, ((cfg.win w).blk t).view.emb y = i) : dat.arrAt w cfg.N = G :=
  dat.arrAt_eq_of_cover w G (fun t _ => hG t) fun i => let ⟨t, y, h⟩ := hc i; ⟨t, hf t, h ▸ View.emb_mem_set _ y⟩

end Cert.Gnn.Tile

end
-- ==== Proof.Lin1.lean ====
import proofs.«419503_j34746285425415_3_alg».proof.Proof.PayLin1
import proofs.«419503_j34746285425415_3_alg».proof.Proof.Tile

noncomputable section

namespace Cert.Gnn.Lin1

open Idealize.ShloMosaic Idealize.ShloMosaic.ValueIdx Cert.KernelIdeal Cert.KernelIdeal.Gen Tile
export Cert.Gnn.Tile (rd2)

variable (h a : S100000x64.Idx → EReal) (w : S64x128.Idx → EReal) (b : S1x128.Idx → EReal)

def lin1At (r : Fin 100000) (q : Fin 128) : EReal :=
  (∑ k : Fin 64, (rd2 h r k + rd2 a r k) * rd2 w k q) + rd2 b (0 : Fin 1) q

theorem lin1At_def (r : Fin 100000) (q : Fin 128) :
    lin1At h a w b r q = (∑ k : Fin 64, (h (ix2 r k) + a (ix2 r k)) * w (ix2 k q)) + b (ix2 (0 : Fin 1) q) := rfl

def lin1Arr : S100000x128.Idx → EReal :=
  fun i => lin1At h a w b (i 0) (i 1)

variable {h a w b}

theorem at_of_arr {X : S100000x128.Idx → EReal} (hX : X = lin1Arr h a w b) (r : Fin 100000) (q : Fin 128) : X (ix2 r q) = lin1At h a w b r q := hX ▸ rfl

-- An entry placed on each axis at block index times block size plus its own coordinate: entry (p, q) of block (s, t) is the array's (s n0 + p, t n1 + q).
theorem emb2 {n0 n1 m0 m1 s t : Nat} {e : (⟨2, ![n0, n1]⟩ : Shape).Idx → (⟨2, ![m0, m1]⟩ : Shape).Idx}
    (he : Sits e ![s, t]) (p : Fin n0) (q : Fin n1) (r : Fin m0) (c : Fin m1)
    (hr : r.val = s * n0 + p) (hc : c.val = t * n1 + q) : e (ix2 p q) = ix2 r c :=
  Shape.idx_ext₂ ((he _ 0).trans hr.symm) ((he _ 1).trans hc.symm)

-- With the row blocks at (t, 0) and the weights and the bias whole, the block computed from the operands' blocks is the formula's block of rows.
theorem block_eq {e0 e1 : S10000x64.Idx → S100000x64.Idx} {e2 : S64x128.Idx → S64x128.Idx} {e3 : S1x128.Idx → S1x128.Idx}
    {e4 : S10000x128.Idx → S100000x128.Idx} {I0 I1 I2 I3 I4 : Fin 2 → Nat} {t : Nat}
    {pay : Vec Ideal S10000x64 .f32 → Vec Ideal S10000x64 .f32 → Vec Ideal S64x128 .f32 → Vec Ideal S1x128 .f32 → Vec Ideal S10000x128 .f32}
    (hpay : pay = k0_pay1) (hI : I0 = ![t, 0] ∧ I1 = ![t, 0] ∧ I2 = ![0, 0] ∧ I3 = ![0, 0] ∧ I4 = ![t, 0])
    (h0 : Sits e0 I0) (h1 : Sits e1 I1) (h2 : Sits e2 I2) (h3 : Sits e3 I3) (h4 : Sits e4 I4)
    {i0 i1 i2 i3} :
    (View.canon [⟨Rect.unit ![0, 0] S10000x128.size i3, pay (View.ld (fun y => h (e0 y)) (Rect.unit ![0, 0] S10000x64.size i0))
        (View.ld (fun y => a (e1 y)) (Rect.unit ![0, 0] S10000x64.size i0)) (View.ld (fun y => w (e2 y)) (Rect.unit ![0, 0] S64x128.size i1))
        (View.ld (fun y => b (e3 y)) (Rect.unit ![0, 0] S1x128.size i2))⟩] : Vec Ideal S10000x128 .f32)
      = fun y => lin1Arr h a w b (e4 y) := by
  obtain ⟨rfl, rfl, rfl, rfl, rfl⟩ := hI
  subst hpay
  rw [View.canon_unit_zero zeros, View.ld_unit_zero zeros, View.ld_unit_zero zeros, View.ld_unit_zero zeros, View.ld_unit_zero zeros]
  funext j
  obtain ⟨p, q, rfl⟩ : ∃ p q, j = ix2 p q := ⟨j 0, j 1, eq_ix2 j⟩
  have g0 : (e4 (ix2 p q) 0 : Nat) = t * 10000 + p := h4 _ 0
  have g1 : (e4 (ix2 p q) 1 : Nat) = 0 * 128 + q := h4 _ 1
  refine (Pay.pay_lin1 _ _ _ _ p q).trans ?_
  rw [emb2 h3 0 q 0 _ (by omega) g1]
  exact congrArg (· + _) (Finset.sum_congr rfl fun k _ => by
    rw [emb2 h0 p k _ k g0 (by omega), emb2 h1 p k _ k g0 (by omega), emb2 h2 k q k _ (by omega) g1])

end Cert.Gnn.Lin1
end
-- ==== Proof.Reg0.lean ====
import proofs.«419503_j34746285425415_3_alg».proof.Proof.Gen.KernelIdeal.Frame
import proofs.«419503_j34746285425415_3_alg».proof.Proof.Lin1

noncomputable section

namespace Cert.Gnn.Reg0

open Idealize.ShloMosaic Idealize.ShloMosaic.TcCoe Cert.KernelIdeal Cert.KernelIdeal.Gen Cert.Gnn.Lin1

variable (V : (c : Dev nD) → (b : Ref sig .tc) → Buf (Elt Ideal) ((c : Thread nD τ).loc b))

theorem idx : ∀ t : Fin cfg0.N, win0_0.index t = ![t.val, 0] ∧ win0_1.index t = ![t.val, 0] ∧ win0_2.index t = ![0, 0]
    ∧ win0_3.index t = ![0, 0] ∧ win0_4.index t = ![t.val, 0] :=
  (by decide +kernel : ∀ t : Fin grid0.N, _)

theorem final (c : Dev nD) (r : Fin 100000) (q : Fin 128) :
    (dat0 (F := Ideal) V c).arrAt 4 cfg0.N (ValueIdx.ix2 r q)
      = (∑ k : Fin 64, (rd2 (V c main_v7) r k + rd2 (V c main_v31) r k) * rd2 (V c main_v33) k q) + rd2 (V c main_v36) (0 : Fin 1) q :=
  at_of_arr (Tile.arrAt_eq (dat0 V c) 4 _ flush0_4
    (fun t => (after0_4 V c t).trans (block_eq rfl (idx t) (win0_0.rect_emb_val t) (win0_1.rect_emb_val t) (win0_2.rect_emb_val t)
      (win0_3.rect_emb_val t) (win0_4.rect_emb_val t)))
    (Tile.cover (by decide) win0_4.rect_emb_val fun t => by rw [(idx t).2.2.2.2]; exact ⟨rfl, rfl⟩)) r q

end Cert.Gnn.Reg0
end
-- ==== Proof.PayLin2.lean ====
import proofs.«419503_j34746285425415_3_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

open Idealize.ShloMosaic Cert.KernelIdeal Cert.KernelIdeal.Gen
open Idealize.ShloMosaic.ValueIdx

namespace Cert.Gnn.Lin2

/-- The second linear map at row r, column q: the row normalised column by column, rectified, against the weights' column, plus the bias. -/
def lin2At {n : ℕ} (U : (⟨2, ![n, 128]⟩ : Shape).Idx → EReal) (mu va g be : S1x128.Idx → EReal) (w : S128x64.Idx → EReal)
    (b : S1x64.Idx → EReal) (r : Fin n) (q : Fin 64) : EReal :=
  (∑ k : Fin 128, max (g (ix2 (0 : Fin 1) k) * (U (ix2 r k) - mu (ix2 (0 : Fin 1) k)) * Ideal.rsqrt (va (ix2 (0 : Fin 1) k) + Ideal.ofBits .f32 0x3727C5AC#32) + be (ix2 (0 : Fin 1) k)) (Ideal.ofBits .f32 0x00000000#32) * w (ix2 k q))
    + b (ix2 (0 : Fin 1) q)

end Cert.Gnn.Lin2

namespace Cert.Gnn.Pay

/-- The block product into the zero accumulator is the sum over the one contraction axis, re-indexed by its coordinate. -/
theorem mm2_apply (x : FVec Ideal S10000x128 .bf16) (y : FVec Ideal S128x64 .bf16) (p : Fin 10000) (q : Fin 64) :
    FloatOps.matmul dot_S10000x128_S128x64_S10000x64_1_0_0_1_n_n none x y (constant (F := Ideal) S10000x64 .f32 0x00000000#32) (ix2 p q)
      = ∑ k : Fin 128, x (ix2 p k) * y (ix2 k q) := by
  refine (Ideal.matmul_constant_zero_apply _ none x y (ix2 p q)).trans ?_
  refine (Equiv.sum_comp (contrEquiv1 dot_S10000x128_S128x64_S10000x64_1_0_0_1_n_n 128 rfl rfl).symm _).symm.trans ?_
  refine Finset.sum_congr rfl fun k _ => ?_
  have hk := contrEquiv1_symm_val dot_S10000x128_S128x64_S10000x64_1_0_0_1_n_n 128 rfl rfl k
  refine congrArg₂ (x · * y ·) (funext fun a => ?_) (funext fun a => ?_)
  · match a with
    | ⟨0, _⟩ => rfl
    | ⟨1, _⟩ => exact Fin.ext hk
  · match a with
    | ⟨0, _⟩ => exact Fin.ext hk
    | ⟨1, _⟩ => rfl

/-- A one-row matrix, cast to its own shape and spread over the rows, reads its one row at the column. -/
theorem row_apply {a b : ℕ} (v : (⟨2, ![1, b]⟩ : Shape).Idx → EReal) (hc : (⟨2, ![1, b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hc) hb (ix2 p c) = v (ix2 (0 : Fin 1) c) :=
  (congrArg (fun f => broadcastTo ⟨2, ![a, b]⟩ f hb (ix2 p c)) (shapeCast_self v hc)).trans (broadcastTo_1b_ab_apply v hb p c)

/-- Every pointwise operation reads through at the index; a cast to the own shape is the matrix; a one-row operand reads its row. -/
theorem pay_lin2 (g : Vec Ideal S1x128 .f32) (u : Vec Ideal S10000x128 .f32) (mu va be : Vec Ideal S1x128 .f32) (w : Vec Ideal S128x64 .f32)
    (b : Vec Ideal S1x64 .f32) (p : Fin 10000) (q : Fin 64) :
    k1_pay1 (F := Ideal) g u mu va be w b (ix2 p q) = Lin2.lin2At u mu va g be w b p q := by
  unfold k1_pay1
  refine (addf_apply _ _ _).trans (congrArg₂ (· + ·) ?_ (row_apply b _ _ p q))
  refine (mm2_apply _ _ p q).trans (Finset.sum_congr rfl fun k _ => ?_)
  refine congrArg₂ (· * ·) ?_ (congrFun (shapeCast_self w _) (ix2 k q))
  refine congrArg (max · (Ideal.ofBits .f32 0x00000000#32)) (congrArg₂ (· + ·) (congrArg₂ (· * ·) ?_ ?_) (row_apply be _ _ p k))
  · exact congrArg₂ (· * ·) (row_apply g _ _ p k) (congrArg₂ (· - ·) (congrFun (shapeCast_self u _) (ix2 p k)) (row_apply mu _ _ p k))
  · exact (broadcastTo_1b_ab_apply _ _ p k).trans
      (congrArg (fun x => Ideal.rsqrt (x + Ideal.ofBits .f32 0x3727C5AC#32)) (congrFun (shapeCast_self va _) (ix2 (0 : Fin 1) k)))

end Cert.Gnn.Pay

end
-- ==== Proof.Lin2.lean ====
import proofs.«419503_j34746285425415_3_alg».proof.Proof.PayLin2
import proofs.«419503_j34746285425415_3_alg».proof.Proof.Tile

noncomputable section

open Idealize.ShloMosaic Cert.KernelIdeal Cert.KernelIdeal.Gen
open Idealize.ShloMosaic.ValueIdx Cert.Gnn.Tile

namespace Cert.Gnn.Lin2

export Cert.Gnn.Tile (rd2)

variable (U : S100000x128.Idx → EReal) (mu va g be : S1x128.Idx → EReal) (w : S128x64.Idx → EReal) (b : S1x64.Idx → EReal)

theorem lin2At_def (r : Fin 100000) (q : Fin 64) :
    lin2At U mu va g be w b r q
      = (∑ k : Fin 128, max (g (ix2 (0 : Fin 1) k) * (U (ix2 r k) - mu (ix2 (0 : Fin 1) k)) * Ideal.rsqrt (va (ix2 (0 : Fin 1) k) + Ideal.ofBits .f32 0x3727C5AC#32) + be (ix2 (0 : Fin 1) k)) (Ideal.ofBits .f32 0x00000000#32) * w (ix2 k q))
        + b (ix2 (0 : Fin 1) q) := rfl

/-- The output array: at an index, the second linear map at its row and column. -/
def lin2Arr : S100000x64.Idx → EReal := fun i => lin2At U mu va g be w b (i 0) (i 1)

variable {U mu va g be w b} in
theorem at_of_arr {X : S100000x64.Idx → EReal} (h : X = lin2Arr U mu va g be w b) (r : Fin 100000) (q : Fin 64) :
    X (ix2 r q) = lin2At U mu va g be w b r q := h ▸ rfl

/-- What `block` asks of the eight operands' block-index functions at point n. -/
abbrev Idx (n : ℕ) (i0 i1 i2 i3 i4 i5 i6 i7 : Fin 2 → ℕ) : Prop :=
  i7 0 = n ∧ i7 1 = 0 ∧ i0 0 = n ∧ i0 1 = 0 ∧ (∀ a, i1 a = 0) ∧ (∀ a, i2 a = 0) ∧ (∀ a, i3 a = 0) ∧ (∀ a, i4 a = 0)
    ∧ (∀ a, i5 a = 0) ∧ ∀ a, i6 a = 0

variable {n : ℕ} {i0 i1 i2 i3 i4 i5 i6 i7 : Fin 2 → ℕ} (hi : Idx n i0 i1 i2 i3 i4 i5 i6 i7)
include hi

/-- The output array at the output block's place is the payload of the blocks, each placed at block index times block size. -/
theorem block {e0 : S10000x128.Idx → S100000x128.Idx} {e1 e2 e3 e4 : S1x128.Idx → S1x128.Idx} {e5 : S128x64.Idx → S128x64.Idx}
    {e6 : S1x64.Idx → S1x64.Idx} {e7 : S10000x64.Idx → S100000x64.Idx}
    (h0 : Sits e0 i0) (h1 : Sits e1 i1) (h2 : Sits e2 i2) (h3 : Sits e3 i3) (h4 : Sits e4 i4) (h5 : Sits e5 i5) (h6 : Sits e6 i6) (h7 : Sits e7 i7)
    (j : S10000x64.Idx) :
    lin2Arr U mu va g be w b (e7 j)
      = (View.canon [⟨Rect.unit (s := S10000x64) ![0, 0] S10000x64.size inb_S10000x64_S10000x64_0_0,
        k1_pay1 (F := Ideal) (View.ld (fun y => g (e3 y)) (Rect.unit (s := S1x128) ![0, 0] S1x128.size inb_S1x128_S1x128_0_0))
          (View.ld (fun y => U (e0 y)) (Rect.unit (s := S10000x128) ![0, 0] S10000x128.size inb_S10000x128_S10000x128_0_0))
          (View.ld (fun y => mu (e1 y)) (Rect.unit (s := S1x128) ![0, 0] S1x128.size inb_S1x128_S1x128_0_0))
          (View.ld (fun y => va (e2 y)) (Rect.unit (s := S1x128) ![0, 0] S1x128.size inb_S1x128_S1x128_0_0))
          (View.ld (fun y => be (e4 y)) (Rect.unit (s := S1x128) ![0, 0] S1x128.size inb_S1x128_S1x128_0_0))
          (View.ld (fun y => w (e5 y)) (Rect.unit (s := S128x64) ![0, 0] S128x64.size inb_S128x64_S128x64_0_0))
          (View.ld (fun y => b (e6 y)) (Rect.unit (s := S1x64) ![0, 0] S1x64.size inb_S1x64_S1x64_0_0))⟩] : Vec Ideal S10000x64 .f32) j := by
  obtain ⟨a7, b7, a0, b0, z1, z2, z3, z4, z5, z6⟩ := hi
  obtain rfl := funext (h1.id z1)
  obtain rfl := funext (h2.id z2)
  obtain rfl := funext (h3.id z3)
  obtain rfl := funext (h4.id z4)
  obtain rfl := funext (h5.id z5)
  obtain rfl := funext (h6.id z6)
  rw [View.canon_unit_zero zeros]
  simp only [View.ld_unit_zero (S := S10000x128) zeros, View.ld_unit_zero (S := S1x128) zeros,
    View.ld_unit_zero (S := S128x64) zeros, View.ld_unit_zero (S := S1x64) zeros]
  obtain ⟨p, q, rfl⟩ : ∃ (p : Fin 10000) (q : Fin 64), j = ix2 p q := ⟨j 0, j 1, eq_ix2 j⟩
  have hq : e7 (ix2 p q) 1 = q := Fin.ext (by rw [h7, b7]; show 0 * 64 + q.val = q.val; omega)
  have hr : ∀ k, e0 (ix2 p k) = ix2 (e7 (ix2 p q) 0) k := fun k => funext fun a => Fin.ext (by
    match a with
    | ⟨0, _⟩ => show (e0 (ix2 p k) 0 : ℕ) = (e7 (ix2 p q) 0 : ℕ); rw [h0, h7, a0, a7]; rfl
    | ⟨1, _⟩ => show (e0 (ix2 p k) 1 : ℕ) = k; rw [h0, b0]; show 0 * 128 + k.val = k.val; omega)
  rw [Pay.pay_lin2]
  unfold lin2Arr lin2At
  simp only [hr, hq]
  rfl

end Cert.Gnn.Lin2

end
-- ==== Proof.Reg1.lean ====
import proofs.«419503_j34746285425415_3_alg».proof.Proof.Gen.KernelIdeal.Frame
import proofs.«419503_j34746285425415_3_alg».proof.Proof.Lin2

noncomputable section

namespace Cert.Gnn.Reg1

open Idealize.ShloMosaic Cert.KernelIdeal Cert.KernelIdeal.Gen Idealize.ShloMosaic.TcCoe Idealize.SL.Sem Idealize.ShloMosaic.ValueIdx Lin2

variable (V : (c : Dev nD) → (b : Ref sig .tc) → Buf (Elt Ideal) ((c : Thread nD τ).loc b))

theorem idx : ∀ t : Fin cfg1.N, Idx t (win1_0.index t) (win1_1.index t) (win1_2.index t) (win1_3.index t) (win1_4.index t) (win1_5.index t) (win1_6.index t) (win1_7.index t) :=
  (by decide +kernel : ∀ t : Fin grid1.N, _)

theorem final (c : Dev nD) (r : Fin 100000) (q : Fin 64) :
    (dat1 (F := Ideal) V c).arrAt 7 cfg1.N (ix2 r q)
      = (∑ k : Fin 128, max (rd2 (V c main_v51) (0 : Fin 1) k * (rd2 (V c main_v37) r k - rd2 (V c main_v41) (0 : Fin 1) k) * Ideal.rsqrt (rd2 (V c main_v42) (0 : Fin 1) k + Ideal.ofBits .f32 0x3727C5AC#32) + rd2 (V c main_v52) (0 : Fin 1) k) (Ideal.ofBits .f32 0x00000000#32) * rd2 (V c main_v48) k q)
        + rd2 (V c main_v53) (0 : Fin 1) q :=
  at_of_arr (Tile.arrAt_eq (dat1 V c) 7 _ flush1_7
    (fun t => (after1_7 V c t).trans (funext fun j => (block _ _ _ _ _ _ _ (idx t) (win1_0.rect_emb_val t) (win1_1.rect_emb_val t) (win1_2.rect_emb_val t) (win1_3.rect_emb_val t) (win1_4.rect_emb_val t) (win1_5.rect_emb_val t) (win1_6.rect_emb_val t) (win1_7.rect_emb_val t) j).symm))
    (Tile.cover (by decide) win1_7.rect_emb_val fun t => ⟨(idx t).1, (idx t).2.1⟩)) r q

end Cert.Gnn.Reg1

end
-- ==== Proof.PayNorm.lean ====
import proofs.«419503_j34746285425415_3_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

open Idealize.ShloMosaic Cert.KernelIdeal Cert.KernelIdeal.Gen ValueIdx

-- The entry of x at (r, q) normalised by its column's mean, variance, scale and shift (one-row matrices).
def Cert.Gnn.Norm.affAt {n : Nat} (x : (⟨2, ![n, 64]⟩ : Shape).Idx → EReal) (mu va g be : S1x64.Idx → EReal) (r : Fin n) (q : Fin 64) : EReal :=
  g (ix2 (0 : Fin 1) q) * (x (ix2 r q) - mu (ix2 (0 : Fin 1) q)) * Ideal.rsqrt (va (ix2 (0 : Fin 1) q) + Ideal.ofBits .f32 0x3727C5AC#32) + be (ix2 (0 : Fin 1) q)

namespace Cert.Gnn.Pay
open Norm

-- A one-row matrix broadcast over the rows reads, at (p, q), its row 0 at column q.
theorem row64_apply (v : Vec Ideal S1x64 .f32) (p : Fin 10000) (q : Fin 64) :
    broadcastTo S10000x64 (shapeCast S1x64 v shapeCasts_S1x64_S1x64) broadcasts_S1x64_S10000x64 (ix2 p q) = v (ix2 (0 : Fin 1) q) := by
  rw [shapeCast_self]
  exact broadcastTo_1b_ab_apply v broadcasts_S1x64_S10000x64 p q

-- So does the reciprocal square root of the offset variance, itself computed entrywise on the one row.
theorem rstd64_apply (va : Vec Ideal S1x64 .f32) (p : Fin 10000) (q : Fin 64) :
    broadcastTo S10000x64
        (rsqrt (addf (shapeCast S1x64 va shapeCasts_S1x64_S1x64) (broadcast S1x64 (Scalar.ofBits (F := Ideal) .f32 0x3727C5AC#32))))
        broadcasts_S1x64_S10000x64 (ix2 p q)
      = Ideal.rsqrt (va (ix2 (0 : Fin 1) q) + Ideal.ofBits .f32 0x3727C5AC#32) := by
  rw [shapeCast_self]
  exact broadcastTo_1b_ab_apply _ broadcasts_S1x64_S10000x64 p q

-- All the arithmetic is entrywise, and each one-row operand is read at row 0 of the entry's column.
theorem pay_norm (g : Vec Ideal S1x64 .f32) (x : Vec Ideal S10000x64 .f32) (mu va be : Vec Ideal S1x64 .f32) (p : Fin 10000) (q : Fin 64) :
    k14_pay1 (F := Ideal) g x mu va be (ix2 p q) = affAt x mu va g be p q := by
  unfold affAt
  rw [← row64_apply g p q, ← row64_apply mu p q, ← row64_apply be p q, ← rstd64_apply va p q,
    ← congrFun (shapeCast_self x shapeCasts_S10000x64_S10000x64) (ix2 p q)]
  rfl

-- The rectified payload is the entrywise maximum of the plain one and zero.
theorem pay_norm_relu (g : Vec Ideal S1x64 .f32) (x : Vec Ideal S10000x64 .f32) (mu va be : Vec Ideal S1x64 .f32) (p : Fin 10000) (q : Fin 64) :
    k2_pay1 (F := Ideal) g x mu va be (ix2 p q) = max (affAt x mu va g be p q) (Ideal.ofBits .f32 0x00000000#32) :=
  congrArg (max · (Ideal.ofBits .f32 0x00000000#32)) (pay_norm g x mu va be p q)

end Cert.Gnn.Pay

end
-- ==== Proof.Norm.lean ====
import proofs.«419503_j34746285425415_3_alg».proof.Proof.PayNorm
import proofs.«419503_j34746285425415_3_alg».proof.Proof.Tile

noncomputable section

namespace Cert.Gnn.Norm
open Idealize.ShloMosaic Cert.KernelIdeal Cert.KernelIdeal.Gen ValueIdx Tile

abbrev relu (z : EReal) : EReal := max z (Ideal.ofBits .f32 0x00000000#32)

def normAt (x : S100000x64.Idx → EReal) (mu va g be : S1x64.Idx → EReal) (r : Fin 100000) (q : Fin 64) : EReal :=
  relu (affAt x mu va g be r q)

theorem normAt_def (x : S100000x64.Idx → EReal) (mu va g be : S1x64.Idx → EReal) (r : Fin 100000) (q : Fin 64) :
    normAt x mu va g be r q
      = max (g (ValueIdx.ix2 (0 : Fin 1) q) * (x (ValueIdx.ix2 r q) - mu (ValueIdx.ix2 (0 : Fin 1) q)) * Ideal.rsqrt (va (ValueIdx.ix2 (0 : Fin 1) q) + Ideal.ofBits .f32 0x3727C5AC#32) + be (ValueIdx.ix2 (0 : Fin 1) q)) (Ideal.ofBits .f32 0x00000000#32) := rfl

-- The layer's output as one array, φ being the rectification or the identity.
def arrOf (φ : EReal → EReal) (x : S100000x64.Idx → EReal) (mu va g be : S1x64.Idx → EReal) : S100000x64.Idx → EReal :=
  fun i => φ (affAt x mu va g be (i 0) (i 1))

-- Block indices at point t: x sits where the result does, the four one-row operands at block 0, the result at row block t.
abbrev Idx (i0 i1 i2 i3 i4 i5 : Fin 2 → Nat) (t : Nat) : Prop :=
  ((∀ a, i0 a = i5 a) ∧ ∀ a, i1 a = 0 ∧ i2 a = 0 ∧ i3 a = 0 ∧ i4 a = 0) ∧ i5 0 = t ∧ i5 1 = 0

-- Entry (p, q) of a point's block of values is the output array's entry at the place the result's block gives (p, q): same column, x read at that place.
theorem blk_eq (φ : EReal → EReal)
    {pay : Vec Ideal S1x64 .f32 → Vec Ideal S10000x64 .f32 → Vec Ideal S1x64 .f32 → Vec Ideal S1x64 .f32 → Vec Ideal S1x64 .f32 → FVec Ideal S10000x64 .f32}
    (hpay : ∀ g x mu va be p q, pay g x mu va be (ix2 p q) = φ (affAt x mu va g be p q))
    {e0 e5 : S10000x64.Idx → S100000x64.Idx} {e1 e2 e3 e4 : S1x64.Idx → S1x64.Idx} {i0 i1 i2 i3 i4 i5 : Fin 2 → Nat} {t : Nat}
    (h0 : Sits e0 i0) (h1 : Sits e1 i1) (h2 : Sits e2 i2) (h3 : Sits e3 i3) (h4 : Sits e4 i4) (h5 : Sits e5 i5)
    (hi : Idx i0 i1 i2 i3 i4 i5 t) {x : S100000x64.Idx → EReal} {mu va g be : S1x64.Idx → EReal}
    {xb : Vec Ideal S10000x64 .f32} {mb vb gb bb : Vec Ideal S1x64 .f32}
    (hx : ∀ y, xb y = x (e0 y) := by exact fun _ => rfl) (hm : ∀ y, mb y = mu (e1 y) := by exact fun _ => rfl) (hv : ∀ y, vb y = va (e2 y) := by exact fun _ => rfl)
    (hg : ∀ y, gb y = g (e3 y) := by exact fun _ => rfl) (hb : ∀ y, bb y = be (e4 y) := by exact fun _ => rfl)
    {inbA : ∀ a, (![0, 0] : Fin 2 → Nat) a + S1x64.size a ≤ S1x64.size a} {inbB : ∀ a, (![0, 0] : Fin 2 → Nat) a + S10000x64.size a ≤ S10000x64.size a} :
    View.canon [(⟨Rect.unit ![0, 0] S10000x64.size inbB, pay (View.ld gb (Rect.unit ![0, 0] S1x64.size inbA)) (View.ld xb (Rect.unit ![0, 0] S10000x64.size inbB))
        (View.ld mb (Rect.unit ![0, 0] S1x64.size inbA)) (View.ld vb (Rect.unit ![0, 0] S1x64.size inbA)) (View.ld bb (Rect.unit ![0, 0] S1x64.size inbA))⟩ : View.Piece (Elt Ideal) S10000x64 .f32)]
      = fun y => arrOf φ x mu va g be (e5 y) := by
  obtain ⟨⟨h05, hr⟩, -, h51⟩ := hi
  rw [View.canon_unit_zero zeros, View.ld_unit_zero zeros, View.ld_unit_zero zeros, View.ld_unit_zero zeros, View.ld_unit_zero zeros, View.ld_unit_zero zeros]
  funext y
  obtain ⟨p, q, rfl⟩ : ∃ p q, y = ix2 p q := ⟨y 0, y 1, eq_ix2 y⟩
  have hq : e5 (ix2 p q) 1 = q := Fin.ext (by rw [h5, h51, Nat.zero_mul, Nat.zero_add])
  have hj : e0 (ix2 p q) = ix2 (e5 (ix2 p q) 0) q :=
    (funext fun a => Fin.ext (by rw [h0, h5, h05])).trans ((eq_ix2 _).trans (congrArg (ix2 _) hq))
  rw [hpay]; unfold affAt
  rw [hx, hm, hv, hg, hb, h1.id fun a => (hr a).1, h2.id fun a => (hr a).2.1, h3.id fun a => (hr a).2.2.1, h4.id fun a => (hr a).2.2.2, hj]
  show _ = φ (affAt x mu va g be (e5 (ix2 p q) 0) (e5 (ix2 p q) 1))
  rw [hq]
  rfl

end Cert.Gnn.Norm

end
-- ==== Proof.Reg2.lean ====
import proofs.«419503_j34746285425415_3_alg».proof.Proof.Gen.KernelIdeal.Frame
import proofs.«419503_j34746285425415_3_alg».proof.Proof.Norm

noncomputable section

namespace Cert.Gnn.Reg2
open Idealize.ShloMosaic Idealize.ShloMosaic.TcCoe Idealize.SL.Sem Cert.KernelIdeal Cert.KernelIdeal.Gen
open Cert.Gnn.Tile (rd2)

variable (V : (c : Dev nD) → (b : Ref sig .tc) → Buf (Elt Ideal) ((c : Thread nD τ).loc b))

theorem idx : ∀ t : Fin cfg2.N, Norm.Idx (win2_0.index t) (win2_1.index t) (win2_2.index t) (win2_3.index t) (win2_4.index t) (win2_5.index t) t :=
  (by decide +kernel : ∀ t : Fin grid2.N, _)

theorem final (c : Dev nD) (r : Fin 100000) (q : Fin 64) :
    (dat2 (F := Ideal) V c).arrAt 5 cfg2.N (ValueIdx.ix2 r q)
      = max (rd2 (V c main_v64) (0 : Fin 1) q * (rd2 (V c main_v54) r q - rd2 (V c main_v58) (0 : Fin 1) q) * Ideal.rsqrt (rd2 (V c main_v59) (0 : Fin 1) q + Ideal.ofBits .f32 0x3727C5AC#32) + rd2 (V c main_v65) (0 : Fin 1) q) (Ideal.ofBits .f32 0x00000000#32) :=
  congrFun (Tile.arrAt_eq (dat2 V c) 5 (Norm.arrOf Norm.relu (V c main_v54) (V c main_v58) (V c main_v59) (V c main_v64) (V c main_v65)) flush2_5
    (fun t => (after2_5 V c t).trans (Norm.blk_eq Norm.relu Pay.pay_norm_relu (win2_0.rect_emb_val t) (win2_1.rect_emb_val t) (win2_2.rect_emb_val t)
      (win2_3.rect_emb_val t) (win2_4.rect_emb_val t) (win2_5.rect_emb_val t) (idx t)))
    (Tile.cover (by decide) win2_5.rect_emb_val fun t => (idx t).2)) _

end Cert.Gnn.Reg2

end
-- ==== Proof.Layer0.lean ====
import proofs.«419503_j34746285425415_3_alg».proof.Proof.Gen.KernelIdeal.Frame
import proofs.«419503_j34746285425415_3_alg».proof.Proof.Layer0b
import proofs.«419503_j34746285425415_3_alg».proof.Proof.Reg0
import proofs.«419503_j34746285425415_3_alg».proof.Proof.Reg1
import proofs.«419503_j34746285425415_3_alg».proof.Proof.Reg2

noncomputable section

namespace Cert.Gnn.Layer0

open Idealize.ShloMosaic Idealize.SL.Sem

section Stages
open ValueIdx Cert.KernelIdeal Cert.KernelIdeal.Gen
variable [Cert.KernelIdeal.Facts] [Cert.ReferenceIdeal.Facts]
  (m : (ℓ : Loc nD τ sig) → Buf (Elt Ideal) ℓ) (ρ : Dev nD → PrngReg) (c : Dev nD)

-- A reference outside a block's arrays and outside what the three operation lists before it write keeps its contents.
theorem k4_back (b : Ref sig .tc) (h : ∀ w, Pipeline.arrRef spec0 w ≠ b) (g : decide (b ∈ k0W.1) = false) :
    W4 m ρ c (Proc.devRef .tc b) = W0 m ρ c (Proc.devRef .tc b) :=
  (W4_of_ne m ρ c b h).trans (k0W.2.keep3 _ b g)

theorem k8_back (b : Ref sig .tc) (h : ∀ w, Pipeline.arrRef spec1 w ≠ b) (g : decide (b ∈ k1W.1) = false) :
    W8 m ρ c (Proc.devRef .tc b) = W4 m ρ c (Proc.devRef .tc b) :=
  (W8_of_ne m ρ c b h).trans (k1W.2.keep3 _ b g)

theorem k12_back (b : Ref sig .tc) (h : ∀ w, Pipeline.arrRef spec2 w ≠ b) (g : decide (b ∈ k2W.1) = false) :
    W12 m ρ c (Proc.devRef .tc b) = W8 m ρ c (Proc.devRef .tc b) :=
  (W12_of_ne m ρ c b h).trans (k2W.2.keep3 _ b g)

variable (P : Valuation Cert.ReferenceIdeal.τ Cert.ReferenceIdeal.sig (Elt Ideal))
  (ha1 : (W0 m ρ c (Proc.devRef .tc main_arg1) : IVec S100000x1 32) = P (Proc.devRef .tc Cert.ReferenceIdeal.main_arg1))
  (ha2 : (W0 m ρ c (Proc.devRef .tc main_arg2) : IVec S2x800000 32) = P (Proc.devRef .tc Cert.ReferenceIdeal.main_arg2))
  (ha3 : (W0 m ρ c (Proc.devRef .tc main_arg3) : IVec S800000x1 32) = P (Proc.devRef .tc Cert.ReferenceIdeal.main_arg3))
  (ha4 : (W0 m ρ c (Proc.devRef .tc main_arg4) : FVec Ideal S119x64 .f32) = P (Proc.devRef .tc Cert.ReferenceIdeal.main_arg4))
  (ha5 : (W0 m ρ c (Proc.devRef .tc main_arg5) : FVec Ideal S5x64 .f32) = P (Proc.devRef .tc Cert.ReferenceIdeal.main_arg5))
  (ha6 : (W0 m ρ c (Proc.devRef .tc main_arg6) : FVec Ideal S5x64x128 .f32) = P (Proc.devRef .tc Cert.ReferenceIdeal.main_arg6))
  (ha7 : (W0 m ρ c (Proc.devRef .tc main_arg7) : FVec Ideal S5x128 .f32) = P (Proc.devRef .tc Cert.ReferenceIdeal.main_arg7))
  (ha8 : (W0 m ρ c (Proc.devRef .tc main_arg8) : FVec Ideal S5x128 .f32) = P (Proc.devRef .tc Cert.ReferenceIdeal.main_arg8))
  (ha9 : (W0 m ρ c (Proc.devRef .tc main_arg9) : FVec Ideal S5x128 .f32) = P (Proc.devRef .tc Cert.ReferenceIdeal.main_arg9))
  (ha10 : (W0 m ρ c (Proc.devRef .tc main_arg10) : FVec Ideal S5x128x64 .f32) = P (Proc.devRef .tc Cert.ReferenceIdeal.main_arg10))
  (ha11 : (W0 m ρ c (Proc.devRef .tc main_arg11) : FVec Ideal S5x64 .f32) = P (Proc.devRef .tc Cert.ReferenceIdeal.main_arg11))
  (ha12 : (W0 m ρ c (Proc.devRef .tc main_arg12) : FVec Ideal S5x64 .f32) = P (Proc.devRef .tc Cert.ReferenceIdeal.main_arg12))
  (ha13 : (W0 m ρ c (Proc.devRef .tc main_arg13) : FVec Ideal S5x64 .f32) = P (Proc.devRef .tc Cert.ReferenceIdeal.main_arg13))

-- Arrays both programs compute by the same operations from the same arguments: the node and edge embeddings, the id rows, the summed messages.
include ha1 ha4 in
theorem lk_h :
    (W3 m ρ c (Proc.devRef .tc main_v7) : FVec Ideal S100000x64 .f32) = StableHlo.after Cert.ReferenceIdeal.Hand.pre P (Proc.devRef .tc Cert.ReferenceIdeal.main_v7) := by
  after_results_simp
  rewrite [ha1, ha4]
  exact rfl

include ha3 ha5 in
theorem lk_e :
    (W3 m ρ c (Proc.devRef .tc main_v15) : FVec Ideal S800000x64 .f32) = StableHlo.after Cert.ReferenceIdeal.Hand.pre P (Proc.devRef .tc Cert.ReferenceIdeal.main_v15) := by
  after_results_simp
  rewrite [ha3, ha5]
  exact rfl

include ha2 in
theorem lk_s :
    (W3 m ρ c (Proc.devRef .tc main_v17) : IVec S800000 32) = StableHlo.after Cert.ReferenceIdeal.Hand.pre P (Proc.devRef .tc Cert.ReferenceIdeal.main_v17) := by
  after_results_simp
  rewrite [ha2]
  exact rfl

include ha2 in
theorem lk_t :
    (W3 m ρ c (Proc.devRef .tc main_v19) : IVec S800000 32) = StableHlo.after Cert.ReferenceIdeal.Hand.pre P (Proc.devRef .tc Cert.ReferenceIdeal.main_v19) := by
  after_results_simp
  rewrite [ha2]
  exact rfl

include ha1 ha2 ha3 ha4 ha5 in
theorem lk_a :
    (W3 m ρ c (Proc.devRef .tc main_v31) : FVec Ideal S100000x64 .f32) = StableHlo.after (run 0 26) (StableHlo.after Cert.ReferenceIdeal.Hand.pre P) (Proc.devRef .tc Cert.ReferenceIdeal.main_v31) := by
  simp only [run, Cert.ReferenceIdeal.Hand.lay0, List.drop_succ_cons, List.drop_zero, List.take_succ_cons, List.take_zero]
  after_results_simp
  rewrite [ha1, ha2, ha3, ha4, ha5]
  try simp only [StableHlo.TRef.ofBuf, StableHlo.TRef.toBuf, cast_eq]
  exact rfl

-- The first block's output is the reference's first linear map.
include ha1 ha2 ha3 ha4 ha5 ha6 ha7 in
theorem stage1 :
    (W4 m ρ c (Proc.devRef .tc main_v37) : FVec Ideal S100000x128 .f32)
      = StableHlo.after (run 0 26) (StableHlo.after Cert.ReferenceIdeal.Hand.pre P) (Proc.devRef .tc Cert.ReferenceIdeal.main_v40) := by
  funext i
  obtain ⟨r, q, rfl⟩ : ∃ (r : Fin 100000) (q : Fin 128), i = ix2 r q := ⟨i 0, i 1, eq_ix2 i⟩
  have ew : (W3 m ρ c (Proc.devRef .tc main_v33) : FVec Ideal S64x128 .f32) = StableHlo.after (run 0 26) (StableHlo.after Cert.ReferenceIdeal.Hand.pre P) (Proc.devRef .tc Cert.ReferenceIdeal.main_v34) := by
    simp only [run, Cert.ReferenceIdeal.Hand.lay0, List.drop_succ_cons, List.drop_zero, List.take_succ_cons, List.take_zero]
    after_results_simp
    rewrite [ha6]
    exact rfl
  have eb : ∀ q : Fin 128, (W3 m ρ c (Proc.devRef .tc main_v36) : FVec Ideal S1x128 .f32) (ix2 (0 : Fin 1) q)
      = (StableHlo.after (run 0 26) (StableHlo.after Cert.ReferenceIdeal.Hand.pre P) (Proc.devRef .tc Cert.ReferenceIdeal.main_v37) : FVec Ideal Cert.ReferenceIdeal.S128 .f32) (ix1 q) := fun q => by
    simp only [run, Cert.ReferenceIdeal.Hand.lay0, List.drop_succ_cons, List.drop_zero, List.take_succ_cons, List.take_zero]
    after_results_simp
    rewrite [ha7]
    exact shapeCast_a_1a_apply _ _ (0 : Fin 1) q
  exact ((congrFun (W4_arr m ρ c 4) (ix2 r q)).trans (Cert.Gnn.Reg0.final (V3 m ρ) c r q)).trans
    ((alg1 _ _ _ _ _ _ _ _ (lk_h m ρ c P ha1 ha4) (lk_a m ρ c P ha1 ha2 ha3 ha4 ha5) ew eb r q).trans
      ((Cert.Gnn.R.lin1_apply _ _ _ _ r q).symm.trans (congrFun (ref1 _).symm (ix2 r q))))

-- The column statistics the kernel program keeps as one-row matrices.
theorem kB_mean : (W7 m ρ c (Proc.devRef .tc main_v41) : FVec Ideal S1x128 .f32)
    = Cert.Gnn.K.kmean128 (F := Ideal) (W4 m ρ c (Proc.devRef .tc main_v37) : FVec Ideal S100000x128 .f32) := by
  after_results_simp <;> exact rfl

theorem kB_var : (W7 m ρ c (Proc.devRef .tc main_v42) : FVec Ideal S1x128 .f32)
    = Cert.Gnn.K.kvar128 (F := Ideal) (W4 m ρ c (Proc.devRef .tc main_v37) : FVec Ideal S100000x128 .f32) := by
  after_results_simp <;> (try simp only [StableHlo.TRef.ofBuf, StableHlo.TRef.toBuf, cast_eq]) <;> exact rfl

theorem kC_mean : (W11 m ρ c (Proc.devRef .tc main_v58) : FVec Ideal S1x64 .f32)
    = Cert.Gnn.K.kmean64 (F := Ideal) (W8 m ρ c (Proc.devRef .tc main_v54) : FVec Ideal S100000x64 .f32) := by
  after_results_simp <;> exact rfl

theorem kC_var : (W11 m ρ c (Proc.devRef .tc main_v59) : FVec Ideal S1x64 .f32)
    = Cert.Gnn.K.kvar64 (F := Ideal) (W8 m ρ c (Proc.devRef .tc main_v54) : FVec Ideal S100000x64 .f32) := by
  after_results_simp <;> (try simp only [StableHlo.TRef.ofBuf, StableHlo.TRef.toBuf, cast_eq]) <;> exact rfl

-- The second block's output is the reference's second linear map, given the first and the arguments it reads.
theorem stage2 (Q : Valuation Cert.ReferenceIdeal.τ Cert.ReferenceIdeal.sig (Elt Ideal))
    (hu : (W4 m ρ c (Proc.devRef .tc main_v37) : FVec Ideal S100000x128 .f32) = Q (Proc.devRef .tc Cert.ReferenceIdeal.main_v40))
    (ha8 : (W4 m ρ c (Proc.devRef .tc main_arg8) : FVec Ideal S5x128 .f32) = Q (Proc.devRef .tc Cert.ReferenceIdeal.main_arg8))
    (ha9 : (W4 m ρ c (Proc.devRef .tc main_arg9) : FVec Ideal S5x128 .f32) = Q (Proc.devRef .tc Cert.ReferenceIdeal.main_arg9))
    (ha10 : (W4 m ρ c (Proc.devRef .tc main_arg10) : FVec Ideal S5x128x64 .f32) = Q (Proc.devRef .tc Cert.ReferenceIdeal.main_arg10))
    (ha11 : (W4 m ρ c (Proc.devRef .tc main_arg11) : FVec Ideal S5x64 .f32) = Q (Proc.devRef .tc Cert.ReferenceIdeal.main_arg11)) :
    (W8 m ρ c (Proc.devRef .tc main_v54) : FVec Ideal S100000x64 .f32) = StableHlo.after (run 26 59) Q (Proc.devRef .tc Cert.ReferenceIdeal.main_v72) := by
  funext i
  obtain ⟨r, q, rfl⟩ : ∃ (r : Fin 100000) (q : Fin 64), i = ix2 r q := ⟨i 0, i 1, eq_ix2 i⟩
  have eU : (W7 m ρ c (Proc.devRef .tc main_v37) : FVec Ideal S100000x128 .f32) = Q (Proc.devRef .tc Cert.ReferenceIdeal.main_v40) :=
    (k1W.2.keep3 _ main_v37 rfl).trans hu
  have eM : ∀ k : Fin 128, (W7 m ρ c (Proc.devRef .tc main_v41) : FVec Ideal S1x128 .f32) (ix2 (0 : Fin 1) k)
      = Cert.Gnn.R.mean128 (F := Ideal) (Q (Proc.devRef .tc Cert.ReferenceIdeal.main_v40) : FVec Ideal Cert.ReferenceIdeal.S100000x128 .f32) (ix1 k) := fun k =>
    (congrFun (kB_mean m ρ c) (ix2 (0 : Fin 1) k)).trans
      ((Cert.Gnn.K.kmean128_apply _ k).trans (congrFun (congrArg (Cert.Gnn.R.mean128 (F := Ideal)) hu) (ix1 k)))
  have eV : ∀ k : Fin 128, (W7 m ρ c (Proc.devRef .tc main_v42) : FVec Ideal S1x128 .f32) (ix2 (0 : Fin 1) k)
      = Cert.Gnn.R.var128 (F := Ideal) (Q (Proc.devRef .tc Cert.ReferenceIdeal.main_v40) : FVec Ideal Cert.ReferenceIdeal.S100000x128 .f32) (ix1 k) := fun k =>
    (congrFun (kB_var m ρ c) (ix2 (0 : Fin 1) k)).trans
      ((Cert.Gnn.K.kvar128_apply _ k).trans (congrFun (congrArg (Cert.Gnn.R.var128 (F := Ideal)) hu) (ix1 k)))
  have eG : ∀ k : Fin 128, (W7 m ρ c (Proc.devRef .tc main_v51) : FVec Ideal S1x128 .f32) (ix2 (0 : Fin 1) k)
      = (StableHlo.after (run 26 59) Q (Proc.devRef .tc Cert.ReferenceIdeal.main_v42) : FVec Ideal Cert.ReferenceIdeal.S128 .f32) (ix1 k) := fun k => by
    simp only [run, Cert.ReferenceIdeal.Hand.lay0, List.drop_succ_cons, List.drop_zero, List.take_succ_cons, List.take_zero]
    after_results_simp
    rewrite [ha8]
    exact shapeCast_a_1a_apply _ _ (0 : Fin 1) k
  have eS : ∀ k : Fin 128, (W7 m ρ c (Proc.devRef .tc main_v52) : FVec Ideal S1x128 .f32) (ix2 (0 : Fin 1) k)
      = (StableHlo.after (run 26 59) Q (Proc.devRef .tc Cert.ReferenceIdeal.main_v44) : FVec Ideal Cert.ReferenceIdeal.S128 .f32) (ix1 k) := fun k => by
    simp only [run, Cert.ReferenceIdeal.Hand.lay0, List.drop_succ_cons, List.drop_zero, List.take_succ_cons, List.take_zero]
    after_results_simp
    rewrite [ha9]
    exact shapeCast_a_1a_apply _ _ (0 : Fin 1) k
  have ew : (W7 m ρ c (Proc.devRef .tc main_v48) : FVec Ideal S128x64 .f32) = StableHlo.after (run 26 59) Q (Proc.devRef .tc Cert.ReferenceIdeal.main_v66) := by
    simp only [run, Cert.ReferenceIdeal.Hand.lay0, List.drop_succ_cons, List.drop_zero, List.take_succ_cons, List.take_zero]
    after_results_simp
    rewrite [ha10]
    exact rfl
  have eB : ∀ q : Fin 64, (W7 m ρ c (Proc.devRef .tc main_v53) : FVec Ideal S1x64 .f32) (ix2 (0 : Fin 1) q)
      = (StableHlo.after (run 26 59) Q (Proc.devRef .tc Cert.ReferenceIdeal.main_v69) : FVec Ideal Cert.ReferenceIdeal.S64 .f32) (ix1 q) := fun q => by
    simp only [run, Cert.ReferenceIdeal.Hand.lay0, List.drop_succ_cons, List.drop_zero, List.take_succ_cons, List.take_zero]
    after_results_simp
    rewrite [ha11]
    exact shapeCast_a_1a_apply _ _ (0 : Fin 1) q
  exact ((congrFun (W8_arr m ρ c 7) (ix2 r q)).trans (Cert.Gnn.Reg1.final (V7 m ρ) c r q)).trans
    ((alg2 _ _ _ _ _ _ _ _ _ _ _ _ _ _ eU eM eV eG eS ew eB r q).trans
      ((Cert.Gnn.R.stage2_apply _ _ _ _ _ r q).symm.trans (congrFun (ref2 Q).symm (ix2 r q))))

-- The third block's output is the layer's output, given the second linear map and the arguments it reads.
theorem stage3 (Q : Valuation Cert.ReferenceIdeal.τ Cert.ReferenceIdeal.sig (Elt Ideal))
    (hx : (W8 m ρ c (Proc.devRef .tc main_v54) : FVec Ideal S100000x64 .f32) = Q (Proc.devRef .tc Cert.ReferenceIdeal.main_v72))
    (ha12 : (W8 m ρ c (Proc.devRef .tc main_arg12) : FVec Ideal S5x64 .f32) = Q (Proc.devRef .tc Cert.ReferenceIdeal.main_arg12))
    (ha13 : (W8 m ρ c (Proc.devRef .tc main_arg13) : FVec Ideal S5x64 .f32) = Q (Proc.devRef .tc Cert.ReferenceIdeal.main_arg13)) :
    (W12 m ρ c (Proc.devRef .tc main_v66) : FVec Ideal S100000x64 .f32) = StableHlo.after (run 85 51) Q (Proc.devRef .tc Cert.ReferenceIdeal.main_v96) := by
  funext i
  obtain ⟨r, q, rfl⟩ : ∃ (r : Fin 100000) (q : Fin 64), i = ix2 r q := ⟨i 0, i 1, eq_ix2 i⟩
  have eX : (W11 m ρ c (Proc.devRef .tc main_v54) : FVec Ideal S100000x64 .f32) = Q (Proc.devRef .tc Cert.ReferenceIdeal.main_v72) :=
    (k2W.2.keep3 _ main_v54 rfl).trans hx
  have eM : ∀ k : Fin 64, (W11 m ρ c (Proc.devRef .tc main_v58) : FVec Ideal S1x64 .f32) (ix2 (0 : Fin 1) k)
      = Cert.Gnn.R.mean64 (F := Ideal) (Q (Proc.devRef .tc Cert.ReferenceIdeal.main_v72) : FVec Ideal Cert.ReferenceIdeal.S100000x64 .f32) (ix1 k) := fun k =>
    (congrFun (kC_mean m ρ c) (ix2 (0 : Fin 1) k)).trans
      ((Cert.Gnn.K.kmean64_apply _ k).trans (congrFun (congrArg (Cert.Gnn.R.mean64 (F := Ideal)) hx) (ix1 k)))
  have eV : ∀ k : Fin 64, (W11 m ρ c (Proc.devRef .tc main_v59) : FVec Ideal S1x64 .f32) (ix2 (0 : Fin 1) k)
      = Cert.Gnn.R.var64 (F := Ideal) (Q (Proc.devRef .tc Cert.ReferenceIdeal.main_v72) : FVec Ideal Cert.ReferenceIdeal.S100000x64 .f32) (ix1 k) := fun k =>
    (congrFun (kC_var m ρ c) (ix2 (0 : Fin 1) k)).trans
      ((Cert.Gnn.K.kvar64_apply _ k).trans (congrFun (congrArg (Cert.Gnn.R.var64 (F := Ideal)) hx) (ix1 k)))
  have eG : ∀ k : Fin 64, (W11 m ρ c (Proc.devRef .tc main_v64) : FVec Ideal S1x64 .f32) (ix2 (0 : Fin 1) k)
      = (StableHlo.after (run 85 51) Q (Proc.devRef .tc Cert.ReferenceIdeal.main_v74) : FVec Ideal Cert.ReferenceIdeal.S64 .f32) (ix1 k) := fun k => by
    simp only [run, Cert.ReferenceIdeal.Hand.lay0, List.drop_succ_cons, List.drop_zero, List.take_succ_cons, List.take_zero]
    after_results_simp
    rewrite [ha12]
    exact shapeCast_a_1a_apply _ _ (0 : Fin 1) k
  have eS : ∀ k : Fin 64, (W11 m ρ c (Proc.devRef .tc main_v65) : FVec Ideal S1x64 .f32) (ix2 (0 : Fin 1) k)
      = (StableHlo.after (run 85 51) Q (Proc.devRef .tc Cert.ReferenceIdeal.main_v76) : FVec Ideal Cert.ReferenceIdeal.S64 .f32) (ix1 k) := fun k => by
    simp only [run, Cert.ReferenceIdeal.Hand.lay0, List.drop_succ_cons, List.drop_zero, List.take_succ_cons, List.take_zero]
    after_results_simp
    rewrite [ha13]
    exact shapeCast_a_1a_apply _ _ (0 : Fin 1) k
  exact ((congrFun (W12_arr m ρ c 5) (ix2 r q)).trans (Cert.Gnn.Reg2.final (V11 m ρ) c r q)).trans
    ((alg3 _ _ _ _ _ _ _ _ _ _ eX eM eV eG eS r q).trans
      ((Cert.Gnn.R.stage3_relu_apply _ _ _ r q).symm.trans (congrFun (ref3 Q).symm (ix2 r q))))

-- The layer: the kernel program's buffers at the third block's exit are the reference's after the layer.
include ha1 ha2 ha3 ha4 ha5 ha6 ha7 ha8 ha9 ha10 ha11 ha12 ha13 in
theorem step0 :
    let P' := StableHlo.after Cert.ReferenceIdeal.Hand.lay0 (StableHlo.after Cert.ReferenceIdeal.Hand.pre P)
    (W12 m ρ c (Proc.devRef .tc main_v66) : FVec Ideal S100000x64 .f32) = P' (Proc.devRef .tc Cert.ReferenceIdeal.main_v96)
      ∧ (W12 m ρ c (Proc.devRef .tc main_v15) : FVec Ideal S800000x64 .f32) = P' (Proc.devRef .tc Cert.ReferenceIdeal.main_v15)
      ∧ (W12 m ρ c (Proc.devRef .tc main_v17) : IVec S800000 32) = P' (Proc.devRef .tc Cert.ReferenceIdeal.main_v17)
      ∧ (W12 m ρ c (Proc.devRef .tc main_v19) : IVec S800000 32) = P' (Proc.devRef .tc Cert.ReferenceIdeal.main_v19) := by
  intro P'
  have h2 := stage2 m ρ c _ (stage1 m ρ c P ha1 ha2 ha3 ha4 ha5 ha6 ha7)
    ((k4_back m ρ c main_arg8 (by decide) rfl).trans
      (ha8.trans ((run_keep 0 26 _ Cert.ReferenceIdeal.main_arg8 rfl).trans (preW.2.keep P Cert.ReferenceIdeal.main_arg8 rfl)).symm))
    ((k4_back m ρ c main_arg9 (by decide) rfl).trans
      (ha9.trans ((run_keep 0 26 _ Cert.ReferenceIdeal.main_arg9 rfl).trans (preW.2.keep P Cert.ReferenceIdeal.main_arg9 rfl)).symm))
    ((k4_back m ρ c main_arg10 (by decide) rfl).trans
      (ha10.trans ((run_keep 0 26 _ Cert.ReferenceIdeal.main_arg10 rfl).trans (preW.2.keep P Cert.ReferenceIdeal.main_arg10 rfl)).symm))
    ((k4_back m ρ c main_arg11 (by decide) rfl).trans
      (ha11.trans ((run_keep 0 26 _ Cert.ReferenceIdeal.main_arg11 rfl).trans (preW.2.keep P Cert.ReferenceIdeal.main_arg11 rfl)).symm))
  have h3 := stage3 m ρ c _ h2
    ((k8_back m ρ c main_arg12 (by decide) rfl).trans ((k4_back m ρ c main_arg12 (by decide) rfl).trans
      (ha12.trans ((run_keep 26 59 _ Cert.ReferenceIdeal.main_arg12 rfl).trans ((run_keep 0 26 _ Cert.ReferenceIdeal.main_arg12 rfl).trans (preW.2.keep P Cert.ReferenceIdeal.main_arg12 rfl))).symm)))
    ((k8_back m ρ c main_arg13 (by decide) rfl).trans ((k4_back m ρ c main_arg13 (by decide) rfl).trans
      (ha13.trans ((run_keep 26 59 _ Cert.ReferenceIdeal.main_arg13 rfl).trans ((run_keep 0 26 _ Cert.ReferenceIdeal.main_arg13 rfl).trans (preW.2.keep P Cert.ReferenceIdeal.main_arg13 rfl))).symm)))
  refine ⟨h3.trans (congrFun (after_lay0 _).symm _), ?_, ?_, ?_⟩
  · exact (k12_back m ρ c main_v15 (by decide) rfl).trans ((k8_back m ρ c main_v15 (by decide) rfl).trans
      ((W4_of_ne m ρ c main_v15 (by decide)).trans ((lk_e m ρ c P ha3 ha5).trans (lay0W.2.keep _ Cert.ReferenceIdeal.main_v15 rfl).symm)))
  · exact (k12_back m ρ c main_v17 (by decide) rfl).trans ((k8_back m ρ c main_v17 (by decide) rfl).trans
      ((W4_of_ne m ρ c main_v17 (by decide)).trans ((lk_s m ρ c P ha2).trans (lay0W.2.keep _ Cert.ReferenceIdeal.main_v17 rfl).symm)))
  · exact (k12_back m ρ c main_v19 (by decide) rfl).trans ((k8_back m ρ c main_v19 (by decide) rfl).trans
      ((W4_of_ne m ρ c main_v19 (by decide)).trans ((lk_t m ρ c P ha2).trans (lay0W.2.keep _ Cert.ReferenceIdeal.main_v19 rfl).symm)))

end Stages

end Cert.Gnn.Layer0

end
-- ==== Proof.Reg3.lean ====
import proofs.«419503_j34746285425415_3_alg».proof.Proof.Gen.KernelIdeal.Frame
import proofs.«419503_j34746285425415_3_alg».proof.Proof.Lin1

noncomputable section

namespace Cert.Gnn.Reg3

open Idealize.ShloMosaic Idealize.ShloMosaic.TcCoe Cert.KernelIdeal Cert.KernelIdeal.Gen Cert.Gnn.Lin1

export Cert.Gnn.Lin1 (lin1At_def)

variable (V : (c : Dev nD) → (b : Ref sig .tc) → Buf (Elt Ideal) ((c : Thread nD τ).loc b))

theorem idx : ∀ t : Fin cfg3.N, win3_0.index t = ![t.val, 0] ∧ win3_1.index t = ![t.val, 0] ∧ win3_2.index t = ![0, 0]
    ∧ win3_3.index t = ![0, 0] ∧ win3_4.index t = ![t.val, 0] :=
  (by decide +kernel : ∀ t : Fin grid3.N, _)

theorem final_at (c : Dev nD) (r : Fin 100000) (q : Fin 128) :
    (dat3 (F := Ideal) V c).arrAt 4 cfg3.N (ValueIdx.ix2 r q) = lin1At (V c main_v66) (V c main_v78) (V c main_v80) (V c main_v83) r q :=
  at_of_arr (Tile.arrAt_eq (dat3 V c) 4 _ flush3_4
    (fun t => (after3_4 V c t).trans (block_eq rfl (idx t) (win3_0.rect_emb_val t) (win3_1.rect_emb_val t) (win3_2.rect_emb_val t)
      (win3_3.rect_emb_val t) (win3_4.rect_emb_val t)))
    (Tile.cover (by decide) win3_4.rect_emb_val fun t => by rw [(idx t).2.2.2.2]; exact ⟨rfl, rfl⟩)) r q

end Cert.Gnn.Reg3
end
-- ==== Proof.Reg4.lean ====
import proofs.«419503_j34746285425415_3_alg».proof.Proof.Gen.KernelIdeal.Frame
import proofs.«419503_j34746285425415_3_alg».proof.Proof.Lin2

noncomputable section

namespace Cert.Gnn.Reg4

open Idealize.ShloMosaic Cert.KernelIdeal Cert.KernelIdeal.Gen Idealize.ShloMosaic.TcCoe Idealize.SL.Sem Idealize.ShloMosaic.ValueIdx Lin2

export Lin2 (lin2At_def)

variable (V : (c : Dev nD) → (b : Ref sig .tc) → Buf (Elt Ideal) ((c : Thread nD τ).loc b))

theorem idx : ∀ t : Fin cfg4.N, Idx t (win4_0.index t) (win4_1.index t) (win4_2.index t) (win4_3.index t) (win4_4.index t) (win4_5.index t) (win4_6.index t) (win4_7.index t) :=
  (by decide +kernel : ∀ t : Fin grid4.N, _)

theorem final_at (c : Dev nD) (r : Fin 100000) (q : Fin 64) :
    (dat4 (F := Ideal) V c).arrAt 7 cfg4.N (ix2 r q) = lin2At (V c main_v84) (V c main_v88) (V c main_v89) (V c main_v98) (V c main_v99) (V c main_v95) (V c main_v100) r q :=
  at_of_arr (Tile.arrAt_eq (dat4 V c) 7 _ flush4_7
    (fun t => (after4_7 V c t).trans (funext fun j => (block _ _ _ _ _ _ _ (idx t) (win4_0.rect_emb_val t) (win4_1.rect_emb_val t) (win4_2.rect_emb_val t) (win4_3.rect_emb_val t) (win4_4.rect_emb_val t) (win4_5.rect_emb_val t) (win4_6.rect_emb_val t) (win4_7.rect_emb_val t) j).symm))
    (Tile.cover (by decide) win4_7.rect_emb_val fun t => ⟨(idx t).1, (idx t).2.1⟩)) r q

end Cert.Gnn.Reg4

end
-- ==== Proof.Reg5.lean ====
import proofs.«419503_j34746285425415_3_alg».proof.Proof.Gen.KernelIdeal.Frame
import proofs.«419503_j34746285425415_3_alg».proof.Proof.Norm

noncomputable section

namespace Cert.Gnn.Reg5
open Idealize.ShloMosaic Idealize.ShloMosaic.TcCoe Idealize.SL.Sem Cert.KernelIdeal Cert.KernelIdeal.Gen
export Cert.Gnn.Norm (normAt normAt_def)

variable (V : (c : Dev nD) → (b : Ref sig .tc) → Buf (Elt Ideal) ((c : Thread nD τ).loc b))

theorem idx : ∀ t : Fin cfg5.N, Norm.Idx (win5_0.index t) (win5_1.index t) (win5_2.index t) (win5_3.index t) (win5_4.index t) (win5_5.index t) t :=
  (by decide +kernel : ∀ t : Fin grid5.N, _)

theorem final_at (c : Dev nD) (r : Fin 100000) (q : Fin 64) :
    (dat5 (F := Ideal) V c).arrAt 5 cfg5.N (ValueIdx.ix2 r q)
      = normAt (V c main_v101) (V c main_v105) (V c main_v106) (V c main_v111) (V c main_v112) r q :=
  congrFun (Tile.arrAt_eq (dat5 V c) 5 (Norm.arrOf Norm.relu (V c main_v101) (V c main_v105) (V c main_v106) (V c main_v111) (V c main_v112)) flush5_5
    (fun t => (after5_5 V c t).trans (Norm.blk_eq Norm.relu Pay.pay_norm_relu (win5_0.rect_emb_val t) (win5_1.rect_emb_val t) (win5_2.rect_emb_val t)
      (win5_3.rect_emb_val t) (win5_4.rect_emb_val t) (win5_5.rect_emb_val t) (idx t)))
    (Tile.cover (by decide) win5_5.rect_emb_val fun t => (idx t).2)) _

end Cert.Gnn.Reg5

end
-- ==== Proof.LayerT.lean ====
import proofs.«419503_j34746285425415_3_alg».proof.Proof.RefTerms
import proofs.«419503_j34746285425415_3_alg».proof.Proof.KStats
import Idealize.ShloMosaic.Lib.ValueLayout
import Idealize.ShloMosaic.Lib.StableHlo.Run

noncomputable section

namespace Cert.Gnn.Layer

open Idealize.ShloMosaic Idealize.SL.Sem Cert.ReferenceIdeal ValueIdx
open Cert.ReferenceIdeal.Facts₀ Cert.ReferenceIdeal.Facts

variable [Cert.ReferenceIdeal.Facts]

abbrev RVal := Valuation Cert.ReferenceIdeal.τ Cert.ReferenceIdeal.sig (Elt Ideal)

-- A run of operations is the run of its first a, then of the next b, then of the rest.
theorem after_cut (l : List (HloOp Cert.ReferenceIdeal.τ Cert.ReferenceIdeal.sig (Elt Ideal))) (a b : ℕ) (P : RVal) :
    StableHlo.after l P = StableHlo.after ((l.drop a).drop b) (StableHlo.after ((l.drop a).take b) (StableHlo.after (l.take a) P)) := by
  rw [← StableHlo.after_append, ← StableHlo.after_append, List.take_append_drop, List.take_append_drop]

-- The rectified sums of source rows (a negative id counted from the end) and edge features, added up at the target ids.
def agg (h : FVec Ideal S100000x64 .f32) (ea : FVec Ideal S800000x64 .f32) (src dst : IVec S800000 32) :
    FVec Ideal S100000x64 .f32 :=
  Host.scatterAdd scatter_S100000x64_S800000x1_S800000x64_1_0_0_1
    (broadcastInDim S100000x64 ![] bcast_S_S100000x64 (constant S_ .f32 0x00000000#32))
    (broadcastInDim S800000x1 ![0] bcast_S800000_S800000x1_0 dst)
    (maximumf
      (addf
        (Host.gather gather_S100000x64_S800000x1_S800000x64_1_0_n_n_0_1_164 h
          (broadcastInDim S800000x1 ![0] bcast_S800000_S800000x1_0
            (select (cmpi .slt src (broadcastInDim S800000 ![] bcast_S_S800000 (constantI S_ 32 0#32)))
              (addi src (broadcastInDim S800000 ![] bcast_S_S800000 (constantI S_ 32 100000#32))) src)))
        ea)
      (broadcastInDim S800000x64 ![] bcast_S_S800000x64 (constant S_ .f32 0x00000000#32)))

variable (k : Fin 5)

-- Row k of each of the four kinds of stacked parameter table.
def mat1 (a : FVec Ideal S5x64x128 .f32) : FVec Ideal S64x128 .f32 :=
  shapeCast S64x128 (extractStridedSlice S1x64x128 ![k.val, 0, 0] a (by revert k; decide)) shapeCasts_S1x64x128_S64x128
def vec128 (a : FVec Ideal S5x128 .f32) : FVec Ideal S128 .f32 :=
  shapeCast S128 (extractStridedSlice S1x128 ![k.val, 0] a (by revert k; decide)) shapeCasts_S1x128_S128
def mat2 (a : FVec Ideal S5x128x64 .f32) : FVec Ideal S128x64 .f32 :=
  shapeCast S128x64 (extractStridedSlice S1x128x64 ![k.val, 0, 0] a (by revert k; decide)) shapeCasts_S1x128x64_S128x64
def vec64 (a : FVec Ideal S5x64 .f32) : FVec Ideal S64 .f32 :=
  shapeCast S64 (extractStridedSlice S1x64 ![k.val, 0] a (by revert k; decide)) shapeCasts_S1x64_S64

def lin1Step (h : FVec Ideal S100000x64 .f32) (ea : FVec Ideal S800000x64 .f32) (src dst : IVec S800000 32)
    (a6 : FVec Ideal S5x64x128 .f32) (a7 : FVec Ideal S5x128 .f32) : FVec Ideal S100000x128 .f32 :=
  R.lin1 (addf h (agg h ea src dst)) (mat1 k a6) (vec128 k a7)

def lin2Step (u : FVec Ideal S100000x128 .f32) (a8 a9 : FVec Ideal S5x128 .f32) (a10 : FVec Ideal S5x128x64 .f32)
    (a11 : FVec Ideal S5x64 .f32) : FVec Ideal S100000x64 .f32 :=
  R.lin2 (R.relu128 (R.bn128 u (R.mean128 u) (R.var128 u) (vec128 k a8) (vec128 k a9))) (mat2 k a10) (vec64 k a11)

def outStep (x : FVec Ideal S100000x64 .f32) (a12 a13 : FVec Ideal S5x64 .f32) : FVec Ideal S100000x64 .f32 :=
  R.relu64 (R.bn64 x (R.mean64 x) (R.var64 x) (vec64 k a12) (vec64 k a13))

-- A middle layer of the network, reading row k of the parameter tables.
def layer (h : FVec Ideal S100000x64 .f32) (ea : FVec Ideal S800000x64 .f32) (src dst : IVec S800000 32)
    (a6 : FVec Ideal S5x64x128 .f32) (a7 a8 a9 : FVec Ideal S5x128 .f32) (a10 : FVec Ideal S5x128x64 .f32)
    (a11 a12 a13 : FVec Ideal S5x64 .f32) : FVec Ideal S100000x64 .f32 :=
  outStep k (lin2Step k (lin1Step k h ea src dst a6 a7) a8 a9 a10 a11) a12 a13

variable [Cert.KernelIdeal.Facts]

abbrev row128 (v : FVec Ideal S128 .f32) : FVec Ideal S1x128 .f32 := shapeCast S1x128 v Cert.KernelIdeal.Facts₀.shapeCasts_S128_S1x128
abbrev row64 (v : FVec Ideal S64 .f32) : FVec Ideal S1x64 .f32 := shapeCast S1x64 v Cert.KernelIdeal.Facts₀.shapeCasts_S64_S1x64

-- A vector laid as a one-row matrix is read in that row as the vector.
theorem row_at {n : ℕ} (v : (⟨1, ![n]⟩ : Shape).Idx → EReal) (h : (⟨1, ![n]⟩ : Shape).ShapeCasts ⟨2, ![1, n]⟩) :
    at2 (shapeCast ⟨2, ![1, n]⟩ v h) 0 = at1 v := funext (shapeCast_a_1a_apply v h 0)

-- Two matrices equal at every row and column are equal.
theorem ext2 {n0 n1 : ℕ} {f g : (⟨2, ![n0, n1]⟩ : Shape).Idx → EReal} (h : ∀ r q, f (ix2 r q) = g (ix2 r q)) : f = g :=
  funext fun i => by obtain ⟨r, q, rfl⟩ : ∃ r q, i = ix2 r q := ⟨i 0, i 1, eq_ix2 i⟩; exact h r q

-- The three steps' entries at row r and column q, the column statistics and the parameter rows taken as one-row matrices.
abbrev step1At (h : FVec Ideal S100000x64 .f32) (ea : FVec Ideal S800000x64 .f32) (src dst : IVec S800000 32)
    (a6 : FVec Ideal S5x64x128 .f32) (a7 : FVec Ideal S5x128 .f32) (r : Fin 100000) (q : Fin 128) : EReal :=
  lin1 (at2 h) (at2 (agg h ea src dst)) (at2 (mat1 k a6)) (at2 (row128 (vec128 k a7)) 0) r q
abbrev step2At (u : FVec Ideal S100000x128 .f32) (a8 a9 : FVec Ideal S5x128 .f32) (a10 : FVec Ideal S5x128x64 .f32)
    (a11 : FVec Ideal S5x64 .f32) (r : Fin 100000) (q : Fin 64) : EReal :=
  lin2 (at2 u) (at2 (K.kmean128 (F := Ideal) u) 0) (at2 (K.kvar128 (F := Ideal) u) 0) (at2 (row128 (vec128 k a8)) 0)
    (at2 (row128 (vec128 k a9)) 0) (at2 (mat2 k a10)) (at2 (row64 (vec64 k a11)) 0) r q
abbrev step3At (x : FVec Ideal S100000x64 .f32) (a12 a13 : FVec Ideal S5x64 .f32) (r : Fin 100000) (q : Fin 64) : EReal :=
  fin3 true (at2 x) (at2 (K.kmean64 (F := Ideal) x) 0) (at2 (K.kvar64 (F := Ideal) x) 0) (at2 (row64 (vec64 k a12)) 0)
    (at2 (row64 (vec64 k a13)) 0) r q

-- Three arrays with these entries are the layer's three steps.
theorem layer_of_at {h : FVec Ideal S100000x64 .f32} {ea : FVec Ideal S800000x64 .f32} {src dst : IVec S800000 32}
    {a6 : FVec Ideal S5x64x128 .f32} {a7 a8 a9 : FVec Ideal S5x128 .f32} {a10 : FVec Ideal S5x128x64 .f32}
    {a11 a12 a13 : FVec Ideal S5x64 .f32} {u : FVec Ideal S100000x128 .f32} {x y : FVec Ideal S100000x64 .f32}
    (hu : ∀ r q, u (ix2 r q) = step1At k h ea src dst a6 a7 r q) (hx : ∀ r q, x (ix2 r q) = step2At k u a8 a9 a10 a11 r q)
    (hy : ∀ r q, y (ix2 r q) = step3At k x a12 a13 r q) :
    y = layer k h ea src dst a6 a7 a8 a9 a10 a11 a12 a13 := by
  have e1 : u = lin1Step k h ea src dst a6 a7 := by
    refine ext2 fun r q => ?_
    rw [hu, step1At, row_at]
    exact (R.lin1_apply _ _ _ _ _ _).symm
  have e2 : x = lin2Step k u a8 a9 a10 a11 := by
    refine ext2 fun r q => ?_
    rw [hx, step2At, row_at, row_at, row_at, show at2 (K.kmean128 (F := Ideal) u) 0 = _ from funext (K.kmean128_apply u),
      show at2 (K.kvar128 (F := Ideal) u) 0 = _ from funext (K.kvar128_apply u)]
    exact (R.stage2_apply _ _ _ _ _ _ _).symm
  refine ext2 fun r q => ?_
  rw [hy, step3At, row_at, row_at, show at2 (K.kmean64 (F := Ideal) x) 0 = _ from funext (K.kmean64_apply x),
    show at2 (K.kvar64 (F := Ideal) x) 0 = _ from funext (K.kvar64_apply x), layer, ← e1, ← e2]
  exact (R.stage3_relu_apply _ _ _ _ _).symm

end Cert.Gnn.Layer

end
-- ==== Proof.Layer1R.lean ====
import proofs.«419503_j34746285425415_3_alg».proof.Proof.RefOps
import proofs.«419503_j34746285425415_3_alg».proof.Proof.LayerT
import Idealize.ShloMosaic.Lib.Pipeline.Frame

noncomputable section

namespace Cert.Gnn.Layer1

open Idealize.ShloMosaic Idealize.SL.Sem
open Cert.ReferenceIdeal Cert.ReferenceIdeal.Hand Cert.Gnn.Layer
open Cert.ReferenceIdeal.Facts₀ Cert.ReferenceIdeal.Facts

variable [Cert.ReferenceIdeal.Facts]

-- The reference's operations up to the first map's result compute the first step.
theorem ref1 (P : RVal) :
    (StableHlo.after (List.take 26 lay1) P (Proc.devRef .tc main_v117) : FVec Ideal S100000x128 .f32)
      = lin1Step 1 (P (Proc.devRef .tc main_v96)) (P (Proc.devRef .tc main_v15)) (P (Proc.devRef .tc main_v17)) (P (Proc.devRef .tc main_v19)) (P (Proc.devRef .tc main_arg6)) (P (Proc.devRef .tc main_arg7)) := by
  simp only [lay1, List.take_succ_cons, List.take_zero]
  after_results_simp <;> (try simp only [StableHlo.TRef.ofBuf, StableHlo.TRef.toBuf, cast_eq]) <;> rfl

-- The next ones, up to the second map's result, compute the second step.
theorem ref2 (Q : RVal) :
    (StableHlo.after (List.take 59 (List.drop 26 lay1)) Q (Proc.devRef .tc main_v149) : FVec Ideal S100000x64 .f32)
      = lin2Step 1 (Q (Proc.devRef .tc main_v117)) (Q (Proc.devRef .tc main_arg8)) (Q (Proc.devRef .tc main_arg9)) (Q (Proc.devRef .tc main_arg10)) (Q (Proc.devRef .tc main_arg11)) := by
  simp only [lay1, List.drop_succ_cons, List.drop_zero, List.take_succ_cons, List.take_zero]
  after_results_simp <;> (try simp only [StableHlo.TRef.ofBuf, StableHlo.TRef.toBuf, cast_eq]) <;> rfl

-- The remaining ones compute the third step.
theorem ref3 (Q : RVal) :
    (StableHlo.after (List.drop 59 (List.drop 26 lay1)) Q (Proc.devRef .tc main_v173) : FVec Ideal S100000x64 .f32)
      = outStep 1 (Q (Proc.devRef .tc main_v149)) (Q (Proc.devRef .tc main_arg12)) (Q (Proc.devRef .tc main_arg13)) := by
  simp only [lay1, List.drop_succ_cons, List.drop_zero]
  after_results_simp <;> (try simp only [StableHlo.TRef.ofBuf, StableHlo.TRef.toBuf, cast_eq]) <;> rfl

-- No operation of the layer writes a parameter table, so the three steps read the tables as found.
theorem ref_layer (P : RVal) :
    (StableHlo.after lay1 P (Proc.devRef .tc main_v173) : FVec Ideal S100000x64 .f32)
      = layer 1 (P (Proc.devRef .tc main_v96)) (P (Proc.devRef .tc main_v15)) (P (Proc.devRef .tc main_v17)) (P (Proc.devRef .tc main_v19)) (P (Proc.devRef .tc main_arg6)) (P (Proc.devRef .tc main_arg7)) (P (Proc.devRef .tc main_arg8)) (P (Proc.devRef .tc main_arg9)) (P (Proc.devRef .tc main_arg10)) (P (Proc.devRef .tc main_arg11)) (P (Proc.devRef .tc main_arg12)) (P (Proc.devRef .tc main_arg13)) := by
  rw [after_cut lay1 26 59 P, ref3, ref2, ref1]
  simp only [lay1, List.take_succ_cons, List.take_zero, List.drop_succ_cons, List.drop_zero]
  after_results_simp
  rfl

end Cert.Gnn.Layer1

end
-- ==== Proof.Layer1.lean ====
import proofs.«419503_j34746285425415_3_alg».proof.Proof.Gen.KernelIdeal.Frame
import proofs.«419503_j34746285425415_3_alg».proof.Proof.Reg3
import proofs.«419503_j34746285425415_3_alg».proof.Proof.Reg4
import proofs.«419503_j34746285425415_3_alg».proof.Proof.Reg5
import proofs.«419503_j34746285425415_3_alg».proof.Proof.Layer1R

noncomputable section

namespace Cert.Gnn.Layer1

open Idealize.ShloMosaic Idealize.ShloMosaic.TcCoe Idealize.SL.Sem
open Cert.KernelIdeal Cert.KernelIdeal.Gen Cert.Gnn.Layer
open ValueIdx

variable [Cert.KernelIdeal.Facts] [Cert.ReferenceIdeal.Facts]
variable (m : (ℓ : Loc nD τ sig) → Buf (Elt Ideal) ℓ) (ρ : Dev nD → PrngReg) (c : Dev nD)

-- Each tiled map's result is, entry by entry, its step's formula of what the host operations before it leave in its operands; nothing on the way writes a parameter table.
theorem stage1 (r : Fin 100000) (q : Fin 128) : (W16 m ρ c (Proc.devRef .tc main_v84) : FVec Ideal S100000x128 .f32) (ix2 r q)
    = step1At 1 (W12 m ρ c (Proc.devRef .tc main_v66)) (W12 m ρ c (Proc.devRef .tc main_v15)) (W12 m ρ c (Proc.devRef .tc main_v17)) (W12 m ρ c (Proc.devRef .tc main_v19)) (W12 m ρ c (Proc.devRef .tc main_arg6)) (W12 m ρ c (Proc.devRef .tc main_arg7)) r q := by
  refine ((congrFun (W16_arr m ρ c 4) _).trans (Reg3.final_at (V15 m ρ) c r q)).trans ?_
  rw [Reg3.lin1At_def]
  dsimp only [V15, W15, W14, W13]
  after_results_simp <;> (try simp only [StableHlo.TRef.ofBuf, StableHlo.TRef.toBuf, cast_eq]) <;> rfl

theorem stage2 (r : Fin 100000) (q : Fin 64) : (W20 m ρ c (Proc.devRef .tc main_v101) : FVec Ideal S100000x64 .f32) (ix2 r q)
    = step2At 1 (W16 m ρ c (Proc.devRef .tc main_v84)) (W12 m ρ c (Proc.devRef .tc main_arg8)) (W12 m ρ c (Proc.devRef .tc main_arg9)) (W12 m ρ c (Proc.devRef .tc main_arg10)) (W12 m ρ c (Proc.devRef .tc main_arg11)) r q := by
  refine ((congrFun (W20_arr m ρ c 7) _).trans (Reg4.final_at (V19 m ρ) c r q)).trans ?_
  rw [Reg4.lin2At_def]
  dsimp only [V19, W19, W18, W17]
  after_results_simp
  rw [W16_of_ne m ρ c main_arg8 (by decide), W16_of_ne m ρ c main_arg9 (by decide), W16_of_ne m ρ c main_arg10 (by decide), W16_of_ne m ρ c main_arg11 (by decide)]
  dsimp only [W15, W14, W13]
  after_results_simp
  rfl

theorem stage3 (r : Fin 100000) (q : Fin 64) : (W24 m ρ c (Proc.devRef .tc main_v113) : FVec Ideal S100000x64 .f32) (ix2 r q)
    = step3At 1 (W20 m ρ c (Proc.devRef .tc main_v101)) (W12 m ρ c (Proc.devRef .tc main_arg12)) (W12 m ρ c (Proc.devRef .tc main_arg13)) r q := by
  refine ((congrFun (W24_arr m ρ c 5) _).trans (Reg5.final_at (V23 m ρ) c r q)).trans ?_
  rw [Reg5.normAt_def]
  dsimp only [V23, W23, W22, W21]
  after_results_simp
  rw [W20_of_ne m ρ c main_arg12 (by decide), W20_of_ne m ρ c main_arg13 (by decide)]
  dsimp only [W19, W18, W17]
  after_results_simp
  rw [W16_of_ne m ρ c main_arg12 (by decide), W16_of_ne m ρ c main_arg13 (by decide)]
  dsimp only [W15, W14, W13]
  after_results_simp
  rfl

-- Both programs hold the layer's one function of arguments that agree at the layer's entry.
theorem step1 (P : Valuation Cert.ReferenceIdeal.τ Cert.ReferenceIdeal.sig (Elt Ideal))
    (hh : (W12 m ρ c (Proc.devRef .tc main_v66) : FVec Ideal S100000x64 .f32) = P (Proc.devRef .tc Cert.ReferenceIdeal.main_v96))
    (hea : (W12 m ρ c (Proc.devRef .tc main_v15) : FVec Ideal S800000x64 .f32) = P (Proc.devRef .tc Cert.ReferenceIdeal.main_v15))
    (hsrc : (W12 m ρ c (Proc.devRef .tc main_v17) : IVec S800000 32) = P (Proc.devRef .tc Cert.ReferenceIdeal.main_v17))
    (hdst : (W12 m ρ c (Proc.devRef .tc main_v19) : IVec S800000 32) = P (Proc.devRef .tc Cert.ReferenceIdeal.main_v19))
    (ha6 : (W12 m ρ c (Proc.devRef .tc main_arg6) : FVec Ideal S5x64x128 .f32) = P (Proc.devRef .tc Cert.ReferenceIdeal.main_arg6))
    (ha7 : (W12 m ρ c (Proc.devRef .tc main_arg7) : FVec Ideal S5x128 .f32) = P (Proc.devRef .tc Cert.ReferenceIdeal.main_arg7))
    (ha8 : (W12 m ρ c (Proc.devRef .tc main_arg8) : FVec Ideal S5x128 .f32) = P (Proc.devRef .tc Cert.ReferenceIdeal.main_arg8))
    (ha9 : (W12 m ρ c (Proc.devRef .tc main_arg9) : FVec Ideal S5x128 .f32) = P (Proc.devRef .tc Cert.ReferenceIdeal.main_arg9))
    (ha10 : (W12 m ρ c (Proc.devRef .tc main_arg10) : FVec Ideal S5x128x64 .f32) = P (Proc.devRef .tc Cert.ReferenceIdeal.main_arg10))
    (ha11 : (W12 m ρ c (Proc.devRef .tc main_arg11) : FVec Ideal S5x64 .f32) = P (Proc.devRef .tc Cert.ReferenceIdeal.main_arg11))
    (ha12 : (W12 m ρ c (Proc.devRef .tc main_arg12) : FVec Ideal S5x64 .f32) = P (Proc.devRef .tc Cert.ReferenceIdeal.main_arg12))
    (ha13 : (W12 m ρ c (Proc.devRef .tc main_arg13) : FVec Ideal S5x64 .f32) = P (Proc.devRef .tc Cert.ReferenceIdeal.main_arg13)) :
    (W24 m ρ c (Proc.devRef .tc main_v113) : FVec Ideal S100000x64 .f32)
      = StableHlo.after Cert.ReferenceIdeal.Hand.lay1 P (Proc.devRef .tc Cert.ReferenceIdeal.main_v173) := by
  rw [ref_layer P, ← hh, ← hea, ← hsrc, ← hdst, ← ha6, ← ha7, ← ha8, ← ha9, ← ha10, ← ha11, ← ha12, ← ha13]
  exact layer_of_at 1 (stage1 m ρ c) (stage2 m ρ c) (stage3 m ρ c)

end Cert.Gnn.Layer1

end
-- ==== Proof.Reg6.lean ====
import proofs.«419503_j34746285425415_3_alg».proof.Proof.Gen.KernelIdeal.Frame
import proofs.«419503_j34746285425415_3_alg».proof.Proof.Lin1

noncomputable section

namespace Cert.Gnn.Reg6

open Idealize.ShloMosaic Idealize.ShloMosaic.TcCoe Cert.KernelIdeal Cert.KernelIdeal.Gen Cert.Gnn.Lin1

export Cert.Gnn.Lin1 (lin1At_def)

variable (V : (c : Dev nD) → (b : Ref sig .tc) → Buf (Elt Ideal) ((c : Thread nD τ).loc b))

theorem idx : ∀ t : Fin cfg6.N, win6_0.index t = ![t.val, 0] ∧ win6_1.index t = ![t.val, 0] ∧ win6_2.index t = ![0, 0]
    ∧ win6_3.index t = ![0, 0] ∧ win6_4.index t = ![t.val, 0] :=
  (by decide +kernel : ∀ t : Fin grid6.N, _)

theorem final_at (c : Dev nD) (r : Fin 100000) (q : Fin 128) :
    (dat6 (F := Ideal) V c).arrAt 4 cfg6.N (ValueIdx.ix2 r q) = lin1At (V c main_v113) (V c main_v125) (V c main_v127) (V c main_v130) r q :=
  at_of_arr (Tile.arrAt_eq (dat6 V c) 4 _ flush6_4
    (fun t => (after6_4 V c t).trans (block_eq rfl (idx t) (win6_0.rect_emb_val t) (win6_1.rect_emb_val t) (win6_2.rect_emb_val t)
      (win6_3.rect_emb_val t) (win6_4.rect_emb_val t)))
    (Tile.cover (by decide) win6_4.rect_emb_val fun t => by rw [(idx t).2.2.2.2]; exact ⟨rfl, rfl⟩)) r q

end Cert.Gnn.Reg6
end
-- ==== Proof.Reg7.lean ====
import proofs.«419503_j34746285425415_3_alg».proof.Proof.Gen.KernelIdeal.Frame
import proofs.«419503_j34746285425415_3_alg».proof.Proof.Lin2

noncomputable section

namespace Cert.Gnn.Reg7

open Idealize.ShloMosaic Cert.KernelIdeal Cert.KernelIdeal.Gen Idealize.ShloMosaic.TcCoe Idealize.SL.Sem Idealize.ShloMosaic.ValueIdx Lin2

export Lin2 (lin2At_def)

variable (V : (c : Dev nD) → (b : Ref sig .tc) → Buf (Elt Ideal) ((c : Thread nD τ).loc b))

theorem idx : ∀ t : Fin cfg7.N, Idx t (win7_0.index t) (win7_1.index t) (win7_2.index t) (win7_3.index t) (win7_4.index t) (win7_5.index t) (win7_6.index t) (win7_7.index t) :=
  (by decide +kernel : ∀ t : Fin grid7.N, _)

theorem final_at (c : Dev nD) (r : Fin 100000) (q : Fin 64) :
    (dat7 (F := Ideal) V c).arrAt 7 cfg7.N (ix2 r q) = lin2At (V c main_v131) (V c main_v135) (V c main_v136) (V c main_v145) (V c main_v146) (V c main_v142) (V c main_v147) r q :=
  at_of_arr (Tile.arrAt_eq (dat7 V c) 7 _ flush7_7
    (fun t => (after7_7 V c t).trans (funext fun j => (block _ _ _ _ _ _ _ (idx t) (win7_0.rect_emb_val t) (win7_1.rect_emb_val t) (win7_2.rect_emb_val t) (win7_3.rect_emb_val t) (win7_4.rect_emb_val t) (win7_5.rect_emb_val t) (win7_6.rect_emb_val t) (win7_7.rect_emb_val t) j).symm))
    (Tile.cover (by decide) win7_7.rect_emb_val fun t => ⟨(idx t).1, (idx t).2.1⟩)) r q

end Cert.Gnn.Reg7

end
-- ==== Proof.Reg8.lean ====
import proofs.«419503_j34746285425415_3_alg».proof.Proof.Gen.KernelIdeal.Frame
import proofs.«419503_j34746285425415_3_alg».proof.Proof.Norm

noncomputable section

namespace Cert.Gnn.Reg8
open Idealize.ShloMosaic Idealize.ShloMosaic.TcCoe Idealize.SL.Sem Cert.KernelIdeal Cert.KernelIdeal.Gen
export Cert.Gnn.Norm (normAt normAt_def)

variable (V : (c : Dev nD) → (b : Ref sig .tc) → Buf (Elt Ideal) ((c : Thread nD τ).loc b))

theorem idx : ∀ t : Fin cfg8.N, Norm.Idx (win8_0.index t) (win8_1.index t) (win8_2.index t) (win8_3.index t) (win8_4.index t) (win8_5.index t) t :=
  (by decide +kernel : ∀ t : Fin grid8.N, _)

theorem final_at (c : Dev nD) (r : Fin 100000) (q : Fin 64) :
    (dat8 (F := Ideal) V c).arrAt 5 cfg8.N (ValueIdx.ix2 r q)
      = normAt (V c main_v148) (V c main_v152) (V c main_v153) (V c main_v158) (V c main_v159) r q :=
  congrFun (Tile.arrAt_eq (dat8 V c) 5 (Norm.arrOf Norm.relu (V c main_v148) (V c main_v152) (V c main_v153) (V c main_v158) (V c main_v159)) flush8_5
    (fun t => (after8_5 V c t).trans (Norm.blk_eq Norm.relu Pay.pay_norm_relu (win8_0.rect_emb_val t) (win8_1.rect_emb_val t) (win8_2.rect_emb_val t)
      (win8_3.rect_emb_val t) (win8_4.rect_emb_val t) (win8_5.rect_emb_val t) (idx t)))
    (Tile.cover (by decide) win8_5.rect_emb_val fun t => (idx t).2)) _

end Cert.Gnn.Reg8

end
-- ==== Proof.Layer2R.lean ====
import proofs.«419503_j34746285425415_3_alg».proof.Proof.RefOps
import proofs.«419503_j34746285425415_3_alg».proof.Proof.LayerT
import Idealize.ShloMosaic.Lib.Pipeline.Frame

noncomputable section

namespace Cert.Gnn.Layer2

open Idealize.ShloMosaic Idealize.SL.Sem
open Cert.ReferenceIdeal Cert.ReferenceIdeal.Hand Cert.Gnn.Layer
open Cert.ReferenceIdeal.Facts₀ Cert.ReferenceIdeal.Facts

variable [Cert.ReferenceIdeal.Facts]

-- The reference's operations up to the first map's result compute the first step.
theorem ref1 (P : RVal) :
    (StableHlo.after (List.take 26 lay2) P (Proc.devRef .tc main_v194) : FVec Ideal S100000x128 .f32)
      = lin1Step 2 (P (Proc.devRef .tc main_v173)) (P (Proc.devRef .tc main_v15)) (P (Proc.devRef .tc main_v17)) (P (Proc.devRef .tc main_v19)) (P (Proc.devRef .tc main_arg6)) (P (Proc.devRef .tc main_arg7)) := by
  simp only [lay2, List.take_succ_cons, List.take_zero]
  after_results_simp <;> (try simp only [StableHlo.TRef.ofBuf, StableHlo.TRef.toBuf, cast_eq]) <;> rfl

-- The next ones, up to the second map's result, compute the second step.
theorem ref2 (Q : RVal) :
    (StableHlo.after (List.take 59 (List.drop 26 lay2)) Q (Proc.devRef .tc main_v226) : FVec Ideal S100000x64 .f32)
      = lin2Step 2 (Q (Proc.devRef .tc main_v194)) (Q (Proc.devRef .tc main_arg8)) (Q (Proc.devRef .tc main_arg9)) (Q (Proc.devRef .tc main_arg10)) (Q (Proc.devRef .tc main_arg11)) := by
  simp only [lay2, List.drop_succ_cons, List.drop_zero, List.take_succ_cons, List.take_zero]
  after_results_simp <;> (try simp only [StableHlo.TRef.ofBuf, StableHlo.TRef.toBuf, cast_eq]) <;> rfl

-- The remaining ones compute the third step.
theorem ref3 (Q : RVal) :
    (StableHlo.after (List.drop 59 (List.drop 26 lay2)) Q (Proc.devRef .tc main_v250) : FVec Ideal S100000x64 .f32)
      = outStep 2 (Q (Proc.devRef .tc main_v226)) (Q (Proc.devRef .tc main_arg12)) (Q (Proc.devRef .tc main_arg13)) := by
  simp only [lay2, List.drop_succ_cons, List.drop_zero]
  after_results_simp <;> (try simp only [StableHlo.TRef.ofBuf, StableHlo.TRef.toBuf, cast_eq]) <;> rfl

-- No operation of the layer writes a parameter table, so the three steps read the tables as found.
theorem ref_layer (P : RVal) :
    (StableHlo.after lay2 P (Proc.devRef .tc main_v250) : FVec Ideal S100000x64 .f32)
      = layer 2 (P (Proc.devRef .tc main_v173)) (P (Proc.devRef .tc main_v15)) (P (Proc.devRef .tc main_v17)) (P (Proc.devRef .tc main_v19)) (P (Proc.devRef .tc main_arg6)) (P (Proc.devRef .tc main_arg7)) (P (Proc.devRef .tc main_arg8)) (P (Proc.devRef .tc main_arg9)) (P (Proc.devRef .tc main_arg10)) (P (Proc.devRef .tc main_arg11)) (P (Proc.devRef .tc main_arg12)) (P (Proc.devRef .tc main_arg13)) := by
  rw [after_cut lay2 26 59 P, ref3, ref2, ref1]
  simp only [lay2, List.take_succ_cons, List.take_zero, List.drop_succ_cons, List.drop_zero]
  after_results_simp
  rfl

end Cert.Gnn.Layer2

end
-- ==== Proof.Layer2.lean ====
import proofs.«419503_j34746285425415_3_alg».proof.Proof.Gen.KernelIdeal.Frame
import proofs.«419503_j34746285425415_3_alg».proof.Proof.Reg6
import proofs.«419503_j34746285425415_3_alg».proof.Proof.Reg7
import proofs.«419503_j34746285425415_3_alg».proof.Proof.Reg8
import proofs.«419503_j34746285425415_3_alg».proof.Proof.Layer2R

noncomputable section

namespace Cert.Gnn.Layer2

open Idealize.ShloMosaic Idealize.ShloMosaic.TcCoe Idealize.SL.Sem
open Cert.KernelIdeal Cert.KernelIdeal.Gen Cert.Gnn.Layer
open ValueIdx

variable [Cert.KernelIdeal.Facts] [Cert.ReferenceIdeal.Facts]
variable (m : (ℓ : Loc nD τ sig) → Buf (Elt Ideal) ℓ) (ρ : Dev nD → PrngReg) (c : Dev nD)

-- Each tiled map's result is, entry by entry, its step's formula of what the host operations before it leave in its operands; nothing on the way writes a parameter table.
theorem stage1 (r : Fin 100000) (q : Fin 128) : (W28 m ρ c (Proc.devRef .tc main_v131) : FVec Ideal S100000x128 .f32) (ix2 r q)
    = step1At 2 (W24 m ρ c (Proc.devRef .tc main_v113)) (W24 m ρ c (Proc.devRef .tc main_v15)) (W24 m ρ c (Proc.devRef .tc main_v17)) (W24 m ρ c (Proc.devRef .tc main_v19)) (W24 m ρ c (Proc.devRef .tc main_arg6)) (W24 m ρ c (Proc.devRef .tc main_arg7)) r q := by
  refine ((congrFun (W28_arr m ρ c 4) _).trans (Reg6.final_at (V27 m ρ) c r q)).trans ?_
  rw [Reg6.lin1At_def]
  dsimp only [V27, W27, W26, W25]
  after_results_simp <;> (try simp only [StableHlo.TRef.ofBuf, StableHlo.TRef.toBuf, cast_eq]) <;> rfl

theorem stage2 (r : Fin 100000) (q : Fin 64) : (W32 m ρ c (Proc.devRef .tc main_v148) : FVec Ideal S100000x64 .f32) (ix2 r q)
    = step2At 2 (W28 m ρ c (Proc.devRef .tc main_v131)) (W24 m ρ c (Proc.devRef .tc main_arg8)) (W24 m ρ c (Proc.devRef .tc main_arg9)) (W24 m ρ c (Proc.devRef .tc main_arg10)) (W24 m ρ c (Proc.devRef .tc main_arg11)) r q := by
  refine ((congrFun (W32_arr m ρ c 7) _).trans (Reg7.final_at (V31 m ρ) c r q)).trans ?_
  rw [Reg7.lin2At_def]
  dsimp only [V31, W31, W30, W29]
  after_results_simp
  rw [W28_of_ne m ρ c main_arg8 (by decide), W28_of_ne m ρ c main_arg9 (by decide), W28_of_ne m ρ c main_arg10 (by decide), W28_of_ne m ρ c main_arg11 (by decide)]
  dsimp only [W27, W26, W25]
  after_results_simp
  rfl

theorem stage3 (r : Fin 100000) (q : Fin 64) : (W36 m ρ c (Proc.devRef .tc main_v160) : FVec Ideal S100000x64 .f32) (ix2 r q)
    = step3At 2 (W32 m ρ c (Proc.devRef .tc main_v148)) (W24 m ρ c (Proc.devRef .tc main_arg12)) (W24 m ρ c (Proc.devRef .tc main_arg13)) r q := by
  refine ((congrFun (W36_arr m ρ c 5) _).trans (Reg8.final_at (V35 m ρ) c r q)).trans ?_
  rw [Reg8.normAt_def]
  dsimp only [V35, W35, W34, W33]
  after_results_simp
  rw [W32_of_ne m ρ c main_arg12 (by decide), W32_of_ne m ρ c main_arg13 (by decide)]
  dsimp only [W31, W30, W29]
  after_results_simp
  rw [W28_of_ne m ρ c main_arg12 (by decide), W28_of_ne m ρ c main_arg13 (by decide)]
  dsimp only [W27, W26, W25]
  after_results_simp
  rfl

-- Both programs hold the layer's one function of arguments that agree at the layer's entry.
theorem step2 (P : Valuation Cert.ReferenceIdeal.τ Cert.ReferenceIdeal.sig (Elt Ideal))
    (hh : (W24 m ρ c (Proc.devRef .tc main_v113) : FVec Ideal S100000x64 .f32) = P (Proc.devRef .tc Cert.ReferenceIdeal.main_v173))
    (hea : (W24 m ρ c (Proc.devRef .tc main_v15) : FVec Ideal S800000x64 .f32) = P (Proc.devRef .tc Cert.ReferenceIdeal.main_v15))
    (hsrc : (W24 m ρ c (Proc.devRef .tc main_v17) : IVec S800000 32) = P (Proc.devRef .tc Cert.ReferenceIdeal.main_v17))
    (hdst : (W24 m ρ c (Proc.devRef .tc main_v19) : IVec S800000 32) = P (Proc.devRef .tc Cert.ReferenceIdeal.main_v19))
    (ha6 : (W24 m ρ c (Proc.devRef .tc main_arg6) : FVec Ideal S5x64x128 .f32) = P (Proc.devRef .tc Cert.ReferenceIdeal.main_arg6))
    (ha7 : (W24 m ρ c (Proc.devRef .tc main_arg7) : FVec Ideal S5x128 .f32) = P (Proc.devRef .tc Cert.ReferenceIdeal.main_arg7))
    (ha8 : (W24 m ρ c (Proc.devRef .tc main_arg8) : FVec Ideal S5x128 .f32) = P (Proc.devRef .tc Cert.ReferenceIdeal.main_arg8))
    (ha9 : (W24 m ρ c (Proc.devRef .tc main_arg9) : FVec Ideal S5x128 .f32) = P (Proc.devRef .tc Cert.ReferenceIdeal.main_arg9))
    (ha10 : (W24 m ρ c (Proc.devRef .tc main_arg10) : FVec Ideal S5x128x64 .f32) = P (Proc.devRef .tc Cert.ReferenceIdeal.main_arg10))
    (ha11 : (W24 m ρ c (Proc.devRef .tc main_arg11) : FVec Ideal S5x64 .f32) = P (Proc.devRef .tc Cert.ReferenceIdeal.main_arg11))
    (ha12 : (W24 m ρ c (Proc.devRef .tc main_arg12) : FVec Ideal S5x64 .f32) = P (Proc.devRef .tc Cert.ReferenceIdeal.main_arg12))
    (ha13 : (W24 m ρ c (Proc.devRef .tc main_arg13) : FVec Ideal S5x64 .f32) = P (Proc.devRef .tc Cert.ReferenceIdeal.main_arg13)) :
    (W36 m ρ c (Proc.devRef .tc main_v160) : FVec Ideal S100000x64 .f32)
      = StableHlo.after Cert.ReferenceIdeal.Hand.lay2 P (Proc.devRef .tc Cert.ReferenceIdeal.main_v250) := by
  rw [ref_layer P, ← hh, ← hea, ← hsrc, ← hdst, ← ha6, ← ha7, ← ha8, ← ha9, ← ha10, ← ha11, ← ha12, ← ha13]
  exact layer_of_at 2 (stage1 m ρ c) (stage2 m ρ c) (stage3 m ρ c)

end Cert.Gnn.Layer2

end
-- ==== Proof.Reg9.lean ====
import proofs.«419503_j34746285425415_3_alg».proof.Proof.Gen.KernelIdeal.Frame
import proofs.«419503_j34746285425415_3_alg».proof.Proof.Lin1

noncomputable section

namespace Cert.Gnn.Reg9

open Idealize.ShloMosaic Idealize.ShloMosaic.TcCoe Cert.KernelIdeal Cert.KernelIdeal.Gen Cert.Gnn.Lin1

export Cert.Gnn.Lin1 (lin1At_def)

variable (V : (c : Dev nD) → (b : Ref sig .tc) → Buf (Elt Ideal) ((c : Thread nD τ).loc b))

theorem idx : ∀ t : Fin cfg9.N, win9_0.index t = ![t.val, 0] ∧ win9_1.index t = ![t.val, 0] ∧ win9_2.index t = ![0, 0]
    ∧ win9_3.index t = ![0, 0] ∧ win9_4.index t = ![t.val, 0] :=
  (by decide +kernel : ∀ t : Fin grid9.N, _)

theorem final_at (c : Dev nD) (r : Fin 100000) (q : Fin 128) :
    (dat9 (F := Ideal) V c).arrAt 4 cfg9.N (ValueIdx.ix2 r q) = lin1At (V c main_v160) (V c main_v172) (V c main_v174) (V c main_v177) r q :=
  at_of_arr (Tile.arrAt_eq (dat9 V c) 4 _ flush9_4
    (fun t => (after9_4 V c t).trans (block_eq rfl (idx t) (win9_0.rect_emb_val t) (win9_1.rect_emb_val t) (win9_2.rect_emb_val t)
      (win9_3.rect_emb_val t) (win9_4.rect_emb_val t)))
    (Tile.cover (by decide) win9_4.rect_emb_val fun t => by rw [(idx t).2.2.2.2]; exact ⟨rfl, rfl⟩)) r q

end Cert.Gnn.Reg9
end
-- ==== Proof.Reg10.lean ====
import proofs.«419503_j34746285425415_3_alg».proof.Proof.Gen.KernelIdeal.Frame
import proofs.«419503_j34746285425415_3_alg».proof.Proof.Lin2

noncomputable section

namespace Cert.Gnn.Reg10

open Idealize.ShloMosaic Cert.KernelIdeal Cert.KernelIdeal.Gen Idealize.ShloMosaic.TcCoe Idealize.SL.Sem Idealize.ShloMosaic.ValueIdx Lin2

export Lin2 (lin2At_def)

variable (V : (c : Dev nD) → (b : Ref sig .tc) → Buf (Elt Ideal) ((c : Thread nD τ).loc b))

theorem idx : ∀ t : Fin cfg10.N, Idx t (win10_0.index t) (win10_1.index t) (win10_2.index t) (win10_3.index t) (win10_4.index t) (win10_5.index t) (win10_6.index t) (win10_7.index t) :=
  (by decide +kernel : ∀ t : Fin grid10.N, _)

theorem final_at (c : Dev nD) (r : Fin 100000) (q : Fin 64) :
    (dat10 (F := Ideal) V c).arrAt 7 cfg10.N (ix2 r q) = lin2At (V c main_v178) (V c main_v182) (V c main_v183) (V c main_v192) (V c main_v193) (V c main_v189) (V c main_v194) r q :=
  at_of_arr (Tile.arrAt_eq (dat10 V c) 7 _ flush10_7
    (fun t => (after10_7 V c t).trans (funext fun j => (block _ _ _ _ _ _ _ (idx t) (win10_0.rect_emb_val t) (win10_1.rect_emb_val t) (win10_2.rect_emb_val t) (win10_3.rect_emb_val t) (win10_4.rect_emb_val t) (win10_5.rect_emb_val t) (win10_6.rect_emb_val t) (win10_7.rect_emb_val t) j).symm))
    (Tile.cover (by decide) win10_7.rect_emb_val fun t => ⟨(idx t).1, (idx t).2.1⟩)) r q

end Cert.Gnn.Reg10

end
-- ==== Proof.Reg11.lean ====
import proofs.«419503_j34746285425415_3_alg».proof.Proof.Gen.KernelIdeal.Frame
import proofs.«419503_j34746285425415_3_alg».proof.Proof.Norm

noncomputable section

namespace Cert.Gnn.Reg11
open Idealize.ShloMosaic Idealize.ShloMosaic.TcCoe Idealize.SL.Sem Cert.KernelIdeal Cert.KernelIdeal.Gen
export Cert.Gnn.Norm (normAt normAt_def)

variable (V : (c : Dev nD) → (b : Ref sig .tc) → Buf (Elt Ideal) ((c : Thread nD τ).loc b))

theorem idx : ∀ t : Fin cfg11.N, Norm.Idx (win11_0.index t) (win11_1.index t) (win11_2.index t) (win11_3.index t) (win11_4.index t) (win11_5.index t) t :=
  (by decide +kernel : ∀ t : Fin grid11.N, _)

theorem final_at (c : Dev nD) (r : Fin 100000) (q : Fin 64) :
    (dat11 (F := Ideal) V c).arrAt 5 cfg11.N (ValueIdx.ix2 r q)
      = normAt (V c main_v195) (V c main_v199) (V c main_v200) (V c main_v205) (V c main_v206) r q :=
  congrFun (Tile.arrAt_eq (dat11 V c) 5 (Norm.arrOf Norm.relu (V c main_v195) (V c main_v199) (V c main_v200) (V c main_v205) (V c main_v206)) flush11_5
    (fun t => (after11_5 V c t).trans (Norm.blk_eq Norm.relu Pay.pay_norm_relu (win11_0.rect_emb_val t) (win11_1.rect_emb_val t) (win11_2.rect_emb_val t)
      (win11_3.rect_emb_val t) (win11_4.rect_emb_val t) (win11_5.rect_emb_val t) (idx t)))
    (Tile.cover (by decide) win11_5.rect_emb_val fun t => (idx t).2)) _

end Cert.Gnn.Reg11

end
-- ==== Proof.Layer3R.lean ====
import proofs.«419503_j34746285425415_3_alg».proof.Proof.RefOps
import proofs.«419503_j34746285425415_3_alg».proof.Proof.LayerT
import Idealize.ShloMosaic.Lib.Pipeline.Frame

noncomputable section

namespace Cert.Gnn.Layer3

open Idealize.ShloMosaic Idealize.SL.Sem
open Cert.ReferenceIdeal Cert.ReferenceIdeal.Hand Cert.Gnn.Layer
open Cert.ReferenceIdeal.Facts₀ Cert.ReferenceIdeal.Facts

variable [Cert.ReferenceIdeal.Facts]

-- The reference's operations up to the first map's result compute the first step.
theorem ref1 (P : RVal) :
    (StableHlo.after (List.take 26 lay3) P (Proc.devRef .tc main_v271) : FVec Ideal S100000x128 .f32)
      = lin1Step 3 (P (Proc.devRef .tc main_v250)) (P (Proc.devRef .tc main_v15)) (P (Proc.devRef .tc main_v17)) (P (Proc.devRef .tc main_v19)) (P (Proc.devRef .tc main_arg6)) (P (Proc.devRef .tc main_arg7)) := by
  simp only [lay3, List.take_succ_cons, List.take_zero]
  after_results_simp <;> (try simp only [StableHlo.TRef.ofBuf, StableHlo.TRef.toBuf, cast_eq]) <;> rfl

-- The next ones, up to the second map's result, compute the second step.
theorem ref2 (Q : RVal) :
    (StableHlo.after (List.take 59 (List.drop 26 lay3)) Q (Proc.devRef .tc main_v303) : FVec Ideal S100000x64 .f32)
      = lin2Step 3 (Q (Proc.devRef .tc main_v271)) (Q (Proc.devRef .tc main_arg8)) (Q (Proc.devRef .tc main_arg9)) (Q (Proc.devRef .tc main_arg10)) (Q (Proc.devRef .tc main_arg11)) := by
  simp only [lay3, List.drop_succ_cons, List.drop_zero, List.take_succ_cons, List.take_zero]
  after_results_simp <;> (try simp only [StableHlo.TRef.ofBuf, StableHlo.TRef.toBuf, cast_eq]) <;> rfl

-- The remaining ones compute the third step.
theorem ref3 (Q : RVal) :
    (StableHlo.after (List.drop 59 (List.drop 26 lay3)) Q (Proc.devRef .tc main_v327) : FVec Ideal S100000x64 .f32)
      = outStep 3 (Q (Proc.devRef .tc main_v303)) (Q (Proc.devRef .tc main_arg12)) (Q (Proc.devRef .tc main_arg13)) := by
  simp only [lay3, List.drop_succ_cons, List.drop_zero]
  after_results_simp <;> (try simp only [StableHlo.TRef.ofBuf, StableHlo.TRef.toBuf, cast_eq]) <;> rfl

-- No operation of the layer writes a parameter table, so the three steps read the tables as found.
theorem ref_layer (P : RVal) :
    (StableHlo.after lay3 P (Proc.devRef .tc main_v327) : FVec Ideal S100000x64 .f32)
      = layer 3 (P (Proc.devRef .tc main_v250)) (P (Proc.devRef .tc main_v15)) (P (Proc.devRef .tc main_v17)) (P (Proc.devRef .tc main_v19)) (P (Proc.devRef .tc main_arg6)) (P (Proc.devRef .tc main_arg7)) (P (Proc.devRef .tc main_arg8)) (P (Proc.devRef .tc main_arg9)) (P (Proc.devRef .tc main_arg10)) (P (Proc.devRef .tc main_arg11)) (P (Proc.devRef .tc main_arg12)) (P (Proc.devRef .tc main_arg13)) := by
  rw [after_cut lay3 26 59 P, ref3, ref2, ref1]
  simp only [lay3, List.take_succ_cons, List.take_zero, List.drop_succ_cons, List.drop_zero]
  after_results_simp
  rfl

end Cert.Gnn.Layer3

end
-- ==== Proof.Layer3.lean ====
import proofs.«419503_j34746285425415_3_alg».proof.Proof.Gen.KernelIdeal.Frame
import proofs.«419503_j34746285425415_3_alg».proof.Proof.Reg9
import proofs.«419503_j34746285425415_3_alg».proof.Proof.Reg10
import proofs.«419503_j34746285425415_3_alg».proof.Proof.Reg11
import proofs.«419503_j34746285425415_3_alg».proof.Proof.Layer3R

noncomputable section

namespace Cert.Gnn.Layer3

open Idealize.ShloMosaic Idealize.ShloMosaic.TcCoe Idealize.SL.Sem
open Cert.KernelIdeal Cert.KernelIdeal.Gen Cert.Gnn.Layer
open ValueIdx

variable [Cert.KernelIdeal.Facts] [Cert.ReferenceIdeal.Facts]
variable (m : (ℓ : Loc nD τ sig) → Buf (Elt Ideal) ℓ) (ρ : Dev nD → PrngReg) (c : Dev nD)

-- Each tiled map's result is, entry by entry, its step's formula of what the host operations before it leave in its operands; nothing on the way writes a parameter table.
theorem stage1 (r : Fin 100000) (q : Fin 128) : (W40 m ρ c (Proc.devRef .tc main_v178) : FVec Ideal S100000x128 .f32) (ix2 r q)
    = step1At 3 (W36 m ρ c (Proc.devRef .tc main_v160)) (W36 m ρ c (Proc.devRef .tc main_v15)) (W36 m ρ c (Proc.devRef .tc main_v17)) (W36 m ρ c (Proc.devRef .tc main_v19)) (W36 m ρ c (Proc.devRef .tc main_arg6)) (W36 m ρ c (Proc.devRef .tc main_arg7)) r q := by
  refine ((congrFun (W40_arr m ρ c 4) _).trans (Reg9.final_at (V39 m ρ) c r q)).trans ?_
  rw [Reg9.lin1At_def]
  dsimp only [V39, W39, W38, W37]
  after_results_simp <;> (try simp only [StableHlo.TRef.ofBuf, StableHlo.TRef.toBuf, cast_eq]) <;> rfl

theorem stage2 (r : Fin 100000) (q : Fin 64) : (W44 m ρ c (Proc.devRef .tc main_v195) : FVec Ideal S100000x64 .f32) (ix2 r q)
    = step2At 3 (W40 m ρ c (Proc.devRef .tc main_v178)) (W36 m ρ c (Proc.devRef .tc main_arg8)) (W36 m ρ c (Proc.devRef .tc main_arg9)) (W36 m ρ c (Proc.devRef .tc main_arg10)) (W36 m ρ c (Proc.devRef .tc main_arg11)) r q := by
  refine ((congrFun (W44_arr m ρ c 7) _).trans (Reg10.final_at (V43 m ρ) c r q)).trans ?_
  rw [Reg10.lin2At_def]
  dsimp only [V43, W43, W42, W41]
  after_results_simp
  rw [W40_of_ne m ρ c main_arg8 (by decide), W40_of_ne m ρ c main_arg9 (by decide), W40_of_ne m ρ c main_arg10 (by decide), W40_of_ne m ρ c main_arg11 (by decide)]
  dsimp only [W39, W38, W37]
  after_results_simp
  rfl

theorem stage3 (r : Fin 100000) (q : Fin 64) : (W48 m ρ c (Proc.devRef .tc main_v207) : FVec Ideal S100000x64 .f32) (ix2 r q)
    = step3At 3 (W44 m ρ c (Proc.devRef .tc main_v195)) (W36 m ρ c (Proc.devRef .tc main_arg12)) (W36 m ρ c (Proc.devRef .tc main_arg13)) r q := by
  refine ((congrFun (W48_arr m ρ c 5) _).trans (Reg11.final_at (V47 m ρ) c r q)).trans ?_
  rw [Reg11.normAt_def]
  dsimp only [V47, W47, W46, W45]
  after_results_simp
  rw [W44_of_ne m ρ c main_arg12 (by decide), W44_of_ne m ρ c main_arg13 (by decide)]
  dsimp only [W43, W42, W41]
  after_results_simp
  rw [W40_of_ne m ρ c main_arg12 (by decide), W40_of_ne m ρ c main_arg13 (by decide)]
  dsimp only [W39, W38, W37]
  after_results_simp
  rfl

-- Both programs hold the layer's one function of arguments that agree at the layer's entry.
theorem step3 (P : Valuation Cert.ReferenceIdeal.τ Cert.ReferenceIdeal.sig (Elt Ideal))
    (hh : (W36 m ρ c (Proc.devRef .tc main_v160) : FVec Ideal S100000x64 .f32) = P (Proc.devRef .tc Cert.ReferenceIdeal.main_v250))
    (hea : (W36 m ρ c (Proc.devRef .tc main_v15) : FVec Ideal S800000x64 .f32) = P (Proc.devRef .tc Cert.ReferenceIdeal.main_v15))
    (hsrc : (W36 m ρ c (Proc.devRef .tc main_v17) : IVec S800000 32) = P (Proc.devRef .tc Cert.ReferenceIdeal.main_v17))
    (hdst : (W36 m ρ c (Proc.devRef .tc main_v19) : IVec S800000 32) = P (Proc.devRef .tc Cert.ReferenceIdeal.main_v19))
    (ha6 : (W36 m ρ c (Proc.devRef .tc main_arg6) : FVec Ideal S5x64x128 .f32) = P (Proc.devRef .tc Cert.ReferenceIdeal.main_arg6))
    (ha7 : (W36 m ρ c (Proc.devRef .tc main_arg7) : FVec Ideal S5x128 .f32) = P (Proc.devRef .tc Cert.ReferenceIdeal.main_arg7))
    (ha8 : (W36 m ρ c (Proc.devRef .tc main_arg8) : FVec Ideal S5x128 .f32) = P (Proc.devRef .tc Cert.ReferenceIdeal.main_arg8))
    (ha9 : (W36 m ρ c (Proc.devRef .tc main_arg9) : FVec Ideal S5x128 .f32) = P (Proc.devRef .tc Cert.ReferenceIdeal.main_arg9))
    (ha10 : (W36 m ρ c (Proc.devRef .tc main_arg10) : FVec Ideal S5x128x64 .f32) = P (Proc.devRef .tc Cert.ReferenceIdeal.main_arg10))
    (ha11 : (W36 m ρ c (Proc.devRef .tc main_arg11) : FVec Ideal S5x64 .f32) = P (Proc.devRef .tc Cert.ReferenceIdeal.main_arg11))
    (ha12 : (W36 m ρ c (Proc.devRef .tc main_arg12) : FVec Ideal S5x64 .f32) = P (Proc.devRef .tc Cert.ReferenceIdeal.main_arg12))
    (ha13 : (W36 m ρ c (Proc.devRef .tc main_arg13) : FVec Ideal S5x64 .f32) = P (Proc.devRef .tc Cert.ReferenceIdeal.main_arg13)) :
    (W48 m ρ c (Proc.devRef .tc main_v207) : FVec Ideal S100000x64 .f32)
      = StableHlo.after Cert.ReferenceIdeal.Hand.lay3 P (Proc.devRef .tc Cert.ReferenceIdeal.main_v327) := by
  rw [ref_layer P, ← hh, ← hea, ← hsrc, ← hdst, ← ha6, ← ha7, ← ha8, ← ha9, ← ha10, ← ha11, ← ha12, ← ha13]
  exact layer_of_at 3 (stage1 m ρ c) (stage2 m ρ c) (stage3 m ρ c)

end Cert.Gnn.Layer3

end
-- ==== Proof.Layer4a.lean ====
import proofs.«419503_j34746285425415_3_alg».proof.ReferenceIdeal
import proofs.«419503_j34746285425415_3_alg».proof.Proof.RefTerms
import proofs.«419503_j34746285425415_3_alg».proof.Proof.RefOps
import proofs.«419503_j34746285425415_3_alg».proof.Proof.KeepR
import Idealize.ShloMosaic.Lib.StableHlo.Run
import Idealize.ShloMosaic.Lib.Pipeline.Frame

noncomputable section

namespace Cert.Gnn.Layer4

open Idealize.ShloMosaic Idealize.SL.Sem
open Cert.ReferenceIdeal Cert.ReferenceIdeal.Hand
open Cert.ReferenceIdeal.Facts₀ Cert.ReferenceIdeal.Facts Cert.Gnn.KeepR

variable [Cert.ReferenceIdeal.Facts]

def agg (h : FVec Ideal S100000x64 .f32) (src dst : IVec S800000 32) (ea : FVec Ideal S800000x64 .f32) :
    FVec Ideal S100000x64 .f32 :=
  Host.scatterAdd scatter_S100000x64_S800000x1_S800000x64_1_0_0_1
    (broadcastInDim S100000x64 ![] bcast_S_S100000x64 (constant (F := Ideal) S_ .f32 0x00000000#32))
    (broadcastInDim S800000x1 ![0] bcast_S800000_S800000x1_0 dst)
    (maximumf
      (addf
        (Host.gather gather_S100000x64_S800000x1_S800000x64_1_0_n_n_0_1_164 h
          (broadcastInDim S800000x1 ![0] bcast_S800000_S800000x1_0
            (select (cmpi .slt src (broadcastInDim S800000 ![] bcast_S_S800000 (constantI S_ 32 0#32)))
              (addi src (broadcastInDim S800000 ![] bcast_S_S800000 (constantI S_ 32 100000#32))) src)))
        ea)
      (broadcastInDim S800000x64 ![] bcast_S_S800000x64 (constant (F := Ideal) S_ .f32 0x00000000#32)))

def w1Of (a : FVec Ideal S5x64x128 .f32) : FVec Ideal S64x128 .f32 :=
  shapeCast S64x128 (extractStridedSlice S1x64x128 ![4, 0, 0] a slices_S5x64x128_S1x64x128_4_0_0) shapeCasts_S1x64x128_S64x128

def v128Of (a : FVec Ideal S5x128 .f32) : FVec Ideal S128 .f32 :=
  shapeCast S128 (extractStridedSlice S1x128 ![4, 0] a slices_S5x128_S1x128_4_0) shapeCasts_S1x128_S128

def w2Of (a : FVec Ideal S5x128x64 .f32) : FVec Ideal S128x64 .f32 :=
  shapeCast S128x64 (extractStridedSlice S1x128x64 ![4, 0, 0] a slices_S5x128x64_S1x128x64_4_0_0) shapeCasts_S1x128x64_S128x64

def v64Of (a : FVec Ideal S5x64 .f32) : FVec Ideal S64 .f32 :=
  shapeCast S64 (extractStridedSlice S1x64 ![4, 0] a slices_S5x64_S1x64_4_0) shapeCasts_S1x64_S64

def uOf (h : FVec Ideal S100000x64 .f32) (src dst : IVec S800000 32) (ea : FVec Ideal S800000x64 .f32)
    (a6 : FVec Ideal S5x64x128 .f32) (a7 : FVec Ideal S5x128 .f32) : FVec Ideal S100000x128 .f32 :=
  R.lin1 (addf h (agg h src dst ea)) (w1Of a6) (v128Of a7)

def xOf (u : FVec Ideal S100000x128 .f32) (a8 a9 : FVec Ideal S5x128 .f32) (a10 : FVec Ideal S5x128x64 .f32)
    (a11 : FVec Ideal S5x64 .f32) : FVec Ideal S100000x64 .f32 :=
  R.lin2 (R.relu128 (R.bn128 u (R.mean128 u) (R.var128 u) (v128Of a8) (v128Of a9))) (w2Of a10) (v64Of a11)

def yOf (x : FVec Ideal S100000x64 .f32) (a12 a13 : FVec Ideal S5x64 .f32) : FVec Ideal S100000x64 .f32 :=
  R.bn64 x (R.mean64 x) (R.var64 x) (v64Of a12) (v64Of a13)

abbrev RVal := Valuation Cert.ReferenceIdeal.τ Cert.ReferenceIdeal.sig (Elt Ideal)

theorem after_cut (n : Nat) (l : List (HloOp τ sig (Elt Ideal))) (Q : RVal) :
    StableHlo.after l Q = StableHlo.after (l.drop n) (StableHlo.after (l.take n) Q) := by
  rw [← StableHlo.after_append, List.take_append_drop]

-- A stretch cut out of the layer writes only what the layer writes: results numbered 38 or later.
theorem late_sub {l : List (HloOp τ sig (Elt Ideal))} (hl : ∀ op ∈ l, op ∈ lay4 (F := Ideal)) : l.Forall (Late 38) :=
  List.forall_iff_forall_mem.2 fun op h => List.forall_iff_forall_mem.1 late_lay4 op (hl op h)

theorem lateA : (((lay4 (F := Ideal)).take 85).take 26).Forall (Late 38) :=
  late_sub fun _ h => List.mem_of_mem_take (List.mem_of_mem_take h)

theorem lateB : (((lay4 (F := Ideal)).take 85).drop 26).Forall (Late 38) :=
  late_sub fun _ h => List.mem_of_mem_take (List.mem_of_mem_drop h)

theorem refA (Q : RVal) :
    StableHlo.after (((lay4 (F := Ideal)).take 85).take 26) Q (Proc.devRef .tc main_v348)
      = uOf (Q (Proc.devRef .tc main_v327)) (Q (Proc.devRef .tc main_v17)) (Q (Proc.devRef .tc main_v19)) (Q (Proc.devRef .tc main_v15))
          (Q (Proc.devRef .tc main_arg6)) (Q (Proc.devRef .tc main_arg7)) := by
  simp only [lay4, List.take_succ_cons, List.take_zero]
  after_results_simp <;> rfl

theorem refB (Q : RVal) :
    StableHlo.after (((lay4 (F := Ideal)).take 85).drop 26) Q (Proc.devRef .tc main_v380)
      = xOf (Q (Proc.devRef .tc main_v348)) (Q (Proc.devRef .tc main_arg8)) (Q (Proc.devRef .tc main_arg9)) (Q (Proc.devRef .tc main_arg10)) (Q (Proc.devRef .tc main_arg11)) := by
  simp only [lay4, List.take_succ_cons, List.take_zero, List.drop_succ_cons, List.drop_zero]
  after_results_simp <;> rfl

theorem refC (Q : RVal) :
    StableHlo.after ((lay4 (F := Ideal)).drop 85) Q (Proc.devRef .tc main_v403)
      = yOf (Q (Proc.devRef .tc main_v380)) (Q (Proc.devRef .tc main_arg12)) (Q (Proc.devRef .tc main_arg13)) := by
  simp only [lay4, List.drop_succ_cons, List.drop_zero]
  after_results_simp <;> rfl

-- The layer's operations, read in three stretches cut after each linear map's result.
theorem ref_layer (P : RVal) :
    StableHlo.after lay4 P (Proc.devRef .tc main_v403)
      = yOf (xOf (uOf (P (Proc.devRef .tc main_v327)) (P (Proc.devRef .tc main_v17)) (P (Proc.devRef .tc main_v19))
          (P (Proc.devRef .tc main_v15)) (P (Proc.devRef .tc main_arg6)) (P (Proc.devRef .tc main_arg7)))
          (P (Proc.devRef .tc main_arg8)) (P (Proc.devRef .tc main_arg9)) (P (Proc.devRef .tc main_arg10))
          (P (Proc.devRef .tc main_arg11))) (P (Proc.devRef .tc main_arg12)) (P (Proc.devRef .tc main_arg13)) := by
  rw [after_cut 85 lay4 P, refC, after_cut 26 ((lay4 (F := Ideal)).take 85) P, refB,
    kept_of_late lateB (by decide) _, kept_of_late lateB (by decide) _, refA, kept_of_late lateA (by decide) _, kept_of_late lateA (by decide) _,
    kept_of_late lateA (by decide) _, kept_of_late lateA (by decide) _, kept_of_late lateA (by decide) _, kept_of_late lateA (by decide) _]

end Cert.Gnn.Layer4

end
-- ==== Proof.Layer4b.lean ====
import proofs.«419503_j34746285425415_3_alg».proof.Proof.Gen.KernelIdeal.Launch
import proofs.«419503_j34746285425415_3_alg».proof.Proof.KStats
import proofs.«419503_j34746285425415_3_alg».proof.Proof.Layer4a
import proofs.«419503_j34746285425415_3_alg».proof.Proof.Keeps
import Idealize.ShloMosaic.Lib.StableHlo.Run

noncomputable section

namespace Cert.Gnn.Layer4

open Idealize.ShloMosaic Idealize.SL.Sem
open Cert.KernelIdeal Cert.KernelIdeal.Gen
open Cert.KernelIdeal.Facts₀ Cert.KernelIdeal.Facts

variable [Cert.KernelIdeal.Facts] [Cert.ReferenceIdeal.Facts]

abbrev KVal := Valuation Cert.KernelIdeal.τ Cert.KernelIdeal.sig (Elt Ideal)

-- The contents after the operations that precede the first, the second and the third map of the layer.
abbrev host1 (W : KVal) : KVal := StableHlo.after hostOps12_2 (StableHlo.after hostOps12_1 (StableHlo.after hostOps12 W))
abbrev host2 (W : KVal) : KVal := StableHlo.after hostOps13_2 (StableHlo.after hostOps13_1 (StableHlo.after hostOps13 W))
abbrev host3 (W : KVal) : KVal := StableHlo.after hostOps14_2 (StableHlo.after hostOps14_1 (StableHlo.after hostOps14 W))

-- Three lines of operations in a row leave a reference none of them writes as it was.
theorem host_keep {A B C : List (HloOp τ sig (Elt Ideal))} {WA WB WC : List (Ref sig .tc)}
    [Keeps A WA] [Keeps B WB] [Keeps C WC] (W : KVal) (r : Ref sig .tc) (h : r ∉ WA ∧ r ∉ WB ∧ r ∉ WC) :
    StableHlo.after C (StableHlo.after B (StableHlo.after A W)) (Proc.devRef .tc r) = W (Proc.devRef .tc r) :=
  (Keeps.keep _ r h.2.2).trans ((Keeps.keep _ r h.2.1).trans (Keeps.keep W r h.1))

theorem h1_agg (W : KVal) :
    host1 W (Proc.devRef .tc main_v219)
      = agg (W (Proc.devRef .tc main_v207)) (W (Proc.devRef .tc main_v17)) (W (Proc.devRef .tc main_v19)) (W (Proc.devRef .tc main_v15)) := by
  after_results_simp <;> rfl

theorem h1_w (W : KVal) :
    host1 W (Proc.devRef .tc main_v221) = w1Of (W (Proc.devRef .tc main_arg6)) := by
  after_results_simp <;> rfl

theorem h1_b (W : KVal) :
    host1 W (Proc.devRef .tc main_v224)
      = shapeCast S1x128 (v128Of (W (Proc.devRef .tc main_arg7))) Facts₀.shapeCasts_S128_S1x128 := by
  after_results_simp <;> rfl

theorem h2_mean (W : KVal) :
    host2 W (Proc.devRef .tc main_v229) = K.kmean128 (F := Ideal) (W (Proc.devRef .tc main_v225)) := by
  after_results_simp <;> rfl

theorem h2_var (W : KVal) :
    host2 W (Proc.devRef .tc main_v230) = K.kvar128 (F := Ideal) (W (Proc.devRef .tc main_v225)) := by
  after_results_simp <;> rfl

theorem h2_g (W : KVal) :
    host2 W (Proc.devRef .tc main_v239)
      = shapeCast S1x128 (v128Of (W (Proc.devRef .tc main_arg8))) Facts₀.shapeCasts_S128_S1x128 := by
  after_results_simp <;> rfl

theorem h2_be (W : KVal) :
    host2 W (Proc.devRef .tc main_v240)
      = shapeCast S1x128 (v128Of (W (Proc.devRef .tc main_arg9))) Facts₀.shapeCasts_S128_S1x128 := by
  after_results_simp <;> rfl

theorem h2_w (W : KVal) :
    host2 W (Proc.devRef .tc main_v236) = w2Of (W (Proc.devRef .tc main_arg10)) := by
  after_results_simp <;> rfl

theorem h2_b (W : KVal) :
    host2 W (Proc.devRef .tc main_v241)
      = shapeCast S1x64 (v64Of (W (Proc.devRef .tc main_arg11))) Facts₀.shapeCasts_S64_S1x64 := by
  after_results_simp <;> rfl

theorem h3_mean (W : KVal) :
    host3 W (Proc.devRef .tc main_v246) = K.kmean64 (F := Ideal) (W (Proc.devRef .tc main_v242)) := by
  after_results_simp <;> rfl

theorem h3_var (W : KVal) :
    host3 W (Proc.devRef .tc main_v247) = K.kvar64 (F := Ideal) (W (Proc.devRef .tc main_v242)) := by
  after_results_simp <;> rfl

theorem h3_g (W : KVal) :
    host3 W (Proc.devRef .tc main_v252)
      = shapeCast S1x64 (v64Of (W (Proc.devRef .tc main_arg12))) Facts₀.shapeCasts_S64_S1x64 := by
  after_results_simp <;> rfl

theorem h3_be (W : KVal) :
    host3 W (Proc.devRef .tc main_v253)
      = shapeCast S1x64 (v64Of (W (Proc.devRef .tc main_arg13))) Facts₀.shapeCasts_S64_S1x64 := by
  after_results_simp <;> rfl

end Cert.Gnn.Layer4

end
-- ==== Proof.Reg12.lean ====
import proofs.«419503_j34746285425415_3_alg».proof.Proof.Gen.KernelIdeal.Frame
import proofs.«419503_j34746285425415_3_alg».proof.Proof.Lin1

noncomputable section

namespace Cert.Gnn.Reg12

open Idealize.ShloMosaic Idealize.ShloMosaic.TcCoe Cert.KernelIdeal Cert.KernelIdeal.Gen Cert.Gnn.Lin1

variable (V : (c : Dev nD) → (b : Ref sig .tc) → Buf (Elt Ideal) ((c : Thread nD τ).loc b))

theorem idx : ∀ t : Fin cfg12.N, win12_0.index t = ![t.val, 0] ∧ win12_1.index t = ![t.val, 0] ∧ win12_2.index t = ![0, 0]
    ∧ win12_3.index t = ![0, 0] ∧ win12_4.index t = ![t.val, 0] :=
  (by decide +kernel : ∀ t : Fin grid12.N, _)

theorem final (c : Dev nD) (r : Fin 100000) (q : Fin 128) :
    (dat12 (F := Ideal) V c).arrAt 4 cfg12.N (ValueIdx.ix2 r q)
      = (∑ k : Fin 64, (rd2 (V c main_v207) r k + rd2 (V c main_v219) r k) * rd2 (V c main_v221) k q) + rd2 (V c main_v224) (0 : Fin 1) q :=
  at_of_arr (Tile.arrAt_eq (dat12 V c) 4 _ flush12_4
    (fun t => (after12_4 V c t).trans (block_eq rfl (idx t) (win12_0.rect_emb_val t) (win12_1.rect_emb_val t) (win12_2.rect_emb_val t)
      (win12_3.rect_emb_val t) (win12_4.rect_emb_val t)))
    (Tile.cover (by decide) win12_4.rect_emb_val fun t => by rw [(idx t).2.2.2.2]; exact ⟨rfl, rfl⟩)) r q

end Cert.Gnn.Reg12
end
-- ==== Proof.Reg13.lean ====
import proofs.«419503_j34746285425415_3_alg».proof.Proof.Gen.KernelIdeal.Frame
import proofs.«419503_j34746285425415_3_alg».proof.Proof.Lin2

noncomputable section

namespace Cert.Gnn.Reg13

open Idealize.ShloMosaic Cert.KernelIdeal Cert.KernelIdeal.Gen Idealize.ShloMosaic.TcCoe Idealize.SL.Sem Idealize.ShloMosaic.ValueIdx Lin2

variable (V : (c : Dev nD) → (b : Ref sig .tc) → Buf (Elt Ideal) ((c : Thread nD τ).loc b))

theorem idx : ∀ t : Fin cfg13.N, Idx t (win13_0.index t) (win13_1.index t) (win13_2.index t) (win13_3.index t) (win13_4.index t) (win13_5.index t) (win13_6.index t) (win13_7.index t) :=
  (by decide +kernel : ∀ t : Fin grid13.N, _)

theorem final (c : Dev nD) (r : Fin 100000) (q : Fin 64) :
    (dat13 (F := Ideal) V c).arrAt 7 cfg13.N (ix2 r q)
      = (∑ k : Fin 128, max (rd2 (V c main_v239) (0 : Fin 1) k * (rd2 (V c main_v225) r k - rd2 (V c main_v229) (0 : Fin 1) k) * Ideal.rsqrt (rd2 (V c main_v230) (0 : Fin 1) k + Ideal.ofBits .f32 0x3727C5AC#32) + rd2 (V c main_v240) (0 : Fin 1) k) (Ideal.ofBits .f32 0x00000000#32) * rd2 (V c main_v236) k q)
        + rd2 (V c main_v241) (0 : Fin 1) q :=
  at_of_arr (Tile.arrAt_eq (dat13 V c) 7 _ flush13_7
    (fun t => (after13_7 V c t).trans (funext fun j => (block _ _ _ _ _ _ _ (idx t) (win13_0.rect_emb_val t) (win13_1.rect_emb_val t) (win13_2.rect_emb_val t) (win13_3.rect_emb_val t) (win13_4.rect_emb_val t) (win13_5.rect_emb_val t) (win13_6.rect_emb_val t) (win13_7.rect_emb_val t) j).symm))
    (Tile.cover (by decide) win13_7.rect_emb_val fun t => ⟨(idx t).1, (idx t).2.1⟩)) r q

end Cert.Gnn.Reg13

end
-- ==== Proof.Reg14.lean ====
import proofs.«419503_j34746285425415_3_alg».proof.Proof.Gen.KernelIdeal.Frame
import proofs.«419503_j34746285425415_3_alg».proof.Proof.Norm

noncomputable section

namespace Cert.Gnn.Reg14
open Idealize.ShloMosaic Idealize.ShloMosaic.TcCoe Idealize.SL.Sem Cert.KernelIdeal Cert.KernelIdeal.Gen
open Cert.Gnn.Tile (rd2)

variable (V : (c : Dev nD) → (b : Ref sig .tc) → Buf (Elt Ideal) ((c : Thread nD τ).loc b))

theorem idx : ∀ t : Fin cfg14.N, Norm.Idx (win14_0.index t) (win14_1.index t) (win14_2.index t) (win14_3.index t) (win14_4.index t) (win14_5.index t) t :=
  (by decide +kernel : ∀ t : Fin grid14.N, _)

theorem final (c : Dev nD) (r : Fin 100000) (q : Fin 64) :
    (dat14 (F := Ideal) V c).arrAt 5 cfg14.N (ValueIdx.ix2 r q)
      = (rd2 (V c main_v252) (0 : Fin 1) q * (rd2 (V c main_v242) r q - rd2 (V c main_v246) (0 : Fin 1) q) * Ideal.rsqrt (rd2 (V c main_v247) (0 : Fin 1) q + Ideal.ofBits .f32 0x3727C5AC#32) + rd2 (V c main_v253) (0 : Fin 1) q) :=
  congrFun (Tile.arrAt_eq (dat14 V c) 5 (Norm.arrOf id (V c main_v242) (V c main_v246) (V c main_v247) (V c main_v252) (V c main_v253)) flush14_5
    (fun t => (after14_5 V c t).trans (Norm.blk_eq id Pay.pay_norm (win14_0.rect_emb_val t) (win14_1.rect_emb_val t) (win14_2.rect_emb_val t)
      (win14_3.rect_emb_val t) (win14_4.rect_emb_val t) (win14_5.rect_emb_val t) (idx t)))
    (Tile.cover (by decide) win14_5.rect_emb_val fun t => (idx t).2)) _

end Cert.Gnn.Reg14

end
-- ==== Proof.Layer4.lean ====
import proofs.«419503_j34746285425415_3_alg».proof.Proof.Gen.KernelIdeal.Frame
import proofs.«419503_j34746285425415_3_alg».proof.Proof.Spec
import proofs.«419503_j34746285425415_3_alg».proof.Proof.RefTerms
import proofs.«419503_j34746285425415_3_alg».proof.Proof.KStats
import proofs.«419503_j34746285425415_3_alg».proof.Proof.Layer4a
import proofs.«419503_j34746285425415_3_alg».proof.Proof.Layer4b
import proofs.«419503_j34746285425415_3_alg».proof.Proof.Reg12
import proofs.«419503_j34746285425415_3_alg».proof.Proof.Reg13
import proofs.«419503_j34746285425415_3_alg».proof.Proof.Reg14
import Idealize.ShloMosaic.Lib.ValueIdx
import Idealize.ShloMosaic.Lib.ValueLayout

noncomputable section

namespace Cert.Gnn.Layer4

open Idealize.ShloMosaic Idealize.SL.Sem Idealize.ShloMosaic.ValueIdx

-- Two matrices that agree at every row and column are equal.
theorem ext2 {α : Type} {n0 n1 : Nat} {f g : (⟨2, ![n0, n1]⟩ : Shape).Idx → α}
    (h : ∀ r q, f (ix2 r q) = g (ix2 r q)) : f = g :=
  funext fun i => by rw [eq_ix2 i]; exact h _ _

section Links
open Cert.ReferenceIdeal
variable [Cert.ReferenceIdeal.Facts] [Cert.KernelIdeal.Facts]

-- A map's entry formula is the reference's term at that entry: a one-row matrix reads at (0, j) its vector at j.
theorem link1 {hK aK h a : FVec Ideal S100000x64 .f32} {wK w : FVec Ideal S64x128 .f32} {bK : FVec Ideal S1x128 .f32}
    {b : FVec Ideal S128 .f32} {hb : S128.ShapeCasts S1x128}
    (eh : hK = h) (ea : aK = a) (ew : wK = w) (eb : bK = shapeCast S1x128 b hb) (r : Fin 100000) (q : Fin 128) :
    (∑ k : Fin 64, (hK (ix2 r k) + aK (ix2 r k)) * wK (ix2 k q)) + bK (ix2 (0 : Fin 1) q)
      = R.lin1 (F := Ideal) (addf h a) w b (ix2 r q) := by
  subst eh ea ew eb
  rw [R.lin1_apply, shapeCast_a_1a_apply]
  rfl

theorem link2 {uK u : FVec Ideal S100000x128 .f32} {mK vK gK sK : FVec Ideal S1x128 .f32} {wK w : FVec Ideal S128x64 .f32}
    {bK : FVec Ideal S1x64 .f32} {g be : FVec Ideal S128 .f32} {b : FVec Ideal S64 .f32}
    {hg hs : S128.ShapeCasts S1x128} {hb : S64.ShapeCasts S1x64}
    (eu : uK = u) (em : mK = K.kmean128 (F := Ideal) u) (ev : vK = K.kvar128 (F := Ideal) u)
    (eg : gK = shapeCast S1x128 g hg) (es : sK = shapeCast S1x128 be hs) (ew : wK = w)
    (eb : bK = shapeCast S1x64 b hb) (r : Fin 100000) (q : Fin 64) :
    (∑ k : Fin 128, max (gK (ix2 (0 : Fin 1) k) * (uK (ix2 r k) - mK (ix2 (0 : Fin 1) k))
          * Ideal.rsqrt (vK (ix2 (0 : Fin 1) k) + Ideal.ofBits .f32 0x3727C5AC#32)
          + sK (ix2 (0 : Fin 1) k)) (Ideal.ofBits .f32 0x00000000#32) * wK (ix2 k q))
        + bK (ix2 (0 : Fin 1) q)
      = R.lin2 (F := Ideal) (R.relu128 (R.bn128 u (R.mean128 u) (R.var128 u) g be)) w b (ix2 r q) := by
  subst eu em ev eg es ew eb
  rw [R.stage2_apply, shapeCast_a_1a_apply]
  unfold Cert.Gnn.lin2
  refine congrArg₂ (· + ·) (Finset.sum_congr rfl fun k _ => ?_) rfl
  rw [K.kmean128_apply, K.kvar128_apply, shapeCast_a_1a_apply, shapeCast_a_1a_apply]
  rfl

theorem link3 {xK x : FVec Ideal S100000x64 .f32} {mK vK gK sK : FVec Ideal S1x64 .f32} {g be : FVec Ideal S64 .f32}
    {hg hs : S64.ShapeCasts S1x64}
    (ex : xK = x) (em : mK = K.kmean64 (F := Ideal) x) (ev : vK = K.kvar64 (F := Ideal) x)
    (eg : gK = shapeCast S1x64 g hg) (es : sK = shapeCast S1x64 be hs) (r : Fin 100000) (q : Fin 64) :
    gK (ix2 (0 : Fin 1) q) * (xK (ix2 r q) - mK (ix2 (0 : Fin 1) q))
          * Ideal.rsqrt (vK (ix2 (0 : Fin 1) q) + Ideal.ofBits .f32 0x3727C5AC#32)
        + sK (ix2 (0 : Fin 1) q)
      = R.bn64 (F := Ideal) x (R.mean64 x) (R.var64 x) g be (ix2 r q) := by
  subst ex em ev eg es
  rw [R.stage3_apply, K.kmean64_apply, K.kvar64_apply, shapeCast_a_1a_apply, shapeCast_a_1a_apply]
  rfl

end Links

section Run
open Cert.KernelIdeal Cert.KernelIdeal.Gen

variable [Cert.KernelIdeal.Facts] [Cert.ReferenceIdeal.Facts]
variable (m : (ℓ : Loc nD τ sig) → Buf (Elt Ideal) ℓ) (ρ : Dev nD → PrngReg) (c : Dev nD)

-- Nothing in the layer writes a parameter table.
theorem keep52 {r : Ref sig .tc} (hr : r ∈ [main_arg8, main_arg9, main_arg10, main_arg11, main_arg12, main_arg13]) :
    W52 m ρ c (Proc.devRef .tc r) = W48 m ρ c (Proc.devRef .tc r) := by
  simp only [List.mem_cons, List.not_mem_nil, or_false] at hr
  rcases hr with rfl | rfl | rfl | rfl | rfl | rfl <;>
    exact (W52_of_ne m ρ c _ (by decide)).trans (host_keep _ _ (by decide))

theorem keep56 {r : Ref sig .tc} (hr : r ∈ [main_arg12, main_arg13]) :
    W56 m ρ c (Proc.devRef .tc r) = W48 m ρ c (Proc.devRef .tc r) := by
  simp only [List.mem_cons, List.not_mem_nil, or_false] at hr
  rcases hr with rfl | rfl <;>
    exact ((W56_of_ne m ρ c _ (by decide)).trans (host_keep _ _ (by decide))).trans (keep52 m ρ c (by decide))

theorem stage1 :
    (W52 m ρ c (Proc.devRef .tc main_v225) : FVec Ideal S100000x128 .f32)
      = uOf (W48 m ρ c (Proc.devRef .tc main_v207)) (W48 m ρ c (Proc.devRef .tc main_v17)) (W48 m ρ c (Proc.devRef .tc main_v19))
          (W48 m ρ c (Proc.devRef .tc main_v15)) (W48 m ρ c (Proc.devRef .tc main_arg6)) (W48 m ρ c (Proc.devRef .tc main_arg7)) :=
  ext2 fun r q => (congrFun (W52_arr m ρ c 4) _).trans ((Reg12.final (V51 m ρ) c r q).trans
    (link1 (host_keep _ main_v207 (by decide)) (h1_agg _) (h1_w _) (h1_b _) r q))

theorem stage2 :
    (W56 m ρ c (Proc.devRef .tc main_v242) : FVec Ideal S100000x64 .f32)
      = xOf (W52 m ρ c (Proc.devRef .tc main_v225)) (W52 m ρ c (Proc.devRef .tc main_arg8)) (W52 m ρ c (Proc.devRef .tc main_arg9))
          (W52 m ρ c (Proc.devRef .tc main_arg10)) (W52 m ρ c (Proc.devRef .tc main_arg11)) :=
  ext2 fun r q => (congrFun (W56_arr m ρ c 7) _).trans ((Reg13.final (V55 m ρ) c r q).trans
    (link2 (host_keep _ main_v225 (by decide)) (h2_mean _) (h2_var _) (h2_g _) (h2_be _) (h2_w _) (h2_b _) r q))

theorem stage3 :
    (W60 m ρ c (Proc.devRef .tc main_v254) : FVec Ideal S100000x64 .f32)
      = yOf (W56 m ρ c (Proc.devRef .tc main_v242)) (W56 m ρ c (Proc.devRef .tc main_arg12)) (W56 m ρ c (Proc.devRef .tc main_arg13)) :=
  ext2 fun r q => (congrFun (W60_arr m ρ c 5) _).trans ((Reg14.final (V59 m ρ) c r q).trans
    (link3 (host_keep _ main_v242 (by decide)) (h3_mean _) (h3_var _) (h3_g _) (h3_be _) r q))

-- Both programs compute the layer's function of the buffers found at its entry.
theorem step4 (P : RVal)
    (hh : W48 m ρ c (Proc.devRef .tc main_v207) = P (Proc.devRef .tc Cert.ReferenceIdeal.main_v327))
    (hea : W48 m ρ c (Proc.devRef .tc main_v15) = P (Proc.devRef .tc Cert.ReferenceIdeal.main_v15))
    (hsrc : W48 m ρ c (Proc.devRef .tc main_v17) = P (Proc.devRef .tc Cert.ReferenceIdeal.main_v17))
    (hdst : W48 m ρ c (Proc.devRef .tc main_v19) = P (Proc.devRef .tc Cert.ReferenceIdeal.main_v19))
    (ha6 : W48 m ρ c (Proc.devRef .tc main_arg6) = P (Proc.devRef .tc Cert.ReferenceIdeal.main_arg6))
    (ha7 : W48 m ρ c (Proc.devRef .tc main_arg7) = P (Proc.devRef .tc Cert.ReferenceIdeal.main_arg7))
    (ha8 : W48 m ρ c (Proc.devRef .tc main_arg8) = P (Proc.devRef .tc Cert.ReferenceIdeal.main_arg8))
    (ha9 : W48 m ρ c (Proc.devRef .tc main_arg9) = P (Proc.devRef .tc Cert.ReferenceIdeal.main_arg9))
    (ha10 : W48 m ρ c (Proc.devRef .tc main_arg10) = P (Proc.devRef .tc Cert.ReferenceIdeal.main_arg10))
    (ha11 : W48 m ρ c (Proc.devRef .tc main_arg11) = P (Proc.devRef .tc Cert.ReferenceIdeal.main_arg11))
    (ha12 : W48 m ρ c (Proc.devRef .tc main_arg12) = P (Proc.devRef .tc Cert.ReferenceIdeal.main_arg12))
    (ha13 : W48 m ρ c (Proc.devRef .tc main_arg13) = P (Proc.devRef .tc Cert.ReferenceIdeal.main_arg13))
    : W60 m ρ c (Proc.devRef .tc main_v254)
      = StableHlo.after Cert.ReferenceIdeal.Hand.lay4 P (Proc.devRef .tc Cert.ReferenceIdeal.main_v403) := by
  rw [ref_layer P, ← hh, ← hea, ← hsrc, ← hdst, ← ha6, ← ha7, ← ha8, ← ha9, ← ha10, ← ha11, ← ha12, ← ha13,
    stage3, stage2, stage1, keep56 m ρ c (by decide), keep56 m ρ c (by decide), keep52 m ρ c (by decide),
    keep52 m ρ c (by decide), keep52 m ρ c (by decide), keep52 m ρ c (by decide)]

end Run

end Cert.Gnn.Layer4

end
-- ==== Proof.PayPool.lean ====
import proofs.«419503_j34746285425415_3_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout
noncomputable section
namespace Cert.Gnn.Pay
open Idealize.ShloMosaic Cert.KernelIdeal Cert.KernelIdeal.Gen

theorem sel_word (x y : BitVec 32) :
    (FloatOps.sitofp (F := Ideal) .f32 ((IntOp.cmpi .eq x y).setWidth 32) : EReal) = if x = y then 1 else 0 := by
  by_cases h : x = y
  · subst h
    rw [if_pos rfl]
    show (((((IntOp.cmpi .eq x x).setWidth 32).toInt : ℤ) : ℝ) : EReal) = 1
    simp [IntOp.cmpi]
  · rw [if_neg h]
    show (((((IntOp.cmpi .eq x y).setWidth 32).toInt : ℤ) : ℝ) : EReal) = 0
    have hb : (x == y) = false := by simpa using h
    simp [IntOp.cmpi, hb]

theorem lhs_pool_0 (j : S256x64.Idx) (k : dot_S10000x256_S10000x64_S256x64_0_0_1_1_n_n.contr.Idx) :
    (dot_S10000x256_S10000x64_S256x64_0_0_1_1_n_n.lhsIdx j k 0).val = (k ⟨0, by decide⟩).val :=
  DotDims.lhsIdx_val_of_single _ rfl j k

theorem lhs_pool_1 (j : S256x64.Idx) (k : dot_S10000x256_S10000x64_S256x64_0_0_1_1_n_n.contr.Idx) :
    (dot_S10000x256_S10000x64_S256x64_0_0_1_1_n_n.lhsIdx j k 1).val = (j 0).val := by
  unfold DotDims.lhsIdx
  rw [dif_neg (show ¬ (1 : Fin S10000x256.rank) ∈ dot_S10000x256_S10000x64_S256x64_0_0_1_1_n_n.lhsBatch by decide),
    dif_pos (show (1 : Fin S10000x256.rank) ∈ dot_S10000x256_S10000x64_S256x64_0_0_1_1_n_n.lhsNonContracting by decide)]
  rfl

theorem rhs_pool_0 (j : S256x64.Idx) (k : dot_S10000x256_S10000x64_S256x64_0_0_1_1_n_n.contr.Idx) :
    (dot_S10000x256_S10000x64_S256x64_0_0_1_1_n_n.rhsIdx j k 0).val = (k ⟨0, by decide⟩).val :=
  DotDims.rhsIdx_val_of_single _ rfl j k

theorem rhs_pool_1 (j : S256x64.Idx) (k : dot_S10000x256_S10000x64_S256x64_0_0_1_1_n_n.contr.Idx) :
    (dot_S10000x256_S10000x64_S256x64_0_0_1_1_n_n.rhsIdx j k 1).val = (j 1).val := by
  unfold DotDims.rhsIdx
  rw [dif_neg (show ¬ (1 : Fin S10000x64.rank) ∈ dot_S10000x256_S10000x64_S256x64_0_0_1_1_n_n.rhsBatch by decide),
    dif_pos (show (1 : Fin S10000x64.rank) ∈ dot_S10000x256_S10000x64_S256x64_0_0_1_1_n_n.rhsNonContracting by decide)]
  rfl

theorem pool_matmul (sel : FVec Ideal S10000x256 .f32) (h : FVec Ideal S10000x64 .f32) (gi : Fin 256) (q : Fin 64) :
    matmul (F := Ideal) dot_S10000x256_S10000x64_S256x64_0_0_1_1_n_n none sel h (constant (F := Ideal) S256x64 .f32 0x00000000#32) (ValueIdx.ix2 gi q)
      = ∑ r : Fin 10000, sel (ValueIdx.ix2 r gi) * h (ValueIdx.ix2 r q) := by
  refine (Ideal.matmul_constant_zero_apply dot_S10000x256_S10000x64_S256x64_0_0_1_1_n_n none sel h (ValueIdx.ix2 gi q)).trans ?_
  rw [← Equiv.sum_comp (ValueIdx.contrEquiv1 dot_S10000x256_S10000x64_S256x64_0_0_1_1_n_n 10000 rfl rfl).symm]
  refine Finset.sum_congr rfl fun r _ => ?_
  have hl : dot_S10000x256_S10000x64_S256x64_0_0_1_1_n_n.lhsIdx (ValueIdx.ix2 gi q)
      ((ValueIdx.contrEquiv1 dot_S10000x256_S10000x64_S256x64_0_0_1_1_n_n 10000 rfl rfl).symm r) = ValueIdx.ix2 r gi :=
    Shape.idx_ext₂ ((lhs_pool_0 _ _).trans (ValueIdx.contrEquiv1_symm_val _ 10000 rfl rfl r)) (lhs_pool_1 _ _)
  have hr : dot_S10000x256_S10000x64_S256x64_0_0_1_1_n_n.rhsIdx (ValueIdx.ix2 gi q)
      ((ValueIdx.contrEquiv1 dot_S10000x256_S10000x64_S256x64_0_0_1_1_n_n 10000 rfl rfl).symm r) = ValueIdx.ix2 r q :=
    Shape.idx_ext₂ ((rhs_pool_0 _ _).trans (ValueIdx.contrEquiv1_symm_val _ 10000 rfl rfl r)) (rhs_pool_1 _ _)
  rw [hl, hr]

theorem sel_apply (ids : Vec Ideal S10000x1 .i32) (r : Fin 10000) (gi : Fin 256) :
    (sitofp .f32 (extui 32 (cmpi .eq (broadcastTo S10000x256 (shapeCast S10000x1 ids shapeCasts_S10000x1_S10000x1) broadcasts_S10000x1_S10000x256)
        (iota .tc S10000x256 32 [1] iota_S10000x256_d1_w32)) natLt_1_32) : FVec Ideal S10000x256 .f32) (ValueIdx.ix2 r gi)
      = if ids (ValueIdx.ix2 r (0 : Fin 1)) = BitVec.ofNat 32 gi.val then 1 else 0 := by
  refine (sel_word _ _).trans ?_
  have e1 : broadcastTo S10000x256 (shapeCast S10000x1 ids shapeCasts_S10000x1_S10000x1) broadcasts_S10000x1_S10000x256 (ValueIdx.ix2 r gi)
      = ids (ValueIdx.ix2 r (0 : Fin 1)) := by
    rw [shapeCast_self]
    exact broadcastTo_apply ids broadcasts_S10000x1_S10000x256 (ValueIdx.ix2 r gi) (ValueIdx.ix2 r (0 : Fin 1))
      (fun a => match a with | ⟨0, _⟩ => rfl | ⟨1, _⟩ => rfl)
  have e2 : iota .tc S10000x256 32 [1] iota_S10000x256_d1_w32 (ValueIdx.ix2 r gi) = BitVec.ofNat 32 gi.val :=
    iota_single_apply .tc S10000x256 32 1 iota_S10000x256_d1_w32 (ValueIdx.ix2 r gi)
  rw [e1, e2]

-- the one-hot selector times the rows is, at (g, q), the sum of the rows whose id is g
theorem pay_pool (ids : Vec Ideal S10000x1 .i32) (h : Vec Ideal S10000x64 .f32) (acc : Vec Ideal S256x64 .f32) (gi : Fin 256) (q : Fin 64) :
    k15_pay2 (F := Ideal) ids h acc (ValueIdx.ix2 gi q)
      = acc (ValueIdx.ix2 gi q) + ∑ r : Fin 10000, (if ids (ValueIdx.ix2 r (0 : Fin 1)) = BitVec.ofNat 32 gi.val then h (ValueIdx.ix2 r q) else 0) := by
  unfold k15_pay2
  refine (ValueIdx.addf_apply _ _ _).trans ?_
  refine congrArg₂ (· + ·) (congrFun (shapeCast_self acc shapeCasts_S256x64_S256x64) _) ?_
  refine (pool_matmul _ _ gi q).trans ?_
  refine Finset.sum_congr rfl fun r _ => ?_
  refine (congrArg₂ (· * ·) (sel_apply ids r gi) (congrFun (shapeCast_self h shapeCasts_S10000x64_S10000x64) _)).trans ?_
  by_cases e : ids (ValueIdx.ix2 r (0 : Fin 1)) = BitVec.ofNat 32 gi.val
  · rw [if_pos e, if_pos e, one_mul]
  · rw [if_neg e, if_neg e, zero_mul]

theorem pay_pool_init (j : S256x64.Idx) : k15_pay1 (F := Ideal) j = 0 := by
  unfold k15_pay1
  exact Ideal.ofBits_zero_f32

end Cert.Gnn.Pay
end
-- ==== Proof.BlockSum.lean ====
import Mathlib.Algebra.BigOperators.Fin
import Mathlib.Logic.Equiv.Fin.Basic
namespace Cert.Gnn

abbrev rowOf (t : Fin 10) (p : Fin 10000) : Fin 100000 :=
  ⟨10000 * t.val + p.val, by have := t.isLt; have := p.isLt; omega⟩

-- a sum over 100000 rows is the sum over 10 blocks of the sums over each block's 10000 rows
theorem sum_rows_blocks {M : Type*} [AddCommMonoid M] (f : Fin 100000 → M) :
    ∑ r : Fin 100000, f r = ∑ t : Fin 10, ∑ p : Fin 10000, f (rowOf t p) := by
  have h := Equiv.sum_comp (finProdFinEquiv (m := 10) (n := 10000)) (fun r : Fin (10 * 10000) => f r)
  rw [Fintype.sum_prod_type] at h
  refine h.symm.trans ?_
  refine Finset.sum_congr rfl fun t _ => Finset.sum_congr rfl fun p _ => congrArg f (Fin.ext ?_)
  show p.val + 10000 * t.val = 10000 * t.val + p.val
  exact Nat.add_comm _ _

end Cert.Gnn
-- ==== Proof.Reg15.lean ====
import proofs.«419503_j34746285425415_3_alg».proof.Proof.Gen.KernelIdeal.Frame
import proofs.«419503_j34746285425415_3_alg».proof.Proof.PayPool
import proofs.«419503_j34746285425415_3_alg».proof.Proof.BlockSum
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Gnn.Reg15

open Cert.KernelIdeal Cert.KernelIdeal.Gen

theorem off00 : (![0, 0] : Fin 2 → Nat) = fun _ => 0 := funext fun a => match a with | ⟨0, _⟩ => rfl | ⟨1, _⟩ => rfl

section Pieces
variable {F : FTy → Type} [FloatOps F]

theorem later_point (c : Dev nD) (i : grid15.Coords) (a1 : Memref sig .tc .vmem S10000x1 .i32) (h1 : a1.IsWhole)
    (a2 : Memref sig .tc .vmem S10000x64 .f32) (h2 : a2.IsWhole) (a3 : Memref sig .tc .vmem S256x64 .f32) (h3 : a3.IsWhole)
    (hc : ¬cond15_0 i) (x0 : Vec F S10000x1 .i32) (x1 : Vec F S10000x64 .f32) (xo : Vec F S256x64 .f32) :
    out15_B_2 c i a1 h1 a2 h2 a3 h3 hc x0 x1 xo = k15_pay2 x0 x1 xo := by
  unfold out15_B_2
  rw [View.read_writes_eq_canon _ _ _ (cover15_B_2 c i a1 h1 a2 h2 a3 h3 hc x0 x1 xo)]
  unfold kernelRun15_B
  dsimp only
  sl_unfold_words
  rw [View.canon_unit_zero off00]
  simp only [View.readAt_eq_ld, h1.read_unread, h2.read_unread, h3.read_unread, View.ld_unit_zero (S := S10000x1) off00,
    View.ld_unit_zero (S := S10000x64) off00, View.ld_unit_zero (S := S256x64) off00]

theorem first_point (c : Dev nD) (i : grid15.Coords) (a1 : Memref sig .tc .vmem S10000x1 .i32) (h1 : a1.IsWhole)
    (a2 : Memref sig .tc .vmem S10000x64 .f32) (h2 : a2.IsWhole) (a3 : Memref sig .tc .vmem S256x64 .f32) (h3 : a3.IsWhole)
    (hc : cond15_0 i) (x0 : Vec F S10000x1 .i32) (x1 : Vec F S10000x64 .f32) :
    out15_A_2 c i a1 h1 a2 h2 a3 h3 hc x0 x1 = k15_pay2 x0 x1 (k15_pay1 (F := F)) := by
  unfold out15_A_2
  rw [View.read_writes_eq_canon _ _ _ (cover15_A_2 c i a1 h1 a2 h2 a3 h3 hc x0 x1)]
  unfold kernelRun15_A
  dsimp only
  sl_unfold_words
  rw [View.canon_cons_unit_zero (S := S256x64) off00]
  simp only [View.readAt_eq_ld, h1.read_unread, h2.read_unread, View.ld_unit_zero (S := S10000x1) off00,
    View.ld_unit_zero (S := S10000x64) off00, View.readCov_unit_zero (S := S256x64) _ off00]

end Pieces

variable (V : (c : Dev nD) → (b : Ref sig .tc) → Buf (Elt Ideal) ((c : Thread nD τ).loc b))

abbrev idsArr (c : Dev nD) : IVec S100000x1 32 := V c main_v255

abbrev rowsArr (c : Dev nD) : FVec Ideal S100000x64 .f32 := V c main_v254

abbrev idsBlk (c : Dev nD) (t : Fin cfg15.N) : Vec Ideal S10000x1 .i32 := iblk15 V c 0 t

abbrev rowsBlk (c : Dev nD) (t : Fin cfg15.N) : Vec Ideal S10000x64 .f32 := iblk15 V c 1 t

def blockTerm (c : Dev nD) (gi : Fin 256) (q : Fin 64) (n : ℕ) : EReal :=
  if h : n < cfg15.N then
    ∑ p : Fin 10000, (if idsBlk V c ⟨n, h⟩ (ValueIdx.ix2 p (0 : Fin 1)) = BitVec.ofNat 32 gi.val then rowsBlk V c ⟨n, h⟩ (ValueIdx.ix2 p q) else 0)
  else 0

-- after point n the carried block holds at (g, q) the sum over blocks 0..n of the block's rows whose id is g
theorem carried_apply (c : Dev nD) (gi : Fin 256) (q : Fin 64) : ∀ (n : ℕ) (h : n < cfg15.N),
    (outsAt15 V c n h : Vec Ideal S256x64 .f32) (ValueIdx.ix2 gi q) = ∑ s ∈ Finset.range (n + 1), blockTerm V c gi q s
  | 0, h => by
    have hA : (⟨0, h⟩ : Fin cfg15.N).val % 10 = 0 := rfl
    refine (congrFun ((outsAt15_A V c ⟨0, h⟩ hA).trans
      (first_point (F := Ideal) c (grid15.coords ⟨0, h⟩) (ms15_0 ⟨0, h⟩) (hs15_0 ⟨0, h⟩) (ms15_1 ⟨0, h⟩) (hs15_1 ⟨0, h⟩)
        (ms15_2 ⟨0, h⟩) (hs15_2 ⟨0, h⟩) ((hcond15_0 ⟨0, h⟩).mpr hA) (idsBlk V c ⟨0, h⟩) (rowsBlk V c ⟨0, h⟩))) (ValueIdx.ix2 gi q)).trans ?_
    refine (Pay.pay_pool (idsBlk V c ⟨0, h⟩) (rowsBlk V c ⟨0, h⟩) (k15_pay1 (F := Ideal)) gi q).trans ?_
    rw [Pay.pay_pool_init, zero_add, Finset.sum_range_one]
    unfold blockTerm
    rw [dif_pos h]
  | n + 1, h => by
    have hN : cfg15.N = 10 := N_15
    have hB : ¬(⟨n + 1, h⟩ : Fin cfg15.N).val % 10 = 0 := by dsimp only; omega
    refine (congrFun ((outsAt15_B V c ⟨n + 1, h⟩ hB).trans
      (later_point (F := Ideal) c (grid15.coords ⟨n + 1, h⟩) (ms15_0 ⟨n + 1, h⟩) (hs15_0 ⟨n + 1, h⟩) (ms15_1 ⟨n + 1, h⟩) (hs15_1 ⟨n + 1, h⟩)
        (ms15_2 ⟨n + 1, h⟩) (hs15_2 ⟨n + 1, h⟩) (fun hh => hB ((hcond15_0 ⟨n + 1, h⟩).mp hh)) (idsBlk V c ⟨n + 1, h⟩) (rowsBlk V c ⟨n + 1, h⟩)
        (outsAt15 V c n (Nat.lt_of_succ_lt h)))) (ValueIdx.ix2 gi q)).trans ?_
    refine (Pay.pay_pool (idsBlk V c ⟨n + 1, h⟩) (rowsBlk V c ⟨n + 1, h⟩) (outsAt15 V c n (Nat.lt_of_succ_lt h)) gi q).trans ?_
    rw [carried_apply c gi q n (Nat.lt_of_succ_lt h), Finset.sum_range_succ _ (n + 1)]
    refine congrArg (_ + ·) ?_
    unfold blockTerm
    rw [dif_pos h]

theorem idx_ids : ∀ t : Fin cfg15.N, win15_0.index t 0 = t.val ∧ win15_0.index t 1 = 0 :=
  (by decide +kernel : ∀ t : Fin grid15.N, win15_0.index t 0 = t.val ∧ win15_0.index t 1 = 0)
theorem idx_rows : ∀ t : Fin cfg15.N, win15_1.index t 0 = t.val ∧ win15_1.index t 1 = 0 :=
  (by decide +kernel : ∀ t : Fin grid15.N, win15_1.index t 0 = t.val ∧ win15_1.index t 1 = 0)
theorem idx_out : ∀ t : Fin cfg15.N, win15_2.index t 0 = 0 ∧ win15_2.index t 1 = 0 :=
  (by decide +kernel : ∀ t : Fin grid15.N, win15_2.index t 0 = 0 ∧ win15_2.index t 1 = 0)

theorem idsBlk_apply (c : Dev nD) (t : Fin 10) (ht : t.val < cfg15.N) (p : Fin 10000) :
    idsBlk V c ⟨t.val, ht⟩ (ValueIdx.ix2 p (0 : Fin 1)) = idsArr V c (ValueIdx.ix2 (rowOf t p) (0 : Fin 1)) := by
  have hi : win15_0.index ⟨t.val, ht⟩ 0 = t.val ∧ win15_0.index ⟨t.val, ht⟩ 1 = 0 := idx_ids ⟨t.val, ht⟩
  show ((cfg15.win 0).blk ⟨t.val, ht⟩).view.read (Elt Ideal) (V c (Pipeline.arrRef spec15 0)) (ValueIdx.ix2 p (0 : Fin 1)) = _
  rw [View.read_apply]
  show V c main_v255 _ = V c main_v255 _
  congr 1
  funext a
  apply Fin.ext
  match a with
  | ⟨0, _⟩ => show win15_0.index ⟨t.val, ht⟩ 0 * 10000 + 1 * p.val = 10000 * t.val + p.val; rw [hi.1]; omega
  | ⟨1, _⟩ => show win15_0.index ⟨t.val, ht⟩ 1 * 1 + 1 * 0 = 0; rw [hi.2]

theorem rowsBlk_apply (c : Dev nD) (t : Fin 10) (ht : t.val < cfg15.N) (p : Fin 10000) (q : Fin 64) :
    rowsBlk V c ⟨t.val, ht⟩ (ValueIdx.ix2 p q) = rowsArr V c (ValueIdx.ix2 (rowOf t p) q) := by
  have hi : win15_1.index ⟨t.val, ht⟩ 0 = t.val ∧ win15_1.index ⟨t.val, ht⟩ 1 = 0 := idx_rows ⟨t.val, ht⟩
  show ((cfg15.win 1).blk ⟨t.val, ht⟩).view.read (Elt Ideal) (V c (Pipeline.arrRef spec15 1)) (ValueIdx.ix2 p q) = _
  rw [View.read_apply]
  show V c main_v254 _ = V c main_v254 _
  congr 1
  funext a
  apply Fin.ext
  match a with
  | ⟨0, _⟩ => show win15_1.index ⟨t.val, ht⟩ 0 * 10000 + 1 * p.val = 10000 * t.val + p.val; rw [hi.1]; omega
  | ⟨1, _⟩ => show win15_1.index ⟨t.val, ht⟩ 1 * 64 + 1 * q.val = q.val; rw [hi.2]; omega

abbrev lastCarried (c : Dev nD) : Buf (Elt Ideal) ((c : Thread nD τ).loc main_v256) :=
  outsAt15 V c 9 (by rw [show cfg15.N = 10 from N_15]; decide)

theorem out_off (t : Fin cfg15.N) : (fun a => win15_2.index t a * main_v256.ty.shape.size a) = fun _ => 0 :=
  funext fun a => match a with
    | ⟨0, _⟩ => by show win15_2.index t 0 * 256 = 0; rw [(idx_out t).1]
    | ⟨1, _⟩ => by show win15_2.index t 1 * 64 = 0; rw [(idx_out t).2]

theorem written_back (c : Dev nD) (t : Fin cfg15.N) (hf : (cfg15.win 2).flush t = true) :
    (dat15 V c).flushed 2 t = ((cfg15.win 2).blk t).view.read (Elt Ideal) (lastCarried V c) := by
  have hN : cfg15.N = 10 := N_15
  have h9 : t.val = 9 := by have := (flush15_2 t).mp hf; have := t.isLt; omega
  obtain ⟨n, hn⟩ := t
  dsimp only at h9
  subst h9
  have hr : ((cfg15.win 2).blk ⟨9, hn⟩).view.read (Elt Ideal) (lastCarried V c) = lastCarried V c :=
    Memref.read_access_unit_zero (Elt Ideal) main_v256 (out_off ⟨9, hn⟩) (fun a => by rw [congrFun (out_off ⟨9, hn⟩) a]; simp) (lastCarried V c)
  rw [hr]
  show (cfg15.win 2).cut (grid15.coords ⟨9, hn⟩) ((dat15 V c).after 2 ⟨9, hn⟩) = _
  rw [after15_2]
  rfl

theorem pooled_array (c : Dev nD) : (dat15 V c).arrAt 2 cfg15.N = lastCarried V c :=
  (dat15 V c).arrAt_eq_of_cover 2 (lastCarried V c) (written_back V c) fun i =>
    ⟨t15_9, (flush15_2 t15_9).mpr rfl, by
      show i ∈ ((View.whole main_v256).slice (win15_2.rect t15_9)).set
      rw [View.set_slice_whole]
      exact View.mem_set_unit_zero (out_off t15_9) _ i⟩

-- the pooled array at (g, q) is the sum over all rows whose id is g of the row's entry at q
theorem pooled_apply (c : Dev nD) (gi : Fin 256) (q : Fin 64) :
    ((dat15 (F := Ideal) V c).arrAt 2 cfg15.N : Vec Ideal S256x64 .f32) (ValueIdx.ix2 gi q)
      = ∑ r : Fin 100000, (if idsArr V c (ValueIdx.ix2 r (0 : Fin 1)) = BitVec.ofNat 32 gi.val then rowsArr V c (ValueIdx.ix2 r q) else 0) := by
  rw [pooled_array]
  refine (carried_apply V c gi q 9 _).trans ?_
  rw [sum_rows_blocks (fun r => if idsArr V c (ValueIdx.ix2 r (0 : Fin 1)) = BitVec.ofNat 32 gi.val then rowsArr V c (ValueIdx.ix2 r q) else 0),
    Finset.sum_range]
  refine Finset.sum_congr rfl fun t _ => ?_
  have ht : t.val < cfg15.N := by rw [show cfg15.N = 10 from N_15]; exact t.isLt
  unfold blockTerm
  rw [dif_pos ht]
  refine Finset.sum_congr rfl fun p _ => ?_
  rw [idsBlk_apply V c t ht p, rowsBlk_apply V c t ht p q]

end Cert.Gnn.Reg15

end
-- ==== Proof.PoolSum.lean ====
import proofs.«419503_j34746285425415_3_alg».proof.Proof.Gen.ReferenceIdeal
import Idealize.ShloMosaic.PureOps.Ideal.Laws
import Idealize.ShloMosaic.Lib.ValueIdx
import Idealize.ShloMosaic.Lib.Pipeline.Value
noncomputable section
namespace Cert.Gnn.PoolSum
open Idealize.ShloMosaic

variable [Cert.ReferenceIdeal.Facts₀]

theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  by_cases h : ∀ a, 0 ≤ d.start j idx a + d.window j a ∧ d.start j idx a + d.window j a < s.size a
  · rw [dif_pos h]
    constructor
    · intro e a
      have e' := congrArg (fun f : s.Idx => ((f a).val : ℤ)) (Option.some.inj e)
      have := (h a).1
      simp only at e'
      omega
    · intro e
      refine congrArg some (funext fun a => Fin.ext ?_)
      show (d.start j idx a + d.window j a).toNat = (i a).val
      rw [e a]
      exact Int.toNat_natCast _
  · rw [dif_neg h]
    constructor
    · intro e; exact absurd e (by simp)
    · intro e
      refine absurd (fun a => ?_) h
      rw [e a]
      exact ⟨Int.natCast_nonneg _, by exact_mod_cast (i a).isLt⟩

theorem toInt_eq_iff (v : BitVec 32) (n : Nat) (hn : n < 256) : v.toInt = (n : ℤ) ↔ v = BitVec.ofNat 32 n := by
  have hb : (BitVec.ofNat 32 n).toInt = (n : ℤ) := by
    rw [BitVec.toInt_ofNat']
    exact Int.bmod_eq_of_le (by omega) (by omega)
  constructor
  · intro h
    exact BitVec.eq_of_toInt_eq (h.trans hb.symm)
  · rintro rfl
    exact hb

open Cert.ReferenceIdeal in

theorem start_0 (idx : IVec S100000x1 32) (r : Fin 100000) (b : Fin 64) :
    scatter_S256x64_S100000x1_S100000x64_1_0_0_1.start (ValueIdx.ix2 r b) idx 0 = (idx (ValueIdx.ix2 r (0 : Fin 1))).toInt := by
  have hm : (0 : Fin S256x64.rank) ∈ scatter_S256x64_S100000x1_S100000x64_1_0_0_1.scatterDimsToOperandDims :=
    show (0 : Fin 2) ∈ [(0 : Fin 2)] from List.mem_singleton.mpr rfl
  unfold ScatterDims.start
  rw [dif_pos hm]
  refine congrArg (fun k => (idx k).toInt) (Shape.idx_ext₂ ?_ ?_)
  · rfl
  · rfl

open Cert.ReferenceIdeal in

theorem start_1 (idx : IVec S100000x1 32) (r : Fin 100000) (b : Fin 64) :
    scatter_S256x64_S100000x1_S100000x64_1_0_0_1.start (ValueIdx.ix2 r b) idx 1 = 0 := by
  have hm : ¬ (1 : Fin S256x64.rank) ∈ scatter_S256x64_S100000x1_S100000x64_1_0_0_1.scatterDimsToOperandDims :=
    show ¬ (1 : Fin 2) ∈ [(0 : Fin 2)] by decide
  unfold ScatterDims.start
  rw [dif_neg hm]

open Cert.ReferenceIdeal in

theorem window_0 (r : Fin 100000) (b : Fin 64) :
    scatter_S256x64_S100000x1_S100000x64_1_0_0_1.window (ValueIdx.ix2 r b) 0 = 0 := by
  have hm : ¬ (0 : Fin S256x64.rank) ∈ scatter_S256x64_S100000x1_S100000x64_1_0_0_1.sKept :=
    show ¬ (0 : Fin 2) ∈ [(1 : Fin 2)] by decide
  unfold ScatterDims.window
  rw [dif_neg hm]

open Cert.ReferenceIdeal in

theorem window_1 (r : Fin 100000) (b : Fin 64) :
    scatter_S256x64_S100000x1_S100000x64_1_0_0_1.window (ValueIdx.ix2 r b) 1 = b.val := by
  have hm : (1 : Fin S256x64.rank) ∈ scatter_S256x64_S100000x1_S100000x64_1_0_0_1.sKept :=
    show (1 : Fin 2) ∈ [(1 : Fin 2)] from List.mem_singleton.mpr rfl
  unfold ScatterDims.window
  rw [dif_pos hm]
  rfl

open Cert.ReferenceIdeal in

theorem lands_iff (idx : IVec S100000x1 32) (r : Fin 100000) (b : Fin 64) (gi : Fin 256) (q : Fin 64) :
    scatter_S256x64_S100000x1_S100000x64_1_0_0_1.resultIdx? (ValueIdx.ix2 r b) idx = some (ValueIdx.ix2 gi q)
      ↔ idx (ValueIdx.ix2 r (0 : Fin 1)) = BitVec.ofNat 32 gi.val ∧ b = q := by
  rw [resultIdx?_eq_some_iff, ← toInt_eq_iff _ _ gi.isLt]
  constructor
  · intro h
    have h0 := h 0
    have h1 := h 1
    rw [start_0, window_0] at h0
    rw [start_1, window_1] at h1
    refine ⟨?_, Fin.ext ?_⟩
    · have e : ((ValueIdx.ix2 gi q : S256x64.Idx) 0).val = gi.val := rfl
      rw [e] at h0
      simpa using h0
    · have e : ((ValueIdx.ix2 gi q : S256x64.Idx) 1).val = q.val := rfl
      rw [e] at h1
      simpa using h1
  · rintro ⟨h0, rfl⟩ a
    match a with
    | ⟨0, _⟩ =>
      show scatter_S256x64_S100000x1_S100000x64_1_0_0_1.start (ValueIdx.ix2 r b) idx 0
        + (scatter_S256x64_S100000x1_S100000x64_1_0_0_1.window (ValueIdx.ix2 r b) 0 : ℤ) = (gi.val : ℤ)
      rw [start_0, window_0, h0]
      simp
    | ⟨1, _⟩ =>
      show scatter_S256x64_S100000x1_S100000x64_1_0_0_1.start (ValueIdx.ix2 r b) idx 1
        + (scatter_S256x64_S100000x1_S100000x64_1_0_0_1.window (ValueIdx.ix2 r b) 1 : ℤ) = (b.val : ℤ)
      rw [start_1, window_1]
      simp

-- a scatter-add of rows by id, read at (g, q): an update lands there iff its row's id is g and its column is q
theorem scatter_pool_apply (x : FVec Ideal Cert.ReferenceIdeal.S256x64 .f32) (idx : IVec Cert.ReferenceIdeal.S100000x1 32)
    (upd : FVec Ideal Cert.ReferenceIdeal.S100000x64 .f32) (gi : Fin 256) (q : Fin 64) :
    Host.scatterAdd (F := Ideal) Cert.ReferenceIdeal.scatter_S256x64_S100000x1_S100000x64_1_0_0_1 x idx upd (ValueIdx.ix2 gi q)
      = x (ValueIdx.ix2 gi q) + ∑ r : Fin 100000, (if idx (ValueIdx.ix2 r (0 : Fin 1)) = BitVec.ofNat 32 gi.val then upd (ValueIdx.ix2 r q) else 0) := by
  show x (ValueIdx.ix2 gi q) + ∑ j ∈ Finset.univ.filter (fun j => Cert.ReferenceIdeal.scatter_S256x64_S100000x1_S100000x64_1_0_0_1.resultIdx? j idx = some (ValueIdx.ix2 gi q)), upd j = _
  refine congrArg (x (ValueIdx.ix2 gi q) + ·) ?_
  rw [Finset.sum_filter, ValueIdx.sum_idx2]
  refine Finset.sum_congr rfl fun r _ => ?_
  by_cases e : idx (ValueIdx.ix2 r (0 : Fin 1)) = BitVec.ofNat 32 gi.val
  · rw [if_pos e]
    have : ∀ b : Fin 64, (if Cert.ReferenceIdeal.scatter_S256x64_S100000x1_S100000x64_1_0_0_1.resultIdx? (ValueIdx.ix2 r b) idx = some (ValueIdx.ix2 gi q) then upd (ValueIdx.ix2 r b) else 0)
        = if b = q then upd (ValueIdx.ix2 r b) else 0 :=
      fun b => if_congr ((lands_iff idx r b gi q).trans (and_iff_right e)) rfl rfl
    rw [Finset.sum_congr rfl fun b _ => this b, Finset.sum_ite_eq' Finset.univ q, if_pos (Finset.mem_univ q)]
  · rw [if_neg e]
    refine Finset.sum_eq_zero fun b _ => if_neg ?_
    exact fun h => e ((lands_iff idx r b gi q).mp h).1

end Cert.Gnn.PoolSum
end
-- ==== Proof.PoolStep.lean ====
import proofs.«419503_j34746285425415_3_alg».proof.Proof.Reg15
import proofs.«419503_j34746285425415_3_alg».proof.Proof.PoolSum
import proofs.«419503_j34746285425415_3_alg».proof.Proof.RefOps
import Idealize.ShloMosaic.Lib.StableHlo.Run
import Idealize.ShloMosaic.Lib.Pipeline.Value

noncomputable section

open Idealize.ShloMosaic Idealize.ShloMosaic.TcCoe Idealize.SL.Sem

namespace Cert.Gnn

theorem reshape_ids_apply (x : IVec (⟨1, ![100000]⟩ : Shape) 32) (h : (⟨1, ![100000]⟩ : Shape).ShapeCasts ⟨2, ![100000, 1]⟩) (r : Fin 100000) :
    shapeCast (⟨2, ![100000, 1]⟩ : Shape) x h (ValueIdx.ix2 r (0 : Fin 1)) = x (ValueIdx.ix1 r) :=
  shapeCast_apply x h (ValueIdx.ix2 r (0 : Fin 1)) (ValueIdx.ix1 r) (by
    rw [Shape.rowMajor_val_one, Shape.rowMajor_val_two]
    show r.val = r.val * 1 + 0
    omega)

theorem bcast_ids_apply (x : IVec (⟨1, ![100000]⟩ : Shape) 32) (h : (⟨1, ![100000]⟩ : Shape).BroadcastsInDim ⟨2, ![100000, 1]⟩ ![0]) (r : Fin 100000) :
    broadcastInDim (⟨2, ![100000, 1]⟩ : Shape) ![0] h x (ValueIdx.ix2 r (0 : Fin 1)) = x (ValueIdx.ix1 r) :=
  broadcastInDim_apply ![0] h x (ValueIdx.ix2 r (0 : Fin 1)) (ValueIdx.ix1 r) (fun a => match a with | ⟨0, _⟩ => rfl)

section Sides
open Cert.KernelIdeal Cert.KernelIdeal.Gen
variable (m : (ℓ : Loc nD τ sig) → Buf (Elt Ideal) ℓ) (ρ : Dev nD → PrngReg) (c : Dev nD)
variable (P : Valuation Cert.ReferenceIdeal.τ Cert.ReferenceIdeal.sig (Elt Ideal))

abbrev kIds : IVec S100000 32 := W60 m ρ c (Proc.devRef .tc main_arg0)
abbrev kRows : FVec Ideal S100000x64 .f32 := W60 m ρ c (Proc.devRef .tc main_v254)
abbrev kOut : FVec Ideal S256x64 .f32 := W62 m ρ c (Proc.devRef .tc main_v256)
abbrev rIds : IVec Cert.ReferenceIdeal.S100000 32 := P (Proc.devRef .tc Cert.ReferenceIdeal.main_arg0)
abbrev rRows : FVec Ideal Cert.ReferenceIdeal.S100000x64 .f32 := P (Proc.devRef .tc Cert.ReferenceIdeal.main_v403)
abbrev rOut [Cert.ReferenceIdeal.Facts] : FVec Ideal Cert.ReferenceIdeal.S256x64 .f32 :=
  StableHlo.after Cert.ReferenceIdeal.Hand.post P (Proc.devRef .tc Cert.ReferenceIdeal.main_v406)

theorem kOut_apply (gi : Fin 256) (q : Fin 64) :
    kOut m ρ c (ValueIdx.ix2 gi q)
      = ∑ r : Fin 100000, (if kIds m ρ c (ValueIdx.ix1 r) = BitVec.ofNat 32 gi.val then kRows m ρ c (ValueIdx.ix2 r q) else 0) := by
  have hL : kOut m ρ c = (dat15 (F := Ideal) (V61 m ρ) c).arrAt 2 cfg15.N := W62_arr m ρ c 2
  have hids : Reg15.idsArr (V61 m ρ) c = shapeCast S100000x1 (kIds m ρ c) shapeCasts_S100000_S100000x1 := by
    show StableHlo.after hostOps15 (W60 m ρ c) (Proc.devRef .tc main_v255) = _
    after_results
    rfl
  have hrows : Reg15.rowsArr (V61 m ρ) c = kRows m ρ c := by
    show StableHlo.after hostOps15 (W60 m ρ c) (Proc.devRef .tc main_v254) = _
    after_results
  rw [hL]
  refine Eq.trans (α := EReal) (Reg15.pooled_apply (V61 m ρ) c gi q) ?_
  refine Finset.sum_congr rfl fun r _ => ?_
  have e1 : Reg15.idsArr (V61 m ρ) c (ValueIdx.ix2 r (0 : Fin 1)) = kIds m ρ c (ValueIdx.ix1 r) :=
    (congrFun hids _).trans (reshape_ids_apply (kIds m ρ c) shapeCasts_S100000_S100000x1 r)
  have e2 : Reg15.rowsArr (V61 m ρ) c (ValueIdx.ix2 r q) = kRows m ρ c (ValueIdx.ix2 r q) := congrFun hrows _
  rw [e1, e2]

theorem rOut_apply [Cert.ReferenceIdeal.Facts] (gi : Fin 256) (q : Fin 64) :
    rOut P (ValueIdx.ix2 gi q)
      = 0 + ∑ r : Fin 100000, (if rIds P (ValueIdx.ix1 r) = BitVec.ofNat 32 gi.val then rRows P (ValueIdx.ix2 r q) else 0) := by
  show StableHlo.after Cert.ReferenceIdeal.Hand.post P (Proc.devRef .tc Cert.ReferenceIdeal.main_v406) (ValueIdx.ix2 gi q) = _
  after_results
  refine (PoolSum.scatter_pool_apply _ _ _ gi q).trans ?_
  refine congrArg₂ (· + ·) Ideal.ofBits_zero_f32 (Finset.sum_congr rfl fun r _ => ?_)
  rw [bcast_ids_apply]

end Sides

open Cert.KernelIdeal.Gen in

-- both pooled outputs are, at (g, q), the sum over the rows whose graph id is g of the row's entry q
theorem pool_step [Cert.KernelIdeal.Facts] [Cert.ReferenceIdeal.Facts] (m) (ρ) (c : Dev Cert.KernelIdeal.nD) (P : Valuation Cert.ReferenceIdeal.τ Cert.ReferenceIdeal.sig (Elt Ideal))
    (hh : (W60 m ρ c (Proc.devRef .tc Cert.KernelIdeal.main_v254) : FVec Ideal Cert.KernelIdeal.S100000x64 .f32) = P (Proc.devRef .tc Cert.ReferenceIdeal.main_v403))
    (ha0 : (W60 m ρ c (Proc.devRef .tc Cert.KernelIdeal.main_arg0) : IVec Cert.KernelIdeal.S100000 32) = P (Proc.devRef .tc Cert.ReferenceIdeal.main_arg0)) :
    (W62 m ρ c (Proc.devRef .tc Cert.KernelIdeal.main_v256) : FVec Ideal Cert.KernelIdeal.S256x64 .f32) = StableHlo.after Cert.ReferenceIdeal.Hand.post P (Proc.devRef .tc Cert.ReferenceIdeal.main_v406) := by
  have hh' : kRows m ρ c = rRows P := hh
  have ha0' : kIds m ρ c = rIds P := ha0
  show kOut m ρ c = rOut P
  funext j
  obtain ⟨gi, q, rfl⟩ : ∃ (gi : Fin 256) (q : Fin 64), j = ValueIdx.ix2 gi q := ⟨j 0, j 1, ValueIdx.eq_ix2 j⟩
  rw [kOut_apply, rOut_apply, zero_add, hh', ha0']

end Cert.Gnn

end
-- ==== Proof.Chain.lean ====
import proofs.«419503_j34746285425415_3_alg».proof.Proof.Gen.KernelIdeal.Frame
import proofs.«419503_j34746285425415_3_alg».proof.Proof.RefRun
import proofs.«419503_j34746285425415_3_alg».proof.Proof.KeepK
import proofs.«419503_j34746285425415_3_alg».proof.Proof.KeepR
import proofs.«419503_j34746285425415_3_alg».proof.Proof.Layer0
import proofs.«419503_j34746285425415_3_alg».proof.Proof.Layer1
import proofs.«419503_j34746285425415_3_alg».proof.Proof.Layer2
import proofs.«419503_j34746285425415_3_alg».proof.Proof.Layer3
import proofs.«419503_j34746285425415_3_alg».proof.Proof.Layer4
import proofs.«419503_j34746285425415_3_alg».proof.Proof.PoolStep
import Idealize.ShloMosaic.PureOps.Ideal
import Idealize.ShloMosaic.Lib.StableHlo.Run

noncomputable section

namespace Cert.Gnn

open Idealize.ShloMosaic Idealize.SL.Sem KeepR Cert.ReferenceIdeal

variable [Cert.KernelIdeal.Facts] [Cert.ReferenceIdeal.Facts]

-- Buffers that agree before a stretch agree after it: neither program writes them (the reference's results are numbered later).
theorem agree_after {n : ℕ} {ops} (hl : List.Forall (Late n) ops) (r : Ref sig .tc) {P : Layer4.RVal} {a a'}
    (h : a = P (Proc.devRef .tc r)) (hk : a' = a) (hr : r.idx < n := by decide) :
    a' = StableHlo.after ops P (Proc.devRef .tc r) :=
  hk.trans (h.trans (kept_of_late hl hr P).symm)

-- The same over what precedes the layers and layer 0, from memories that agree on an argument.
theorem agree_launch {m' : (ℓ : Loc nD τ sig) → Buf (Elt Ideal) ℓ}
    {c : Dev Cert.KernelIdeal.nD} {r : Ref sig .tc} {a a'}
    (g : m' ((c.tc : Thread nD τ).loc r) = a) (hk : a' = a) (hr : (r.idx : ℕ) < 14 := by decide) :
    a' = StableHlo.after Hand.lay0 (StableHlo.after Hand.pre (StableHlo.launchContents m' c))
      (Proc.devRef .tc r) :=
  agree_after late_lay0 r (agree_after (P := StableHlo.launchContents m' c) late_pre r g.symm rfl hr) hk (hr.trans (by decide))

-- Layer by layer: layer 0 from the arguments, each further layer from the one before and the kept buffers, then the pooling.
theorem values_agree (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    (StableHlo.after Cert.ReferenceIdeal.Hand.ops (StableHlo.launchContents m' c) (Proc.devRef .tc Cert.ReferenceIdeal.main_v406) : FVec Ideal Cert.ReferenceIdeal.S256x64 .f32)
        = Cert.KernelIdeal.Gen.W62 m ρ c (Proc.devRef .tc Cert.KernelIdeal.main_v256)
      ∧ (StableHlo.after Cert.ReferenceIdeal.Hand.ops (StableHlo.launchContents m' c) (Proc.devRef .tc Cert.ReferenceIdeal.main_v403) : FVec Ideal Cert.ReferenceIdeal.S100000x64 .f32)
        = Cert.KernelIdeal.Gen.W62 m ρ c (Proc.devRef .tc Cert.KernelIdeal.main_v254) := by
  obtain ⟨g0, g1, g2, g3, g4, g5, g6, g7, g8, g9, g10, g11, g12, g13⟩ := hagree
  let P0 := StableHlo.launchContents m' c
  obtain ⟨r0, b1_15, b1_17, b1_19⟩ := Layer0.step0 m ρ c P0 g1.symm g2.symm g3.symm g4.symm g5.symm g6.symm g7.symm
    g8.symm g9.symm g10.symm g11.symm g12.symm g13.symm
  have a1_0 := agree_launch g0 (KeepK.keep_0_main_arg0 m ρ c)
  have a1_6 := agree_launch g6 (KeepK.keep_0_main_arg6 m ρ c)
  have a1_7 := agree_launch g7 (KeepK.keep_0_main_arg7 m ρ c)
  have a1_8 := agree_launch g8 (KeepK.keep_0_main_arg8 m ρ c)
  have a1_9 := agree_launch g9 (KeepK.keep_0_main_arg9 m ρ c)
  have a1_10 := agree_launch g10 (KeepK.keep_0_main_arg10 m ρ c)
  have a1_11 := agree_launch g11 (KeepK.keep_0_main_arg11 m ρ c)
  have a1_12 := agree_launch g12 (KeepK.keep_0_main_arg12 m ρ c)
  have a1_13 := agree_launch g13 (KeepK.keep_0_main_arg13 m ρ c)
  have a2_0 := agree_after late_lay1 main_arg0 a1_0 (KeepK.keep_1_main_arg0 m ρ c)
  have a2_6 := agree_after late_lay1 main_arg6 a1_6 (KeepK.keep_1_main_arg6 m ρ c)
  have a2_7 := agree_after late_lay1 main_arg7 a1_7 (KeepK.keep_1_main_arg7 m ρ c)
  have a2_8 := agree_after late_lay1 main_arg8 a1_8 (KeepK.keep_1_main_arg8 m ρ c)
  have a2_9 := agree_after late_lay1 main_arg9 a1_9 (KeepK.keep_1_main_arg9 m ρ c)
  have a2_10 := agree_after late_lay1 main_arg10 a1_10 (KeepK.keep_1_main_arg10 m ρ c)
  have a2_11 := agree_after late_lay1 main_arg11 a1_11 (KeepK.keep_1_main_arg11 m ρ c)
  have a2_12 := agree_after late_lay1 main_arg12 a1_12 (KeepK.keep_1_main_arg12 m ρ c)
  have a2_13 := agree_after late_lay1 main_arg13 a1_13 (KeepK.keep_1_main_arg13 m ρ c)
  have b2_15 := agree_after late_lay1 main_v15 b1_15 (KeepK.keep_1_main_v15 m ρ c)
  have b2_17 := agree_after late_lay1 main_v17 b1_17 (KeepK.keep_1_main_v17 m ρ c)
  have b2_19 := agree_after late_lay1 main_v19 b1_19 (KeepK.keep_1_main_v19 m ρ c)
  have a3_0 := agree_after late_lay2 main_arg0 a2_0 (KeepK.keep_2_main_arg0 m ρ c)
  have a3_6 := agree_after late_lay2 main_arg6 a2_6 (KeepK.keep_2_main_arg6 m ρ c)
  have a3_7 := agree_after late_lay2 main_arg7 a2_7 (KeepK.keep_2_main_arg7 m ρ c)
  have a3_8 := agree_after late_lay2 main_arg8 a2_8 (KeepK.keep_2_main_arg8 m ρ c)
  have a3_9 := agree_after late_lay2 main_arg9 a2_9 (KeepK.keep_2_main_arg9 m ρ c)
  have a3_10 := agree_after late_lay2 main_arg10 a2_10 (KeepK.keep_2_main_arg10 m ρ c)
  have a3_11 := agree_after late_lay2 main_arg11 a2_11 (KeepK.keep_2_main_arg11 m ρ c)
  have a3_12 := agree_after late_lay2 main_arg12 a2_12 (KeepK.keep_2_main_arg12 m ρ c)
  have a3_13 := agree_after late_lay2 main_arg13 a2_13 (KeepK.keep_2_main_arg13 m ρ c)
  have b3_15 := agree_after late_lay2 main_v15 b2_15 (KeepK.keep_2_main_v15 m ρ c)
  have b3_17 := agree_after late_lay2 main_v17 b2_17 (KeepK.keep_2_main_v17 m ρ c)
  have b3_19 := agree_after late_lay2 main_v19 b2_19 (KeepK.keep_2_main_v19 m ρ c)
  have a4_0 := agree_after late_lay3 main_arg0 a3_0 (KeepK.keep_3_main_arg0 m ρ c)
  have a4_6 := agree_after late_lay3 main_arg6 a3_6 (KeepK.keep_3_main_arg6 m ρ c)
  have a4_7 := agree_after late_lay3 main_arg7 a3_7 (KeepK.keep_3_main_arg7 m ρ c)
  have a4_8 := agree_after late_lay3 main_arg8 a3_8 (KeepK.keep_3_main_arg8 m ρ c)
  have a4_9 := agree_after late_lay3 main_arg9 a3_9 (KeepK.keep_3_main_arg9 m ρ c)
  have a4_10 := agree_after late_lay3 main_arg10 a3_10 (KeepK.keep_3_main_arg10 m ρ c)
  have a4_11 := agree_after late_lay3 main_arg11 a3_11 (KeepK.keep_3_main_arg11 m ρ c)
  have a4_12 := agree_after late_lay3 main_arg12 a3_12 (KeepK.keep_3_main_arg12 m ρ c)
  have a4_13 := agree_after late_lay3 main_arg13 a3_13 (KeepK.keep_3_main_arg13 m ρ c)
  have b4_15 := agree_after late_lay3 main_v15 b3_15 (KeepK.keep_3_main_v15 m ρ c)
  have b4_17 := agree_after late_lay3 main_v17 b3_17 (KeepK.keep_3_main_v17 m ρ c)
  have b4_19 := agree_after late_lay3 main_v19 b3_19 (KeepK.keep_3_main_v19 m ρ c)
  have a5_0 := agree_after late_lay4 main_arg0 a4_0 (KeepK.keep_4_main_arg0 m ρ c)
  have r1 := Layer1.step1 m ρ c _ r0 b1_15 b1_17 b1_19 a1_6 a1_7 a1_8 a1_9 a1_10 a1_11 a1_12 a1_13
  have r2 := Layer2.step2 m ρ c _ r1 b2_15 b2_17 b2_19 a2_6 a2_7 a2_8 a2_9 a2_10 a2_11 a2_12 a2_13
  have r3 := Layer3.step3 m ρ c _ r2 b3_15 b3_17 b3_19 a3_6 a3_7 a3_8 a3_9 a3_10 a3_11 a3_12 a3_13
  have r4 := Layer4.step4 m ρ c _ r3 b4_15 b4_17 b4_19 a4_6 a4_7 a4_8 a4_9 a4_10 a4_11 a4_12 a4_13
  have hall := Cert.ReferenceIdeal.Hand.after_ops P0
  exact ⟨(congrFun hall _).trans (pool_step m ρ c _ r4 a5_0).symm,
    (congrFun hall _).trans ((kept_of_late late_post (by decide) _).trans (r4.symm.trans (KeepK.tail_W62_main_v254 m ρ c).symm))⟩

end Cert.Gnn

end
-- ==== Proof.RefFrame.lean ====
import proofs.«419503_j34746285425415_3_alg».proof.Defs
import proofs.«419503_j34746285425415_3_alg».proof.Proof.RefRun
import proofs.«419503_j34746285425415_3_alg».proof.Proof.KeepR
import Idealize.ShloMosaic.PureOps.Ideal

noncomputable section

namespace Cert.Gnn

open Idealize.ShloMosaic Idealize.ShloMosaic.TcCoe Idealize.SL.Sem
open Cert.ReferenceIdeal KeepR

section Kept

variable {F : FTy → Type} [FloatOps F] [Facts]

-- The arguments are the first fourteen buffers, and the program writes none of them.
theorem ref_arg_kept {r : Ref sig .tc} (hr : r.idx.1 < 14) : Kept (Elt F) Hand.ops r := kept_of_late late_ops hr

end Kept

-- The run ends with every buffer at the fold of the operations over the launch contents, which keeps the arguments.
theorem frame_ri [Cert.ReferenceIdeal.Facts] [Cert.Pre_finite_inputs.Facts] : Cert.frame_ReferenceIdeal :=
  fun m g _ => (θ_run _ _ _).mono (fun r h c => by
    have k {b : Ref sig .tc} (hb : b.idx.1 < 14) := (h c b).trans (ref_arg_kept (F := Ideal) hb _)
    and_intros <;> exact k (by decide)) (Hand.run (F := Ideal) m g)

end Cert.Gnn

end
-- ==== Proof.lean ====
import proofs.«419503_j34746285425415_3_alg».proof.Defs
import proofs.«419503_j34746285425415_3_alg».proof.Proof.Gen.Kernel
import proofs.«419503_j34746285425415_3_alg».proof.Proof.Gen.Kernel.Frame
import proofs.«419503_j34746285425415_3_alg».proof.Proof.Gen.KernelIdeal
import proofs.«419503_j34746285425415_3_alg».proof.Proof.Gen.KernelIdeal.Frame
import proofs.«419503_j34746285425415_3_alg».proof.Proof.Gen.ReferenceIdeal
import proofs.«419503_j34746285425415_3_alg».proof.Proof.Gen.Pre_finite_inputs
import proofs.«419503_j34746285425415_3_alg».proof.Proof.KRunPost
import proofs.«419503_j34746285425415_3_alg».proof.Proof.RefRun
import proofs.«419503_j34746285425415_3_alg».proof.Proof.Chain
import proofs.«419503_j34746285425415_3_alg».proof.Proof.RefFrame
import Idealize.ShloMosaic.Adequacy
import Idealize.ShloMosaic.Init

noncomputable section

namespace Cert.Proof

open Idealize.ShloMosaic Idealize.SL.Sem

-- both programs end; the kernel program's results, read off its fold, equal the reference's by the layer-by-layer chain
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.W62 m ρ c (Proc.devRef .tc Cert.KernelIdeal.main_v256),
    fun c => Cert.KernelIdeal.Gen.W62 m ρ c (Proc.devRef .tc Cert.KernelIdeal.main_v254), Cert.Gnn.krun m ρ, ?_⟩
  refine (θ_run (Cert.ReferenceIdeal.defs (F := Ideal)) _ _).mono (fun r h c => ?_) (Cert.ReferenceIdeal.Hand.run (F := Ideal) m' ρ')
  obtain ⟨e0, e1⟩ := Cert.Gnn.values_agree m ρ m' c (hagree c)
  have k {b : Ref Cert.ReferenceIdeal.sig .tc} (hb : b.idx.1 < 14) :=
    (h c b).trans (Cert.Gnn.ref_arg_kept (F := Ideal) hb _)
  refine ⟨(h c Cert.ReferenceIdeal.main_v406).trans e0, (h c Cert.ReferenceIdeal.main_v403).trans e1, ?_⟩
  and_intros <;> exact k (by decide)

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, Cert.Gnn.frame_ri, trivial, algebraic⟩

end Cert.Proof

end
